-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S2x8000000 : Shape := ⟨2, ![2, 8000000]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S2x8000000 : S_.BroadcastsInDim S2x8000000 (![] : Fin 0 → Fin S2x8000000.rank)
  reducesTo_S2x8000000_S_d0_1 : S2x8000000.ReducesTo [0, 1] S_
  bcast_S_S500000 : S_.BroadcastsInDim S500000 (![] : Fin 0 → Fin S500000.rank)
  reducesTo_S500000_S_d0 : S500000.ReducesTo [0] S_

variable [Facts]

def fn_part5 {F : FTy → Type} [FloatOps F] (main_arg17 : IVec S500000 32) (main_v80 : IVec S_ 1) (main_v82 : IVec S500000 1) (main_v84 : IVec S500000 1) : IVec S_ 1 :=
  let main_v85 : IVec S500000 1 := andi main_v82 main_v84
  let main_c_33 : IVec S_ 1 := constantI S_ 1 1#1
  let main_v86 : IVec S_ 1 := (fun x v => Host.reduce IntOp.andi x v reducesTo_S500000_S_d0 h_S_) main_v85 main_c_33
  let main_v87 : IVec S_ 1 := andi main_v80 main_v86
  let main_c_34 : IVec S_ 32 := constantI S_ 32 4286967296#32
  let main_v88 : IVec S500000 32 := broadcastInDim S500000 ![] bcast_S_S500000 main_c_34
  let main_v89 : IVec S500000 1 := cmpi .sge main_arg17 main_v88
  let main_c_35 : IVec S_ 32 := constantI S_ 32 8000000#32
  let main_v90 : IVec S500000 32 := broadcastInDim S500000 ![] bcast_S_S500000 main_c_35
  let main_v91 : IVec S500000 1 := cmpi .slt main_arg17 main_v90
  let main_v92 : IVec S500000 1 := andi main_v89 main_v91
  let main_c_36 : IVec S_ 1 := constantI S_ 1 1#1
  let main_v93 : IVec S_ 1 := (fun x v => Host.reduce IntOp.andi x v reducesTo_S500000_S_d0 h_S_) main_v92 main_c_36
  let main_v94 : IVec S_ 1 := andi main_v87 main_v93
  main_v94

def fn_part4 {F : FTy → Type} [FloatOps F] (main_arg14 : FVec F S128 .f32) (main_arg15 : IVec S2x8000000 32) (main_arg16 : IVec S500000 32) (main_arg17 : IVec S500000 32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_c_28 : IVec S_ 32 := constantI S_ 32 4294467296#32
  let main_v74 : IVec S2x8000000 32 := broadcastInDim S2x8000000 ![] bcast_S_S2x8000000 main_c_28
  let main_v75 : IVec S2x8000000 1 := cmpi .sge main_arg15 main_v74
  let main_c_29 : IVec S_ 32 := constantI S_ 32 500000#32
  let main_v76 : IVec S2x8000000 32 := broadcastInDim S2x8000000 ![] bcast_S_S2x8000000 main_c_29
  let main_v77 : IVec S2x8000000 1 := cmpi .slt main_arg15 main_v76
  let main_v78 : IVec S2x8000000 1 := andi main_v75 main_v77
  let main_c_30 : IVec S_ 1 := constantI S_ 1 1#1
  let main_v79 : IVec S_ 1 := (fun x v => Host.reduce IntOp.andi x v reducesTo_S2x8000000_S_d0_1 h_S_) main_v78 main_c_30
  let main_v80 : IVec S_ 1 := andi main_v73 main_v79
  let main_c_31 : IVec S_ 32 := constantI S_ 32 0#32
  let main_v81 : IVec S500000 32 := broadcastInDim S500000 ![] bcast_S_S500000 main_c_31
  let main_v82 : IVec S500000 1 := cmpi .sge main_arg16 main_v81
  let main_c_32 : IVec S_ 32 := constantI S_ 32 512#32
  let main_v83 : IVec S500000 32 := broadcastInDim S500000 ![] bcast_S_S500000 main_c_32
  let main_v84 : IVec S500000 1 := cmpi .slt main_arg16 main_v83
  fn_part5 (F := F) main_arg17 main_v80 main_v82 main_v84

def fn_part3 {F : FTy → Type} [FloatOps F] (main_arg11 : FVec F S128 .f32) (main_arg12 : FVec F S64x128 .f32) (main_arg13 : FVec F S128 .f32) (main_arg14 : FVec F S128 .f32) (main_arg15 : IVec S2x8000000 32) (main_arg16 : IVec S500000 32) (main_arg17 : IVec S500000 32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg12
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S64x64 .f32) (main_arg8 : FVec F S64 .f32) (main_arg9 : FVec F S64x64 .f32) (main_arg10 : FVec F S64x128 .f32) (main_arg11 : FVec F S128 .f32) (main_arg12 : FVec F S64x128 .f32) (main_arg13 : FVec F S128 .f32) (main_arg14 : FVec F S128 .f32) (main_arg15 : IVec S2x8000000 32) (main_arg16 : IVec S500000 32) (main_arg17 : IVec S500000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_arg14 main_arg15 main_arg16 main_arg17 main_v48 main_v49 main_v50

def fn_part1 {F : FTy → Type} [FloatOps F] (main_arg4 : FVec F S8 .f32) (main_arg5 : FVec F S16x64 .f32) (main_arg6 : FVec F S64 .f32) (main_arg7 : FVec F S64x64 .f32) (main_arg8 : FVec F S64 .f32) (main_arg9 : FVec F S64x64 .f32) (main_arg10 : FVec F S64x128 .f32) (main_arg11 : FVec F S128 .f32) (main_arg12 : FVec F S64x128 .f32) (main_arg13 : FVec F S128 .f32) (main_arg14 : FVec F S128 .f32) (main_arg15 : IVec S2x8000000 32) (main_arg16 : IVec S500000 32) (main_arg17 : IVec S500000 32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg4
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S500000x128 .f32) (main_arg1 : FVec F S128x128 .f32) (main_arg2 : FVec F S128 .f32) (main_arg3 : FVec F S128x8 .f32) (main_arg4 : FVec F S8 .f32) (main_arg5 : FVec F S16x64 .f32) (main_arg6 : FVec F S64 .f32) (main_arg7 : FVec F S64x64 .f32) (main_arg8 : FVec F S64 .f32) (main_arg9 : FVec F S64x64 .f32) (main_arg10 : FVec F S64x128 .f32) (main_arg11 : FVec F S128 .f32) (main_arg12 : FVec F S64x128 .f32) (main_arg13 : FVec F S128 .f32) (main_arg14 : FVec F S128 .f32) (main_arg15 : IVec S2x8000000 32) (main_arg16 : IVec S500000 32) (main_arg17 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg3
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S2x8000000 : Shape := ⟨2, ![2, 8000000]⟩
abbrev S500000 : Shape := ⟨1, ![500000]⟩
abbrev S500000x1 : Shape := ⟨2, ![500000, 1]⟩
abbrev S1x128 : Shape := ⟨2, ![1, 128]⟩
abbrev S1x8 : Shape := ⟨2, ![1, 8]⟩
abbrev S500000x8 : Shape := ⟨2, ![500000, 8]⟩
abbrev S5000x128 : Shape := ⟨2, ![5000, 128]⟩
abbrev S5000x8 : Shape := ⟨2, ![5000, 8]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S1 : Shape := ⟨1, ![1]⟩
abbrev S1x1 : Shape := ⟨2, ![1, 1]⟩
abbrev S8000000x8 : Shape := ⟨2, ![8000000, 8]⟩
abbrev S500000x8x1 : Shape := ⟨3, ![500000, 8, 1]⟩
abbrev S500000x8x2 : Shape := ⟨3, ![500000, 8, 2]⟩
abbrev S500000x16 : Shape := ⟨2, ![500000, 16]⟩
abbrev S1x64 : Shape := ⟨2, ![1, 64]⟩
abbrev S500000x64 : Shape := ⟨2, ![500000, 64]⟩
abbrev S5000x16 : Shape := ⟨2, ![5000, 16]⟩
abbrev S5000x64 : Shape := ⟨2, ![5000, 64]⟩
abbrev S512x64 : Shape := ⟨2, ![512, 64]⟩
abbrev S512x1 : Shape := ⟨2, ![512, 1]⟩
abbrev S5000x1 : Shape := ⟨2, ![5000, 1]⟩
abbrev S5000x512 : Shape := ⟨2, ![5000, 512]⟩
abbrev S512x128 : Shape := ⟨2, ![512, 128]⟩

abbrev nBuf : Space → Nat
  | .hbm => 135
  | .vmem => 62
  | .smem => 0
  | _ => 0

abbrev hbmTy0_0 (i : Nat) : BufTy := match i % 128 with
  | 0 => ⟨S500000x128, .f32⟩
  | 1 => ⟨S128x128, .f32⟩
  | 2 => ⟨S128, .f32⟩
  | 3 => ⟨S128x8, .f32⟩
  | 4 => ⟨S8, .f32⟩
  | 5 => ⟨S16x64, .f32⟩
  | 6 => ⟨S64, .f32⟩
  | 7 => ⟨S64x64, .f32⟩
  | 8 => ⟨S64, .f32⟩
  | 9 => ⟨S64x64, .f32⟩
  | 10 => ⟨S64x128, .f32⟩
  | 11 => ⟨S128, .f32⟩
  | 12 => ⟨S64x128, .f32⟩
  | 13 => ⟨S128, .f32⟩
  | 14 => ⟨S128, .f32⟩
  | 15 => ⟨S2x8000000, .i32⟩
  | 16 => ⟨S500000, .i32⟩
  | 17 => ⟨S500000, .i32⟩
  | 18 => ⟨S500000x1, .i32⟩
  | 19 => ⟨S1x128, .f32⟩
  | 20 => ⟨S1x8, .f32⟩
  | 21 => ⟨S500000x8, .f32⟩
  | 22 => ⟨S1x8000000, .i32⟩
  | 23 => ⟨S8000000, .i32⟩
  | 24 => ⟨S1x8000000, .i32⟩
  | 25 => ⟨S8000000, .i32⟩
  | 26 => ⟨S_, .i32⟩
  | 27 => ⟨S8000000, .i32⟩
  | 28 => ⟨S8000000, .i1⟩
  | 29 => ⟨S_, .i32⟩
  | 30 => ⟨S8000000, .i32⟩
  | 31 => ⟨S8000000, .i32⟩
  | 32 => ⟨S8000000, .i32⟩
  | 33 => ⟨S8000000x1, .i32⟩
  | 34 => ⟨S1, .i32⟩
  | 35 => ⟨S_, .i32⟩
  | 36 => ⟨S8000000x1, .i32⟩
  | 37 => ⟨S8000000x1, .i1⟩
  | 38 => ⟨S1x1, .i32⟩
  | 39 => ⟨S8000000x1, .i32⟩
  | 40 => ⟨S8000000x1, .i1⟩
  | 41 => ⟨S8000000x1, .i1⟩
  | 42 => ⟨S_, .i1⟩
  | 43 => ⟨S8000000, .i1⟩
  | 44 => ⟨S8000000x8, .f32⟩
  | 45 => ⟨S8000000x8, .i1⟩
  | 46 => ⟨S_, .f32⟩
  | 47 => ⟨S8000000x8, .f32⟩
  | 48 => ⟨S8000000x8, .f32⟩
  | 49 => ⟨S_, .i32⟩
  | 50 => ⟨S8000000, .i32⟩
  | 51 => ⟨S8000000, .i1⟩
  | 52 => ⟨S_, .i32⟩
  | 53 => ⟨S8000000, .i32⟩
  | 54 => ⟨S8000000, .i32⟩
  | 55 => ⟨S8000000, .i32⟩
  | 56 => ⟨S8000000x1, .i32⟩
  | 57 => ⟨S1, .i32⟩
  | 58 => ⟨S_, .i32⟩
  | 59 => ⟨S8000000x1, .i32⟩
  | 60 => ⟨S8000000x1, .i1⟩
  | 61 => ⟨S1x1, .i32⟩
  | 62 => ⟨S8000000x1, .i32⟩
  | 63 => ⟨S8000000x1, .i1⟩
  | 64 => ⟨S8000000x1, .i1⟩
  | 65 => ⟨S_, .i1⟩
  | 66 => ⟨S8000000, .i1⟩
  | 67 => ⟨S8000000x8, .f32⟩
  | 68 => ⟨S8000000x8, .i1⟩
  | 69 => ⟨S_, .f32⟩
  | 70 => ⟨S8000000x8, .f32⟩
  | 71 => ⟨S8000000x8, .f32⟩
  | 72 => ⟨S8000000x8, .f32⟩
  | 73 => ⟨S_, .i32⟩
  | 74 => ⟨S500000, .i32⟩
  | 75 => ⟨S500000, .i1⟩
  | 76 => ⟨S_, .i32⟩
  | 77 => ⟨S500000, .i32⟩
  | 78 => ⟨S500000, .i32⟩
  | 79 => ⟨S500000, .i32⟩
  | 80 => ⟨S500000x1, .i32⟩
  | 81 => ⟨S1, .i32⟩
  | 82 => ⟨S_, .i32⟩
  | 83 => ⟨S500000x1, .i32⟩
  | 84 => ⟨S500000x1, .i1⟩
  | 85 => ⟨S1x1, .i32⟩
  | 86 => ⟨S500000x1, .i32⟩
  | 87 => ⟨S500000x1, .i1⟩
  | 88 => ⟨S500000x1, .i1⟩
  | 89 => ⟨S_, .i1⟩
  | 90 => ⟨S500000, .i1⟩
  | 91 => ⟨S500000x8, .f32⟩
  | 92 => ⟨S500000x8, .i1⟩
  | 93 => ⟨S_, .f32⟩
  | 94 => ⟨S500000x8, .f32⟩
  | 95 => ⟨S500000x8, .f32⟩
  | 96 => ⟨S500000x8x1, .f32⟩
  | 97 => ⟨S500000x8x1, .f32⟩
  | 98 => ⟨S500000x8x2, .f32⟩
  | 99 => ⟨S500000x16, .f32⟩
  | 100 => ⟨S1x64, .f32⟩
  | 101 => ⟨S500000x64, .f32⟩
  | 102 => ⟨S512x64, .f32⟩
  | 103 => ⟨S512x1, .f32⟩
  | 104 => ⟨S_, .f32⟩
  | 105 => ⟨S512x1, .f32⟩
  | 106 => ⟨S512x1, .f32⟩
  | 107 => ⟨S512x64, .f32⟩
  | 108 => ⟨S512x64, .f32⟩
  | 109 => ⟨S512x64, .f32⟩
  | 110 => ⟨S1x64, .f32⟩
  | 111 => ⟨S500000x64, .f32⟩
  | 112 => ⟨S512x64, .f32⟩
  | 113 => ⟨S512x1, .f32⟩
  | 114 => ⟨S_, .f32⟩
  | 115 => ⟨S512x1, .f32⟩
  | 116 => ⟨S512x1, .f32⟩
  | 117 => ⟨S512x64, .f32⟩
  | 118 => ⟨S512x64, .f32⟩
  | 119 => ⟨S512x128, .f32⟩
  | 120 => ⟨S1x128, .f32⟩
  | 121 => ⟨S500000x128, .f32⟩
  | 122 => ⟨S1x128, .f32⟩
  | 123 => ⟨S1x128, .f32⟩
  | 124 => ⟨S_, .f32⟩
  | 125 => ⟨S1x128, .f32⟩
  | 126 => ⟨S1x128, .f32⟩
  | 127 => ⟨S_, .f32⟩
  | _ => ⟨S500000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S1x128, .f32⟩
  | 5 => ⟨S1x128, .f32⟩
  | 6 => ⟨S500000x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x8, .f32⟩
  | .local _ .vmem, ⟨5, _⟩ => ⟨S1x8, .f32⟩
  | .local _ .vmem, ⟨6, _⟩ => ⟨S5000x8, .f32⟩
  | .local _ .vmem, ⟨7, _⟩ => ⟨S5000x8, .f32⟩
  | .local _ .vmem, ⟨8, _⟩ => ⟨S5000x16, .f32⟩
  | .local _ .vmem, ⟨9, _⟩ => ⟨S5000x16, .f32⟩
  | .local _ .vmem, ⟨10, _⟩ => ⟨S16x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .i32⟩
  | .local _ .vmem, ⟨17, _⟩ => ⟨S5000x1, .i32⟩
  | .local _ .vmem, ⟨18, _⟩ => ⟨S512x64, .f32⟩
  | .local _ .vmem, ⟨19, _⟩ => ⟨S512x1, .f32⟩
  | .local _ .vmem, ⟨20, _⟩ => ⟨S512x64, .f32⟩
  | .local _ .vmem, ⟨21, _⟩ => ⟨S512x1, .f32⟩
  | .local _ .vmem, ⟨22, _⟩ => ⟨S5000x64, .f32⟩
  | .local _ .vmem, ⟨23, _⟩ => ⟨S5000x64, .f32⟩
  | .local _ .vmem, ⟨24, _⟩ => ⟨S5000x1, .i32⟩
  | .local _ .vmem, ⟨25, _⟩ => ⟨S5000x1, .i32⟩
  | .local _ .vmem, ⟨26, _⟩ => ⟨S64x64, .f32⟩
  | .local _ .vmem, ⟨27, _⟩ => ⟨S1x64, .f32⟩
  | .local _ .vmem, ⟨28, _⟩ => ⟨S512x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .i32⟩
  | .local _ .vmem, ⟨34, _⟩ => ⟨S5000x1, .i32⟩
  | .local _ .vmem, ⟨35, _⟩ => ⟨S512x64, .f32⟩
  | .local _ .vmem, ⟨36, _⟩ => ⟨S512x1, .f32⟩
  | .local _ .vmem, ⟨37, _⟩ => ⟨S512x64, .f32⟩
  | .local _ .vmem, ⟨38, _⟩ => ⟨S512x1, .f32⟩
  | .local _ .vmem, ⟨39, _⟩ => ⟨S5000x64, .f32⟩
  | .local _ .vmem, ⟨40, _⟩ => ⟨S5000x64, .f32⟩
  | .local _ .vmem, ⟨41, _⟩ => ⟨S5000x1, .i32⟩
  | .local _ .vmem, ⟨42, _⟩ => ⟨S5000x1, .i32⟩
  | .local _ .vmem, ⟨43, _⟩ => ⟨S64x128, .f32⟩
  | .local _ .vmem, ⟨44, _⟩ => ⟨S1x128, .f32⟩
  | .local _ .vmem, ⟨45, _⟩ => ⟨S512x128, .f32⟩
  | .local _ .vmem, ⟨46, _⟩ => ⟨S5000x128, .f32⟩
  | .local _ .vmem, ⟨47, _⟩ => ⟨S5000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v8 : Ref sig .tc := ⟨.hbm, 48, rfl⟩
abbrev main_call1_c : Ref sig .tc := ⟨.hbm, 49, rfl⟩
abbrev main_call1_v0 : Ref sig .tc := ⟨.hbm, 50, rfl⟩
abbrev main_call1_v1 : Ref sig .tc := ⟨.hbm, 51, rfl⟩
abbrev main_call1_c_0 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_c_1 : Ref sig .tc := ⟨.hbm, 57, rfl⟩
abbrev main_call1_c_2 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_call1_c_3 : Ref sig .tc := ⟨.hbm, 65, rfl⟩
abbrev main_call1_v12 : Ref sig .tc := ⟨.hbm, 66, rfl⟩
abbrev main_call1_v13 : Ref sig .tc := ⟨.hbm, 67, rfl⟩
abbrev main_call1_v14 : Ref sig .tc := ⟨.hbm, 68, rfl⟩
abbrev main_call1_cst : Ref sig .tc := ⟨.hbm, 69, rfl⟩
abbrev main_call1_v15 : Ref sig .tc := ⟨.hbm, 70, rfl⟩
abbrev main_v9 : Ref sig .tc := ⟨.hbm, 71, rfl⟩
abbrev main_v10 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_v14 : Ref sig .tc := ⟨.hbm, 98, rfl⟩
abbrev main_v15 : Ref sig .tc := ⟨.hbm, 99, rfl⟩
abbrev main_v16 : Ref sig .tc := ⟨.hbm, 100, rfl⟩
abbrev main_v17 : Ref sig .tc := ⟨.hbm, 101, rfl⟩
abbrev main_v18_0 : Ref sig .tc := ⟨.hbm, 102, rfl⟩
abbrev main_v18_1 : Ref sig .tc := ⟨.hbm, 103, rfl⟩
abbrev main_cst : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v24 : Ref sig .tc := ⟨.hbm, 110, rfl⟩
abbrev main_v25 : Ref sig .tc := ⟨.hbm, 111, rfl⟩
abbrev main_v26_0 : Ref sig .tc := ⟨.hbm, 112, rfl⟩
abbrev main_v26_1 : Ref sig .tc := ⟨.hbm, 113, rfl⟩
abbrev main_cst_0 : Ref sig .tc := ⟨.hbm, 114, rfl⟩
abbrev main_v27 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33_0 : Ref sig .tc := ⟨.hbm, 121, rfl⟩
abbrev main_v33_1 : Ref sig .tc := ⟨.hbm, 122, rfl⟩
abbrev main_v33_2 : Ref sig .tc := ⟨.hbm, 123, rfl⟩
abbrev main_cst_1 : Ref sig .tc := ⟨.hbm, 124, rfl⟩
abbrev main_v34 : Ref sig .tc := ⟨.hbm, 125, rfl⟩
abbrev main_v35 : Ref sig .tc := ⟨.hbm, 126, rfl⟩
abbrev main_cst_2 : Ref sig .tc := ⟨.hbm, 127, rfl⟩
abbrev main_v36 : Ref sig .tc := ⟨.hbm, 128, rfl⟩
abbrev main_v37 : Ref sig .tc := ⟨.hbm, 129, rfl⟩
abbrev main_v38 : Ref sig .tc := ⟨.hbm, 130, rfl⟩
abbrev main_v39 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_scratch0 : Ref sig .tc := ⟨.vmem, 20, rfl⟩
abbrev cc2_scratch1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg5_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_scratch0 : Ref sig .tc := ⟨.vmem, 37, rfl⟩
abbrev cc4_scratch1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc5_stg6_0 : Ref sig .tc := ⟨.vmem, 48, rfl⟩
abbrev cc5_stg7_0 : Ref sig .tc := ⟨.vmem, 49, rfl⟩
abbrev cc5_scratch0 : Ref sig .tc := ⟨.vmem, 50, rfl⟩
abbrev cc5_scratch1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg6_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem5_0 : DmaSem sig := 27
abbrev cc3_sem5_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem4_0 : DmaSem sig := 41
abbrev cc5_sem5_0 : DmaSem sig := 42
abbrev cc5_sem5_1 : DmaSem sig := 43
abbrev cc5_sem6_0 : DmaSem sig := 44
abbrev cc5_sem7_0 : DmaSem sig := 45
abbrev cc6_sem0_0 : DmaSem sig := 46
abbrev cc6_sem0_1 : DmaSem sig := 47
abbrev cc6_sem1_0 : DmaSem sig := 48
abbrev cc6_sem1_1 : DmaSem sig := 49
abbrev cc6_sem2_0 : DmaSem sig := 50
abbrev cc6_sem3_0 : DmaSem sig := 51
abbrev cc6_sem4_0 : DmaSem sig := 52
abbrev cc6_sem5_0 : DmaSem sig := 53
abbrev cc6_sem6_0 : DmaSem sig := 54
abbrev cc6_sem6_1 : DmaSem sig := 55

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def k2_cond2 (i : grid2.Coords) : BitVec 1 :=
  let arg0 : BitVec 32 := BitVec.ofNat 32 (i 0).val
  let c99_i32 : BitVec 32 := 99#32
  let v27 : BitVec 1 := Scalar.cmpi .eq arg0 c99_i32
  let v28 : BitVec 32 := Scalar.extui v27
  let c0_i32_14 : BitVec 32 := 0#32
  let v29 : BitVec 1 := Scalar.cmpi .ne v28 c0_i32_14
  v29

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S512x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def k4_cond2 (i : grid4.Coords) : BitVec 1 :=
  let arg0 : BitVec 32 := BitVec.ofNat 32 (i 0).val
  let c99_i32 : BitVec 32 := 99#32
  let v27 : BitVec 1 := Scalar.cmpi .eq arg0 c99_i32
  let v28 : BitVec 32 := Scalar.extui v27
  let c0_i32_14 : BitVec 32 := 0#32
  let v29 : BitVec 1 := Scalar.cmpi .ne v28 c0_i32_14
  v29

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S512x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![100], ![false]⟩

def k5_cond2 (i : grid5.Coords) : BitVec 1 :=
  let arg0 : BitVec 32 := BitVec.ofNat 32 (i 0).val
  let c99_i32 : BitVec 32 := 99#32
  let v44 : BitVec 1 := Scalar.cmpi .eq arg0 c99_i32
  let v45 : BitVec 32 := Scalar.extui v44
  let c0_i32_24 : BitVec 32 := 0#32
  let v46 : BitVec 1 := Scalar.cmpi .ne v45 c0_i32_24
  v46

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S512x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

class Facts₀ : Prop where
  shapeCasts_S500000_S500000x1 : S500000.ShapeCasts S500000x1
  shapeCasts_S128_S1x128 : S128.ShapeCasts S1x128
  shapeCasts_S8_S1x8 : S8.ShapeCasts S1x8
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x8_0 : S8000000.BroadcastsInDim S8000000x8 (![0] : Fin 1 → Fin S8000000x8.rank)
  bcast_S_S8000000x8 : S_.BroadcastsInDim S8000000x8 (![] : Fin 0 → Fin S8000000x8.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x8_0 : S500000.BroadcastsInDim S500000x8 (![0] : Fin 1 → Fin S500000x8.rank)
  bcast_S_S500000x8 : S_.BroadcastsInDim S500000x8 (![] : Fin 0 → Fin S500000x8.rank)
  bcast_S500000x8_S500000x8x1_0_1 : S500000x8.BroadcastsInDim S500000x8x1 (![0, 1] : Fin 2 → Fin S500000x8x1.rank)
  concatenates_S500000x8x1_S500000x8x1_S500000x8x2_d2 : Shape.Concatenates [S500000x8x1, S500000x8x1] S500000x8x2 2
  shapeCasts_S500000x8x2_S500000x16 : S500000x8x2.ShapeCasts S500000x16
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  shapeCasts_S5000x64_S5000x64 : S5000x64.ShapeCasts S5000x64
  bcast_S_S512x1 : S_.BroadcastsInDim S512x1 (![] : Fin 0 → Fin S512x1.rank)
  bcast_S512x1_S512x64_0_1 : S512x1.BroadcastsInDim S512x64 (![0, 1] : Fin 2 → Fin S512x64.rank)
  inb_S64x64_S64x64_0_0 : ∀ a, (![0, 0] : Fin 2 → Nat) a + S64x64.size a ≤ S64x64.size a
  h_S64x64 : 0 < S64x64.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S64x128_S64x128_0_0 : ∀ a, (![0, 0] : Fin 2 → Nat) a + S64x128.size a ≤ S64x128.size a
  h_S64x128 : 0 < S64x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  dot_S5000x128_S128x128_S5000x128_1_0_0_1_n_n_wf : DotDims.WF S5000x128 S128x128 S5000x128 [1] [0] [0] [1] [] []
  dot_S5000x128_S128x8_S5000x8_1_0_0_1_n_n_wf : DotDims.WF S5000x128 S128x8 S5000x8 [1] [0] [0] [1] [] []
  gather_S500000x8_S8000000x1_S8000000x8_1_0_n_n_0_1_18_wf : GatherDims.WF S500000x8 S8000000x1 S8000000x8 [1] [0] [] [0] [] 1 ![1, 8]
  gather_S8000000x8_S500000x1_S500000x8_1_0_n_n_0_1_18_wf : GatherDims.WF S8000000x8 S500000x1 S500000x8 [1] [0] [] [0] [] 1 ![1, 8]
  dot_S5000x16_S16x64_S5000x64_1_0_0_1_n_n_wf : DotDims.WF S5000x16 S16x64 S5000x64 [1] [0] [0] [1] [] []
  dot_S5000x512_S5000x64_S512x64_0_0_1_1_n_n_wf : DotDims.WF S5000x512 S5000x64 S512x64 [0] [0] [1] [1] [] []
  dot_S5000x512_S5000x1_S512x1_0_0_1_1_n_n_wf : DotDims.WF S5000x512 S5000x1 S512x1 [0] [0] [1] [1] [] []
  dot_S512x64_S64x64_S512x64_1_0_0_1_n_n_wf : DotDims.WF S512x64 S64x64 S512x64 [1] [0] [0] [1] [] []
  dot_S5000x512_S512x64_S5000x64_1_0_0_1_n_n_wf : DotDims.WF S5000x512 S512x64 S5000x64 [1] [0] [0] [1] [] []
  dot_S5000x64_S64x64_S5000x64_1_0_0_1_n_n_wf : DotDims.WF S5000x64 S64x64 S5000x64 [1] [0] [0] [1] [] []
  dot_S512x64_S64x128_S512x128_1_0_0_1_n_n_wf : DotDims.WF S512x64 S64x128 S512x128 [1] [0] [0] [1] [] []
  dot_S5000x512_S512x128_S5000x128_1_0_0_1_n_n_wf : DotDims.WF S5000x512 S512x128 S5000x128 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S128x8.size a
  hwx0_3 : ∀ i : grid0.Coords, EltTy.bits .f32 = 32 ∨ (Rect.block (s := S128x8) S128x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8.size a ≤ S1x8.size a
  hwx0_4 : ∀ i : grid0.Coords, EltTy.bits .f32 = 32 ∨ (Rect.block (s := S1x8) S1x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x8.size a ≤ S500000x8.size a
  hwx0_5 : ∀ i : grid0.Coords, EltTy.bits .f32 = 32 ∨ (Rect.block (s := S500000x8) S5000x8.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S500000x16.size a
  hwx1_0 : ∀ i : grid1.Coords, EltTy.bits .f32 = 32 ∨ (Rect.block (s := S500000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S500000x64.size a
  hwx1_3 : ∀ i : grid1.Coords, EltTy.bits .f32 = 32 ∨ (Rect.block (s := S500000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S500000x64.size a
  hwx2_0 : ∀ i : grid2.Coords, EltTy.bits .f32 = 32 ∨ (Rect.block (s := S500000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S500000x1.size a
  hwx2_1 : ∀ i : grid2.Coords, EltTy.bits .i32 = 32 ∨ (Rect.block (s := S500000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x64.size a ≤ S512x64.size a
  hwx2_2 : ∀ i : grid2.Coords, EltTy.bits .f32 = 32 ∨ (Rect.block (s := S512x64) S512x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S512x1.size a
  hwx2_3 : ∀ i : grid2.Coords, EltTy.bits .f32 = 32 ∨ (Rect.block (s := S512x1) S512x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S500000x64.size a
  hwx3_0 : ∀ i : grid3.Coords, EltTy.bits .f32 = 32 ∨ (Rect.block (s := S500000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S500000x1.size a
  hwx3_1 : ∀ i : grid3.Coords, EltTy.bits .i32 = 32 ∨ (Rect.block (s := S500000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x64.size a ≤ S512x64.size a
  hwx3_4 : ∀ i : grid3.Coords, EltTy.bits .f32 = 32 ∨ (Rect.block (s := S512x64) S512x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S500000x64.size a
  hwx3_5 : ∀ i : grid3.Coords, EltTy.bits .f32 = 32 ∨ (Rect.block (s := S500000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S500000x64.size a
  hwx4_0 : ∀ i : grid4.Coords, EltTy.bits .f32 = 32 ∨ (Rect.block (s := S500000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S500000x1.size a
  hwx4_1 : ∀ i : grid4.Coords, EltTy.bits .i32 = 32 ∨ (Rect.block (s := S500000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x64.size a ≤ S512x64.size a
  hwx4_2 : ∀ i : grid4.Coords, EltTy.bits .f32 = 32 ∨ (Rect.block (s := S512x64) S512x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S512x1.size a
  hwx4_3 : ∀ i : grid4.Coords, EltTy.bits .f32 = 32 ∨ (Rect.block (s := S512x1) S512x1.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S500000x64.size a
  hwx5_0 : ∀ i : grid5.Coords, EltTy.bits .f32 = 32 ∨ (Rect.block (s := S500000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S500000x1.size a
  hwx5_1 : ∀ i : grid5.Coords, EltTy.bits .i32 = 32 ∨ (Rect.block (s := S500000x1) S5000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S512x128.size a ≤ S512x128.size a
  hwx5_4 : ∀ i : grid5.Coords, EltTy.bits .f32 = 32 ∨ (Rect.block (s := S512x128) S512x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S500000x128.size a
  hwx5_5 : ∀ i : grid5.Coords, EltTy.bits .f32 = 32 ∨ (Rect.block (s := S500000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S500000x128.size a
  hwx6_0 : ∀ i : grid6.Coords, EltTy.bits .f32 = 32 ∨ (Rect.block (s := S500000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S500000x128.size a
  hwx6_1 : ∀ i : grid6.Coords, EltTy.bits .f32 = 32 ∨ (Rect.block (s := S500000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S500000x128.size a
  hwx6_6 : ∀ i : grid6.Coords, EltTy.bits .f32 = 32 ∨ (Rect.block (s := S500000x128) S5000x128.size (cc6_transform_6 i) (hinb6_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf
def gather_S500000x8_S8000000x1_S8000000x8_1_0_n_n_0_1_18 : GatherDims S500000x8 S8000000x1 S8000000x8 where
  offsetDims := [1]
  collapsedSliceDims := [0]
  operandBatchingDims := []
  startIndicesBatchingDims := []
  startIndexMap := [0]
  indexVectorDim := 1
  sliceSizes := ![1, 8]
  wf := gather_S500000x8_S8000000x1_S8000000x8_1_0_n_n_0_1_18_wf
def gather_S8000000x8_S500000x1_S500000x8_1_0_n_n_0_1_18 : GatherDims S8000000x8 S500000x1 S500000x8 where
  offsetDims := [1]
  collapsedSliceDims := [0]
  operandBatchingDims := []
  startIndicesBatchingDims := []
  startIndexMap := [0]
  indexVectorDim := 1
  sliceSizes := ![1, 8]
  wf := gather_S8000000x8_S500000x1_S500000x8_1_0_n_n_0_1_18_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x512_S5000x64_S512x64_0_0_1_1_n_n : DotDims S5000x512 S5000x64 S512x64 where
  lhsContracting := [0]
  rhsContracting := [0]
  lhsNonContracting := [1]
  rhsNonContracting := [1]
  lhsBatch := []
  rhsBatch := []
  wf := dot_S5000x512_S5000x64_S512x64_0_0_1_1_n_n_wf
def dot_S5000x512_S5000x1_S512x1_0_0_1_1_n_n : DotDims S5000x512 S5000x1 S512x1 where
  lhsContracting := [0]
  rhsContracting := [0]
  lhsNonContracting := [1]
  rhsNonContracting := [1]
  lhsBatch := []
  rhsBatch := []
  wf := dot_S5000x512_S5000x1_S512x1_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S5000x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v15) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18_0) S512x64.size cc2_transform_2 reads2_2 true true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18_1) S512x1.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun i => !(k2_cond2 i == 1#1) | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v17) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v23) S512x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v25) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v25) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26_0) S512x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26_1) S512x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v25) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v0) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg10) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v32) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v31) S512x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v33_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v33_1) S1x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v33_2) S1x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun i => !(k5_cond2 i == 1#1) | 7 => fun i => !(k5_cond2 i == 1#1) | ⟨_ + 8, h⟩ => absurd h (Nat.not_lt.2 (Nat.le_add_left _ _))

abbrev win6_0 : Pipeline.Window sig grid6 :=
  Pipeline.Window.ofSpec (Memref.whole main_arg0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v33_0) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v35) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v39) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v40) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v41) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v42) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

class Facts : Prop extends Facts₀ where

variable [Facts]
-- ==== ReferenceIdeal.lean ====
abbrev S500000x128 : Shape := ⟨2, ![500000, 128]⟩
abbrev S128x128 : Shape := ⟨2, ![128, 128]⟩
abbrev S128 : Shape := ⟨1, ![128]⟩
abbrev S128x8 : Shape := ⟨2, ![128, 8]⟩
abbrev S8 : Shape := ⟨1, ![8]⟩
abbrev S16x64 : Shape := ⟨2, ![16, 64]⟩
abbrev S64 : Shape := ⟨1, ![64]⟩
abbrev S64x64 : Shape := ⟨2, ![64, 64]⟩
abbrev S64x128 : Shape := ⟨2, ![64, 128]⟩
abbrev S2x8000000 : Shape := ⟨2, ![2, 8000000]⟩
abbrev S500000 : Shape := ⟨1, ![500000]⟩
abbrev S1x128 : Shape := ⟨2, ![1, 128]⟩
abbrev S_ : Shape := ⟨0, ![]⟩
abbrev S500000x8 : Shape := ⟨2, ![500000, 8]⟩
abbrev S1x8 : Shape := ⟨2, ![1, 8]⟩
abbrev S1x8000000 : Shape := ⟨2, ![1, 8000000]⟩
abbrev S8000000 : Shape := ⟨1, ![8000000]⟩
abbrev S8000000x1 : Shape := ⟨2, ![8000000, 1]⟩
abbrev S8000000x8 : Shape := ⟨2, ![8000000, 8]⟩
abbrev S500000x1 : Shape := ⟨2, ![500000, 1]⟩
abbrev S500000x8x1 : Shape := ⟨3, ![500000, 8, 1]⟩
abbrev S500000x8x2 : Shape := ⟨3, ![500000, 8, 2]⟩
abbrev S500000x16 : Shape := ⟨2, ![500000, 16]⟩
abbrev S500000x64 : Shape := ⟨2, ![500000, 64]⟩
abbrev S1x64 : Shape := ⟨2, ![1, 64]⟩
abbrev S512x64 : Shape := ⟨2, ![512, 64]⟩
abbrev S512x1 : Shape := ⟨2, ![512, 1]⟩
abbrev S512x128 : Shape := ⟨2, ![512, 128]⟩

abbrev nBuf : Space → Nat
  | .hbm => 183
  | .vmem => 0
  | .smem => 0
  | _ => 0

abbrev hbmTy0_0 (i : Nat) : BufTy := match i % 128 with
  | 0 => ⟨S500000x128, .f32⟩
  | 1 => ⟨S128x128, .f32⟩
  | 2 => ⟨S128, .f32⟩
  | 3 => ⟨S128x8, .f32⟩
  | 4 => ⟨S8, .f32⟩
  | 5 => ⟨S16x64, .f32⟩
  | 6 => ⟨S64, .f32⟩
  | 7 => ⟨S64x64, .f32⟩
  | 8 => ⟨S64, .f32⟩
  | 9 => ⟨S64x64, .f32⟩
  | 10 => ⟨S64x128, .f32⟩
  | 11 => ⟨S128, .f32⟩
  | 12 => ⟨S64x128, .f32⟩
  | 13 => ⟨S128, .f32⟩
  | 14 => ⟨S128, .f32⟩
  | 15 => ⟨S2x8000000, .i32⟩
  | 16 => ⟨S500000, .i32⟩
  | 17 => ⟨S500000, .i32⟩
  | 18 => ⟨S500000x128, .f32⟩
  | 19 => ⟨S1x128, .f32⟩
  | 20 => ⟨S500000x128, .f32⟩
  | 21 => ⟨S500000x128, .f32⟩
  | 22 => ⟨S_, .f32⟩
  | 23 => ⟨S500000x128, .f32⟩
  | 24 => ⟨S500000x128, .f32⟩
  | 25 => ⟨S500000x8, .f32⟩
  | 26 => ⟨S1x8, .f32⟩
  | 27 => ⟨S500000x8, .f32⟩
  | 28 => ⟨S500000x8, .f32⟩
  | 29 => ⟨S1x8000000, .i32⟩
  | 30 => ⟨S8000000, .i32⟩
  | 31 => ⟨S_, .i32⟩
  | 32 => ⟨S8000000, .i32⟩
  | 33 => ⟨S8000000, .i1⟩
  | 34 => ⟨S_, .i32⟩
  | 35 => ⟨S8000000, .i32⟩
  | 36 => ⟨S8000000, .i32⟩
  | 37 => ⟨S8000000, .i32⟩
  | 38 => ⟨S8000000x1, .i32⟩
  | 39 => ⟨S8000000x8, .f32⟩
  | 40 => ⟨S1x8000000, .i32⟩
  | 41 => ⟨S8000000, .i32⟩
  | 42 => ⟨S_, .i32⟩
  | 43 => ⟨S8000000, .i32⟩
  | 44 => ⟨S8000000, .i1⟩
  | 45 => ⟨S_, .i32⟩
  | 46 => ⟨S8000000, .i32⟩
  | 47 => ⟨S8000000, .i32⟩
  | 48 => ⟨S8000000, .i32⟩
  | 49 => ⟨S8000000x1, .i32⟩
  | 50 => ⟨S8000000x8, .f32⟩
  | 51 => ⟨S8000000x8, .f32⟩
  | 52 => ⟨S_, .i32⟩
  | 53 => ⟨S500000, .i32⟩
  | 54 => ⟨S500000, .i1⟩
  | 55 => ⟨S_, .i32⟩
  | 56 => ⟨S500000, .i32⟩
  | 57 => ⟨S500000, .i32⟩
  | 58 => ⟨S500000, .i32⟩
  | 59 => ⟨S500000x1, .i32⟩
  | 60 => ⟨S500000x8, .f32⟩
  | 61 => ⟨S500000x8x1, .f32⟩
  | 62 => ⟨S500000x8x1, .f32⟩
  | 63 => ⟨S500000x8x2, .f32⟩
  | 64 => ⟨S500000x16, .f32⟩
  | 65 => ⟨S500000x64, .f32⟩
  | 66 => ⟨S1x64, .f32⟩
  | 67 => ⟨S500000x64, .f32⟩
  | 68 => ⟨S500000x64, .f32⟩
  | 69 => ⟨S_, .f32⟩
  | 70 => ⟨S500000x64, .f32⟩
  | 71 => ⟨S500000x64, .f32⟩
  | 72 => ⟨S_, .f32⟩
  | 73 => ⟨S512x64, .f32⟩
  | 74 => ⟨S500000x1, .i32⟩
  | 75 => ⟨S512x64, .f32⟩
  | 76 => ⟨S_, .f32⟩
  | 77 => ⟨S500000x1, .f32⟩
  | 78 => ⟨S_, .f32⟩
  | 79 => ⟨S512x1, .f32⟩
  | 80 => ⟨S500000x1, .i32⟩
  | 81 => ⟨S512x1, .f32⟩
  | 82 => ⟨S_, .f32⟩
  | 83 => ⟨S512x1, .f32⟩
  | 84 => ⟨S512x1, .f32⟩
  | 85 => ⟨S512x64, .f32⟩
  | 86 => ⟨S512x64, .f32⟩
  | 87 => ⟨S512x64, .f32⟩
  | 88 => ⟨S500000x64, .f32⟩
  | 89 => ⟨S1x64, .f32⟩
  | 90 => ⟨S500000x64, .f32⟩
  | 91 => ⟨S500000x64, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000x64, .f32⟩
  | 101 => ⟨S500000x64, .f32⟩
  | 102 => ⟨S_, .f32⟩
  | 103 => ⟨S500000x64, .f32⟩
  | 104 => ⟨S500000x64, .f32⟩
  | 105 => ⟨S_, .f32⟩
  | 106 => ⟨S512x64, .f32⟩
  | 107 => ⟨S500000x1, .i32⟩
  | 108 => ⟨S512x64, .f32⟩
  | 109 => ⟨S_, .f32⟩
  | 110 => ⟨S500000x1, .f32⟩
  | 111 => ⟨S_, .f32⟩
  | 112 => ⟨S512x1, .f32⟩
  | 113 => ⟨S500000x1, .i32⟩
  | 114 => ⟨S512x1, .f32⟩
  | 115 => ⟨S_, .f32⟩
  | 116 => ⟨S512x1, .f32⟩
  | 117 => ⟨S512x1, .f32⟩
  | 118 => ⟨S512x64, .f32⟩
  | 119 => ⟨S512x64, .f32⟩
  | 120 => ⟨S512x128, .f32⟩
  | 121 => ⟨S500000x128, .f32⟩
  | 122 => ⟨S1x128, .f32⟩
  | 123 => ⟨S500000x128, .f32⟩
  | 124 => ⟨S500000x128, .f32⟩
  | 125 => ⟨S_, .i32⟩
  | 126 => ⟨S500000, .i32⟩
  | 127 => ⟨S500000, .i1⟩
  | _ => ⟨S500000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x128, .f32⟩
  | 6 => ⟨S500000x128, .f32⟩
  | 7 => ⟨S_, .f32⟩
  | 8 => ⟨S500000x128, .f32⟩
  | 9 => ⟨S500000x128, .f32⟩
  | 10 => ⟨S_, .f32⟩
  | 11 => ⟨S128, .f32⟩
  | 12 => ⟨S_, .f32⟩
  | 13 => ⟨S128, .f32⟩
  | 14 => ⟨S128, .f32⟩
  | 15 => ⟨S_, .i32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S500000x128, .f32⟩
  | 23 => ⟨S500000x128, .f32⟩
  | 24 => ⟨S500000x128, .f32⟩
  | 25 => ⟨S_, .f32⟩
  | 26 => ⟨S_, .f32⟩
  | 27 => ⟨S_, .f32⟩
  | 28 => ⟨S_, .f32⟩
  | 29 => ⟨S128, .f32⟩
  | 30 => ⟨S128, .f32⟩
  | 31 => ⟨S128, .f32⟩
  | 32 => ⟨S_, .f32⟩
  | 33 => ⟨S_, .i1⟩
  | 34 => ⟨S_, .f32⟩
  | 35 => ⟨S_, .f32⟩
  | 36 => ⟨S128, .f32⟩
  | 37 => ⟨S128, .f32⟩
  | 38 => ⟨S1x128, .f32⟩
  | 39 => ⟨S500000x128, .f32⟩
  | 40 => ⟨S500000x128, .f32⟩
  | 41 => ⟨S_, .f32⟩
  | 42 => ⟨S128, .f32⟩
  | 43 => ⟨S128, .f32⟩
  | 44 => ⟨S128, .f32⟩
  | 45 => ⟨S1x128, .f32⟩
  | 46 => ⟨S500000x128, .f32⟩
  | 47 => ⟨S500000x128, .f32⟩
  | 48 => ⟨S1x128, .f32⟩
  | 49 => ⟨S500000x128, .f32⟩
  | 50 => ⟨S500000x128, .f32⟩
  | 51 => ⟨S500000x128, .f32⟩
  | 52 => ⟨S1x128, .f32⟩
  | 53 => ⟨S500000x128, .f32⟩
  | 54 => ⟨S500000x128, .f32⟩
  | _ => ⟨S500000x128, .f32⟩

abbrev hbmTy (i : Nat) : BufTy := match i / 128 with
  | 0 => hbmTy0_0 i
  | 1 => hbmTy0_1 i
  | _ => ⟨S500000x128, .f32⟩

abbrev bufTy : (tb : Table) → Fin (tcTables nBuf tb) → BufTy
  | .hbm, ⟨i, _⟩ => hbmTy i
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_v11 : Ref sig .tc := ⟨.hbm, 32, rfl⟩
abbrev main_v12 : Ref sig .tc := ⟨.hbm, 33, rfl⟩
abbrev main_c_0 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_1 : Ref sig .tc := ⟨.hbm, 42, rfl⟩
abbrev main_v20 : Ref sig .tc := ⟨.hbm, 43, rfl⟩
abbrev main_v21 : Ref sig .tc := ⟨.hbm, 44, rfl⟩
abbrev main_c_2 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_call1_cst : Ref sig .tc := ⟨.hbm, 69, rfl⟩
abbrev main_call1_v0 : Ref sig .tc := ⟨.hbm, 70, rfl⟩
abbrev main_v43 : Ref sig .tc := ⟨.hbm, 71, rfl⟩
abbrev main_cst : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_5 : Ref sig .tc := ⟨.hbm, 76, rfl⟩
abbrev main_v47 : Ref sig .tc := ⟨.hbm, 77, rfl⟩
abbrev main_cst_6 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_8 : Ref sig .tc := ⟨.hbm, 92, rfl⟩
abbrev main_v60 : Ref sig .tc := ⟨.hbm, 93, rfl⟩
abbrev main_v61 : Ref sig .tc := ⟨.hbm, 94, rfl⟩
abbrev main_c_9 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call2_cst : Ref sig .tc := ⟨.hbm, 102, rfl⟩
abbrev main_call2_v0 : Ref sig .tc := ⟨.hbm, 103, rfl⟩
abbrev main_v68 : Ref sig .tc := ⟨.hbm, 104, rfl⟩
abbrev main_cst_10 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_11 : Ref sig .tc := ⟨.hbm, 109, rfl⟩
abbrev main_v72 : Ref sig .tc := ⟨.hbm, 110, rfl⟩
abbrev main_cst_12 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c_14 : Ref sig .tc := ⟨.hbm, 125, rfl⟩
abbrev main_v85 : Ref sig .tc := ⟨.hbm, 126, rfl⟩
abbrev main_v86 : Ref sig .tc := ⟨.hbm, 127, rfl⟩
abbrev main_c_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_call3_cst : Ref sig .tc := ⟨.hbm, 135, rfl⟩
abbrev main_call3_v0 : Ref sig .tc := ⟨.hbm, 136, rfl⟩
abbrev main_v93 : Ref sig .tc := ⟨.hbm, 137, rfl⟩
abbrev main_cst_16 : Ref sig .tc := ⟨.hbm, 138, rfl⟩
abbrev main_v94 : Ref sig .tc := ⟨.hbm, 139, rfl⟩
abbrev main_cst_17 : Ref sig .tc := ⟨.hbm, 140, rfl⟩
abbrev main_v95 : Ref sig .tc := ⟨.hbm, 141, rfl⟩
abbrev main_v96 : Ref sig .tc := ⟨.hbm, 142, rfl⟩
abbrev main_c_18 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_cst_0 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_call4_v5 : Ref sig .tc := ⟨.hbm, 151, rfl⟩
abbrev main_call4_v6 : Ref sig .tc := ⟨.hbm, 152, rfl⟩
abbrev main_call4_v7 : Ref sig .tc := ⟨.hbm, 153, rfl⟩
abbrev main_call4_cst_1 : Ref sig .tc := ⟨.hbm, 154, rfl⟩
abbrev main_call4_v8 : Ref sig .tc := ⟨.hbm, 155, rfl⟩
abbrev main_call4_cst_2 : Ref sig .tc := ⟨.hbm, 156, rfl⟩
abbrev main_call4_v9 : Ref sig .tc := ⟨.hbm, 157, rfl⟩
abbrev main_call4_v10 : Ref sig .tc := ⟨.hbm, 158, rfl⟩
abbrev main_call4_v11 : Ref sig .tc := ⟨.hbm, 159, rfl⟩
abbrev main_call4_cst_3 : Ref sig .tc := ⟨.hbm, 160, rfl⟩
abbrev main_call4_v12 : Ref sig .tc := ⟨.hbm, 161, rfl⟩
abbrev main_call4_cst_4 : Ref sig .tc := ⟨.hbm, 162, rfl⟩
abbrev main_call4_call0_v0 : Ref sig .tc := ⟨.hbm, 163, rfl⟩
abbrev main_call4_call0_v1 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_19 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S8_S1x8_1 : S8.BroadcastsInDim S1x8 (![1] : Fin 1 → Fin S1x8.rank)
  bcast_S1x8_S500000x8_0_1 : S1x8.BroadcastsInDim S500000x8 (![0, 1] : Fin 2 → Fin S500000x8.rank)
  slices_S2x8000000_S1x8000000_0_0 : S2x8000000.Slices ![0, 0] S1x8000000
  shapeCasts_S1x8000000_S8000000 : S1x8000000.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S2x8000000_S1x8000000_1_0 : S2x8000000.Slices ![1, 0] S1x8000000
  bcast_S_S500000 : S_.BroadcastsInDim S500000 (![] : Fin 0 → Fin S500000.rank)
  bcast_S500000_S500000x1_0 : S500000.BroadcastsInDim S500000x1 (![0] : Fin 1 → Fin S500000x1.rank)
  bcast_S500000x8_S500000x8x1_0_1 : S500000x8.BroadcastsInDim S500000x8x1 (![0, 1] : Fin 2 → Fin S500000x8x1.rank)
  concatenates_S500000x8x1_S500000x8x1_S500000x8x2_d2 : Shape.Concatenates [S500000x8x1, S500000x8x1] S500000x8x2 2
  shapeCasts_S500000x8x2_S500000x16 : S500000x8x2.ShapeCasts S500000x16
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S_S512x64 : S_.BroadcastsInDim S512x64 (![] : Fin 0 → Fin S512x64.rank)
  bcast_S_S500000x1 : S_.BroadcastsInDim S500000x1 (![] : Fin 0 → Fin S500000x1.rank)
  bcast_S_S512x1 : S_.BroadcastsInDim S512x1 (![] : Fin 0 → Fin S512x1.rank)
  bcast_S512x1_S512x64_0_1 : S512x1.BroadcastsInDim S512x64 (![0, 1] : Fin 2 → Fin S512x64.rank)
  reducesTo_S500000x128_S128_d0 : S500000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S500000x128_S128x128_S500000x128_1_0_0_1_n_n_wf : DotDims.WF S500000x128 S128x128 S500000x128 [1] [0] [0] [1] [] []
  dot_S500000x128_S128x8_S500000x8_1_0_0_1_n_n_wf : DotDims.WF S500000x128 S128x8 S500000x8 [1] [0] [0] [1] [] []
  gather_S500000x8_S8000000x1_S8000000x8_1_0_n_n_0_1_18_wf : GatherDims.WF S500000x8 S8000000x1 S8000000x8 [1] [0] [] [0] [] 1 ![1, 8]
  gather_S8000000x8_S500000x1_S500000x8_1_0_n_n_0_1_18_wf : GatherDims.WF S8000000x8 S500000x1 S500000x8 [1] [0] [] [0] [] 1 ![1, 8]
  dot_S500000x16_S16x64_S500000x64_1_0_0_1_n_n_wf : DotDims.WF S500000x16 S16x64 S500000x64 [1] [0] [0] [1] [] []
  scatter_S512x64_S500000x1_S500000x64_1_0_0_1_wf : ScatterDims.WF S512x64 S500000x1 S500000x64 [1] [0] [0] 1
  scatter_S512x1_S500000x1_S500000x1_1_0_0_1_wf : ScatterDims.WF S512x1 S500000x1 S500000x1 [1] [0] [0] 1
  dot_S512x64_S64x64_S512x64_1_0_0_1_n_n_wf : DotDims.WF S512x64 S64x64 S512x64 [1] [0] [0] [1] [] []
  dot_S500000x64_S64x64_S500000x64_1_0_0_1_n_n_wf : DotDims.WF S500000x64 S64x64 S500000x64 [1] [0] [0] [1] [] []
  gather_S512x64_S500000x1_S500000x64_1_0_n_n_0_1_164_wf : GatherDims.WF S512x64 S500000x1 S500000x64 [1] [0] [] [0] [] 1 ![1, 64]
  dot_S512x64_S64x128_S512x128_1_0_0_1_n_n_wf : DotDims.WF S512x64 S64x128 S512x128 [1] [0] [0] [1] [] []
  dot_S500000x64_S64x128_S500000x128_1_0_0_1_n_n_wf : DotDims.WF S500000x64 S64x128 S500000x128 [1] [0] [0] [1] [] []
  gather_S512x128_S500000x1_S500000x128_1_0_n_n_0_1_1128_wf : GatherDims.WF S512x128 S500000x1 S500000x128 [1] [0] [] [0] [] 1 ![1, 128]

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x8_S500000x8_1_0_0_1_n_n : DotDims S500000x128 S128x8 S500000x8 where
  lhsContracting := [1]
  rhsContracting := [0]
  lhsNonContracting := [0]
  rhsNonContracting := [1]
  lhsBatch := []
  rhsBatch := []
  wf := dot_S500000x128_S128x8_S500000x8_1_0_0_1_n_n_wf
def gather_S500000x8_S8000000x1_S8000000x8_1_0_n_n_0_1_18 : GatherDims S500000x8 S8000000x1 S8000000x8 where
  offsetDims := [1]
  collapsedSliceDims := [0]
  operandBatchingDims := []
  startIndicesBatchingDims := []
  startIndexMap := [0]
  indexVectorDim := 1
  sliceSizes := ![1, 8]
  wf := gather_S500000x8_S8000000x1_S8000000x8_1_0_n_n_0_1_18_wf
def gather_S8000000x8_S500000x1_S500000x8_1_0_n_n_0_1_18 : GatherDims S8000000x8 S500000x1 S500000x8 where
  offsetDims := [1]
  collapsedSliceDims := [0]
  operandBatchingDims := []
  startIndicesBatchingDims := []
  startIndexMap := [0]
  indexVectorDim := 1
  sliceSizes := ![1, 8]
  wf := gather_S8000000x8_S500000x1_S500000x8_1_0_n_n_0_1_18_wf
def dot_S500000x16_S16x64_S500000x64_1_0_0_1_n_n : DotDims S500000x16 S16x64 S500000x64 where
  lhsContracting := [1]
  rhsContracting := [0]
  lhsNonContracting := [0]
  rhsNonContracting := [1]
  lhsBatch := []
  rhsBatch := []
  wf := dot_S500000x16_S16x64_S500000x64_1_0_0_1_n_n_wf
def scatter_S512x64_S500000x1_S500000x64_1_0_0_1 : ScatterDims S512x64 S500000x1 S500000x64 where
  updateWindowDims := [1]
  insertedWindowDims := [0]
  scatterDimsToOperandDims := [0]
  indexVectorDim := 1
  wf := scatter_S512x64_S500000x1_S500000x64_1_0_0_1_wf
def scatter_S512x1_S500000x1_S500000x1_1_0_0_1 : ScatterDims S512x1 S500000x1 S500000x1 where
  updateWindowDims := [1]
  insertedWindowDims := [0]
  scatterDimsToOperandDims := [0]
  indexVectorDim := 1
  wf := scatter_S512x1_S500000x1_S500000x1_1_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S500000x64_S64x128_S500000x128_1_0_0_1_n_n : DotDims S500000x64 S64x128 S500000x128 where
  lhsContracting := [1]
  rhsContracting := [0]
  lhsNonContracting := [0]
  rhsNonContracting := [1]
  lhsBatch := []
  rhsBatch := []
  wf := dot_S500000x64_S64x128_S500000x128_1_0_0_1_n_n_wf
def gather_S512x128_S500000x1_S500000x128_1_0_n_n_0_1_1128 : GatherDims S512x128 S500000x1 S500000x128 where
  offsetDims := [1]
  collapsedSliceDims := [0]
  operandBatchingDims := []
  startIndicesBatchingDims := []
  startIndexMap := [0]
  indexVectorDim := 1
  sliceSizes := ![1, 128]
  wf := gather_S512x128_S500000x1_S500000x128_1_0_n_n_0_1_1128_wf

class Facts : Prop extends Facts₀ where

variable [Facts]
-- ==== Proof.K.Region0.lean ====
import proofs.«420090_j3152505996138_1_alg».proof.Proof.Gen.Kernel.Launch
import proofs.«420090_j3152505996138_1_alg».proof.Proof.Gen.Kernel.Skeleton
import proofs.«420090_j3152505996138_1_alg».proof.Proof.Gen.Kernel.Points
import Idealize.ShloMosaic.Lib.Pipeline.Frame
import Idealize.ShloMosaic.Lib.Pipeline.FrameBody
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (V : (c : Dev nD) → (b : Ref sig .tc) → Buf (Elt F) ((c : Thread nD τ).loc b))

def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev wholeX0 : Rect S5000x128 := Rect.unit (s := S5000x128) ![0, 0] S5000x128.size inb_S5000x128_S5000x128_0_0
abbrev wholeW1_0 : Rect S128x128 := Rect.unit (s := S128x128) ![0, 0] S128x128.size inb_S128x128_S128x128_0_0
abbrev wholeB1_0 : Rect S1x128 := Rect.unit (s := S1x128) ![0, 0] S1x128.size inb_S1x128_S1x128_0_0
abbrev wholeW2_0 : Rect S128x8 := Rect.unit (s := S128x8) ![0, 0] S128x8.size inb_S128x8_S128x8_0_0
abbrev wholeB2_0 : Rect S1x8 := Rect.unit (s := S1x8) ![0, 0] S1x8.size inb_S1x8_S1x8_0_0
abbrev wholeY0 : Rect S5000x8 := Rect.unit (s := S5000x8) ![0, 0] S5000x8.size inb_S5000x8_S5000x8_0_0

def mlpOut0 (x : Vec F S5000x128 .f32) (w1 : Vec F S128x128 .f32) (b1 : Vec F S1x128 .f32) (w2 : Vec F S128x8 .f32)
    (b2 : Vec F S1x8 .f32) : Vec F S5000x8 .f32 :=
  View.canon [⟨wholeY0, k0_pay1 (View.ld x wholeX0) (View.ld w1 wholeW1_0) (View.ld b1 wholeB1_0) (View.ld w2 wholeW2_0)
    (View.ld b2 wholeB2_0)⟩]

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => mlpOut0 (blockAt0 V c 0 t) (blockAt0 V c 1 t) (blockAt0 V c 2 t) (blockAt0 V c 3 t) (blockAt0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Φ_eq0 (c : Dev nD) (t) : (dat0 V c).Φ t = Pipeline.ΦA spec0 c := rfl

theorem after0_5 (c : Dev nD) (t : Fin cfg0.N) : (dat0 V c).after 5 t =
    mlpOut0 (blockAt0 V c 0 t) (blockAt0 V c 1 t) (blockAt0 V c 2 t) (blockAt0 V c 3 t) (blockAt0 V c 4 t) := by
  dsimp only [dat0]

theorem before0 (c : Dev nD) (t : Fin cfg0.N) :
    (∀ d, (dat0 V c).before 0 t d = blockAt0 V c 0 t) ∧ (∀ d, (dat0 V c).before 1 t d = blockAt0 V c 1 t) ∧
    (∀ d, (dat0 V c).before 2 t d = blockAt0 V c 2 t) ∧ (∀ d, (dat0 V c).before 3 t d = blockAt0 V c 3 t) ∧
    ∀ d, (dat0 V c).before 4 t d = blockAt0 V c 4 t := by
  refine ⟨?_, ?_, ?_, ?_, ?_⟩ <;>
    exact (dat0 V c).before_in_eq_fetched _ rfl (fun _ => rfl) (fun _ _ _ => rfl) (fun _ => rfl) t

theorem body_triple0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x8 .f32) (harg4 : arg4.IsWhole)
    (arg5 : Memref sig .tc .vmem S1x8 .f32) (harg5 : arg5.IsWhole)
    (arg6 : Memref sig .tc .vmem S5000x8 .f32) (harg6 : arg6.IsWhole)
    (x : Vec F S5000x128 .f32) (w1 : Vec F S128x128 .f32) (b1 : Vec F S1x128 .f32) (w2 : Vec F S128x8 .f32)
    (b2 : Vec F S1x8 .f32) (y : Vec F S5000x8 .f32 → Vec F S5000x8 .f32)
    (Φ O : sProp (MT nD τ sig Unit (Elt F) ℕ (UR sig nD τ) ℕ)) :
    iprop(Φ ∗ O ∗ (∃ _ : Vec F S5000x128 .f32, owns c.tc arg1 fullShare x)
        ∗ (∃ _ : Vec F S128x128 .f32, owns c.tc arg2 fullShare w1)
        ∗ (∃ _ : Vec F S1x128 .f32, owns c.tc arg3 fullShare b1)
        ∗ (∃ _ : Vec F S128x8 .f32, owns c.tc arg4 fullShare w2)
        ∗ (∃ _ : Vec F S1x8 .f32, owns c.tc arg5 fullShare b2)
        ∗ (∃ d, owns c.tc arg6 fullShare (y d)))
      ⊢ wp frame (wpE (defs₀ (F := F)) Variants.none c none) E
          (cc0__mlp2_kernel i arg1 harg1 arg2 harg2 arg3 harg3 arg4 harg4 arg5 harg5 arg6 harg6) fun _ =>
        iprop(Φ ∗ O ∗ owns c.tc arg1 fullShare x ∗ owns c.tc arg2 fullShare w1
          ∗ owns c.tc arg3 fullShare b1 ∗ owns c.tc arg4 fullShare w2
          ∗ owns c.tc arg5 fullShare b2 ∗ owns c.tc arg6 fullShare (mlpOut0 x w1 b1 w2 b2)) := by
  simp only [cc0__mlp2_kernel_eq_skeleton]; unfold cc0__mlp2_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, -, H6⟩⟩
  subst hf1 hf2 hf3 hf4 hf5
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S5000x8.size (by rfl))

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0 V c t, after0_5]
  exact body_triple0 c _ _ _ _ _ _ _ _ _ _ _ _ _ _ _ _ _ _ _ _ _ _

end Cert.Kernel.Gen
-- ==== Proof.K.Region1.lean ====
import proofs.«420090_j3152505996138_1_alg».proof.Proof.Gen.Kernel.Launch
import proofs.«420090_j3152505996138_1_alg».proof.Proof.Gen.Kernel.Points
import proofs.«420090_j3152505996138_1_alg».proof.Proof.Gen.Kernel.Skeleton
import Idealize.ShloMosaic.Lib.Pipeline.Frame
import Idealize.ShloMosaic.Lib.Pipeline.FrameBody
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S16x64 := Rect.unit (s := S16x64) ![0, 0] S16x64.size inb_S16x64_S16x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

def out1_3 (x0 : Vec F S5000x16 .f32) (x1 : Vec F S16x64 .f32) (x2 : Vec F S1x64 .f32) : Vec F S5000x64 .f32 :=
  View.canon [⟨r1_3, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Φ_eq1 (c : Dev nD) (t) : (dat1 V c).Φ t = Pipeline.ΦA spec1 c := rfl

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t) ∧
    ∀ d, (dat1 V c).before 2 t d = iblk1 V c 2 t := by
  refine ⟨?_, ?_, ?_⟩ <;>
    exact (dat1 V c).before_in_eq_fetched _ rfl (fun _ => rfl) (fun _ _ _ => rfl) (fun _ => rfl) t

theorem body_triple1 (c : Dev nD) (E : Set ℕ) (i : grid1.Coords)
    (arg1 : Memref sig .tc .vmem S5000x16 .f32) (harg1 : arg1.IsWhole)
    (arg2 : Memref sig .tc .vmem S16x64 .f32) (harg2 : arg2.IsWhole)
    (arg3 : Memref sig .tc .vmem S1x64 .f32) (harg3 : arg3.IsWhole)
    (arg4 : Memref sig .tc .vmem S5000x64 .f32) (harg4 : arg4.IsWhole)
    (x0 : Vec F S5000x16 .f32) (x1 : Vec F S16x64 .f32) (x2 : Vec F S1x64 .f32)
    (y : Vec F S5000x64 .f32 → Vec F S5000x64 .f32)
    (Φ O : sProp (MT nD τ sig Unit (Elt F) ℕ (UR sig nD τ) ℕ)) :
    iprop(Φ ∗ O ∗ (∃ _ : Vec F S5000x16 .f32, owns c.tc arg1 fullShare x0)
        ∗ (∃ _ : Vec F S16x64 .f32, owns c.tc arg2 fullShare x1)
        ∗ (∃ _ : Vec F S1x64 .f32, owns c.tc arg3 fullShare x2)
        ∗ (∃ d, owns c.tc arg4 fullShare (y d)))
      ⊢ wp frame (wpE (defs₀ (F := F)) Variants.none c none) E
          (cc1__lin_relu_kernel i arg1 harg1 arg2 harg2 arg3 harg3 arg4 harg4) fun _ =>
        iprop(Φ ∗ O ∗ owns c.tc arg1 fullShare x0 ∗ owns c.tc arg2 fullShare x1
          ∗ owns c.tc arg3 fullShare x2 ∗ owns c.tc arg4 fullShare (out1_3 x0 x1 x2)) := by
  simp only [cc1__lin_relu_kernel_eq_skeleton]; unfold cc1__lin_relu_kernel_skel owns
  iintro ⟨HΦ, HO, ⟨%_, %f1, %hf1, H1⟩, ⟨%_, %f2, %hf2, H2⟩, ⟨%_, %f3, %hf3, H3⟩, ⟨%_, %f4, -, H4⟩⟩
  subst hf1 hf2 hf3
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x64.size (by rfl))

theorem body_obligation1 (c : Dev nD) :
    BodyObligation (dat1 (F := F) V c) (defs₀ (F := F)) Variants.none () Set.univ := fun t => by
  rw [bigSep_W1, bigSep_W1]
  show _ ⊢ wp _ _ _ (bodyAt1 t) _
  simp only [before1 V c t, after1_3]
  exact body_triple1 c _ _ _ _ _ _ _ _ _ _ _ _ _ _ _ _

end Cert.Kernel.Gen

end
-- ==== Proof.LibStores.lean ====
import Idealize.ShloMosaic.Lib.Pipeline.FrameBody
import Idealize.ShloMosaic.Lib.Pipeline.Value

namespace Idealize.ShloMosaic.View

variable {Val : EltTy → Type} [∀ e, Nonempty (Val e)] {sig : RefSig} {κ : Kind} {sp : Space} {S : Shape} {e : EltTy}

/-- The last store covers the whole shape, so every index reads its payload, whatever was stored before. -/
theorem read_writes_cons_unit_zero (v : View sig κ sp S e) (f : v.ty.Contents Val) {off : Fin S.rank → ℕ}
    (hz : off = fun _ => 0) (inb : ∀ a, off a + S.size a ≤ S.size a) (w : S.Idx → Val e) (L : List (Piece Val S e)) :
    v.read Val (v.writes Val f ((⟨Rect.unit off S.size inb, w⟩ : Piece Val S e) :: L)) = w :=
  (read_writes_eq_canon v f _ fun y => ⟨_, List.mem_cons_self, mem_set_unit_zero hz inb y⟩).trans
    (canon_cons_unit_zero hz inb w L)

end Idealize.ShloMosaic.View
-- ==== Proof.K.Region2.lean ====
import proofs.«420090_j3152505996138_1_alg».proof.Proof.Gen.Kernel.Launch
import proofs.«420090_j3152505996138_1_alg».proof.Proof.Gen.Kernel.Skeleton
import proofs.«420090_j3152505996138_1_alg».proof.Proof.Gen.Kernel.Points
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 99 :=
  (by decide +kernel : ∀ t : Fin grid2.N, cond2_1 (grid2.coords t) ↔ t.val = 99)

theorem idleAt2 : ∀ t : Fin cfg2.N, (t.val = 99 → cfg2.idle 2 (grid2.coords t) = false ∧ cfg2.idle 3 (grid2.coords t) = false)
    ∧ (t.val ≠ 99 → cfg2.idle 2 (grid2.coords t) = true ∧ cfg2.idle 3 (grid2.coords t) = true
      ∧ (cfg2.win 2).flush t = false ∧ (cfg2.win 3).flush t = false) := by decide +kernel

abbrev scM2_0 : Memref sig .tc .vmem S512x64 .f32 := Memref.whole cc2_scratch0
abbrev scM2_1 : Memref sig .tc .vmem S512x1 .f32 := Memref.whole cc2_scratch1

def xblk2 (c : Dev nD) (t : Fin cfg2.N) : Vec F S5000x64 .f32 :=
  ((cfg2.win 0).blk t).view.read (Elt F) (V c (Pipeline.arrRef spec2 0))
def bblk2 (c : Dev nD) (t : Fin cfg2.N) : Vec F S5000x1 .i32 :=
  ((cfg2.win 1).blk t).view.read (Elt F) (V c (Pipeline.arrRef spec2 1))

def acc2_0 (c : Dev nD) : (n : ℕ) → n < cfg2.N → Vec F S512x64 .f32
  | 0, h => k2_pay4 (bblk2 V c ⟨0, h⟩) (xblk2 V c ⟨0, h⟩) k2_pay1
  | n + 1, h => k2_pay4 (bblk2 V c ⟨n + 1, h⟩) (xblk2 V c ⟨n + 1, h⟩) (acc2_0 c n (Nat.lt_of_succ_lt h))

def acc2_1 (c : Dev nD) : (n : ℕ) → n < cfg2.N → Vec F S512x1 .f32
  | 0, h => k2_pay5 (bblk2 V c ⟨0, h⟩) k2_pay2
  | n + 1, h => k2_pay5 (bblk2 V c ⟨n + 1, h⟩) (acc2_1 c n (Nat.lt_of_succ_lt h))

theorem acc2_eq (c : Dev nD) (t : Fin cfg2.N) (s0 : Vec F S512x64 .f32) (s1 : Vec F S512x1 .f32)
    (hs : ∀ hn : t.val ≠ 0, s0 = acc2_0 V c (t.val - 1) (by omega) ∧ s1 = acc2_1 V c (t.val - 1) (by omega)) :
    k2_pay4 (bblk2 V c t) (xblk2 V c t) (if t.val = 0 then k2_pay1 else s0) = acc2_0 V c t.val t.isLt
      ∧ k2_pay5 (bblk2 V c t) (if t.val = 0 then k2_pay2 else s1) = acc2_1 V c t.val t.isLt := by
  obtain ⟨_ | n, hn⟩ := t
  · exact ⟨rfl, rfl⟩
  · obtain ⟨rfl, rfl⟩ := hs (Nat.succ_ne_zero n); exact ⟨rfl, rfl⟩

def PhiS2 (c : Dev nD) (n : ℕ) (h : n ≤ cfg2.N) : sProp 𝕄 :=
  iprop((∃ r, prngReg c r)
    ∗ (∃ s0 s1, ⌜∀ hn : n ≠ 0, s0 = acc2_0 V c (n - 1) (by omega) ∧ s1 = acc2_1 V c (n - 1) (by omega)⌝ ∗ owns c scM2_0 fullShare s0 ∗ owns c scM2_1 fullShare s1)
    ∗ Pipeline.scopedRestBut (Ix := Unit) (Name := ℕ) (U := UR sig nD τ) (Lvl := ℕ) (Val := Elt F) spec2 c [cc2_scratch0, cc2_scratch1])

def dat2 (c : Dev nD) : Dat τ (Elt F) Unit ℕ (UR sig nD τ) ℕ cfg2 c where
  A w := V c (Pipeline.arrRef spec2 w)
  after w t := match w with
    | ⟨0, _⟩ => xblk2 V c t
    | ⟨1, _⟩ => bblk2 V c t
    | ⟨2, _⟩ => acc2_0 V c t.val t.isLt
    | ⟨3, _⟩ => acc2_1 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem q_full2 (c : Dev nD) (w : Fin cfg2.W) : (dat2 V c).q w = fullShare := rfl

theorem owed_zero2 (c : Dev nD) (t : Fin (cfg2.N + 1)) : (dat2 V c).owed t = 0 := rfl

theorem after2_2 (c : Dev nD) (t : Fin cfg2.N) : (dat2 V c).after 2 t = acc2_0 V c t.val t.isLt := rfl
theorem after2_3 (c : Dev nD) (t : Fin cfg2.N) : (dat2 V c).after 3 t = acc2_1 V c t.val t.isLt := rfl

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  simp only [dat2, PhiS2, scopedRest2_split, owns_whole]
  iintro ⟨Hg, ⟨⟨%f0, H0⟩, ⟨%f1, H1⟩⟩, Hr⟩
  iframe Hg Hr
  iexists f0, f1
  iframe H0 H1
  ipureintro; exact fun h => absurd rfl h

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  simp only [dat2, PhiS2, scopedRest2_split, owns_whole]
  iintro ⟨Hg, ⟨%s0, %s1, -, H0, H1⟩, Hr⟩
  iframe Hg Hr
  isplitl [H0] <;> (iexists _; iassumption)

theorem hz2 : (![0, 0] : Fin 2 → ℕ) = fun _ => 0 := by funext a; fin_cases a <;> rfl

set_option maxHeartbeats 1000000 in

theorem run2 (c : Dev nD) (i : grid2.Coords)
    (arg1 : Memref sig .tc .vmem S5000x64 .f32) (harg1 : arg1.IsWhole) (arg2 : Memref sig .tc .vmem S5000x1 .i32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    {p0 p1 : Prop} [Decidable p0] [Decidable p1] (h0 : cond2_0 i ↔ p0) (h1 : cond2_1 i ↔ p1) (hx : ¬(p0 ∧ p1))
    (x : Vec F S5000x64 .f32) (b : Vec F S5000x1 .i32) (o2 s0 : Vec F S512x64 .f32) (o3 s1 : Vec F S512x1 .f32)
    (E : Set ℕ) (K : PUnit → sProp 𝕄) :
    iprop(owns c arg1 fullShare x ∗ owns c arg2 fullShare b
        ∗ owns c arg3 fullShare o2 ∗ owns c arg4 fullShare o3
        ∗ owns c arg5 fullShare s0 ∗ owns c arg6 fullShare s1
        ∗ (iprop(owns c arg1 fullShare x ∗ owns c arg2 fullShare b
            ∗ owns c arg3 fullShare (if p1 then k2_pay4 b x (if p0 then k2_pay1 else s0) else o2)
            ∗ owns c arg4 fullShare (if p1 then k2_pay5 b (if p0 then k2_pay2 else s1) else o3)
            ∗ owns c arg5 fullShare (k2_pay4 b x (if p0 then k2_pay1 else s0))
            ∗ owns c arg6 fullShare (k2_pay5 b (if p0 then k2_pay2 else s1))) -∗ K ⟨⟩))
      ⊢ wp frame (wpE (defs₀ (F := F)) Variants.none c none) E (cc2__reduce_kernel i arg1 harg1 arg2 harg2 arg3 harg3 arg4 harg4 arg5 harg5 arg6 harg6) K := by
  by_cases hp0 : p0 <;> by_cases hp1 : p1
  · exact absurd ⟨hp0, hp1⟩ hx
  all_goals
    simp only [hp0, hp1, ↓reduceIte, cc2__reduce_kernel_eq_skeleton]; unfold cc2__reduce_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact h0.mpr hp0 | exact mt h0.mp hp0 | exact h1.mpr hp1 | exact mt h1.mp hp1)
    sl_step
    iapply Hk
    isplitl [H1]; rotate_left; isplitl [H2]; rotate_left; isplitl [H3]; rotate_left
    isplitl [H4]; rotate_left; isplitl [H5]; rotate_left
    all_goals
      iexists _; isplitr; swap; · iassumption
      ipureintro
      try sl_unfold_run_names
      try rw [View.read_writes_cons_unit_zero _ _ hz2]
      simp only [View.readCov_unit_zero (S := S512x64) _ hz2, View.readCov_unit_zero (S := S512x1) _ hz2, View.readAt_eq_ld,
        harg1.read_unread, harg2.read_unread, harg3.read_unread, harg4.read_unread, harg5.read_unread, harg6.read_unread,
        View.ld_unit_zero (S := S5000x64) hz2, View.ld_unit_zero (S := S5000x1) hz2,
        View.ld_unit_zero (S := S512x64) hz2, View.ld_unit_zero (S := S512x1) hz2]

theorem before2_0 (c : Dev nD) (t : Fin cfg2.N) (d) : (dat2 V c).before 0 t d = xblk2 V c t :=
  ((dat2 V c).before_fetched 0 t (fetch2_0 t) d).trans rfl
theorem before2_1 (c : Dev nD) (t : Fin cfg2.N) (d) : (dat2 V c).before 1 t d = bblk2 V c t :=
  ((dat2 V c).before_fetched 1 t (fetch2_1 t) d).trans rfl

theorem sound_body2 (c : Dev nD) (t : Fin cfg2.N) :
    iprop(PhiS2 V c t.val (Nat.le_of_lt t.isLt) ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d)))
      ⊢ wp frame (wpE (defs₀ (F := F)) Variants.none c none) Set.univ (bodyAt2 t) (fun _ =>
        iprop(PhiS2 V c (t.val + 1) t.isLt ∗ (dat2 V c).owesAt () t.castSucc
          ∗ owns c (st2_0 t) fullShare (xblk2 V c t) ∗ owns c (st2_1 t) fullShare (bblk2 V c t)
          ∗ (dat2 V c).leavesExact 2 t ∗ (dat2 V c).leavesExact 3 t)) := by
  unfold bodyAt2
  simp only [before2_0, before2_1]
  unfold PhiS2
  iintro ⟨⟨Hg, ⟨%s0, %s1, %hs, HS0, HS1⟩, Hr⟩, Ho, ⟨%d0, H0⟩, ⟨%d1, H1⟩, ⟨%d2, H2⟩, ⟨%d3, H3⟩⟩
  obtain ⟨hA, hB⟩ := acc2_eq V c t s0 s1 hs
  iapply (run2 c (grid2.coords t) _ _ _ _ _ _ _ _ _ _ _ _ (hcond2_0 t) (hcond2_1 t) (by omega)
    (xblk2 V c t) (bblk2 V c t) _ s0 _ s1 Set.univ _)
  iframe H0 H1 H2 H3 HS0 HS1
  rw [hA, hB]
  iintro ⟨H0, H1, H2, H3, HS0, HS1⟩
  iframe Hg Hr Ho H0 H1
  isplitl [HS0 HS1]
  · iexists _, _
    iframe HS0 HS1
    ipureintro; exact fun _ => ⟨rfl, rfl⟩
  unfold Dat.leavesExact
  by_cases h99 : t.val = 99
  · obtain ⟨i2, i3⟩ := (idleAt2 t).1 h99
    rw [i2]; try rw [i3]
    simp only [if_pos h99, after2_2, after2_3]
    iframe
  · obtain ⟨i2, i3, f2, f3⟩ := (idleAt2 t).2 h99
    rw [i2]; try rw [i3]
    simp only [f2, f3, if_neg h99]
    isplitl [H2] <;> (iexists _; iassumption)

theorem body_obligation2 (c : Dev nD) :
    BodyObligation (dat2 (F := F) V c) (defs₀ (F := F)) Variants.none () Set.univ := fun t => by
  rw [bigSep_W2, bigSep_W2]
  exact sound_body2 V c t

end Cert.Kernel.Gen

end
-- ==== Proof.K.Region3.lean ====
import proofs.«420090_j3152505996138_1_alg».proof.Proof.Gen.Kernel.Launch
import proofs.«420090_j3152505996138_1_alg».proof.Proof.Gen.Kernel.Skeleton
import proofs.«420090_j3152505996138_1_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S5000x64 := Rect.unit (s := S5000x64) ![0, 0] S5000x64.size inb_S5000x64_S5000x64_0_0
abbrev rB3 : Rect S5000x1 := Rect.unit (s := S5000x1) ![0, 0] S5000x1.size inb_S5000x1_S5000x1_0_0
abbrev rW3 : Rect S64x64 := Rect.unit (s := S64x64) ![0, 0] S64x64.size inb_S64x64_S64x64_0_0
abbrev rG3 : Rect S1x64 := Rect.unit (s := S1x64) ![0, 0] S1x64.size inb_S1x64_S1x64_0_0
abbrev rM3 : Rect S512x64 := Rect.unit (s := S512x64) ![0, 0] S512x64.size inb_S512x64_S512x64_0_0

def out3 (x : Vec F S5000x64 .f32) (b : Vec F S5000x1 .i32) (W : Vec F S64x64 .f32) (g : Vec F S1x64 .f32) (M : Vec F S512x64 .f32) :
    Vec F S5000x64 .f32 :=
  View.canon [⟨rX3, k3_pay1 (View.ld b rB3) (View.ld M rM3) (View.ld x rX3) (View.ld W rW3) (View.ld g rG3)⟩]

theorem hz3 : (![0, 0] : Fin 2 → Nat) = fun _ => 0 := funext fun a => by fin_cases a <;> rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem Φ_eq3 (c : Dev nD) (t) : (dat3 V c).Φ t = Pipeline.ΦA spec3 c := rfl

theorem after3_5 (c : Dev nD) (t : Fin cfg3.N) :
    (dat3 V c).after 5 t = out3 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;>
    exact (dat3 V c).before_in_eq_fetched _ rfl (fun _ => rfl) (fun _ _ _ => rfl) (fun _ => rfl) t

theorem body_triple3 {T0 T1 T2 T3 T4 T5 : Type} (c : Dev nD) (E i)
    (arg1 arg6 : Memref sig .tc .vmem S5000x64 .f32) (arg2 : Memref sig .tc .vmem S5000x1 .i32) (arg3 : Memref sig .tc .vmem S64x64 .f32)
    (arg4 : Memref sig .tc .vmem S1x64 .f32) (arg5 : Memref sig .tc .vmem S512x64 .f32)
    (harg1 harg2 harg3 harg4 harg5 harg6 x b W g M) (y : T5 → _)
    (Φ O : sProp (MT nD τ sig Unit (Elt F) ℕ (UR sig nD τ) ℕ)) :
    iprop(Φ ∗ O ∗ (∃ _ : T0, owns c.tc arg1 fullShare x) ∗ (∃ _ : T1, owns c.tc arg2 fullShare b) ∗ (∃ _ : T2, owns c.tc arg3 fullShare W)
        ∗ (∃ _ : T3, owns c.tc arg4 fullShare g) ∗ (∃ _ : T4, owns c.tc arg5 fullShare M) ∗ (∃ d, owns c.tc arg6 fullShare (y d)))
      ⊢ wp frame (wpE (defs₀ (F := F)) Variants.none c none) E
          (cc3__gather_linear_relu_kernel i arg1 harg1 arg2 harg2 arg3 harg3 arg4 harg4 arg5 harg5 arg6 harg6) fun _ =>
        iprop(Φ ∗ O ∗ owns c.tc arg1 fullShare x ∗ owns c.tc arg2 fullShare b ∗ owns c.tc arg3 fullShare W
          ∗ owns c.tc arg4 fullShare g ∗ owns c.tc arg5 fullShare M ∗ owns c.tc arg6 fullShare (out3 x b W g M)) := by
  simp only [cc3__gather_linear_relu_kernel_eq_skeleton]; unfold cc3__gather_linear_relu_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, -, H6⟩⟩
  subst hf1 hf2 hf3 hf4 hf5
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S5000x64.size (by rfl))

theorem body_obligation3 (c : Dev nD) :
    BodyObligation (dat3 (F := F) V c) (defs₀ (F := F)) Variants.none () Set.univ := fun t => by
  rw [bigSep_W3, bigSep_W3]
  show _ ⊢ wp _ _ _ (bodyAt3 t) _
  simp only [before3 V c t, after3_5]
  exact body_triple3 c _ _ _ _ _ _ _ _ _ _ _ _ _ _ _ _ _ _ _ _ _ _

end Cert.Kernel.Gen
-- ==== Proof.K.Region4.lean ====
import proofs.«420090_j3152505996138_1_alg».proof.Proof.Gen.Kernel.Launch
import proofs.«420090_j3152505996138_1_alg».proof.Proof.Gen.Kernel.Skeleton
import proofs.«420090_j3152505996138_1_alg».proof.Proof.Gen.Kernel.Points
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
abbrev cond4_1 (i : grid4.Coords) : Prop := k4_cond2 i = 1#1
theorem hcond4_1 : ∀ t : Fin cfg4.N, cond4_1 (grid4.coords t) ↔ t.val = 99 :=
  (by decide +kernel : ∀ t : Fin grid4.N, cond4_1 (grid4.coords t) ↔ t.val = 99)

theorem idleAt4 : ∀ t : Fin cfg4.N, (t.val = 99 → cfg4.idle 2 (grid4.coords t) = false ∧ cfg4.idle 3 (grid4.coords t) = false)
    ∧ (t.val ≠ 99 → cfg4.idle 2 (grid4.coords t) = true ∧ cfg4.idle 3 (grid4.coords t) = true
      ∧ (cfg4.win 2).flush t = false ∧ (cfg4.win 3).flush t = false) := by decide +kernel

abbrev scM4_0 : Memref sig .tc .vmem S512x64 .f32 := Memref.whole cc4_scratch0
abbrev scM4_1 : Memref sig .tc .vmem S512x1 .f32 := Memref.whole cc4_scratch1

def xblk4 (c : Dev nD) (t : Fin cfg4.N) : Vec F S5000x64 .f32 :=
  ((cfg4.win 0).blk t).view.read (Elt F) (V c (Pipeline.arrRef spec4 0))
def bblk4 (c : Dev nD) (t : Fin cfg4.N) : Vec F S5000x1 .i32 :=
  ((cfg4.win 1).blk t).view.read (Elt F) (V c (Pipeline.arrRef spec4 1))

def acc4_0 (c : Dev nD) : (n : ℕ) → n < cfg4.N → Vec F S512x64 .f32
  | 0, h => k4_pay4 (bblk4 V c ⟨0, h⟩) (xblk4 V c ⟨0, h⟩) k4_pay1
  | n + 1, h => k4_pay4 (bblk4 V c ⟨n + 1, h⟩) (xblk4 V c ⟨n + 1, h⟩) (acc4_0 c n (Nat.lt_of_succ_lt h))

def acc4_1 (c : Dev nD) : (n : ℕ) → n < cfg4.N → Vec F S512x1 .f32
  | 0, h => k4_pay5 (bblk4 V c ⟨0, h⟩) k4_pay2
  | n + 1, h => k4_pay5 (bblk4 V c ⟨n + 1, h⟩) (acc4_1 c n (Nat.lt_of_succ_lt h))

theorem acc4_eq (c : Dev nD) (t : Fin cfg4.N) (s0 : Vec F S512x64 .f32) (s1 : Vec F S512x1 .f32)
    (hs : ∀ hn : t.val ≠ 0, s0 = acc4_0 V c (t.val - 1) (by omega) ∧ s1 = acc4_1 V c (t.val - 1) (by omega)) :
    k4_pay4 (bblk4 V c t) (xblk4 V c t) (if t.val = 0 then k4_pay1 else s0) = acc4_0 V c t.val t.isLt
      ∧ k4_pay5 (bblk4 V c t) (if t.val = 0 then k4_pay2 else s1) = acc4_1 V c t.val t.isLt := by
  obtain ⟨_ | n, hn⟩ := t
  · exact ⟨rfl, rfl⟩
  · obtain ⟨rfl, rfl⟩ := hs (Nat.succ_ne_zero n); exact ⟨rfl, rfl⟩

def PhiS4 (c : Dev nD) (n : ℕ) (h : n ≤ cfg4.N) : sProp 𝕄 :=
  iprop((∃ r, prngReg c r)
    ∗ (∃ s0 s1, ⌜∀ hn : n ≠ 0, s0 = acc4_0 V c (n - 1) (by omega) ∧ s1 = acc4_1 V c (n - 1) (by omega)⌝ ∗ owns c scM4_0 fullShare s0 ∗ owns c scM4_1 fullShare s1)
    ∗ Pipeline.scopedRestBut (Ix := Unit) (Name := ℕ) (U := UR sig nD τ) (Lvl := ℕ) (Val := Elt F) spec4 c [cc4_scratch0, cc4_scratch1])

def dat4 (c : Dev nD) : Dat τ (Elt F) Unit ℕ (UR sig nD τ) ℕ cfg4 c where
  A w := V c (Pipeline.arrRef spec4 w)
  after w t := match w with
    | ⟨0, _⟩ => xblk4 V c t
    | ⟨1, _⟩ => bblk4 V c t
    | ⟨2, _⟩ => acc4_0 V c t.val t.isLt
    | ⟨3, _⟩ => acc4_1 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_full4 (c : Dev nD) (w : Fin cfg4.W) : (dat4 V c).q w = fullShare := rfl

theorem owed_zero4 (c : Dev nD) (t : Fin (cfg4.N + 1)) : (dat4 V c).owed t = 0 := rfl

theorem after4_2 (c : Dev nD) (t : Fin cfg4.N) : (dat4 V c).after 2 t = acc4_0 V c t.val t.isLt := rfl
theorem after4_3 (c : Dev nD) (t : Fin cfg4.N) : (dat4 V c).after 3 t = acc4_1 V c t.val t.isLt := rfl

theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  simp only [dat4, PhiS4, scopedRest4_split, owns_whole]
  iintro ⟨Hg, ⟨⟨%f0, H0⟩, ⟨%f1, H1⟩⟩, Hr⟩
  iframe Hg Hr
  iexists f0, f1
  iframe H0 H1
  ipureintro; exact fun h => absurd rfl h

theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  simp only [dat4, PhiS4, scopedRest4_split, owns_whole]
  iintro ⟨Hg, ⟨%s0, %s1, -, H0, H1⟩, Hr⟩
  iframe Hg Hr
  isplitl [H0] <;> (iexists _; iassumption)

theorem hz4 : (![0, 0] : Fin 2 → ℕ) = fun _ => 0 := by funext a; fin_cases a <;> rfl

set_option maxHeartbeats 1000000 in

theorem run4 (c : Dev nD) (i : grid4.Coords)
    (arg1 : Memref sig .tc .vmem S5000x64 .f32) (harg1 : arg1.IsWhole) (arg2 : Memref sig .tc .vmem S5000x1 .i32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    {p0 p1 : Prop} [Decidable p0] [Decidable p1] (h0 : cond4_0 i ↔ p0) (h1 : cond4_1 i ↔ p1) (hx : ¬(p0 ∧ p1))
    (x : Vec F S5000x64 .f32) (b : Vec F S5000x1 .i32) (o2 s0 : Vec F S512x64 .f32) (o3 s1 : Vec F S512x1 .f32)
    (E : Set ℕ) (K : PUnit → sProp 𝕄) :
    iprop(owns c arg1 fullShare x ∗ owns c arg2 fullShare b
        ∗ owns c arg3 fullShare o2 ∗ owns c arg4 fullShare o3
        ∗ owns c arg5 fullShare s0 ∗ owns c arg6 fullShare s1
        ∗ (iprop(owns c arg1 fullShare x ∗ owns c arg2 fullShare b
            ∗ owns c arg3 fullShare (if p1 then k4_pay4 b x (if p0 then k4_pay1 else s0) else o2)
            ∗ owns c arg4 fullShare (if p1 then k4_pay5 b (if p0 then k4_pay2 else s1) else o3)
            ∗ owns c arg5 fullShare (k4_pay4 b x (if p0 then k4_pay1 else s0))
            ∗ owns c arg6 fullShare (k4_pay5 b (if p0 then k4_pay2 else s1))) -∗ K ⟨⟩))
      ⊢ wp frame (wpE (defs₀ (F := F)) Variants.none c none) E (cc4__reduce_kernel i arg1 harg1 arg2 harg2 arg3 harg3 arg4 harg4 arg5 harg5 arg6 harg6) K := by
  by_cases hp0 : p0 <;> by_cases hp1 : p1
  · exact absurd ⟨hp0, hp1⟩ hx
  all_goals
    simp only [hp0, hp1, ↓reduceIte, cc4__reduce_kernel_eq_skeleton]; unfold cc4__reduce_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact h0.mpr hp0 | exact mt h0.mp hp0 | exact h1.mpr hp1 | exact mt h1.mp hp1)
    sl_step
    iapply Hk
    isplitl [H1]; rotate_left; isplitl [H2]; rotate_left; isplitl [H3]; rotate_left
    isplitl [H4]; rotate_left; isplitl [H5]; rotate_left
    all_goals
      iexists _; isplitr; swap; · iassumption
      ipureintro
      try sl_unfold_run_names
      try rw [View.read_writes_cons_unit_zero _ _ hz4]
      simp only [View.readCov_unit_zero (S := S512x64) _ hz4, View.readCov_unit_zero (S := S512x1) _ hz4, View.readAt_eq_ld,
        harg1.read_unread, harg2.read_unread, harg3.read_unread, harg4.read_unread, harg5.read_unread, harg6.read_unread,
        View.ld_unit_zero (S := S5000x64) hz4, View.ld_unit_zero (S := S5000x1) hz4,
        View.ld_unit_zero (S := S512x64) hz4, View.ld_unit_zero (S := S512x1) hz4]

theorem before4_0 (c : Dev nD) (t : Fin cfg4.N) (d) : (dat4 V c).before 0 t d = xblk4 V c t :=
  ((dat4 V c).before_fetched 0 t (fetch4_0 t) d).trans rfl
theorem before4_1 (c : Dev nD) (t : Fin cfg4.N) (d) : (dat4 V c).before 1 t d = bblk4 V c t :=
  ((dat4 V c).before_fetched 1 t (fetch4_1 t) d).trans rfl

theorem sound_body4 (c : Dev nD) (t : Fin cfg4.N) :
    iprop(PhiS4 V c t.val (Nat.le_of_lt t.isLt) ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d)))
      ⊢ wp frame (wpE (defs₀ (F := F)) Variants.none c none) Set.univ (bodyAt4 t) (fun _ =>
        iprop(PhiS4 V c (t.val + 1) t.isLt ∗ (dat4 V c).owesAt () t.castSucc
          ∗ owns c (st4_0 t) fullShare (xblk4 V c t) ∗ owns c (st4_1 t) fullShare (bblk4 V c t)
          ∗ (dat4 V c).leavesExact 2 t ∗ (dat4 V c).leavesExact 3 t)) := by
  unfold bodyAt4
  simp only [before4_0, before4_1]
  unfold PhiS4
  iintro ⟨⟨Hg, ⟨%s0, %s1, %hs, HS0, HS1⟩, Hr⟩, Ho, ⟨%d0, H0⟩, ⟨%d1, H1⟩, ⟨%d2, H2⟩, ⟨%d3, H3⟩⟩
  obtain ⟨hA, hB⟩ := acc4_eq V c t s0 s1 hs
  iapply (run4 c (grid4.coords t) _ _ _ _ _ _ _ _ _ _ _ _ (hcond4_0 t) (hcond4_1 t) (by omega)
    (xblk4 V c t) (bblk4 V c t) _ s0 _ s1 Set.univ _)
  iframe H0 H1 H2 H3 HS0 HS1
  rw [hA, hB]
  iintro ⟨H0, H1, H2, H3, HS0, HS1⟩
  iframe Hg Hr Ho H0 H1
  isplitl [HS0 HS1]
  · iexists _, _
    iframe HS0 HS1
    ipureintro; exact fun _ => ⟨rfl, rfl⟩
  unfold Dat.leavesExact
  by_cases h99 : t.val = 99
  · obtain ⟨i2, i3⟩ := (idleAt4 t).1 h99
    rw [i2]; try rw [i3]
    simp only [if_pos h99, after4_2, after4_3]
    iframe
  · obtain ⟨i2, i3, f2, f3⟩ := (idleAt4 t).2 h99
    rw [i2]; try rw [i3]
    simp only [f2, f3, if_neg h99]
    isplitl [H2] <;> (iexists _; iassumption)

theorem body_obligation4 (c : Dev nD) :
    BodyObligation (dat4 (F := F) V c) (defs₀ (F := F)) Variants.none () Set.univ := fun t => by
  rw [bigSep_W4, bigSep_W4]
  exact sound_body4 V c t

end Cert.Kernel.Gen

end
-- ==== Proof.K.Region5.lean ====
import proofs.«420090_j3152505996138_1_alg».proof.Proof.Gen.Kernel.Points
import proofs.«420090_j3152505996138_1_alg».proof.Proof.Gen.Kernel.Launch
import proofs.«420090_j3152505996138_1_alg».proof.Proof.Gen.Kernel.Skeleton
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

abbrev first5 (i : grid5.Coords) : Prop := (Scalar.cmpi .ne (Scalar.extui (Scalar.cmpi .eq (BitVec.ofNat 32 (i 0).val) 0#32)) 0#32) = 1#1
abbrev last5 (i : grid5.Coords) : Prop := k5_cond2 i = 1#1

theorem first5_iff : ∀ t : Fin cfg5.N, first5 (grid5.coords t) ↔ t.val = 0 :=
  (by decide +kernel : ∀ t : Fin grid5.N, first5 (grid5.coords t) ↔ t.val = 0)
theorem last5_iff : ∀ t : Fin cfg5.N, last5 (grid5.coords t) ↔ t.val = 99 :=
  (by decide +kernel : ∀ t : Fin grid5.N, last5 (grid5.coords t) ↔ t.val = 99)

theorem hz2 : (![0, 0] : Fin 2 → ℕ) = fun _ => 0 := by
  funext a; fin_cases a <;> rfl

abbrev own5 (c : Dev nD) {sp : Space} {S : Shape} {e : EltTy} (m : Memref sig .tc sp S e) (X : S.Idx → Elt F e) : sProp 𝕄 :=
  owns (c : Thread nD τ) m fullShare X

set_option maxHeartbeats 1000000 in

theorem run5 (c : Dev nD) (i : grid5.Coords) (a1 : Memref sig .tc .vmem S5000x64 .f32) (h1 : a1.IsWhole) (a2 : Memref sig .tc .vmem S5000x1 .i32) (h2 : a2.IsWhole)
    (a3 : Memref sig .tc .vmem S64x128 .f32) (h3 : a3.IsWhole) (a4 : Memref sig .tc .vmem S1x128 .f32) (h4 : a4.IsWhole) (a5 : Memref sig .tc .vmem S512x128 .f32) (h5 : a5.IsWhole)
    (a6 : Memref sig .tc .vmem S5000x128 .f32) (h6 : a6.IsWhole) (a7 : Memref sig .tc .vmem S1x128 .f32) (h7 : a7.IsWhole) (a8 : Memref sig .tc .vmem S1x128 .f32) (h8 : a8.IsWhole)
    (a9 : Memref sig .tc .vmem S1x128 .f32) (h9 : a9.IsWhole) (a10 : Memref sig .tc .vmem S1x128 .f32) (h10 : a10.IsWhole) (hfl : first5 i → ¬ last5 i)
    (x0 : Vec F S5000x64 .f32) (x1 : Vec F S5000x1 .i32) (x2 : Vec F S64x128 .f32) (x3 : Vec F S1x128 .f32) (x4 : Vec F S512x128 .f32) (d : Vec F S5000x128 .f32)
    (y6 y7 s0 s1 : Vec F S1x128 .f32) (E : Set ℕ) (K : PUnit → sProp 𝕄) :
    iprop(own5 c a1 x0 ∗ own5 c a2 x1 ∗ own5 c a3 x2 ∗ own5 c a4 x3 ∗ own5 c a5 x4 ∗ own5 c a6 d ∗ own5 c a7 y6 ∗ own5 c a8 y7 ∗ own5 c a9 s0 ∗ own5 c a10 s1
        ∗ (own5 c a1 x0 -∗ own5 c a2 x1 -∗ own5 c a3 x2 -∗ own5 c a4 x3 -∗ own5 c a5 x4 -∗ own5 c a6 (k5_pay5 x1 x4 x0 x2 x3)
          -∗ own5 c a7 (if last5 i then k5_pay1 (k5_pay7 x1 x4 x0 x2 x3 (if first5 i then k5_pay3 else s0)) else y6)
          -∗ own5 c a8 (if last5 i then k5_pay2 (k5_pay6 x1 x4 x0 x2 x3) (if first5 i then k5_pay4 else s1) else y7)
          -∗ own5 c a9 (k5_pay1 (k5_pay7 x1 x4 x0 x2 x3 (if first5 i then k5_pay3 else s0)))
          -∗ own5 c a10 (k5_pay2 (k5_pay6 x1 x4 x0 x2 x3) (if first5 i then k5_pay4 else s1)) -∗ K ⟨⟩))
      ⊢ wp frame (wpE (defs₀ (F := F)) Variants.none c none) E (cc5__gather_linear_stats_kernel i a1 h1 a2 h2 a3 h3 a4 h4 a5 h5 a6 h6 a7 h7 a8 h8 a9 h9 a10 h10) K := by
  simp only [cc5__gather_linear_stats_kernel_eq_skeleton]
  unfold cc5__gather_linear_stats_kernel_skel
  simp only [k5_part1_eq_skeleton]
  unfold k5_part1_skel
  unfold own5 owns
  iintro ⟨⟨%f0, %e0, H0⟩, ⟨%f1, %e1, H1⟩, ⟨%f2, %e2, H2⟩, ⟨%f3, %e3, H3⟩, ⟨%f4, %e4, H4⟩, ⟨%f5, -, H5⟩, ⟨%f6, %e6, H6⟩, ⟨%f7, %e7, H7⟩, ⟨%f8, %e8, H8⟩, ⟨%f9, %e9, H9⟩, Hk⟩
  obtain rfl := h1.eq_unread e0; obtain rfl := h2.eq_unread e1; obtain rfl := h3.eq_unread e2; obtain rfl := h4.eq_unread e3; obtain rfl := h5.eq_unread e4
  obtain rfl := h7.eq_unread e6; obtain rfl := h8.eq_unread e7; obtain rfl := h9.eq_unread e8; obtain rfl := h10.eq_unread e9
  by_cases hc1 : first5 i <;> by_cases hc2 : last5 i
  · exact absurd hc2 (hfl hc1)
  all_goals
    first | rw [if_pos hc1, if_pos hc1] | rw [if_neg hc1, if_neg hc1]
    first | rw [if_pos hc2, if_pos hc2] | rw [if_neg hc2, if_neg hc2]
    sl_exec (disch := first | exact hc1 | exact hc2)
    sl_step
    iapply Hk $$ [H0] [H1] [H2] [H3] [H4] [H5] [H6] [H7] [H8] [H9]
    all_goals (iexists _; isplitr; swap; iassumption; ipureintro)
    all_goals first
      | with_reducible exact Memref.IsWhole.read_unread _ _
      | (try sl_unfold_words
         rw [View.read_writes_cons_unit_zero _ _ hz2]
         simp only [View.readAt_eq_ld, h1.read_unread, h2.read_unread, h3.read_unread, h4.read_unread, h5.read_unread, h9.read_unread, h10.read_unread,
           View.ld_unit_zero (S := S5000x64) hz2, View.ld_unit_zero (S := S5000x1) hz2, View.ld_unit_zero (S := S64x128) hz2, View.ld_unit_zero (S := S1x128) hz2,
           View.ld_unit_zero (S := S512x128) hz2, View.readCov_unit_zero (S := S1x128) _ hz2])

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xin5 (c : Dev nD) (t : Fin cfg5.N) : Vec F S5000x64 .f32 := iblk5 V c 0 t
abbrev bat5 (c : Dev nD) (t : Fin cfg5.N) : Vec F S5000x1 .i32 := iblk5 V c 1 t
abbrev gw5 (c : Dev nD) (t : Fin cfg5.N) : Vec F S64x128 .f32 := iblk5 V c 2 t
abbrev gb5 (c : Dev nD) (t : Fin cfg5.N) : Vec F S1x128 .f32 := iblk5 V c 3 t
abbrev xm5 (c : Dev nD) (t : Fin cfg5.N) : Vec F S512x128 .f32 := iblk5 V c 4 t

def val5 (c : Dev nD) (t : Fin cfg5.N) : Vec F S5000x128 .f32 := k5_pay5 (bat5 V c t) (xm5 V c t) (xin5 V c t) (gw5 V c t) (gb5 V c t)
def pos5 (c : Dev nD) (t : Fin cfg5.N) : Vec F S5000x128 .f32 := k5_pay6 (bat5 V c t) (xm5 V c t) (xin5 V c t) (gw5 V c t) (gb5 V c t)
def sumStep5 (c : Dev nD) (t : Fin cfg5.N) (s : Vec F S1x128 .f32) : Vec F S1x128 .f32 :=
  k5_pay1 (k5_pay7 (bat5 V c t) (xm5 V c t) (xin5 V c t) (gw5 V c t) (gb5 V c t) s)
def sqStep5 (c : Dev nD) (t : Fin cfg5.N) (s : Vec F S1x128 .f32) : Vec F S1x128 .f32 :=
  k5_pay2 (pos5 V c t) s

def acc5 (c : Dev nD) : (n : ℕ) → n < cfg5.N → Vec F S1x128 .f32 × Vec F S1x128 .f32
  | 0, h => (sumStep5 V c ⟨0, h⟩ k5_pay3, sqStep5 V c ⟨0, h⟩ k5_pay4)
  | n + 1, h => (sumStep5 V c ⟨n + 1, h⟩ (acc5 c n (Nat.lt_of_succ_lt h)).1, sqStep5 V c ⟨n + 1, h⟩ (acc5 c n (Nat.lt_of_succ_lt h)).2)

theorem acc5_step (c : Dev nD) (t : Fin cfg5.N) (s0 s1 : Vec F S1x128 .f32)
    (hs : ∀ h : t.val ≠ 0, (s0, s1) = acc5 V c (t.val - 1) (Nat.lt_of_le_of_lt (Nat.sub_le _ _) t.isLt)) :
    (acc5 V c t.val t.isLt).1 = k5_pay1 (k5_pay7 (bat5 V c t) (xm5 V c t) (xin5 V c t) (gw5 V c t) (gb5 V c t) (if first5 (grid5.coords t) then k5_pay3 else s0))
      ∧ (acc5 V c t.val t.isLt).2 = k5_pay2 (k5_pay6 (bat5 V c t) (xm5 V c t) (xin5 V c t) (gw5 V c t) (gb5 V c t)) (if first5 (grid5.coords t) then k5_pay4 else s1) := by
  simp only [first5_iff t]
  obtain ⟨_ | n, hn⟩ := t
  · exact ⟨rfl, rfl⟩
  · obtain ⟨rfl, rfl⟩ := Prod.mk.inj (hs (Nat.succ_ne_zero n)); exact ⟨rfl, rfl⟩

abbrev sc5_0 : Memref sig .tc .vmem S1x128 .f32 := Memref.whole cc5_scratch0
abbrev sc5_1 : Memref sig .tc .vmem S1x128 .f32 := Memref.whole cc5_scratch1

def Phi5 (c : Dev nD) (n : ℕ) (h : n ≤ cfg5.N) : sProp 𝕄 :=
  iprop((∃ r, prngReg c r)
    ∗ (∃ s0 s1, ⌜∀ h0 : n ≠ 0, (s0, s1) = acc5 V c (n - 1) (by omega)⌝ ∗ own5 c sc5_0 s0 ∗ own5 c sc5_1 s1)
    ∗ Pipeline.scopedRestBut (Ix := Unit) (Name := ℕ) (U := UR sig nD τ) (Lvl := ℕ) (Val := Elt F) spec5 c [cc5_scratch0, cc5_scratch1])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => val5 V c t
    | ⟨6, _⟩ => (acc5 V c t.val t.isLt).1
    | ⟨7, _⟩ => (acc5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := rfl
theorem q_full5 (c : Dev nD) (w : Fin cfg5.W) : (dat5 V c).q w = fullShare := rfl
theorem owed_zero5 (c : Dev nD) (t : Fin (cfg5.N + 1)) : (dat5 V c).owed t = 0 := rfl
theorem after5_5 (c : Dev nD) (t : Fin cfg5.N) : (dat5 V c).after 5 t = val5 V c t := rfl
theorem after5_6 (c : Dev nD) (t : Fin cfg5.N) : (dat5 V c).after 6 t = (acc5 V c t.val t.isLt).1 := rfl
theorem after5_7 (c : Dev nD) (t : Fin cfg5.N) : (dat5 V c).after 7 t = (acc5 V c t.val t.isLt).2 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem out5 : ∀ t : Fin cfg5.N, (t.val = 99 → cfg5.idle 6 (grid5.coords t) = false ∧ cfg5.idle 7 (grid5.coords t) = false)
    ∧ (t.val ≠ 99 → cfg5.idle 6 (grid5.coords t) = true ∧ cfg5.idle 7 (grid5.coords t) = true ∧ (cfg5.win 6).flush t = false ∧ (cfg5.win 7).flush t = false) := by
  decide +kernel

set_option maxHeartbeats 4000000 in

theorem sound_body5 (c : Dev nD) (t : Fin cfg5.N) :
    iprop(Phi5 V c t.val (Nat.le_of_lt t.isLt) ∗ (dat5 V c).owesAt () t.castSucc
      ∗ (∃ d, own5 c (win5_0.stage (cfg5.slots t 0)) ((dat5 V c).before 0 t d))
      ∗ (∃ d, own5 c (win5_1.stage (cfg5.slots t 1)) ((dat5 V c).before 1 t d))
      ∗ (∃ d, own5 c (win5_2.stage (cfg5.slots t 2)) ((dat5 V c).before 2 t d))
      ∗ (∃ d, own5 c (win5_3.stage (cfg5.slots t 3)) ((dat5 V c).before 3 t d))
      ∗ (∃ d, own5 c (win5_4.stage (cfg5.slots t 4)) ((dat5 V c).before 4 t d))
      ∗ (∃ d, own5 c (win5_5.stage (cfg5.slots t 5)) ((dat5 V c).before 5 t d))
      ∗ (∃ d, own5 c (win5_6.stage (cfg5.slots t 6)) ((dat5 V c).before 6 t d))
      ∗ (∃ d, own5 c (win5_7.stage (cfg5.slots t 7)) ((dat5 V c).before 7 t d)))
      ⊢ wp frame (wpE (defs₀ (F := F)) Variants.none c none) Set.univ (bodyAt5 t) fun _ =>
        iprop(Phi5 V c (t.val + 1) t.isLt ∗ (dat5 V c).owesAt () t.castSucc
          ∗ own5 c (win5_0.stage (cfg5.slots t 0)) (xin5 V c t) ∗ own5 c (win5_1.stage (cfg5.slots t 1)) (bat5 V c t)
          ∗ own5 c (win5_2.stage (cfg5.slots t 2)) (gw5 V c t) ∗ own5 c (win5_3.stage (cfg5.slots t 3)) (gb5 V c t)
          ∗ own5 c (win5_4.stage (cfg5.slots t 4)) (xm5 V c t) ∗ own5 c (win5_5.stage (cfg5.slots t 5)) (val5 V c t)
          ∗ (dat5 V c).leavesExact 6 t ∗ (dat5 V c).leavesExact 7 t) := by
  simp only [before5_0, before5_1, before5_2, before5_3, before5_4]
  unfold Phi5 val5
  iintro ⟨⟨Hg, ⟨%s0, %s1, %hs, S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1⟩ := acc5_step V c t s0 s1 hs
  iapply (run5 c (grid5.coords t) _ _ _ _ _ _ _ _ _ _ _ _ _ _ _ _ _ _ _ _ (fun hf hl => by have := (first5_iff t).mp hf; have := (last5_iff t).mp hl; omega)
    _ _ _ _ _ _ _ _ s0 s1 Set.univ _)
  iframe H0 H1 H2 H3 H4 H5 H6 H7 S0 S1
  iintro H0 H1 H2 H3 H4 H5 H6 H7 S0 S1
  rw [← e0, ← e1]
  iframe Hg Hr Ho H0 H1 H2 H3 H4 H5
  isplitl [S0 S1]
  · iexists _, _
    iframe S0 S1
    ipureintro; exact fun _ => rfl
  unfold Dat.leavesExact
  by_cases hl : last5 (grid5.coords t)
  · obtain ⟨i6, i7⟩ := (out5 t).1 ((last5_iff t).mp hl)
    rw [i6]; try rw [i7]
    simp only [if_pos hl, after5_6, after5_7]
    iframe
  · obtain ⟨i6, i7, f6, f7⟩ := (out5 t).2 (mt (last5_iff t).mpr hl)
    rw [i6]; try rw [i7]
    simp only [f6, f7, if_neg hl]
    isplitl [H6] <;> (iexists _; iassumption)

theorem body_obligation5 (c : Dev nD) : BodyObligation (dat5 (F := F) V c) (defs₀ (F := F)) Variants.none () Set.univ := fun t => by
  rw [bigSep_W5, bigSep_W5]
  exact sound_body5 V c t

theorem hin5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  simp only [dat5, Phi5, scopedRest5_split, owns_whole]
  iintro ⟨Hg, ⟨⟨%s0, H0⟩, ⟨%s1, H1⟩⟩, Hr⟩
  iframe Hg Hr
  iexists s0, s1
  iframe H0 H1
  ipureintro; exact fun h => absurd rfl h

theorem hout5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  simp only [dat5, Phi5, scopedRest5_split, owns_whole]
  iintro ⟨Hg, ⟨%s0, %s1, -, H0, H1⟩, Hr⟩
  iframe Hg Hr
  isplitl [H0] <;> iexists _ <;> iassumption

end Cert.Kernel.Gen

end
-- ==== Proof.K.Region6.lean ====
import proofs.«420090_j3152505996138_1_alg».proof.Proof.Gen.Kernel.Launch
import proofs.«420090_j3152505996138_1_alg».proof.Proof.Gen.Kernel.Skeleton
import proofs.«420090_j3152505996138_1_alg».proof.Proof.Gen.Kernel.Points
import Idealize.ShloMosaic.Lib.Pipeline.Frame
import Idealize.ShloMosaic.Lib.Pipeline.FrameBody
import Idealize.ShloMosaic.Lib.Pipeline.Value
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def blk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

def out6 (x x0 : Vec F S5000x128 .f32) (mu var gam bet : Vec F S1x128 .f32) : Vec F S5000x128 .f32 :=
  k6_pay1 x0 var mu x gam bet

theorem zero_off6 : (![0, 0] : Fin 2 → Nat) = fun _ => 0 := funext fun a => by fin_cases a <;> rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => blk6 V c 5 t
    | ⟨6, _⟩ => out6 (blk6 V c 0 t) (blk6 V c 1 t) (blk6 V c 2 t) (blk6 V c 3 t) (blk6 V c 4 t) (blk6 V c 5 t)
  Φ _ := Pipeline.ΦA spec6 c
  q _ := fullShare
  owed _ := 0

theorem A_eq6 (c : Dev nD) (w : Fin cfg6.W) : (dat6 V c).A w = V c (Pipeline.arrRef spec6 w) := rfl

theorem Φ_eq6 (c : Dev nD) (t) : (dat6 V c).Φ t = Pipeline.ΦA spec6 c := rfl

theorem after6_6 (c : Dev nD) (t : Fin cfg6.N) : (dat6 V c).after 6 t
    = out6 (blk6 V c 0 t) (blk6 V c 1 t) (blk6 V c 2 t) (blk6 V c 3 t) (blk6 V c 4 t) (blk6 V c 5 t) := by
  dsimp only [dat6]

theorem before6 (c : Dev nD) (t : Fin cfg6.N) :
    (∀ d, (dat6 V c).before 0 t d = blk6 V c 0 t) ∧ (∀ d, (dat6 V c).before 1 t d = blk6 V c 1 t) ∧
    (∀ d, (dat6 V c).before 2 t d = blk6 V c 2 t) ∧ (∀ d, (dat6 V c).before 3 t d = blk6 V c 3 t) ∧
    (∀ d, (dat6 V c).before 4 t d = blk6 V c 4 t) ∧ ∀ d, (dat6 V c).before 5 t d = blk6 V c 5 t := by
  refine ⟨?_, ?_, ?_, ?_, ?_, ?_⟩ <;>
    exact (dat6 V c).before_in_eq_fetched _ rfl (fun _ => rfl) (fun _ _ _ => rfl) (fun _ => rfl) t

theorem body_triple6 {T0 T1 T2 T3 T4 T5 T6 : Type} (c : Dev nD) (E i)
    (arg1 arg2 arg7 : Memref sig .tc .vmem S5000x128 .f32) (arg3 arg4 arg5 arg6 : Memref sig .tc .vmem S1x128 .f32)
    (harg1 harg2 harg3 harg4 harg5 harg6 harg7 x x0 mu var gam bet) (y : T6 → _)
    (Φ O : sProp (MT nD τ sig Unit (Elt F) ℕ (UR sig nD τ) ℕ)) :
    iprop(Φ ∗ O ∗ (∃ _ : T0, owns c.tc arg1 fullShare x) ∗ (∃ _ : T1, owns c.tc arg2 fullShare x0)
        ∗ (∃ _ : T2, owns c.tc arg3 fullShare mu) ∗ (∃ _ : T3, owns c.tc arg4 fullShare var) ∗ (∃ _ : T4, owns c.tc arg5 fullShare gam)
        ∗ (∃ _ : T5, owns c.tc arg6 fullShare bet) ∗ (∃ d, owns c.tc arg7 fullShare (y d)))
      ⊢ wp frame (wpE (defs₀ (F := F)) Variants.none c none) E
          (cc6__bn_residual_kernel i arg1 harg1 arg2 harg2 arg3 harg3 arg4 harg4 arg5 harg5 arg6 harg6 arg7 harg7) fun _ =>
        iprop(Φ ∗ O ∗ owns c.tc arg1 fullShare x ∗ owns c.tc arg2 fullShare x0 ∗ owns c.tc arg3 fullShare mu
          ∗ owns c.tc arg4 fullShare var ∗ owns c.tc arg5 fullShare gam ∗ owns c.tc arg6 fullShare bet
          ∗ owns c.tc arg7 fullShare (out6 x x0 mu var gam bet)) := by
  simp only [cc6__bn_residual_kernel_eq_skeleton]; unfold cc6__bn_residual_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, %hf6, H6⟩, ⟨%_, %f7, -, H7⟩⟩
  subst hf1 hf2 hf3 hf4 hf5 hf6
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  iexists _; iframe H7; ipureintro
  refine (View.read_writes_eq_canon _ _ _ (View.cover_of_tiled _ S5000x128.size (by rfl))).trans ((View.canon_unit_zero zero_off6 _ _).trans ?_)
  unfold out6
  simp only [View.readAt_eq_ld, View.ld_unit_zero (S := S5000x128) zero_off6, View.ld_unit_zero (S := S1x128) zero_off6]

theorem body_obligation6 (c : Dev nD) :
    BodyObligation (dat6 (F := F) V c) (defs₀ (F := F)) Variants.none () Set.univ := fun t => by
  rw [bigSep_W6, bigSep_W6]
  show _ ⊢ wp _ _ _ (bodyAt6 t) _
  simp only [before6 V c t, after6_6]
  exact body_triple6 c _ _ _ _ _ _ _ _ _ _ _ _ _ _ _ _ _ _ _ _ _ _ _ _ _

end Cert.Kernel.Gen
-- ==== Proof.K.Assemble.lean ====
import proofs.«420090_j3152505996138_1_alg».proof.Proof.K.Region0
import proofs.«420090_j3152505996138_1_alg».proof.Proof.K.Region1
import proofs.«420090_j3152505996138_1_alg».proof.Proof.K.Region2
import proofs.«420090_j3152505996138_1_alg».proof.Proof.K.Region3
import proofs.«420090_j3152505996138_1_alg».proof.Proof.K.Region4
import proofs.«420090_j3152505996138_1_alg».proof.Proof.K.Region5
import proofs.«420090_j3152505996138_1_alg».proof.Proof.K.Region6
import proofs.«420090_j3152505996138_1_alg».proof.Proof.K.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev tcv (W : Dev nD → Valuation τ sig (Elt F)) : (c : Dev nD) → (b : Ref sig .tc) → Buf (Elt F) ((c : Thread nD τ).loc b) :=
  fun c b => W c b

def o3 (c : Dev nD) : Buf (Elt F) ((c : Thread nD τ).loc main_v3) := (dat0 (tcv (V1 m)) c).arrAt 5 cfg0.N
def W2 (c : Dev nD) : Valuation τ sig (Elt F) := Function.update (V1 m c) main_v3 (o3 m c)
def W3 (c : Dev nD) : Valuation τ sig (Elt F) := StableHlo.after hostOps1 (W2 m c)
def W4 (c : Dev nD) : Valuation τ sig (Elt F) := StableHlo.after hostOps1_1 (W3 m c)
def W5 (c : Dev nD) : Valuation τ sig (Elt F) := StableHlo.after hostOps1_2 (W4 m c)
def W6 (c : Dev nD) : Valuation τ sig (Elt F) := StableHlo.after hostOps1_3 (W5 m c)
def W7 (c : Dev nD) : Valuation τ sig (Elt F) := StableHlo.after hostOps1_4 (W6 m c)
def W8 (c : Dev nD) : Valuation τ sig (Elt F) := StableHlo.after hostOps1_5 (W7 m c)
def o17 (c : Dev nD) : Buf (Elt F) ((c : Thread nD τ).loc main_v17) := (dat1 (tcv (W8 m)) c).arrAt 3 cfg1.N
def W9 (c : Dev nD) : Valuation τ sig (Elt F) := Function.update (W8 m c) main_v17 (o17 m c)
def o18_0 (c : Dev nD) : Buf (Elt F) ((c : Thread nD τ).loc main_v18_0) := (dat2 (tcv (W9 m)) c).arrAt 2 cfg2.N
def o18_1 (c : Dev nD) : Buf (Elt F) ((c : Thread nD τ).loc main_v18_1) := (dat2 (tcv (W9 m)) c).arrAt 3 cfg2.N
def W10 (c : Dev nD) : Valuation τ sig (Elt F) := Function.update (Function.update (W9 m c) main_v18_0 (o18_0 m c)) main_v18_1 (o18_1 m c)
def W11 (c : Dev nD) : Valuation τ sig (Elt F) := StableHlo.after hostOps3 (W10 m c)
def o25 (c : Dev nD) : Buf (Elt F) ((c : Thread nD τ).loc main_v25) := (dat3 (tcv (W11 m)) c).arrAt 5 cfg3.N
def W12 (c : Dev nD) : Valuation τ sig (Elt F) := Function.update (W11 m c) main_v25 (o25 m c)
def o26_0 (c : Dev nD) : Buf (Elt F) ((c : Thread nD τ).loc main_v26_0) := (dat4 (tcv (W12 m)) c).arrAt 2 cfg4.N
def o26_1 (c : Dev nD) : Buf (Elt F) ((c : Thread nD τ).loc main_v26_1) := (dat4 (tcv (W12 m)) c).arrAt 3 cfg4.N
def W13 (c : Dev nD) : Valuation τ sig (Elt F) := Function.update (Function.update (W12 m c) main_v26_0 (o26_0 m c)) main_v26_1 (o26_1 m c)
def W14 (c : Dev nD) : Valuation τ sig (Elt F) := StableHlo.after hostOps5 (W13 m c)
def o33_0 (c : Dev nD) : Buf (Elt F) ((c : Thread nD τ).loc main_v33_0) := (dat5 (tcv (W14 m)) c).arrAt 5 cfg5.N
def o33_1 (c : Dev nD) : Buf (Elt F) ((c : Thread nD τ).loc main_v33_1) := (dat5 (tcv (W14 m)) c).arrAt 6 cfg5.N
def o33_2 (c : Dev nD) : Buf (Elt F) ((c : Thread nD τ).loc main_v33_2) := (dat5 (tcv (W14 m)) c).arrAt 7 cfg5.N
def W15 (c : Dev nD) : Valuation τ sig (Elt F) := Function.update (Function.update (Function.update (W14 m c) main_v33_0 (o33_0 m c)) main_v33_1 (o33_1 m c)) main_v33_2 (o33_2 m c)
def W16 (c : Dev nD) : Valuation τ sig (Elt F) := StableHlo.after hostOps6 (W15 m c)
def o42 (c : Dev nD) : Buf (Elt F) ((c : Thread nD τ).loc main_v42) := (dat6 (tcv (W16 m)) c).arrAt 6 cfg6.N
def W17 (c : Dev nD) : Valuation τ sig (Elt F) := Function.update (W16 m c) main_v42 (o42 m c)

def outs : Outs (F := F) := fun J r c =>
  match J with
  | 2 => W2 m c r | 9 => W9 m c r | 10 => W10 m c r | 12 => W12 m c r | 13 => W13 m c r | 15 => W15 m c r | 17 => W17 m c r
  | _ => V0 m c r
theorem dne {a b : Ref sig .tc} (h : a ≠ b) : (Proc.devRef .tc a : DevRef τ sig) ≠ Proc.devRef .tc b := StableHlo.devRef_ne_of_ne h

/-- Off the updated reference a valuation reads as before. -/
theorem upd_ne {a b : Ref sig .tc} (V : Valuation τ sig (Elt F)) (x) (h : a ≠ b) :
    Function.update V (Proc.devRef .tc b) x (Proc.devRef .tc a) = V (Proc.devRef .tc a) := Function.update_of_ne (dne h) _ _
/-- … in particular at a reference that is none of a call's arrays, when the update is at one of them. -/
theorem upd_off {gr W : ℕ} {spec : Fin W → Pipeline.WinSpec sig gr} {b : Ref sig .tc} (hb : b ∉ Finset.univ.image (Pipeline.arrRef spec)) (w : Fin W) (V : Valuation τ sig (Elt F)) (x) :
    Function.update V (Proc.devRef .tc (Pipeline.arrRef spec w)) x (Proc.devRef .tc b) = V (Proc.devRef .tc b) :=
  upd_ne V x fun e => hb (Finset.mem_image.mpr ⟨w, Finset.mem_univ _, e.symm⟩)

theorem V2_eq (c : Dev nD) : V2 m (outs m) c = W2 m c := by
  unfold V2; simp only [outs, W2, Function.update_self]
theorem V8_eq (c : Dev nD) : V8 m (outs m) c = W8 m c :=
  congrArg (fun v => StableHlo.after hostOps1_5 (StableHlo.after hostOps1_4 (StableHlo.after hostOps1_3 (StableHlo.after hostOps1_2 (StableHlo.after hostOps1_1 (StableHlo.after hostOps1 v)))))) (V2_eq m c)
theorem V9_eq (c : Dev nD) : V9 m (outs m) c = W9 m c := by
  unfold V9; rw [V8_eq]; simp only [outs, W9, Function.update_self]
theorem V10_eq (c : Dev nD) : V10 m (outs m) c = W10 m c := by
  unfold V10; rw [V9_eq]; simp only [outs, W10]; repeat (first | rw [Function.update_self] | rw [upd_ne _ _ (by decide)])
theorem V11_eq (c : Dev nD) : V11 m (outs m) c = W11 m c := congrArg (StableHlo.after hostOps3) (V10_eq m c)
theorem V12_eq (c : Dev nD) : V12 m (outs m) c = W12 m c := by
  unfold V12; rw [V11_eq]; simp only [outs, W12, Function.update_self]
theorem V13_eq (c : Dev nD) : V13 m (outs m) c = W13 m c := by
  unfold V13; rw [V12_eq]; simp only [outs, W13]; repeat (first | rw [Function.update_self] | rw [upd_ne _ _ (by decide)])
theorem V14_eq (c : Dev nD) : V14 m (outs m) c = W14 m c := congrArg (StableHlo.after hostOps5) (V13_eq m c)
theorem V15_eq (c : Dev nD) : V15 m (outs m) c = W15 m c := by
  unfold V15; rw [V14_eq]; simp only [outs, W15]; repeat (first | rw [Function.update_self] | rw [upd_ne _ _ (by decide)])
theorem V16_eq (c : Dev nD) : V16 m (outs m) c = W16 m c := congrArg (StableHlo.after hostOps6) (V15_eq m c)
theorem V17_eq (c : Dev nD) : V17 m (outs m) c = W17 m c := by
  unfold V17; rw [V16_eq]; simp only [outs, W17, Function.update_self]

def pdats : (p : Fin 7) → (c : Dev nD) → Dat τ (Elt F) Unit ℕ (UR sig nD τ) ℕ (Pipeline.pin (pcfgs (F := F)) adm p) c
  | ⟨0, _⟩ => fun c => dat0 (tcv (V1 m)) c
  | ⟨1, _⟩ => fun c => dat1 (tcv (W8 m)) c
  | ⟨2, _⟩ => fun c => dat2 (tcv (W9 m)) c
  | ⟨3, _⟩ => fun c => dat3 (tcv (W11 m)) c
  | ⟨4, _⟩ => fun c => dat4 (tcv (W12 m)) c
  | ⟨5, _⟩ => fun c => dat5 (tcv (W14 m)) c
  | ⟨6, _⟩ => fun c => dat6 (tcv (W16 m)) c

abbrev lev0 : GSem nD τ sig → Finset Unit := fun _ => ∅
abbrev lvl0 : GSem nD τ sig → Unit → ℕ := fun _ _ => 0
abbrev rest (c : Dev nD) : sProp 𝕄 := iprop((∃ r, prngReg c r) ∗ ∃ W, owes (c : Thread nD τ) (0 : CellTallies nD τ sig Unit) W)

set_option backward.isDefEq.respectTransparency.types false

/-- One record for all seven calls: entered with every buffer at `Vi`, it is left with every buffer at any `Vo` that has the call's arrays at their final contents and agrees with `Vi` elsewhere. -/
def heldReg (pd : (p : Fin 7) → (c : Dev nD) → Dat τ (Elt F) Unit ℕ (UR sig nD τ) ℕ (Pipeline.pin (pcfgs (F := F)) adm p) c) (p : Fin 7)
    (la : Pipeline.LaunchFacts (nD := nD) (τ := τ) cfgs p) (Vi Vo : Dev nD → Valuation τ sig (Elt F))
    (hb : ∀ c, BodyObligation (pd p c) (defs₀ (F := F)) Variants.none () Set.univ)
    (hq : ∀ c w, (pd p c).q w = fullShare) (hz : ∀ c t, (pd p c).owed t = 0) (hrec : ∀ c, (pd p c).recorded 0 = Set.univ)
    (hA : ∀ c w, (pd p c).A w = tcv Vi c (Pipeline.arrRef (cfgs p).spec w))
    (hi : ∀ c, (iprop((∃ r, prngReg c r) ∗ Pipeline.scopedRest (Ix := Unit) (Name := ℕ) (U := UR sig nD τ) (Lvl := ℕ) (Val := Elt F) (cfgs p).spec c) : sProp 𝕄) ⊢ (pd p c).Φ 0)
    (hl : ∀ c, (pd p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hF : ∀ c w, (pd p c).arrAt w (cfgs p).N = tcv Vo c (Pipeline.arrRef (cfgs p).spec w))
    (hr : ∀ c b, b ∉ Finset.univ.image (Pipeline.arrRef (cfgs p).spec) → tcv Vo c b = tcv Vi c b) :
    Pipeline.RegionSeg (pcfgs (F := F)) adm pd () defs₀ Variants.none lev0 lvl0 p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ lev0 lvl0 p hz
  pre c := iprop(StableHlo.held (c : Thread nD τ) (Pipeline.ucRefs τ sig) (Vi c) ∗ rest c)
  post c := iprop(StableHlo.held (c : Thread nD τ) (Pipeline.ucRefs τ sig) (Vo c) ∗ rest c)
  X c := iprop(∃ r, prngReg c r)
  Y c := iprop(∃ r, prngReg c r)
  Z c := Pipeline.unscopedRest (Ix := Unit) (Name := ℕ) (U := UR sig nD τ) (Lvl := ℕ) (cfgs p).spec c (tcv Vi c)
  hentry c := by
    rw [Pipeline.ownSems0_none]
    have hsplit := Pipeline.arrays_of_unscopedBufs (p := p) (pcfgs (F := F)) adm pd la.win la.arr_whole c
      ((pd p c).share_full (hq c)) (tcv Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz]
      icases HO with ⟨%W, HO⟩; iexists W; isplitr; · ipureintro; exact fun x _ => Or.inl (hrec c ▸ Set.mem_univ x)
      iexact HO
    isplitl [Hp]; · iexact Hp
    iexact Hrest
  hin c := by
    show iprop(_ ∗ _ ∗ _) ⊢ (pd p c).Φ 0
    iintro ⟨Hp, -, Hr⟩
    iapply (hi c)
    isplitl [Hp]; · iexact Hp
    iexact Hr
  hout c := by
    rw [Pipeline.ownSems0_none]
    show (pd p c).Φ (Fin.last (cfgs p).N) ⊢ _
    iintro H
    ihave H' := (hl c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pd ((pd p c).share_full (hq c))
      (tcv Vi c) (tcv Vo c) ((pd p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz]
    icases HO with ⟨%W, -, HO⟩; iexists W; iexact HO

abbrev Reg (p : Fin 7) := Pipeline.RegionSeg (pcfgs (F := F)) adm (pdats m) () defs₀ Variants.none lev0 lvl0 p

theorem hF0 (c : Dev nD) (w : Fin cfg0.W) : (dat0 (tcv (V1 m)) c).arrAt w cfg0.N = tcv (W2 m) c (Pipeline.arrRef spec0 w) := by
  simp only [tcv, W2]; fin_cases w
  iterate 5 exact (Pipeline.Dat.arrAt_in _ _ rfl _).trans ((A_eq0 _ c _).trans (by repeat rw [upd_ne _ _ (by decide)]))
  exact Eq.symm (Function.update_self ..)
theorem hF1 (c : Dev nD) (w : Fin cfg1.W) : (dat1 (tcv (W8 m)) c).arrAt w cfg1.N = tcv (W9 m) c (Pipeline.arrRef spec1 w) := by
  simp only [tcv, W9]; fin_cases w
  iterate 3 exact (Pipeline.Dat.arrAt_in _ _ rfl _).trans ((A_eq1 _ c _).trans (by repeat rw [upd_ne _ _ (by decide)]))
  exact Eq.symm (Function.update_self ..)
theorem hF2 (c : Dev nD) (w : Fin cfg2.W) : (dat2 (tcv (W9 m)) c).arrAt w cfg2.N = tcv (W10 m) c (Pipeline.arrRef spec2 w) := by
  simp only [tcv, W10]; fin_cases w
  iterate 2 exact (Pipeline.Dat.arrAt_in _ _ rfl _).trans ((A_eq2 _ c _).trans (by repeat rw [upd_ne _ _ (by decide)]))
  · rw [upd_ne _ _ (by decide)]; exact Eq.symm (Function.update_self ..)
  · exact Eq.symm (Function.update_self ..)
theorem hF3 (c : Dev nD) (w : Fin cfg3.W) : (dat3 (tcv (W11 m)) c).arrAt w cfg3.N = tcv (W12 m) c (Pipeline.arrRef spec3 w) := by
  simp only [tcv, W12]; fin_cases w
  iterate 5 exact (Pipeline.Dat.arrAt_in _ _ rfl _).trans ((A_eq3 _ c _).trans (by repeat rw [upd_ne _ _ (by decide)]))
  exact Eq.symm (Function.update_self ..)
theorem hF4 (c : Dev nD) (w : Fin cfg4.W) : (dat4 (tcv (W12 m)) c).arrAt w cfg4.N = tcv (W13 m) c (Pipeline.arrRef spec4 w) := by
  simp only [tcv, W13]; fin_cases w
  iterate 2 exact (Pipeline.Dat.arrAt_in _ _ rfl _).trans ((A_eq4 _ c _).trans (by repeat rw [upd_ne _ _ (by decide)]))
  · rw [upd_ne _ _ (by decide)]; exact Eq.symm (Function.update_self ..)
  · exact Eq.symm (Function.update_self ..)
theorem W15_off (c : Dev nD) {a : Ref sig .tc} (h0 : a ≠ main_v33_0) (h1 : a ≠ main_v33_1) (h2 : a ≠ main_v33_2) :
    W15 m c (Proc.devRef .tc a) = W14 m c (Proc.devRef .tc a) := by
  unfold W15; rw [upd_ne _ _ h2, upd_ne _ _ h1, upd_ne _ _ h0]
theorem W15_outs (c : Dev nD) : W15 m c main_v33_0 = o33_0 m c ∧ W15 m c main_v33_1 = o33_1 m c ∧ W15 m c main_v33_2 = o33_2 m c := by
  unfold W15; refine ⟨?_, ?_, ?_⟩ <;> repeat (first | rw [Function.update_self] | rw [upd_ne _ _ (by decide)])
theorem hF5 (c : Dev nD) (w : Fin cfg5.W) : (dat5 (tcv (W14 m)) c).arrAt w cfg5.N = tcv (W15 m) c (Pipeline.arrRef spec5 w) := by
  fin_cases w
  iterate 5 exact (Pipeline.Dat.arrAt_in _ _ rfl _).trans ((A_eq5 _ c _).trans (Eq.symm (W15_off m c (by decide) (by decide) (by decide))))
  · exact Eq.symm (W15_outs m c).1
  · exact Eq.symm (W15_outs m c).2.1
  · exact Eq.symm (W15_outs m c).2.2
theorem hF6 (c : Dev nD) (w : Fin cfg6.W) : (dat6 (tcv (W16 m)) c).arrAt w cfg6.N = tcv (W17 m) c (Pipeline.arrRef spec6 w) := by
  simp only [tcv, W17]; fin_cases w
  iterate 6 exact (Pipeline.Dat.arrAt_in _ _ rfl _).trans ((A_eq6 _ c _).trans (by repeat rw [upd_ne _ _ (by decide)]))
  exact Eq.symm (Function.update_self ..)

def reg0 : Reg m 0 :=
  heldReg (pdats m) 0 launch0 (V1 m) (W2 m) (fun c => body_obligation0 _ c) (fun _ _ => rfl) (fun _ _ => rfl) (fun _ => rfl) (A_eq0 _) (fun _ => sep_symm) (fun _ => sep_symm) (hF0 m) fun c b hb => upd_off hb 5 _ _
def reg1 : Reg m 1 :=
  heldReg (pdats m) 1 launch1 (W8 m) (W9 m) (fun c => body_obligation1 _ c) (fun _ _ => rfl) (fun _ _ => rfl) (fun _ => rfl) (A_eq1 _) (fun _ => sep_symm) (fun _ => sep_symm) (hF1 m) fun c b hb => upd_off hb 3 _ _
def reg2 : Reg m 2 :=
  heldReg (pdats m) 2 launch2 (W9 m) (W10 m) (fun c => body_obligation2 _ c) (q_full2 _) (owed_zero2 _) (fun _ => rfl) (A_eq2 _) (hin2 _) (hout2 _) (hF2 m) fun c b hb => (upd_off hb 3 _ _).trans (upd_off hb 2 _ _)
def reg3 : Reg m 3 :=
  heldReg (pdats m) 3 launch3 (W11 m) (W12 m) (fun c => body_obligation3 _ c) (fun _ _ => rfl) (fun _ _ => rfl) (fun _ => rfl) (A_eq3 _) (fun _ => sep_symm) (fun _ => sep_symm) (hF3 m) fun c b hb => upd_off hb 5 _ _
def reg4 : Reg m 4 :=
  heldReg (pdats m) 4 launch4 (W12 m) (W13 m) (fun c => body_obligation4 _ c) (q_full4 _) (owed_zero4 _) (fun _ => rfl) (A_eq4 _) (hin4 _) (hout4 _) (hF4 m) fun c b hb => (upd_off hb 3 _ _).trans (upd_off hb 2 _ _)
def reg5 : Reg m 5 :=
  heldReg (pdats m) 5 launch5 (W14 m) (W15 m) (fun c => body_obligation5 _ c) (q_full5 _) (owed_zero5 _) (fun _ => rfl) (A_eq5 _) (hin5 _) (hout5 _) (hF5 m) fun c b hb => ((upd_off hb 7 _ _).trans (upd_off hb 6 _ _)).trans (upd_off hb 5 _ _)
def reg6 : Reg m 6 :=
  heldReg (pdats m) 6 launch6 (W16 m) (W17 m) (fun c => body_obligation6 _ c) (fun _ _ => rfl) (fun _ _ => rfl) (fun _ => rfl) (A_eq6 _) (fun _ => sep_symm) (fun _ => sep_symm) (hF6 m) fun c b hb => upd_off hb 6 _ _

variable (ρ : Dev nD → PrngReg)

theorem run : θ_run defs (onTc (τ := τ) (main (F := F))) ⟨m, fun _ => 0, ρ⟩ (fun r => ∀ c : Dev nD,
      r.2.mem ((c.tc : Thread nD τ).loc main_v42) = W17 m c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ?_) (run_cond (m := m) (EP := emb₁) (ι := ()) (𝒱₀ := Variants.none) (L := lev0) (lv := lvl0)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := Pipeline.initEach lev0 lvl0 fun c => by
      iintro ⟨⟨-, HO, -, Hp, -⟩, -⟩
      imodintro
      isplitl [Hp]; · iexists _; iexact Hp
      iexists ∅; iexact HO)
    (hE7 := fun c => by iintro ⟨-, H⟩; iexact H)
    (R0 := reg0 m)
    (hpre0 := fun c => by exact .rfl)
    (hpost0 := fun c => by rw [V2_eq]; exact .rfl)
    (R1 := reg1 m)
    (hpre1 := fun c => by rw [V8_eq]; exact .rfl)
    (hpost1 := fun c => by rw [V9_eq]; exact .rfl)
    (R2 := reg2 m)
    (hpre2 := fun c => by rw [V9_eq]; exact .rfl)
    (hpost2 := fun c => by rw [V10_eq]; exact .rfl)
    (R3 := reg3 m)
    (hpre3 := fun c => by rw [V11_eq]; exact .rfl)
    (hpost3 := fun c => by rw [V12_eq]; exact .rfl)
    (R4 := reg4 m)
    (hpre4 := fun c => by rw [V12_eq]; exact .rfl)
    (hpost4 := fun c => by rw [V13_eq]; exact .rfl)
    (R5 := reg5 m)
    (hpre5 := fun c => by rw [V14_eq]; exact .rfl)
    (hpost5 := fun c => by rw [V15_eq]; exact .rfl)
    (R6 := reg6 m)
    (hpre6 := fun c => by rw [V16_eq]; exact .rfl)
    (hpost6 := fun c => by rw [V17_eq]; exact .rfl))
  have h' := h c
  rw [V17_eq] at h'
  exact h'

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.Kernel.Gen

end
-- ==== Proof.KI.Region0.lean ====
import proofs.«420090_j3152505996138_1_alg».proof.Proof.Gen.KernelIdeal.Launch
import proofs.«420090_j3152505996138_1_alg».proof.Proof.Gen.KernelIdeal.Skeleton
import proofs.«420090_j3152505996138_1_alg».proof.Proof.Gen.KernelIdeal.Points
import Idealize.ShloMosaic.Lib.Pipeline.Frame
import Idealize.ShloMosaic.Lib.Pipeline.FrameBody
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

variable (V : (c : Dev nD) → (b : Ref sig .tc) → Buf (Elt F) ((c : Thread nD τ).loc b))

def blockAt0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

abbrev wholeX0 : Rect S5000x128 := Rect.unit (s := S5000x128) ![0, 0] S5000x128.size inb_S5000x128_S5000x128_0_0
abbrev wholeW1_0 : Rect S128x128 := Rect.unit (s := S128x128) ![0, 0] S128x128.size inb_S128x128_S128x128_0_0
abbrev wholeB1_0 : Rect S1x128 := Rect.unit (s := S1x128) ![0, 0] S1x128.size inb_S1x128_S1x128_0_0
abbrev wholeW2_0 : Rect S128x8 := Rect.unit (s := S128x8) ![0, 0] S128x8.size inb_S128x8_S128x8_0_0
abbrev wholeB2_0 : Rect S1x8 := Rect.unit (s := S1x8) ![0, 0] S1x8.size inb_S1x8_S1x8_0_0
abbrev wholeY0 : Rect S5000x8 := Rect.unit (s := S5000x8) ![0, 0] S5000x8.size inb_S5000x8_S5000x8_0_0

def mlpOut0 (x : Vec F S5000x128 .f32) (w1 : Vec F S128x128 .f32) (b1 : Vec F S1x128 .f32) (w2 : Vec F S128x8 .f32)
    (b2 : Vec F S1x8 .f32) : Vec F S5000x8 .f32 :=
  View.canon [⟨wholeY0, k0_pay1 (View.ld x wholeX0) (View.ld w1 wholeW1_0) (View.ld b1 wholeB1_0) (View.ld w2 wholeW2_0)
    (View.ld b2 wholeB2_0)⟩]

def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => blockAt0 V c 1 t
    | ⟨2, _⟩ => blockAt0 V c 2 t
    | ⟨3, _⟩ => blockAt0 V c 3 t
    | ⟨4, _⟩ => blockAt0 V c 4 t
    | ⟨5, _⟩ => mlpOut0 (blockAt0 V c 0 t) (blockAt0 V c 1 t) (blockAt0 V c 2 t) (blockAt0 V c 3 t) (blockAt0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem Φ_eq0 (c : Dev nD) (t) : (dat0 V c).Φ t = Pipeline.ΦA spec0 c := rfl

theorem after0_5 (c : Dev nD) (t : Fin cfg0.N) : (dat0 V c).after 5 t =
    mlpOut0 (blockAt0 V c 0 t) (blockAt0 V c 1 t) (blockAt0 V c 2 t) (blockAt0 V c 3 t) (blockAt0 V c 4 t) := by
  dsimp only [dat0]

theorem before0 (c : Dev nD) (t : Fin cfg0.N) :
    (∀ d, (dat0 V c).before 0 t d = blockAt0 V c 0 t) ∧ (∀ d, (dat0 V c).before 1 t d = blockAt0 V c 1 t) ∧
    (∀ d, (dat0 V c).before 2 t d = blockAt0 V c 2 t) ∧ (∀ d, (dat0 V c).before 3 t d = blockAt0 V c 3 t) ∧
    ∀ d, (dat0 V c).before 4 t d = blockAt0 V c 4 t := by
  refine ⟨?_, ?_, ?_, ?_, ?_⟩ <;>
    exact (dat0 V c).before_in_eq_fetched _ rfl (fun _ => rfl) (fun _ _ _ => rfl) (fun _ => rfl) t

theorem body_triple0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S1x128 .f32) (harg3 : arg3.IsWhole)
    (arg4 : Memref sig .tc .vmem S128x8 .f32) (harg4 : arg4.IsWhole)
    (arg5 : Memref sig .tc .vmem S1x8 .f32) (harg5 : arg5.IsWhole)
    (arg6 : Memref sig .tc .vmem S5000x8 .f32) (harg6 : arg6.IsWhole)
    (x : Vec F S5000x128 .f32) (w1 : Vec F S128x128 .f32) (b1 : Vec F S1x128 .f32) (w2 : Vec F S128x8 .f32)
    (b2 : Vec F S1x8 .f32) (y : Vec F S5000x8 .f32 → Vec F S5000x8 .f32)
    (Φ O : sProp (MT nD τ sig Unit (Elt F) ℕ (UR sig nD τ) ℕ)) :
    iprop(Φ ∗ O ∗ (∃ _ : Vec F S5000x128 .f32, owns c.tc arg1 fullShare x)
        ∗ (∃ _ : Vec F S128x128 .f32, owns c.tc arg2 fullShare w1)
        ∗ (∃ _ : Vec F S1x128 .f32, owns c.tc arg3 fullShare b1)
        ∗ (∃ _ : Vec F S128x8 .f32, owns c.tc arg4 fullShare w2)
        ∗ (∃ _ : Vec F S1x8 .f32, owns c.tc arg5 fullShare b2)
        ∗ (∃ d, owns c.tc arg6 fullShare (y d)))
      ⊢ wp frame (wpE (defs₀ (F := F)) Variants.none c none) E
          (cc0__mlp2_kernel i arg1 harg1 arg2 harg2 arg3 harg3 arg4 harg4 arg5 harg5 arg6 harg6) fun _ =>
        iprop(Φ ∗ O ∗ owns c.tc arg1 fullShare x ∗ owns c.tc arg2 fullShare w1
          ∗ owns c.tc arg3 fullShare b1 ∗ owns c.tc arg4 fullShare w2
          ∗ owns c.tc arg5 fullShare b2 ∗ owns c.tc arg6 fullShare (mlpOut0 x w1 b1 w2 b2)) := by
  simp only [cc0__mlp2_kernel_eq_skeleton]; unfold cc0__mlp2_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, -, H6⟩⟩
  subst hf1 hf2 hf3 hf4 hf5
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S5000x8.size (by rfl))

theorem body_obligation0 (c : Dev nD) : BodyObligation (dat0 (F := F) V c) (defs₀ (F := F)) Variants.none () Set.univ := fun t => by
  rw [bigSep_W0, bigSep_W0]
  show _ ⊢ wp _ _ _ (bodyAt0 t) _
  simp only [before0 V c t, after0_5]
  exact body_triple0 c _ _ _ _ _ _ _ _ _ _ _ _ _ _ _ _ _ _ _ _ _ _

end Cert.KernelIdeal.Gen
-- ==== Proof.KI.Region1.lean ====
import proofs.«420090_j3152505996138_1_alg».proof.Proof.Gen.KernelIdeal.Launch
import proofs.«420090_j3152505996138_1_alg».proof.Proof.Gen.KernelIdeal.Points
import proofs.«420090_j3152505996138_1_alg».proof.Proof.Gen.KernelIdeal.Skeleton
import Idealize.ShloMosaic.Lib.Pipeline.Frame
import Idealize.ShloMosaic.Lib.Pipeline.FrameBody
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

abbrev r1_0 : Rect S5000x16 := Rect.unit (s := S5000x16) ![0, 0] S5000x16.size inb_S5000x16_S5000x16_0_0
abbrev r1_1 : Rect S16x64 := Rect.unit (s := S16x64) ![0, 0] S16x64.size inb_S16x64_S16x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

def out1_3 (x0 : Vec F S5000x16 .f32) (x1 : Vec F S16x64 .f32) (x2 : Vec F S1x64 .f32) : Vec F S5000x64 .f32 :=
  View.canon [⟨r1_3, k1_pay1 (View.ld x0 r1_0) (View.ld x1 r1_1) (View.ld x2 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem Φ_eq1 (c : Dev nD) (t) : (dat1 V c).Φ t = Pipeline.ΦA spec1 c := rfl

theorem after1_3 (c : Dev nD) (t : Fin cfg1.N) :
    (dat1 V c).after 3 t = out1_3 (iblk1 V c 0 t) (iblk1 V c 1 t) (iblk1 V c 2 t) := by dsimp only [dat1]

theorem before1 (c : Dev nD) (t : Fin cfg1.N) :
    (∀ d, (dat1 V c).before 0 t d = iblk1 V c 0 t) ∧ (∀ d, (dat1 V c).before 1 t d = iblk1 V c 1 t) ∧
    ∀ d, (dat1 V c).before 2 t d = iblk1 V c 2 t := by
  refine ⟨?_, ?_, ?_⟩ <;>
    exact (dat1 V c).before_in_eq_fetched _ rfl (fun _ => rfl) (fun _ _ _ => rfl) (fun _ => rfl) t

theorem body_triple1 (c : Dev nD) (E : Set ℕ) (i : grid1.Coords)
    (arg1 : Memref sig .tc .vmem S5000x16 .f32) (harg1 : arg1.IsWhole)
    (arg2 : Memref sig .tc .vmem S16x64 .f32) (harg2 : arg2.IsWhole)
    (arg3 : Memref sig .tc .vmem S1x64 .f32) (harg3 : arg3.IsWhole)
    (arg4 : Memref sig .tc .vmem S5000x64 .f32) (harg4 : arg4.IsWhole)
    (x0 : Vec F S5000x16 .f32) (x1 : Vec F S16x64 .f32) (x2 : Vec F S1x64 .f32)
    (y : Vec F S5000x64 .f32 → Vec F S5000x64 .f32)
    (Φ O : sProp (MT nD τ sig Unit (Elt F) ℕ (UR sig nD τ) ℕ)) :
    iprop(Φ ∗ O ∗ (∃ _ : Vec F S5000x16 .f32, owns c.tc arg1 fullShare x0)
        ∗ (∃ _ : Vec F S16x64 .f32, owns c.tc arg2 fullShare x1)
        ∗ (∃ _ : Vec F S1x64 .f32, owns c.tc arg3 fullShare x2)
        ∗ (∃ d, owns c.tc arg4 fullShare (y d)))
      ⊢ wp frame (wpE (defs₀ (F := F)) Variants.none c none) E
          (cc1__lin_relu_kernel i arg1 harg1 arg2 harg2 arg3 harg3 arg4 harg4) fun _ =>
        iprop(Φ ∗ O ∗ owns c.tc arg1 fullShare x0 ∗ owns c.tc arg2 fullShare x1
          ∗ owns c.tc arg3 fullShare x2 ∗ owns c.tc arg4 fullShare (out1_3 x0 x1 x2)) := by
  simp only [cc1__lin_relu_kernel_eq_skeleton]; unfold cc1__lin_relu_kernel_skel owns
  iintro ⟨HΦ, HO, ⟨%_, %f1, %hf1, H1⟩, ⟨%_, %f2, %hf2, H2⟩, ⟨%_, %f3, %hf3, H3⟩, ⟨%_, %f4, -, H4⟩⟩
  subst hf1 hf2 hf3
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  iexists _; iframe H4; ipureintro
  exact View.read_writes_eq_canon _ _ _ (View.cover_of_tiled _ S5000x64.size (by rfl))

theorem body_obligation1 (c : Dev nD) :
    BodyObligation (dat1 (F := F) V c) (defs₀ (F := F)) Variants.none () Set.univ := fun t => by
  rw [bigSep_W1, bigSep_W1]
  show _ ⊢ wp _ _ _ (bodyAt1 t) _
  simp only [before1 V c t, after1_3]
  exact body_triple1 c _ _ _ _ _ _ _ _ _ _ _ _ _ _ _ _

end Cert.KernelIdeal.Gen

end
-- ==== Proof.KI.Region2.lean ====
import proofs.«420090_j3152505996138_1_alg».proof.Proof.Gen.KernelIdeal.Launch
import proofs.«420090_j3152505996138_1_alg».proof.Proof.Gen.KernelIdeal.Skeleton
import proofs.«420090_j3152505996138_1_alg».proof.Proof.Gen.KernelIdeal.Points
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop :=
  (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
abbrev cond2_1 (i : grid2.Coords) : Prop := k2_cond2 i = 1#1
theorem hcond2_1 : ∀ t : Fin cfg2.N, cond2_1 (grid2.coords t) ↔ t.val = 99 :=
  (by decide +kernel : ∀ t : Fin grid2.N, cond2_1 (grid2.coords t) ↔ t.val = 99)

theorem idleAt2 : ∀ t : Fin cfg2.N, (t.val = 99 → cfg2.idle 2 (grid2.coords t) = false ∧ cfg2.idle 3 (grid2.coords t) = false)
    ∧ (t.val ≠ 99 → cfg2.idle 2 (grid2.coords t) = true ∧ cfg2.idle 3 (grid2.coords t) = true
      ∧ (cfg2.win 2).flush t = false ∧ (cfg2.win 3).flush t = false) := by decide +kernel

abbrev scM2_0 : Memref sig .tc .vmem S512x64 .f32 := Memref.whole cc2_scratch0
abbrev scM2_1 : Memref sig .tc .vmem S512x1 .f32 := Memref.whole cc2_scratch1

def xblk2 (c : Dev nD) (t : Fin cfg2.N) : Vec F S5000x64 .f32 :=
  ((cfg2.win 0).blk t).view.read (Elt F) (V c (Pipeline.arrRef spec2 0))
def bblk2 (c : Dev nD) (t : Fin cfg2.N) : Vec F S5000x1 .i32 :=
  ((cfg2.win 1).blk t).view.read (Elt F) (V c (Pipeline.arrRef spec2 1))

def acc2_0 (c : Dev nD) : (n : ℕ) → n < cfg2.N → Vec F S512x64 .f32
  | 0, h => k2_pay4 (bblk2 V c ⟨0, h⟩) (xblk2 V c ⟨0, h⟩) k2_pay1
  | n + 1, h => k2_pay4 (bblk2 V c ⟨n + 1, h⟩) (xblk2 V c ⟨n + 1, h⟩) (acc2_0 c n (Nat.lt_of_succ_lt h))

def acc2_1 (c : Dev nD) : (n : ℕ) → n < cfg2.N → Vec F S512x1 .f32
  | 0, h => k2_pay5 (bblk2 V c ⟨0, h⟩) k2_pay2
  | n + 1, h => k2_pay5 (bblk2 V c ⟨n + 1, h⟩) (acc2_1 c n (Nat.lt_of_succ_lt h))

theorem acc2_eq (c : Dev nD) (t : Fin cfg2.N) (s0 : Vec F S512x64 .f32) (s1 : Vec F S512x1 .f32)
    (hs : ∀ hn : t.val ≠ 0, s0 = acc2_0 V c (t.val - 1) (by omega) ∧ s1 = acc2_1 V c (t.val - 1) (by omega)) :
    k2_pay4 (bblk2 V c t) (xblk2 V c t) (if t.val = 0 then k2_pay1 else s0) = acc2_0 V c t.val t.isLt
      ∧ k2_pay5 (bblk2 V c t) (if t.val = 0 then k2_pay2 else s1) = acc2_1 V c t.val t.isLt := by
  obtain ⟨_ | n, hn⟩ := t
  · exact ⟨rfl, rfl⟩
  · obtain ⟨rfl, rfl⟩ := hs (Nat.succ_ne_zero n); exact ⟨rfl, rfl⟩

def PhiS2 (c : Dev nD) (n : ℕ) (h : n ≤ cfg2.N) : sProp 𝕄 :=
  iprop((∃ r, prngReg c r)
    ∗ (∃ s0 s1, ⌜∀ hn : n ≠ 0, s0 = acc2_0 V c (n - 1) (by omega) ∧ s1 = acc2_1 V c (n - 1) (by omega)⌝ ∗ owns c scM2_0 fullShare s0 ∗ owns c scM2_1 fullShare s1)
    ∗ Pipeline.scopedRestBut (Ix := Unit) (Name := ℕ) (U := UR sig nD τ) (Lvl := ℕ) (Val := Elt F) spec2 c [cc2_scratch0, cc2_scratch1])

def dat2 (c : Dev nD) : Dat τ (Elt F) Unit ℕ (UR sig nD τ) ℕ cfg2 c where
  A w := V c (Pipeline.arrRef spec2 w)
  after w t := match w with
    | ⟨0, _⟩ => xblk2 V c t
    | ⟨1, _⟩ => bblk2 V c t
    | ⟨2, _⟩ => acc2_0 V c t.val t.isLt
    | ⟨3, _⟩ => acc2_1 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem q_full2 (c : Dev nD) (w : Fin cfg2.W) : (dat2 V c).q w = fullShare := rfl

theorem owed_zero2 (c : Dev nD) (t : Fin (cfg2.N + 1)) : (dat2 V c).owed t = 0 := rfl

theorem after2_2 (c : Dev nD) (t : Fin cfg2.N) : (dat2 V c).after 2 t = acc2_0 V c t.val t.isLt := rfl
theorem after2_3 (c : Dev nD) (t : Fin cfg2.N) : (dat2 V c).after 3 t = acc2_1 V c t.val t.isLt := rfl

theorem hin2 (c : Dev nD) :
    iprop((∃ r, prngReg c r) ∗ Pipeline.scopedRest (Ix := Unit) (Name := ℕ) (U := UR sig nD τ) (Lvl := ℕ) (Val := Elt F) spec2 c)
      ⊢ (dat2 V c).Φ 0 := by
  simp only [dat2, PhiS2, scopedRest2_split, owns_whole]
  iintro ⟨Hg, ⟨⟨%f0, H0⟩, ⟨%f1, H1⟩⟩, Hr⟩
  iframe Hg Hr
  iexists f0, f1
  iframe H0 H1
  ipureintro; exact fun h => absurd rfl h

theorem hout2 (c : Dev nD) :
    (dat2 V c).Φ (Fin.last cfg2.N)
      ⊢ iprop((∃ r, prngReg c r) ∗ Pipeline.scopedRest (Ix := Unit) (Name := ℕ) (U := UR sig nD τ) (Lvl := ℕ) (Val := Elt F) spec2 c) := by
  simp only [dat2, PhiS2, scopedRest2_split, owns_whole]
  iintro ⟨Hg, ⟨%s0, %s1, -, H0, H1⟩, Hr⟩
  iframe Hg Hr
  isplitl [H0] <;> (iexists _; iassumption)

theorem hz2 : (![0, 0] : Fin 2 → ℕ) = fun _ => 0 := by funext a; fin_cases a <;> rfl

set_option maxHeartbeats 1000000 in

theorem run2 (c : Dev nD) (i : grid2.Coords)
    (arg1 : Memref sig .tc .vmem S5000x64 .f32) (harg1 : arg1.IsWhole) (arg2 : Memref sig .tc .vmem S5000x1 .i32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    {p0 p1 : Prop} [Decidable p0] [Decidable p1] (h0 : cond2_0 i ↔ p0) (h1 : cond2_1 i ↔ p1) (hx : ¬(p0 ∧ p1))
    (x : Vec F S5000x64 .f32) (b : Vec F S5000x1 .i32) (o2 s0 : Vec F S512x64 .f32) (o3 s1 : Vec F S512x1 .f32)
    (E : Set ℕ) (K : PUnit → sProp 𝕄) :
    iprop(owns c arg1 fullShare x ∗ owns c arg2 fullShare b
        ∗ owns c arg3 fullShare o2 ∗ owns c arg4 fullShare o3
        ∗ owns c arg5 fullShare s0 ∗ owns c arg6 fullShare s1
        ∗ (iprop(owns c arg1 fullShare x ∗ owns c arg2 fullShare b
            ∗ owns c arg3 fullShare (if p1 then k2_pay4 b x (if p0 then k2_pay1 else s0) else o2)
            ∗ owns c arg4 fullShare (if p1 then k2_pay5 b (if p0 then k2_pay2 else s1) else o3)
            ∗ owns c arg5 fullShare (k2_pay4 b x (if p0 then k2_pay1 else s0))
            ∗ owns c arg6 fullShare (k2_pay5 b (if p0 then k2_pay2 else s1))) -∗ K ⟨⟩))
      ⊢ wp frame (wpE (defs₀ (F := F)) Variants.none c none) E (cc2__reduce_kernel i arg1 harg1 arg2 harg2 arg3 harg3 arg4 harg4 arg5 harg5 arg6 harg6) K := by
  by_cases hp0 : p0 <;> by_cases hp1 : p1
  · exact absurd ⟨hp0, hp1⟩ hx
  all_goals
    simp only [hp0, hp1, ↓reduceIte, cc2__reduce_kernel_eq_skeleton]; unfold cc2__reduce_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact h0.mpr hp0 | exact mt h0.mp hp0 | exact h1.mpr hp1 | exact mt h1.mp hp1)
    sl_step
    iapply Hk
    isplitl [H1]; rotate_left; isplitl [H2]; rotate_left; isplitl [H3]; rotate_left
    isplitl [H4]; rotate_left; isplitl [H5]; rotate_left
    all_goals
      iexists _; isplitr; swap; · iassumption
      ipureintro
      try sl_unfold_run_names
      try rw [View.read_writes_cons_unit_zero _ _ hz2]
      simp only [View.readCov_unit_zero (S := S512x64) _ hz2, View.readCov_unit_zero (S := S512x1) _ hz2, View.readAt_eq_ld,
        harg1.read_unread, harg2.read_unread, harg3.read_unread, harg4.read_unread, harg5.read_unread, harg6.read_unread,
        View.ld_unit_zero (S := S5000x64) hz2, View.ld_unit_zero (S := S5000x1) hz2,
        View.ld_unit_zero (S := S512x64) hz2, View.ld_unit_zero (S := S512x1) hz2]

theorem before2_0 (c : Dev nD) (t : Fin cfg2.N) (d) : (dat2 V c).before 0 t d = xblk2 V c t :=
  ((dat2 V c).before_fetched 0 t (fetch2_0 t) d).trans rfl
theorem before2_1 (c : Dev nD) (t : Fin cfg2.N) (d) : (dat2 V c).before 1 t d = bblk2 V c t :=
  ((dat2 V c).before_fetched 1 t (fetch2_1 t) d).trans rfl

theorem sound_body2 (c : Dev nD) (t : Fin cfg2.N) :
    iprop(PhiS2 V c t.val (Nat.le_of_lt t.isLt) ∗ (dat2 V c).owesAt () t.castSucc
      ∗ (∃ d, owns c (st2_0 t) fullShare ((dat2 V c).before 0 t d))
      ∗ (∃ d, owns c (st2_1 t) fullShare ((dat2 V c).before 1 t d))
      ∗ (∃ d, owns c (st2_2 t) fullShare ((dat2 V c).before 2 t d))
      ∗ (∃ d, owns c (st2_3 t) fullShare ((dat2 V c).before 3 t d)))
      ⊢ wp frame (wpE (defs₀ (F := F)) Variants.none c none) Set.univ (bodyAt2 t) (fun _ =>
        iprop(PhiS2 V c (t.val + 1) t.isLt ∗ (dat2 V c).owesAt () t.castSucc
          ∗ owns c (st2_0 t) fullShare (xblk2 V c t) ∗ owns c (st2_1 t) fullShare (bblk2 V c t)
          ∗ (dat2 V c).leavesExact 2 t ∗ (dat2 V c).leavesExact 3 t)) := by
  unfold bodyAt2
  simp only [before2_0, before2_1]
  unfold PhiS2
  iintro ⟨⟨Hg, ⟨%s0, %s1, %hs, HS0, HS1⟩, Hr⟩, Ho, ⟨%d0, H0⟩, ⟨%d1, H1⟩, ⟨%d2, H2⟩, ⟨%d3, H3⟩⟩
  obtain ⟨hA, hB⟩ := acc2_eq V c t s0 s1 hs
  iapply (run2 c (grid2.coords t) _ _ _ _ _ _ _ _ _ _ _ _ (hcond2_0 t) (hcond2_1 t) (by omega)
    (xblk2 V c t) (bblk2 V c t) _ s0 _ s1 Set.univ _)
  iframe H0 H1 H2 H3 HS0 HS1
  rw [hA, hB]
  iintro ⟨H0, H1, H2, H3, HS0, HS1⟩
  iframe Hg Hr Ho H0 H1
  isplitl [HS0 HS1]
  · iexists _, _
    iframe HS0 HS1
    ipureintro; exact fun _ => ⟨rfl, rfl⟩
  unfold Dat.leavesExact
  by_cases h99 : t.val = 99
  · obtain ⟨i2, i3⟩ := (idleAt2 t).1 h99
    rw [i2]; try rw [i3]
    simp only [if_pos h99, after2_2, after2_3]
    iframe
  · obtain ⟨i2, i3, f2, f3⟩ := (idleAt2 t).2 h99
    rw [i2]; try rw [i3]
    simp only [f2, f3, if_neg h99]
    isplitl [H2] <;> (iexists _; iassumption)

theorem body_obligation2 (c : Dev nD) :
    BodyObligation (dat2 (F := F) V c) (defs₀ (F := F)) Variants.none () Set.univ := fun t => by
  rw [bigSep_W2, bigSep_W2]
  exact sound_body2 V c t

end Cert.KernelIdeal.Gen

end
-- ==== Proof.KI.Region3.lean ====
import proofs.«420090_j3152505996138_1_alg».proof.Proof.Gen.KernelIdeal.Launch
import proofs.«420090_j3152505996138_1_alg».proof.Proof.Gen.KernelIdeal.Skeleton
import proofs.«420090_j3152505996138_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S5000x64 := Rect.unit (s := S5000x64) ![0, 0] S5000x64.size inb_S5000x64_S5000x64_0_0
abbrev rB3 : Rect S5000x1 := Rect.unit (s := S5000x1) ![0, 0] S5000x1.size inb_S5000x1_S5000x1_0_0
abbrev rW3 : Rect S64x64 := Rect.unit (s := S64x64) ![0, 0] S64x64.size inb_S64x64_S64x64_0_0
abbrev rG3 : Rect S1x64 := Rect.unit (s := S1x64) ![0, 0] S1x64.size inb_S1x64_S1x64_0_0
abbrev rM3 : Rect S512x64 := Rect.unit (s := S512x64) ![0, 0] S512x64.size inb_S512x64_S512x64_0_0

def out3 (x : Vec F S5000x64 .f32) (b : Vec F S5000x1 .i32) (W : Vec F S64x64 .f32) (g : Vec F S1x64 .f32) (M : Vec F S512x64 .f32) :
    Vec F S5000x64 .f32 :=
  View.canon [⟨rX3, k3_pay1 (View.ld b rB3) (View.ld M rM3) (View.ld x rX3) (View.ld W rW3) (View.ld g rG3)⟩]

theorem hz3 : (![0, 0] : Fin 2 → Nat) = fun _ => 0 := funext fun a => by fin_cases a <;> rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl

theorem Φ_eq3 (c : Dev nD) (t) : (dat3 V c).Φ t = Pipeline.ΦA spec3 c := rfl

theorem after3_5 (c : Dev nD) (t : Fin cfg3.N) :
    (dat3 V c).after 5 t = out3 (iblk3 V c 0 t) (iblk3 V c 1 t) (iblk3 V c 2 t) (iblk3 V c 3 t) (iblk3 V c 4 t) := by dsimp only [dat3]

theorem before3 (c : Dev nD) (t : Fin cfg3.N) :
    (∀ d, (dat3 V c).before 0 t d = iblk3 V c 0 t) ∧ (∀ d, (dat3 V c).before 1 t d = iblk3 V c 1 t) ∧
    (∀ d, (dat3 V c).before 2 t d = iblk3 V c 2 t) ∧ (∀ d, (dat3 V c).before 3 t d = iblk3 V c 3 t) ∧
    ∀ d, (dat3 V c).before 4 t d = iblk3 V c 4 t := by
  refine ⟨?_, ?_, ?_, ?_, ?_⟩ <;>
    exact (dat3 V c).before_in_eq_fetched _ rfl (fun _ => rfl) (fun _ _ _ => rfl) (fun _ => rfl) t

theorem body_triple3 {T0 T1 T2 T3 T4 T5 : Type} (c : Dev nD) (E i)
    (arg1 arg6 : Memref sig .tc .vmem S5000x64 .f32) (arg2 : Memref sig .tc .vmem S5000x1 .i32) (arg3 : Memref sig .tc .vmem S64x64 .f32)
    (arg4 : Memref sig .tc .vmem S1x64 .f32) (arg5 : Memref sig .tc .vmem S512x64 .f32)
    (harg1 harg2 harg3 harg4 harg5 harg6 x b W g M) (y : T5 → _)
    (Φ O : sProp (MT nD τ sig Unit (Elt F) ℕ (UR sig nD τ) ℕ)) :
    iprop(Φ ∗ O ∗ (∃ _ : T0, owns c.tc arg1 fullShare x) ∗ (∃ _ : T1, owns c.tc arg2 fullShare b) ∗ (∃ _ : T2, owns c.tc arg3 fullShare W)
        ∗ (∃ _ : T3, owns c.tc arg4 fullShare g) ∗ (∃ _ : T4, owns c.tc arg5 fullShare M) ∗ (∃ d, owns c.tc arg6 fullShare (y d)))
      ⊢ wp frame (wpE (defs₀ (F := F)) Variants.none c none) E
          (cc3__gather_linear_relu_kernel i arg1 harg1 arg2 harg2 arg3 harg3 arg4 harg4 arg5 harg5 arg6 harg6) fun _ =>
        iprop(Φ ∗ O ∗ owns c.tc arg1 fullShare x ∗ owns c.tc arg2 fullShare b ∗ owns c.tc arg3 fullShare W
          ∗ owns c.tc arg4 fullShare g ∗ owns c.tc arg5 fullShare M ∗ owns c.tc arg6 fullShare (out3 x b W g M)) := by
  simp only [cc3__gather_linear_relu_kernel_eq_skeleton]; unfold cc3__gather_linear_relu_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, -, H6⟩⟩
  subst hf1 hf2 hf3 hf4 hf5
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  iexists _; iframe H6; ipureintro
  exact View.read_writes_eq_canon _ _ _ (View.cover_of_tiled _ S5000x64.size (by rfl))

theorem body_obligation3 (c : Dev nD) :
    BodyObligation (dat3 (F := F) V c) (defs₀ (F := F)) Variants.none () Set.univ := fun t => by
  rw [bigSep_W3, bigSep_W3]
  show _ ⊢ wp _ _ _ (bodyAt3 t) _
  simp only [before3 V c t, after3_5]
  exact body_triple3 c _ _ _ _ _ _ _ _ _ _ _ _ _ _ _ _ _ _ _ _ _ _

end Cert.KernelIdeal.Gen
-- ==== Proof.KI.Region4.lean ====
import proofs.«420090_j3152505996138_1_alg».proof.Proof.Gen.KernelIdeal.Launch
import proofs.«420090_j3152505996138_1_alg».proof.Proof.Gen.KernelIdeal.Skeleton
import proofs.«420090_j3152505996138_1_alg».proof.Proof.Gen.KernelIdeal.Points
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
abbrev cond4_1 (i : grid4.Coords) : Prop := k4_cond2 i = 1#1
theorem hcond4_1 : ∀ t : Fin cfg4.N, cond4_1 (grid4.coords t) ↔ t.val = 99 :=
  (by decide +kernel : ∀ t : Fin grid4.N, cond4_1 (grid4.coords t) ↔ t.val = 99)

theorem idleAt4 : ∀ t : Fin cfg4.N, (t.val = 99 → cfg4.idle 2 (grid4.coords t) = false ∧ cfg4.idle 3 (grid4.coords t) = false)
    ∧ (t.val ≠ 99 → cfg4.idle 2 (grid4.coords t) = true ∧ cfg4.idle 3 (grid4.coords t) = true
      ∧ (cfg4.win 2).flush t = false ∧ (cfg4.win 3).flush t = false) := by decide +kernel

abbrev scM4_0 : Memref sig .tc .vmem S512x64 .f32 := Memref.whole cc4_scratch0
abbrev scM4_1 : Memref sig .tc .vmem S512x1 .f32 := Memref.whole cc4_scratch1

def xblk4 (c : Dev nD) (t : Fin cfg4.N) : Vec F S5000x64 .f32 :=
  ((cfg4.win 0).blk t).view.read (Elt F) (V c (Pipeline.arrRef spec4 0))
def bblk4 (c : Dev nD) (t : Fin cfg4.N) : Vec F S5000x1 .i32 :=
  ((cfg4.win 1).blk t).view.read (Elt F) (V c (Pipeline.arrRef spec4 1))

def acc4_0 (c : Dev nD) : (n : ℕ) → n < cfg4.N → Vec F S512x64 .f32
  | 0, h => k4_pay4 (bblk4 V c ⟨0, h⟩) (xblk4 V c ⟨0, h⟩) k4_pay1
  | n + 1, h => k4_pay4 (bblk4 V c ⟨n + 1, h⟩) (xblk4 V c ⟨n + 1, h⟩) (acc4_0 c n (Nat.lt_of_succ_lt h))

def acc4_1 (c : Dev nD) : (n : ℕ) → n < cfg4.N → Vec F S512x1 .f32
  | 0, h => k4_pay5 (bblk4 V c ⟨0, h⟩) k4_pay2
  | n + 1, h => k4_pay5 (bblk4 V c ⟨n + 1, h⟩) (acc4_1 c n (Nat.lt_of_succ_lt h))

theorem acc4_eq (c : Dev nD) (t : Fin cfg4.N) (s0 : Vec F S512x64 .f32) (s1 : Vec F S512x1 .f32)
    (hs : ∀ hn : t.val ≠ 0, s0 = acc4_0 V c (t.val - 1) (by omega) ∧ s1 = acc4_1 V c (t.val - 1) (by omega)) :
    k4_pay4 (bblk4 V c t) (xblk4 V c t) (if t.val = 0 then k4_pay1 else s0) = acc4_0 V c t.val t.isLt
      ∧ k4_pay5 (bblk4 V c t) (if t.val = 0 then k4_pay2 else s1) = acc4_1 V c t.val t.isLt := by
  obtain ⟨_ | n, hn⟩ := t
  · exact ⟨rfl, rfl⟩
  · obtain ⟨rfl, rfl⟩ := hs (Nat.succ_ne_zero n); exact ⟨rfl, rfl⟩

def PhiS4 (c : Dev nD) (n : ℕ) (h : n ≤ cfg4.N) : sProp 𝕄 :=
  iprop((∃ r, prngReg c r)
    ∗ (∃ s0 s1, ⌜∀ hn : n ≠ 0, s0 = acc4_0 V c (n - 1) (by omega) ∧ s1 = acc4_1 V c (n - 1) (by omega)⌝ ∗ owns c scM4_0 fullShare s0 ∗ owns c scM4_1 fullShare s1)
    ∗ Pipeline.scopedRestBut (Ix := Unit) (Name := ℕ) (U := UR sig nD τ) (Lvl := ℕ) (Val := Elt F) spec4 c [cc4_scratch0, cc4_scratch1])

def dat4 (c : Dev nD) : Dat τ (Elt F) Unit ℕ (UR sig nD τ) ℕ cfg4 c where
  A w := V c (Pipeline.arrRef spec4 w)
  after w t := match w with
    | ⟨0, _⟩ => xblk4 V c t
    | ⟨1, _⟩ => bblk4 V c t
    | ⟨2, _⟩ => acc4_0 V c t.val t.isLt
    | ⟨3, _⟩ => acc4_1 V c t.val t.isLt
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem q_full4 (c : Dev nD) (w : Fin cfg4.W) : (dat4 V c).q w = fullShare := rfl

theorem owed_zero4 (c : Dev nD) (t : Fin (cfg4.N + 1)) : (dat4 V c).owed t = 0 := rfl

theorem after4_2 (c : Dev nD) (t : Fin cfg4.N) : (dat4 V c).after 2 t = acc4_0 V c t.val t.isLt := rfl
theorem after4_3 (c : Dev nD) (t : Fin cfg4.N) : (dat4 V c).after 3 t = acc4_1 V c t.val t.isLt := rfl

theorem hin4 (c : Dev nD) :
    iprop((∃ r, prngReg c r) ∗ Pipeline.scopedRest (Ix := Unit) (Name := ℕ) (U := UR sig nD τ) (Lvl := ℕ) (Val := Elt F) spec4 c)
      ⊢ (dat4 V c).Φ 0 := by
  simp only [dat4, PhiS4, scopedRest4_split, owns_whole]
  iintro ⟨Hg, ⟨⟨%f0, H0⟩, ⟨%f1, H1⟩⟩, Hr⟩
  iframe Hg Hr
  iexists f0, f1
  iframe H0 H1
  ipureintro; exact fun h => absurd rfl h

theorem hout4 (c : Dev nD) :
    (dat4 V c).Φ (Fin.last cfg4.N)
      ⊢ iprop((∃ r, prngReg c r) ∗ Pipeline.scopedRest (Ix := Unit) (Name := ℕ) (U := UR sig nD τ) (Lvl := ℕ) (Val := Elt F) spec4 c) := by
  simp only [dat4, PhiS4, scopedRest4_split, owns_whole]
  iintro ⟨Hg, ⟨%s0, %s1, -, H0, H1⟩, Hr⟩
  iframe Hg Hr
  isplitl [H0] <;> (iexists _; iassumption)

theorem hz4 : (![0, 0] : Fin 2 → ℕ) = fun _ => 0 := by funext a; fin_cases a <;> rfl

set_option maxHeartbeats 1000000 in

theorem run4 (c : Dev nD) (i : grid4.Coords)
    (arg1 : Memref sig .tc .vmem S5000x64 .f32) (harg1 : arg1.IsWhole) (arg2 : Memref sig .tc .vmem S5000x1 .i32) (harg2 : arg2.IsWhole)
    (arg3 : Memref sig .tc .vmem S512x64 .f32) (harg3 : arg3.IsWhole) (arg4 : Memref sig .tc .vmem S512x1 .f32) (harg4 : arg4.IsWhole)
    (arg5 : Memref sig .tc .vmem S512x64 .f32) (harg5 : arg5.IsWhole) (arg6 : Memref sig .tc .vmem S512x1 .f32) (harg6 : arg6.IsWhole)
    {p0 p1 : Prop} [Decidable p0] [Decidable p1] (h0 : cond4_0 i ↔ p0) (h1 : cond4_1 i ↔ p1) (hx : ¬(p0 ∧ p1))
    (x : Vec F S5000x64 .f32) (b : Vec F S5000x1 .i32) (o2 s0 : Vec F S512x64 .f32) (o3 s1 : Vec F S512x1 .f32)
    (E : Set ℕ) (K : PUnit → sProp 𝕄) :
    iprop(owns c arg1 fullShare x ∗ owns c arg2 fullShare b
        ∗ owns c arg3 fullShare o2 ∗ owns c arg4 fullShare o3
        ∗ owns c arg5 fullShare s0 ∗ owns c arg6 fullShare s1
        ∗ (iprop(owns c arg1 fullShare x ∗ owns c arg2 fullShare b
            ∗ owns c arg3 fullShare (if p1 then k4_pay4 b x (if p0 then k4_pay1 else s0) else o2)
            ∗ owns c arg4 fullShare (if p1 then k4_pay5 b (if p0 then k4_pay2 else s1) else o3)
            ∗ owns c arg5 fullShare (k4_pay4 b x (if p0 then k4_pay1 else s0))
            ∗ owns c arg6 fullShare (k4_pay5 b (if p0 then k4_pay2 else s1))) -∗ K ⟨⟩))
      ⊢ wp frame (wpE (defs₀ (F := F)) Variants.none c none) E (cc4__reduce_kernel i arg1 harg1 arg2 harg2 arg3 harg3 arg4 harg4 arg5 harg5 arg6 harg6) K := by
  by_cases hp0 : p0 <;> by_cases hp1 : p1
  · exact absurd ⟨hp0, hp1⟩ hx
  all_goals
    simp only [hp0, hp1, ↓reduceIte, cc4__reduce_kernel_eq_skeleton]; unfold cc4__reduce_kernel_skel owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec (disch := first | exact h0.mpr hp0 | exact mt h0.mp hp0 | exact h1.mpr hp1 | exact mt h1.mp hp1)
    sl_step
    iapply Hk
    isplitl [H1]; rotate_left; isplitl [H2]; rotate_left; isplitl [H3]; rotate_left
    isplitl [H4]; rotate_left; isplitl [H5]; rotate_left
    all_goals
      iexists _; isplitr; swap; · iassumption
      ipureintro
      try sl_unfold_run_names
      try rw [View.read_writes_cons_unit_zero _ _ hz4]
      simp only [View.readCov_unit_zero (S := S512x64) _ hz4, View.readCov_unit_zero (S := S512x1) _ hz4, View.readAt_eq_ld,
        harg1.read_unread, harg2.read_unread, harg3.read_unread, harg4.read_unread, harg5.read_unread, harg6.read_unread,
        View.ld_unit_zero (S := S5000x64) hz4, View.ld_unit_zero (S := S5000x1) hz4,
        View.ld_unit_zero (S := S512x64) hz4, View.ld_unit_zero (S := S512x1) hz4]

theorem before4_0 (c : Dev nD) (t : Fin cfg4.N) (d) : (dat4 V c).before 0 t d = xblk4 V c t :=
  ((dat4 V c).before_fetched 0 t (fetch4_0 t) d).trans rfl
theorem before4_1 (c : Dev nD) (t : Fin cfg4.N) (d) : (dat4 V c).before 1 t d = bblk4 V c t :=
  ((dat4 V c).before_fetched 1 t (fetch4_1 t) d).trans rfl

theorem sound_body4 (c : Dev nD) (t : Fin cfg4.N) :
    iprop(PhiS4 V c t.val (Nat.le_of_lt t.isLt) ∗ (dat4 V c).owesAt () t.castSucc
      ∗ (∃ d, owns c (st4_0 t) fullShare ((dat4 V c).before 0 t d))
      ∗ (∃ d, owns c (st4_1 t) fullShare ((dat4 V c).before 1 t d))
      ∗ (∃ d, owns c (st4_2 t) fullShare ((dat4 V c).before 2 t d))
      ∗ (∃ d, owns c (st4_3 t) fullShare ((dat4 V c).before 3 t d)))
      ⊢ wp frame (wpE (defs₀ (F := F)) Variants.none c none) Set.univ (bodyAt4 t) (fun _ =>
        iprop(PhiS4 V c (t.val + 1) t.isLt ∗ (dat4 V c).owesAt () t.castSucc
          ∗ owns c (st4_0 t) fullShare (xblk4 V c t) ∗ owns c (st4_1 t) fullShare (bblk4 V c t)
          ∗ (dat4 V c).leavesExact 2 t ∗ (dat4 V c).leavesExact 3 t)) := by
  unfold bodyAt4
  simp only [before4_0, before4_1]
  unfold PhiS4
  iintro ⟨⟨Hg, ⟨%s0, %s1, %hs, HS0, HS1⟩, Hr⟩, Ho, ⟨%d0, H0⟩, ⟨%d1, H1⟩, ⟨%d2, H2⟩, ⟨%d3, H3⟩⟩
  obtain ⟨hA, hB⟩ := acc4_eq V c t s0 s1 hs
  iapply (run4 c (grid4.coords t) _ _ _ _ _ _ _ _ _ _ _ _ (hcond4_0 t) (hcond4_1 t) (by omega)
    (xblk4 V c t) (bblk4 V c t) _ s0 _ s1 Set.univ _)
  iframe H0 H1 H2 H3 HS0 HS1
  rw [hA, hB]
  iintro ⟨H0, H1, H2, H3, HS0, HS1⟩
  iframe Hg Hr Ho H0 H1
  isplitl [HS0 HS1]
  · iexists _, _
    iframe HS0 HS1
    ipureintro; exact fun _ => ⟨rfl, rfl⟩
  unfold Dat.leavesExact
  by_cases h99 : t.val = 99
  · obtain ⟨i2, i3⟩ := (idleAt4 t).1 h99
    rw [i2]; try rw [i3]
    simp only [if_pos h99, after4_2, after4_3]
    iframe
  · obtain ⟨i2, i3, f2, f3⟩ := (idleAt4 t).2 h99
    rw [i2]; try rw [i3]
    simp only [f2, f3, if_neg h99]
    isplitl [H2] <;> (iexists _; iassumption)

theorem body_obligation4 (c : Dev nD) :
    BodyObligation (dat4 (F := F) V c) (defs₀ (F := F)) Variants.none () Set.univ := fun t => by
  rw [bigSep_W4, bigSep_W4]
  exact sound_body4 V c t

end Cert.KernelIdeal.Gen

end
-- ==== Proof.KI.Region5.lean ====
import proofs.«420090_j3152505996138_1_alg».proof.Proof.Gen.KernelIdeal.Points
import proofs.«420090_j3152505996138_1_alg».proof.Proof.Gen.KernelIdeal.Launch
import proofs.«420090_j3152505996138_1_alg».proof.Proof.Gen.KernelIdeal.Skeleton
import proofs.«420090_j3152505996138_1_alg».proof.Proof.LibStores
import Idealize.ShloMosaic.Lib.Pipeline.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

abbrev first5 (i : grid5.Coords) : Prop := (Scalar.cmpi .ne (Scalar.extui (Scalar.cmpi .eq (BitVec.ofNat 32 (i 0).val) 0#32)) 0#32) = 1#1
abbrev last5 (i : grid5.Coords) : Prop := k5_cond2 i = 1#1

theorem first5_iff : ∀ t : Fin cfg5.N, first5 (grid5.coords t) ↔ t.val = 0 :=
  (by decide +kernel : ∀ t : Fin grid5.N, first5 (grid5.coords t) ↔ t.val = 0)
theorem last5_iff : ∀ t : Fin cfg5.N, last5 (grid5.coords t) ↔ t.val = 99 :=
  (by decide +kernel : ∀ t : Fin grid5.N, last5 (grid5.coords t) ↔ t.val = 99)

theorem hz2 : (![0, 0] : Fin 2 → ℕ) = fun _ => 0 := by
  funext a; fin_cases a <;> rfl

abbrev own5 (c : Dev nD) {sp : Space} {S : Shape} {e : EltTy} (m : Memref sig .tc sp S e) (X : S.Idx → Elt F e) : sProp 𝕄 :=
  owns (c : Thread nD τ) m fullShare X

set_option maxHeartbeats 1000000 in

theorem run5 (c : Dev nD) (i : grid5.Coords) (a1 : Memref sig .tc .vmem S5000x64 .f32) (h1 : a1.IsWhole) (a2 : Memref sig .tc .vmem S5000x1 .i32) (h2 : a2.IsWhole)
    (a3 : Memref sig .tc .vmem S64x128 .f32) (h3 : a3.IsWhole) (a4 : Memref sig .tc .vmem S1x128 .f32) (h4 : a4.IsWhole) (a5 : Memref sig .tc .vmem S512x128 .f32) (h5 : a5.IsWhole)
    (a6 : Memref sig .tc .vmem S5000x128 .f32) (h6 : a6.IsWhole) (a7 : Memref sig .tc .vmem S1x128 .f32) (h7 : a7.IsWhole) (a8 : Memref sig .tc .vmem S1x128 .f32) (h8 : a8.IsWhole)
    (a9 : Memref sig .tc .vmem S1x128 .f32) (h9 : a9.IsWhole) (a10 : Memref sig .tc .vmem S1x128 .f32) (h10 : a10.IsWhole) (hfl : first5 i → ¬ last5 i)
    (x0 : Vec F S5000x64 .f32) (x1 : Vec F S5000x1 .i32) (x2 : Vec F S64x128 .f32) (x3 : Vec F S1x128 .f32) (x4 : Vec F S512x128 .f32) (d : Vec F S5000x128 .f32)
    (y6 y7 s0 s1 : Vec F S1x128 .f32) (E : Set ℕ) (K : PUnit → sProp 𝕄) :
    iprop(own5 c a1 x0 ∗ own5 c a2 x1 ∗ own5 c a3 x2 ∗ own5 c a4 x3 ∗ own5 c a5 x4 ∗ own5 c a6 d ∗ own5 c a7 y6 ∗ own5 c a8 y7 ∗ own5 c a9 s0 ∗ own5 c a10 s1
        ∗ (own5 c a1 x0 -∗ own5 c a2 x1 -∗ own5 c a3 x2 -∗ own5 c a4 x3 -∗ own5 c a5 x4 -∗ own5 c a6 (k5_pay5 x1 x4 x0 x2 x3)
          -∗ own5 c a7 (if last5 i then k5_pay1 (k5_pay7 x1 x4 x0 x2 x3 (if first5 i then k5_pay3 else s0)) else y6)
          -∗ own5 c a8 (if last5 i then k5_pay2 (k5_pay6 x1 x4 x0 x2 x3) (if first5 i then k5_pay4 else s1) else y7)
          -∗ own5 c a9 (k5_pay1 (k5_pay7 x1 x4 x0 x2 x3 (if first5 i then k5_pay3 else s0)))
          -∗ own5 c a10 (k5_pay2 (k5_pay6 x1 x4 x0 x2 x3) (if first5 i then k5_pay4 else s1)) -∗ K ⟨⟩))
      ⊢ wp frame (wpE (defs₀ (F := F)) Variants.none c none) E (cc5__gather_linear_stats_kernel i a1 h1 a2 h2 a3 h3 a4 h4 a5 h5 a6 h6 a7 h7 a8 h8 a9 h9 a10 h10) K := by
  simp only [cc5__gather_linear_stats_kernel_eq_skeleton]
  unfold cc5__gather_linear_stats_kernel_skel
  simp only [k5_part1_eq_skeleton]
  unfold k5_part1_skel
  unfold own5 owns
  iintro ⟨⟨%f0, %e0, H0⟩, ⟨%f1, %e1, H1⟩, ⟨%f2, %e2, H2⟩, ⟨%f3, %e3, H3⟩, ⟨%f4, %e4, H4⟩, ⟨%f5, -, H5⟩, ⟨%f6, %e6, H6⟩, ⟨%f7, %e7, H7⟩, ⟨%f8, %e8, H8⟩, ⟨%f9, %e9, H9⟩, Hk⟩
  obtain rfl := h1.eq_unread e0; obtain rfl := h2.eq_unread e1; obtain rfl := h3.eq_unread e2; obtain rfl := h4.eq_unread e3; obtain rfl := h5.eq_unread e4
  obtain rfl := h7.eq_unread e6; obtain rfl := h8.eq_unread e7; obtain rfl := h9.eq_unread e8; obtain rfl := h10.eq_unread e9
  by_cases hc1 : first5 i <;> by_cases hc2 : last5 i
  · exact absurd hc2 (hfl hc1)
  all_goals
    first | rw [if_pos hc1, if_pos hc1] | rw [if_neg hc1, if_neg hc1]
    first | rw [if_pos hc2, if_pos hc2] | rw [if_neg hc2, if_neg hc2]
    sl_exec (disch := first | exact hc1 | exact hc2)
    sl_step
    iapply Hk $$ [H0] [H1] [H2] [H3] [H4] [H5] [H6] [H7] [H8] [H9]
    all_goals (iexists _; isplitr; swap; iassumption; ipureintro)
    all_goals first
      | with_reducible exact Memref.IsWhole.read_unread _ _
      | (try sl_unfold_words
         rw [View.read_writes_cons_unit_zero _ _ hz2]
         simp only [View.readAt_eq_ld, h1.read_unread, h2.read_unread, h3.read_unread, h4.read_unread, h5.read_unread, h9.read_unread, h10.read_unread,
           View.ld_unit_zero (S := S5000x64) hz2, View.ld_unit_zero (S := S5000x1) hz2, View.ld_unit_zero (S := S64x128) hz2, View.ld_unit_zero (S := S1x128) hz2,
           View.ld_unit_zero (S := S512x128) hz2, View.readCov_unit_zero (S := S1x128) _ hz2])

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev xin5 (c : Dev nD) (t : Fin cfg5.N) : Vec F S5000x64 .f32 := iblk5 V c 0 t
abbrev bat5 (c : Dev nD) (t : Fin cfg5.N) : Vec F S5000x1 .i32 := iblk5 V c 1 t
abbrev gw5 (c : Dev nD) (t : Fin cfg5.N) : Vec F S64x128 .f32 := iblk5 V c 2 t
abbrev gb5 (c : Dev nD) (t : Fin cfg5.N) : Vec F S1x128 .f32 := iblk5 V c 3 t
abbrev xm5 (c : Dev nD) (t : Fin cfg5.N) : Vec F S512x128 .f32 := iblk5 V c 4 t

def val5 (c : Dev nD) (t : Fin cfg5.N) : Vec F S5000x128 .f32 := k5_pay5 (bat5 V c t) (xm5 V c t) (xin5 V c t) (gw5 V c t) (gb5 V c t)
def pos5 (c : Dev nD) (t : Fin cfg5.N) : Vec F S5000x128 .f32 := k5_pay6 (bat5 V c t) (xm5 V c t) (xin5 V c t) (gw5 V c t) (gb5 V c t)
def sumStep5 (c : Dev nD) (t : Fin cfg5.N) (s : Vec F S1x128 .f32) : Vec F S1x128 .f32 :=
  k5_pay1 (k5_pay7 (bat5 V c t) (xm5 V c t) (xin5 V c t) (gw5 V c t) (gb5 V c t) s)
def sqStep5 (c : Dev nD) (t : Fin cfg5.N) (s : Vec F S1x128 .f32) : Vec F S1x128 .f32 :=
  k5_pay2 (pos5 V c t) s

def acc5 (c : Dev nD) : (n : ℕ) → n < cfg5.N → Vec F S1x128 .f32 × Vec F S1x128 .f32
  | 0, h => (sumStep5 V c ⟨0, h⟩ k5_pay3, sqStep5 V c ⟨0, h⟩ k5_pay4)
  | n + 1, h => (sumStep5 V c ⟨n + 1, h⟩ (acc5 c n (Nat.lt_of_succ_lt h)).1, sqStep5 V c ⟨n + 1, h⟩ (acc5 c n (Nat.lt_of_succ_lt h)).2)

theorem acc5_step (c : Dev nD) (t : Fin cfg5.N) (s0 s1 : Vec F S1x128 .f32)
    (hs : ∀ h : t.val ≠ 0, (s0, s1) = acc5 V c (t.val - 1) (Nat.lt_of_le_of_lt (Nat.sub_le _ _) t.isLt)) :
    (acc5 V c t.val t.isLt).1 = k5_pay1 (k5_pay7 (bat5 V c t) (xm5 V c t) (xin5 V c t) (gw5 V c t) (gb5 V c t) (if first5 (grid5.coords t) then k5_pay3 else s0))
      ∧ (acc5 V c t.val t.isLt).2 = k5_pay2 (k5_pay6 (bat5 V c t) (xm5 V c t) (xin5 V c t) (gw5 V c t) (gb5 V c t)) (if first5 (grid5.coords t) then k5_pay4 else s1) := by
  simp only [first5_iff t]
  obtain ⟨_ | n, hn⟩ := t
  · exact ⟨rfl, rfl⟩
  · obtain ⟨rfl, rfl⟩ := Prod.mk.inj (hs (Nat.succ_ne_zero n)); exact ⟨rfl, rfl⟩

abbrev sc5_0 : Memref sig .tc .vmem S1x128 .f32 := Memref.whole cc5_scratch0
abbrev sc5_1 : Memref sig .tc .vmem S1x128 .f32 := Memref.whole cc5_scratch1

def Phi5 (c : Dev nD) (n : ℕ) (h : n ≤ cfg5.N) : sProp 𝕄 :=
  iprop((∃ r, prngReg c r)
    ∗ (∃ s0 s1, ⌜∀ h0 : n ≠ 0, (s0, s1) = acc5 V c (n - 1) (by omega)⌝ ∗ own5 c sc5_0 s0 ∗ own5 c sc5_1 s1)
    ∗ Pipeline.scopedRestBut (Ix := Unit) (Name := ℕ) (U := UR sig nD τ) (Lvl := ℕ) (Val := Elt F) spec5 c [cc5_scratch0, cc5_scratch1])

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => val5 V c t
    | ⟨6, _⟩ => (acc5 V c t.val t.isLt).1
    | ⟨7, _⟩ => (acc5 V c t.val t.isLt).2
  Φ t := Phi5 V c t.val (Nat.le_of_lt_succ t.isLt)
  q _ := fullShare
  owed _ := 0

theorem A_eq5 (c : Dev nD) (w : Fin cfg5.W) : (dat5 V c).A w = V c (Pipeline.arrRef spec5 w) := rfl
theorem q_full5 (c : Dev nD) (w : Fin cfg5.W) : (dat5 V c).q w = fullShare := rfl
theorem owed_zero5 (c : Dev nD) (t : Fin (cfg5.N + 1)) : (dat5 V c).owed t = 0 := rfl
theorem after5_5 (c : Dev nD) (t : Fin cfg5.N) : (dat5 V c).after 5 t = val5 V c t := rfl
theorem after5_6 (c : Dev nD) (t : Fin cfg5.N) : (dat5 V c).after 6 t = (acc5 V c t.val t.isLt).1 := rfl
theorem after5_7 (c : Dev nD) (t : Fin cfg5.N) : (dat5 V c).after 7 t = (acc5 V c t.val t.isLt).2 := rfl

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem out5 : ∀ t : Fin cfg5.N, (t.val = 99 → cfg5.idle 6 (grid5.coords t) = false ∧ cfg5.idle 7 (grid5.coords t) = false)
    ∧ (t.val ≠ 99 → cfg5.idle 6 (grid5.coords t) = true ∧ cfg5.idle 7 (grid5.coords t) = true ∧ (cfg5.win 6).flush t = false ∧ (cfg5.win 7).flush t = false) := by
  decide +kernel

set_option maxHeartbeats 4000000 in

theorem sound_body5 (c : Dev nD) (t : Fin cfg5.N) :
    iprop(Phi5 V c t.val (Nat.le_of_lt t.isLt) ∗ (dat5 V c).owesAt () t.castSucc
      ∗ (∃ d, own5 c (win5_0.stage (cfg5.slots t 0)) ((dat5 V c).before 0 t d))
      ∗ (∃ d, own5 c (win5_1.stage (cfg5.slots t 1)) ((dat5 V c).before 1 t d))
      ∗ (∃ d, own5 c (win5_2.stage (cfg5.slots t 2)) ((dat5 V c).before 2 t d))
      ∗ (∃ d, own5 c (win5_3.stage (cfg5.slots t 3)) ((dat5 V c).before 3 t d))
      ∗ (∃ d, own5 c (win5_4.stage (cfg5.slots t 4)) ((dat5 V c).before 4 t d))
      ∗ (∃ d, own5 c (win5_5.stage (cfg5.slots t 5)) ((dat5 V c).before 5 t d))
      ∗ (∃ d, own5 c (win5_6.stage (cfg5.slots t 6)) ((dat5 V c).before 6 t d))
      ∗ (∃ d, own5 c (win5_7.stage (cfg5.slots t 7)) ((dat5 V c).before 7 t d)))
      ⊢ wp frame (wpE (defs₀ (F := F)) Variants.none c none) Set.univ (bodyAt5 t) fun _ =>
        iprop(Phi5 V c (t.val + 1) t.isLt ∗ (dat5 V c).owesAt () t.castSucc
          ∗ own5 c (win5_0.stage (cfg5.slots t 0)) (xin5 V c t) ∗ own5 c (win5_1.stage (cfg5.slots t 1)) (bat5 V c t)
          ∗ own5 c (win5_2.stage (cfg5.slots t 2)) (gw5 V c t) ∗ own5 c (win5_3.stage (cfg5.slots t 3)) (gb5 V c t)
          ∗ own5 c (win5_4.stage (cfg5.slots t 4)) (xm5 V c t) ∗ own5 c (win5_5.stage (cfg5.slots t 5)) (val5 V c t)
          ∗ (dat5 V c).leavesExact 6 t ∗ (dat5 V c).leavesExact 7 t) := by
  simp only [before5_0, before5_1, before5_2, before5_3, before5_4]
  unfold Phi5 val5
  iintro ⟨⟨Hg, ⟨%s0, %s1, %hs, S0, S1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1⟩ := acc5_step V c t s0 s1 hs
  iapply (run5 c (grid5.coords t) _ _ _ _ _ _ _ _ _ _ _ _ _ _ _ _ _ _ _ _ (fun hf hl => by have := (first5_iff t).mp hf; have := (last5_iff t).mp hl; omega)
    _ _ _ _ _ _ _ _ s0 s1 Set.univ _)
  iframe H0 H1 H2 H3 H4 H5 H6 H7 S0 S1
  iintro H0 H1 H2 H3 H4 H5 H6 H7 S0 S1
  rw [← e0, ← e1]
  iframe Hg Hr Ho H0 H1 H2 H3 H4 H5
  isplitl [S0 S1]
  · iexists _, _
    iframe S0 S1
    ipureintro; exact fun _ => rfl
  unfold Dat.leavesExact
  by_cases hl : last5 (grid5.coords t)
  · obtain ⟨i6, i7⟩ := (out5 t).1 ((last5_iff t).mp hl)
    rw [i6]; try rw [i7]
    simp only [if_pos hl, after5_6, after5_7]
    iframe
  · obtain ⟨i6, i7, f6, f7⟩ := (out5 t).2 (mt (last5_iff t).mpr hl)
    rw [i6]; try rw [i7]
    simp only [f6, f7, if_neg hl]
    isplitl [H6] <;> (iexists _; iassumption)

theorem body_obligation5 (c : Dev nD) : BodyObligation (dat5 (F := F) V c) (defs₀ (F := F)) Variants.none () Set.univ := fun t => by
  rw [bigSep_W5, bigSep_W5]
  exact sound_body5 V c t

theorem hin5 (c : Dev nD) :
    iprop((∃ r, prngReg c r) ∗ Pipeline.scopedRest (Ix := Unit) (Name := ℕ) (U := UR sig nD τ) (Lvl := ℕ) (Val := Elt F) spec5 c)
      ⊢ (dat5 V c).Φ 0 := by
  simp only [dat5, Phi5, scopedRest5_split, owns_whole]
  iintro ⟨Hg, ⟨⟨%s0, H0⟩, ⟨%s1, H1⟩⟩, Hr⟩
  iframe Hg Hr
  iexists s0, s1
  iframe H0 H1
  ipureintro; exact fun h => absurd rfl h

theorem hout5 (c : Dev nD) :
    (dat5 V c).Φ (Fin.last cfg5.N)
      ⊢ iprop((∃ r, prngReg c r) ∗ Pipeline.scopedRest (Ix := Unit) (Name := ℕ) (U := UR sig nD τ) (Lvl := ℕ) (Val := Elt F) spec5 c) := by
  simp only [dat5, Phi5, scopedRest5_split, owns_whole]
  iintro ⟨Hg, ⟨%s0, %s1, -, H0, H1⟩, Hr⟩
  iframe Hg Hr
  isplitl [H0] <;> iexists _ <;> iassumption

end Cert.KernelIdeal.Gen

end
-- ==== Proof.KI.Region6.lean ====
import proofs.«420090_j3152505996138_1_alg».proof.Proof.Gen.KernelIdeal.Launch
import proofs.«420090_j3152505996138_1_alg».proof.Proof.Gen.KernelIdeal.Skeleton
import proofs.«420090_j3152505996138_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def blk6 (c : Dev nD) (w : Fin cfg6.W) (t : Fin cfg6.N) :
    ((cfg6.win w).xblock (cfg6.grid.coords t)).Idx → Elt F (cfg6.win w).elt :=
  ((cfg6.win w).blk t).view.read (Elt F) (V c (Pipeline.arrRef spec6 w))

def out6 (x x0 : Vec F S5000x128 .f32) (mu var gam bet : Vec F S1x128 .f32) : Vec F S5000x128 .f32 :=
  k6_pay1 x0 var mu x gam bet

theorem zero_off6 : (![0, 0] : Fin 2 → Nat) = fun _ => 0 := funext fun a => by fin_cases a <;> rfl

def dat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => blk6 V c 2 t
    | ⟨3, _⟩ => blk6 V c 3 t
    | ⟨4, _⟩ => blk6 V c 4 t
    | ⟨5, _⟩ => blk6 V c 5 t
    | ⟨6, _⟩ => out6 (blk6 V c 0 t) (blk6 V c 1 t) (blk6 V c 2 t) (blk6 V c 3 t) (blk6 V c 4 t) (blk6 V c 5 t)
  Φ _ := Pipeline.ΦA spec6 c
  q _ := fullShare
  owed _ := 0

theorem A_eq6 (c : Dev nD) (w : Fin cfg6.W) : (dat6 V c).A w = V c (Pipeline.arrRef spec6 w) := rfl

theorem Φ_eq6 (c : Dev nD) (t) : (dat6 V c).Φ t = Pipeline.ΦA spec6 c := rfl

theorem after6_6 (c : Dev nD) (t : Fin cfg6.N) : (dat6 V c).after 6 t
    = out6 (blk6 V c 0 t) (blk6 V c 1 t) (blk6 V c 2 t) (blk6 V c 3 t) (blk6 V c 4 t) (blk6 V c 5 t) := by
  dsimp only [dat6]

theorem before6 (c : Dev nD) (t : Fin cfg6.N) :
    (∀ d, (dat6 V c).before 0 t d = blk6 V c 0 t) ∧ (∀ d, (dat6 V c).before 1 t d = blk6 V c 1 t) ∧
    (∀ d, (dat6 V c).before 2 t d = blk6 V c 2 t) ∧ (∀ d, (dat6 V c).before 3 t d = blk6 V c 3 t) ∧
    (∀ d, (dat6 V c).before 4 t d = blk6 V c 4 t) ∧ ∀ d, (dat6 V c).before 5 t d = blk6 V c 5 t := by
  refine ⟨?_, ?_, ?_, ?_, ?_, ?_⟩ <;>
    exact (dat6 V c).before_in_eq_fetched _ rfl (fun _ => rfl) (fun _ _ _ => rfl) (fun _ => rfl) t

theorem body_triple6 {T0 T1 T2 T3 T4 T5 T6 : Type} (c : Dev nD) (E i)
    (arg1 arg2 arg7 : Memref sig .tc .vmem S5000x128 .f32) (arg3 arg4 arg5 arg6 : Memref sig .tc .vmem S1x128 .f32)
    (harg1 harg2 harg3 harg4 harg5 harg6 harg7 x x0 mu var gam bet) (y : T6 → _)
    (Φ O : sProp (MT nD τ sig Unit (Elt F) ℕ (UR sig nD τ) ℕ)) :
    iprop(Φ ∗ O ∗ (∃ _ : T0, owns c.tc arg1 fullShare x) ∗ (∃ _ : T1, owns c.tc arg2 fullShare x0)
        ∗ (∃ _ : T2, owns c.tc arg3 fullShare mu) ∗ (∃ _ : T3, owns c.tc arg4 fullShare var) ∗ (∃ _ : T4, owns c.tc arg5 fullShare gam)
        ∗ (∃ _ : T5, owns c.tc arg6 fullShare bet) ∗ (∃ d, owns c.tc arg7 fullShare (y d)))
      ⊢ wp frame (wpE (defs₀ (F := F)) Variants.none c none) E
          (cc6__bn_residual_kernel i arg1 harg1 arg2 harg2 arg3 harg3 arg4 harg4 arg5 harg5 arg6 harg6 arg7 harg7) fun _ =>
        iprop(Φ ∗ O ∗ owns c.tc arg1 fullShare x ∗ owns c.tc arg2 fullShare x0 ∗ owns c.tc arg3 fullShare mu
          ∗ owns c.tc arg4 fullShare var ∗ owns c.tc arg5 fullShare gam ∗ owns c.tc arg6 fullShare bet
          ∗ owns c.tc arg7 fullShare (out6 x x0 mu var gam bet)) := by
  simp only [cc6__bn_residual_kernel_eq_skeleton]; unfold cc6__bn_residual_kernel_skel owns
  iintro ⟨HΦ, HO, ⟨%_, %f1, %hf1, H1⟩, ⟨%_, %f2, %hf2, H2⟩, ⟨%_, %f3, %hf3, H3⟩, ⟨%_, %f4, %hf4, H4⟩,
    ⟨%_, %f5, %hf5, H5⟩, ⟨%_, %f6, %hf6, H6⟩, ⟨%_, %f7, -, H7⟩⟩
  subst hf1 hf2 hf3 hf4 hf5 hf6
  sl_exec
  sl_step
  iframe HΦ HO
  isplitl [H1]; · iexists f1; iframe H1; ipureintro; rfl
  isplitl [H2]; · iexists f2; iframe H2; ipureintro; rfl
  isplitl [H3]; · iexists f3; iframe H3; ipureintro; rfl
  isplitl [H4]; · iexists f4; iframe H4; ipureintro; rfl
  isplitl [H5]; · iexists f5; iframe H5; ipureintro; rfl
  isplitl [H6]; · iexists f6; iframe H6; ipureintro; rfl
  iexists _; iframe H7; ipureintro
  refine (View.read_writes_eq_canon _ _ _ (View.cover_of_tiled _ S5000x128.size (by rfl))).trans ((View.canon_unit_zero zero_off6 _ _).trans ?_)
  unfold out6
  simp only [View.readAt_eq_ld, View.ld_unit_zero (S := S5000x128) zero_off6, View.ld_unit_zero (S := S1x128) zero_off6]

theorem body_obligation6 (c : Dev nD) :
    BodyObligation (dat6 (F := F) V c) (defs₀ (F := F)) Variants.none () Set.univ := fun t => by
  rw [bigSep_W6, bigSep_W6]
  show _ ⊢ wp _ _ _ (bodyAt6 t) _
  simp only [before6 V c t, after6_6]
  exact body_triple6 c _ _ _ _ _ _ _ _ _ _ _ _ _ _ _ _ _ _ _ _ _ _ _ _ _

end Cert.KernelIdeal.Gen
-- ==== Proof.KI.Assemble.lean ====
import proofs.«420090_j3152505996138_1_alg».proof.Proof.KI.Region0
import proofs.«420090_j3152505996138_1_alg».proof.Proof.KI.Region1
import proofs.«420090_j3152505996138_1_alg».proof.Proof.KI.Region2
import proofs.«420090_j3152505996138_1_alg».proof.Proof.KI.Region3
import proofs.«420090_j3152505996138_1_alg».proof.Proof.KI.Region4
import proofs.«420090_j3152505996138_1_alg».proof.Proof.KI.Region5
import proofs.«420090_j3152505996138_1_alg».proof.Proof.KI.Region6
import proofs.«420090_j3152505996138_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev tcv (W : Dev nD → Valuation τ sig (Elt F)) : (c : Dev nD) → (b : Ref sig .tc) → Buf (Elt F) ((c : Thread nD τ).loc b) :=
  fun c b => W c b

def o3 (c : Dev nD) : Buf (Elt F) ((c : Thread nD τ).loc main_v3) := (dat0 (tcv (V1 m)) c).arrAt 5 cfg0.N
def W2 (c : Dev nD) : Valuation τ sig (Elt F) := Function.update (V1 m c) main_v3 (o3 m c)
def W3 (c : Dev nD) : Valuation τ sig (Elt F) := StableHlo.after hostOps1 (W2 m c)
def W4 (c : Dev nD) : Valuation τ sig (Elt F) := StableHlo.after hostOps1_1 (W3 m c)
def W5 (c : Dev nD) : Valuation τ sig (Elt F) := StableHlo.after hostOps1_2 (W4 m c)
def W6 (c : Dev nD) : Valuation τ sig (Elt F) := StableHlo.after hostOps1_3 (W5 m c)
def W7 (c : Dev nD) : Valuation τ sig (Elt F) := StableHlo.after hostOps1_4 (W6 m c)
def W8 (c : Dev nD) : Valuation τ sig (Elt F) := StableHlo.after hostOps1_5 (W7 m c)
def o17 (c : Dev nD) : Buf (Elt F) ((c : Thread nD τ).loc main_v17) := (dat1 (tcv (W8 m)) c).arrAt 3 cfg1.N
def W9 (c : Dev nD) : Valuation τ sig (Elt F) := Function.update (W8 m c) main_v17 (o17 m c)
def o18_0 (c : Dev nD) : Buf (Elt F) ((c : Thread nD τ).loc main_v18_0) := (dat2 (tcv (W9 m)) c).arrAt 2 cfg2.N
def o18_1 (c : Dev nD) : Buf (Elt F) ((c : Thread nD τ).loc main_v18_1) := (dat2 (tcv (W9 m)) c).arrAt 3 cfg2.N
def W10 (c : Dev nD) : Valuation τ sig (Elt F) := Function.update (Function.update (W9 m c) main_v18_0 (o18_0 m c)) main_v18_1 (o18_1 m c)
def W11 (c : Dev nD) : Valuation τ sig (Elt F) := StableHlo.after hostOps3 (W10 m c)
def o25 (c : Dev nD) : Buf (Elt F) ((c : Thread nD τ).loc main_v25) := (dat3 (tcv (W11 m)) c).arrAt 5 cfg3.N
def W12 (c : Dev nD) : Valuation τ sig (Elt F) := Function.update (W11 m c) main_v25 (o25 m c)
def o26_0 (c : Dev nD) : Buf (Elt F) ((c : Thread nD τ).loc main_v26_0) := (dat4 (tcv (W12 m)) c).arrAt 2 cfg4.N
def o26_1 (c : Dev nD) : Buf (Elt F) ((c : Thread nD τ).loc main_v26_1) := (dat4 (tcv (W12 m)) c).arrAt 3 cfg4.N
def W13 (c : Dev nD) : Valuation τ sig (Elt F) := Function.update (Function.update (W12 m c) main_v26_0 (o26_0 m c)) main_v26_1 (o26_1 m c)
def W14 (c : Dev nD) : Valuation τ sig (Elt F) := StableHlo.after hostOps5 (W13 m c)
def o33_0 (c : Dev nD) : Buf (Elt F) ((c : Thread nD τ).loc main_v33_0) := (dat5 (tcv (W14 m)) c).arrAt 5 cfg5.N
def o33_1 (c : Dev nD) : Buf (Elt F) ((c : Thread nD τ).loc main_v33_1) := (dat5 (tcv (W14 m)) c).arrAt 6 cfg5.N
def o33_2 (c : Dev nD) : Buf (Elt F) ((c : Thread nD τ).loc main_v33_2) := (dat5 (tcv (W14 m)) c).arrAt 7 cfg5.N
def W15 (c : Dev nD) : Valuation τ sig (Elt F) := Function.update (Function.update (Function.update (W14 m c) main_v33_0 (o33_0 m c)) main_v33_1 (o33_1 m c)) main_v33_2 (o33_2 m c)
def W16 (c : Dev nD) : Valuation τ sig (Elt F) := StableHlo.after hostOps6 (W15 m c)
def o42 (c : Dev nD) : Buf (Elt F) ((c : Thread nD τ).loc main_v42) := (dat6 (tcv (W16 m)) c).arrAt 6 cfg6.N
def W17 (c : Dev nD) : Valuation τ sig (Elt F) := Function.update (W16 m c) main_v42 (o42 m c)

def outs : Outs (F := F) := fun J r c =>
  match J with
  | 2 => W2 m c r | 9 => W9 m c r | 10 => W10 m c r | 12 => W12 m c r | 13 => W13 m c r | 15 => W15 m c r | 17 => W17 m c r
  | _ => V0 m c r
theorem dne {a b : Ref sig .tc} (h : a ≠ b) : (Proc.devRef .tc a : DevRef τ sig) ≠ Proc.devRef .tc b := StableHlo.devRef_ne_of_ne h

/-- Off the updated reference a valuation reads as before. -/
theorem upd_ne {a b : Ref sig .tc} (V : Valuation τ sig (Elt F)) (x) (h : a ≠ b) :
    Function.update V (Proc.devRef .tc b) x (Proc.devRef .tc a) = V (Proc.devRef .tc a) := Function.update_of_ne (dne h) _ _
/-- … in particular at a reference that is none of a call's arrays, when the update is at one of them. -/
theorem upd_off {gr W : ℕ} {spec : Fin W → Pipeline.WinSpec sig gr} {b : Ref sig .tc} (hb : b ∉ Finset.univ.image (Pipeline.arrRef spec)) (w : Fin W) (V : Valuation τ sig (Elt F)) (x) :
    Function.update V (Proc.devRef .tc (Pipeline.arrRef spec w)) x (Proc.devRef .tc b) = V (Proc.devRef .tc b) :=
  upd_ne V x fun e => hb (Finset.mem_image.mpr ⟨w, Finset.mem_univ _, e.symm⟩)

theorem V2_eq (c : Dev nD) : V2 m (outs m) c = W2 m c := by
  unfold V2; simp only [outs, W2, Function.update_self]
theorem V8_eq (c : Dev nD) : V8 m (outs m) c = W8 m c :=
  congrArg (fun v => StableHlo.after hostOps1_5 (StableHlo.after hostOps1_4 (StableHlo.after hostOps1_3 (StableHlo.after hostOps1_2 (StableHlo.after hostOps1_1 (StableHlo.after hostOps1 v)))))) (V2_eq m c)
theorem V9_eq (c : Dev nD) : V9 m (outs m) c = W9 m c := by
  unfold V9; rw [V8_eq]; simp only [outs, W9, Function.update_self]
theorem V10_eq (c : Dev nD) : V10 m (outs m) c = W10 m c := by
  unfold V10; rw [V9_eq]; simp only [outs, W10]; repeat (first | rw [Function.update_self] | rw [upd_ne _ _ (by decide)])
theorem V11_eq (c : Dev nD) : V11 m (outs m) c = W11 m c := congrArg (StableHlo.after hostOps3) (V10_eq m c)
theorem V12_eq (c : Dev nD) : V12 m (outs m) c = W12 m c := by
  unfold V12; rw [V11_eq]; simp only [outs, W12, Function.update_self]
theorem V13_eq (c : Dev nD) : V13 m (outs m) c = W13 m c := by
  unfold V13; rw [V12_eq]; simp only [outs, W13]; repeat (first | rw [Function.update_self] | rw [upd_ne _ _ (by decide)])
theorem V14_eq (c : Dev nD) : V14 m (outs m) c = W14 m c := congrArg (StableHlo.after hostOps5) (V13_eq m c)
theorem V15_eq (c : Dev nD) : V15 m (outs m) c = W15 m c := by
  unfold V15; rw [V14_eq]; simp only [outs, W15]; repeat (first | rw [Function.update_self] | rw [upd_ne _ _ (by decide)])
theorem V16_eq (c : Dev nD) : V16 m (outs m) c = W16 m c := congrArg (StableHlo.after hostOps6) (V15_eq m c)
theorem V17_eq (c : Dev nD) : V17 m (outs m) c = W17 m c := by
  unfold V17; rw [V16_eq]; simp only [outs, W17, Function.update_self]

def pdats : (p : Fin 7) → (c : Dev nD) → Dat τ (Elt F) Unit ℕ (UR sig nD τ) ℕ (Pipeline.pin (pcfgs (F := F)) adm p) c
  | ⟨0, _⟩ => fun c => dat0 (tcv (V1 m)) c
  | ⟨1, _⟩ => fun c => dat1 (tcv (W8 m)) c
  | ⟨2, _⟩ => fun c => dat2 (tcv (W9 m)) c
  | ⟨3, _⟩ => fun c => dat3 (tcv (W11 m)) c
  | ⟨4, _⟩ => fun c => dat4 (tcv (W12 m)) c
  | ⟨5, _⟩ => fun c => dat5 (tcv (W14 m)) c
  | ⟨6, _⟩ => fun c => dat6 (tcv (W16 m)) c

abbrev lev0 : GSem nD τ sig → Finset Unit := fun _ => ∅
abbrev lvl0 : GSem nD τ sig → Unit → ℕ := fun _ _ => 0
abbrev rest (c : Dev nD) : sProp 𝕄 := iprop((∃ r, prngReg c r) ∗ ∃ W, owes (c : Thread nD τ) (0 : CellTallies nD τ sig Unit) W)

set_option backward.isDefEq.respectTransparency.types false

/-- One record for all seven calls: entered with every buffer at `Vi`, it is left with every buffer at any `Vo` that has the call's arrays at their final contents and agrees with `Vi` elsewhere. -/
def heldReg (pd : (p : Fin 7) → (c : Dev nD) → Dat τ (Elt F) Unit ℕ (UR sig nD τ) ℕ (Pipeline.pin (pcfgs (F := F)) adm p) c) (p : Fin 7)
    (la : Pipeline.LaunchFacts (nD := nD) (τ := τ) cfgs p) (Vi Vo : Dev nD → Valuation τ sig (Elt F))
    (hb : ∀ c, BodyObligation (pd p c) (defs₀ (F := F)) Variants.none () Set.univ)
    (hq : ∀ c w, (pd p c).q w = fullShare) (hz : ∀ c t, (pd p c).owed t = 0) (hrec : ∀ c, (pd p c).recorded 0 = Set.univ)
    (hA : ∀ c w, (pd p c).A w = tcv Vi c (Pipeline.arrRef (cfgs p).spec w))
    (hi : ∀ c, (iprop((∃ r, prngReg c r) ∗ Pipeline.scopedRest (Ix := Unit) (Name := ℕ) (U := UR sig nD τ) (Lvl := ℕ) (Val := Elt F) (cfgs p).spec c) : sProp 𝕄) ⊢ (pd p c).Φ 0)
    (hl : ∀ c, (pd p c).Φ (Fin.last (cfgs p).N) ⊢ (iprop((∃ r, prngReg c r) ∗ Pipeline.scopedRest (Ix := Unit) (Name := ℕ) (U := UR sig nD τ) (Lvl := ℕ) (Val := Elt F) (cfgs p).spec c) : sProp 𝕄))
    (hF : ∀ c w, (pd p c).arrAt w (cfgs p).N = tcv Vo c (Pipeline.arrRef (cfgs p).spec w))
    (hr : ∀ c b, b ∉ Finset.univ.image (Pipeline.arrRef (cfgs p).spec) → tcv Vo c b = tcv Vi c b) :
    Pipeline.RegionSeg (pcfgs (F := F)) adm pd () defs₀ Variants.none lev0 lvl0 p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ lev0 lvl0 p hz
  pre c := iprop(StableHlo.held (c : Thread nD τ) (Pipeline.ucRefs τ sig) (Vi c) ∗ rest c)
  post c := iprop(StableHlo.held (c : Thread nD τ) (Pipeline.ucRefs τ sig) (Vo c) ∗ rest c)
  X c := iprop(∃ r, prngReg c r)
  Y c := iprop(∃ r, prngReg c r)
  Z c := Pipeline.unscopedRest (Ix := Unit) (Name := ℕ) (U := UR sig nD τ) (Lvl := ℕ) (cfgs p).spec c (tcv Vi c)
  hentry c := by
    rw [Pipeline.ownSems0_none]
    have hsplit := Pipeline.arrays_of_unscopedBufs (p := p) (pcfgs (F := F)) adm pd la.win la.arr_whole c
      ((pd p c).share_full (hq c)) (tcv Vi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz]
      icases HO with ⟨%W, HO⟩; iexists W; isplitr; · ipureintro; exact fun x _ => Or.inl (hrec c ▸ Set.mem_univ x)
      iexact HO
    isplitl [Hp]; · iexact Hp
    iexact Hrest
  hin c := by
    show iprop(_ ∗ _ ∗ _) ⊢ (pd p c).Φ 0
    iintro ⟨Hp, -, Hr⟩
    iapply (hi c)
    isplitl [Hp]; · iexact Hp
    iexact Hr
  hout c := by
    rw [Pipeline.ownSems0_none]
    show (pd p c).Φ (Fin.last (cfgs p).N) ⊢ _
    iintro H
    ihave H' := (hl c) $$ H
    icases H' with ⟨Hp, Hr⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c pd ((pd p c).share_full (hq c))
      (tcv Vi c) (tcv Vo c) ((pd p c).arrAt · (cfgs p).N) (hF c) (hr c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz]
    icases HO with ⟨%W, -, HO⟩; iexists W; iexact HO

abbrev Reg (p : Fin 7) := Pipeline.RegionSeg (pcfgs (F := F)) adm (pdats m) () defs₀ Variants.none lev0 lvl0 p

theorem hF0 (c : Dev nD) (w : Fin cfg0.W) : (dat0 (tcv (V1 m)) c).arrAt w cfg0.N = tcv (W2 m) c (Pipeline.arrRef spec0 w) := by
  simp only [tcv, W2]; fin_cases w
  iterate 5 exact (Pipeline.Dat.arrAt_in _ _ rfl _).trans ((A_eq0 _ c _).trans (by repeat rw [upd_ne _ _ (by decide)]))
  exact Eq.symm (Function.update_self ..)
theorem hF1 (c : Dev nD) (w : Fin cfg1.W) : (dat1 (tcv (W8 m)) c).arrAt w cfg1.N = tcv (W9 m) c (Pipeline.arrRef spec1 w) := by
  simp only [tcv, W9]; fin_cases w
  iterate 3 exact (Pipeline.Dat.arrAt_in _ _ rfl _).trans ((A_eq1 _ c _).trans (by repeat rw [upd_ne _ _ (by decide)]))
  exact Eq.symm (Function.update_self ..)
theorem hF2 (c : Dev nD) (w : Fin cfg2.W) : (dat2 (tcv (W9 m)) c).arrAt w cfg2.N = tcv (W10 m) c (Pipeline.arrRef spec2 w) := by
  simp only [tcv, W10]; fin_cases w
  iterate 2 exact (Pipeline.Dat.arrAt_in _ _ rfl _).trans ((A_eq2 _ c _).trans (by repeat rw [upd_ne _ _ (by decide)]))
  · rw [upd_ne _ _ (by decide)]; exact Eq.symm (Function.update_self ..)
  · exact Eq.symm (Function.update_self ..)
theorem hF3 (c : Dev nD) (w : Fin cfg3.W) : (dat3 (tcv (W11 m)) c).arrAt w cfg3.N = tcv (W12 m) c (Pipeline.arrRef spec3 w) := by
  simp only [tcv, W12]; fin_cases w
  iterate 5 exact (Pipeline.Dat.arrAt_in _ _ rfl _).trans ((A_eq3 _ c _).trans (by repeat rw [upd_ne _ _ (by decide)]))
  exact Eq.symm (Function.update_self ..)
theorem hF4 (c : Dev nD) (w : Fin cfg4.W) : (dat4 (tcv (W12 m)) c).arrAt w cfg4.N = tcv (W13 m) c (Pipeline.arrRef spec4 w) := by
  simp only [tcv, W13]; fin_cases w
  iterate 2 exact (Pipeline.Dat.arrAt_in _ _ rfl _).trans ((A_eq4 _ c _).trans (by repeat rw [upd_ne _ _ (by decide)]))
  · rw [upd_ne _ _ (by decide)]; exact Eq.symm (Function.update_self ..)
  · exact Eq.symm (Function.update_self ..)
theorem W15_off (c : Dev nD) {a : Ref sig .tc} (h0 : a ≠ main_v33_0) (h1 : a ≠ main_v33_1) (h2 : a ≠ main_v33_2) :
    W15 m c (Proc.devRef .tc a) = W14 m c (Proc.devRef .tc a) := by
  unfold W15; rw [upd_ne _ _ h2, upd_ne _ _ h1, upd_ne _ _ h0]
theorem W15_outs (c : Dev nD) : W15 m c main_v33_0 = o33_0 m c ∧ W15 m c main_v33_1 = o33_1 m c ∧ W15 m c main_v33_2 = o33_2 m c := by
  unfold W15; refine ⟨?_, ?_, ?_⟩ <;> repeat (first | rw [Function.update_self] | rw [upd_ne _ _ (by decide)])
theorem hF5 (c : Dev nD) (w : Fin cfg5.W) : (dat5 (tcv (W14 m)) c).arrAt w cfg5.N = tcv (W15 m) c (Pipeline.arrRef spec5 w) := by
  fin_cases w
  iterate 5 exact (Pipeline.Dat.arrAt_in _ _ rfl _).trans ((A_eq5 _ c _).trans (Eq.symm (W15_off m c (by decide) (by decide) (by decide))))
  · exact Eq.symm (W15_outs m c).1
  · exact Eq.symm (W15_outs m c).2.1
  · exact Eq.symm (W15_outs m c).2.2
theorem hF6 (c : Dev nD) (w : Fin cfg6.W) : (dat6 (tcv (W16 m)) c).arrAt w cfg6.N = tcv (W17 m) c (Pipeline.arrRef spec6 w) := by
  simp only [tcv, W17]; fin_cases w
  iterate 6 exact (Pipeline.Dat.arrAt_in _ _ rfl _).trans ((A_eq6 _ c _).trans (by repeat rw [upd_ne _ _ (by decide)]))
  exact Eq.symm (Function.update_self ..)

def reg0 : Reg m 0 :=
  heldReg (pdats m) 0 launch0 (V1 m) (W2 m) (fun c => body_obligation0 _ c) (fun _ _ => rfl) (fun _ _ => rfl) (fun _ => rfl) (A_eq0 _) (fun _ => sep_symm) (fun _ => sep_symm) (hF0 m) fun c b hb => upd_off hb 5 _ _
def reg1 : Reg m 1 :=
  heldReg (pdats m) 1 launch1 (W8 m) (W9 m) (fun c => body_obligation1 _ c) (fun _ _ => rfl) (fun _ _ => rfl) (fun _ => rfl) (A_eq1 _) (fun _ => sep_symm) (fun _ => sep_symm) (hF1 m) fun c b hb => upd_off hb 3 _ _
def reg2 : Reg m 2 :=
  heldReg (pdats m) 2 launch2 (W9 m) (W10 m) (fun c => body_obligation2 _ c) (q_full2 _) (owed_zero2 _) (fun _ => rfl) (A_eq2 _) (hin2 _) (hout2 _) (hF2 m) fun c b hb => (upd_off hb 3 _ _).trans (upd_off hb 2 _ _)
def reg3 : Reg m 3 :=
  heldReg (pdats m) 3 launch3 (W11 m) (W12 m) (fun c => body_obligation3 _ c) (fun _ _ => rfl) (fun _ _ => rfl) (fun _ => rfl) (A_eq3 _) (fun _ => sep_symm) (fun _ => sep_symm) (hF3 m) fun c b hb => upd_off hb 5 _ _
def reg4 : Reg m 4 :=
  heldReg (pdats m) 4 launch4 (W12 m) (W13 m) (fun c => body_obligation4 _ c) (q_full4 _) (owed_zero4 _) (fun _ => rfl) (A_eq4 _) (hin4 _) (hout4 _) (hF4 m) fun c b hb => (upd_off hb 3 _ _).trans (upd_off hb 2 _ _)
def reg5 : Reg m 5 :=
  heldReg (pdats m) 5 launch5 (W14 m) (W15 m) (fun c => body_obligation5 _ c) (q_full5 _) (owed_zero5 _) (fun _ => rfl) (A_eq5 _) (hin5 _) (hout5 _) (hF5 m) fun c b hb => ((upd_off hb 7 _ _).trans (upd_off hb 6 _ _)).trans (upd_off hb 5 _ _)
def reg6 : Reg m 6 :=
  heldReg (pdats m) 6 launch6 (W16 m) (W17 m) (fun c => body_obligation6 _ c) (fun _ _ => rfl) (fun _ _ => rfl) (fun _ => rfl) (A_eq6 _) (fun _ => sep_symm) (fun _ => sep_symm) (hF6 m) fun c b hb => upd_off hb 6 _ _

variable (ρ : Dev nD → PrngReg)

theorem run : θ_run defs (onTc (τ := τ) (main (F := F))) ⟨m, fun _ => 0, ρ⟩ (fun r => ∀ c : Dev nD,
      r.2.mem ((c.tc : Thread nD τ).loc main_v42) = W17 m c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ?_) (run_cond (m := m) (EP := emb₁) (ι := ()) (𝒱₀ := Variants.none) (L := lev0) (lv := lvl0)
    (hL := fun _ _ => rfl) (ρ := ρ) (outs := outs m) (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => rest c)
    (hE0 := Pipeline.initEach lev0 lvl0 fun c => by
      iintro ⟨⟨-, HO, -, Hp, -⟩, -⟩
      imodintro
      isplitl [Hp]; · iexists _; iexact Hp
      iexists ∅; iexact HO)
    (hE7 := fun c => by iintro ⟨-, H⟩; iexact H)
    (R0 := reg0 m)
    (hpre0 := fun c => by exact .rfl)
    (hpost0 := fun c => by rw [V2_eq]; exact .rfl)
    (R1 := reg1 m)
    (hpre1 := fun c => by rw [V8_eq]; exact .rfl)
    (hpost1 := fun c => by rw [V9_eq]; exact .rfl)
    (R2 := reg2 m)
    (hpre2 := fun c => by rw [V9_eq]; exact .rfl)
    (hpost2 := fun c => by rw [V10_eq]; exact .rfl)
    (R3 := reg3 m)
    (hpre3 := fun c => by rw [V11_eq]; exact .rfl)
    (hpost3 := fun c => by rw [V12_eq]; exact .rfl)
    (R4 := reg4 m)
    (hpre4 := fun c => by rw [V12_eq]; exact .rfl)
    (hpost4 := fun c => by rw [V13_eq]; exact .rfl)
    (R5 := reg5 m)
    (hpre5 := fun c => by rw [V14_eq]; exact .rfl)
    (hpost5 := fun c => by rw [V15_eq]; exact .rfl)
    (R6 := reg6 m)
    (hpre6 := fun c => by rw [V16_eq]; exact .rfl)
    (hpost6 := fun c => by rw [V17_eq]; exact .rfl))
  have h' := h c
  rw [V17_eq] at h'
  exact h'

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.KernelIdeal.Gen

end
-- ==== Proof.Ref.Run.lean ====
import proofs.«420090_j3152505996138_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops_part0 : List (HloOp τ sig (Elt F)) :=
  [ binary main_arg0 main_arg1 main_v0 ((fun l r => Host.dotGeneral dot_S500000x128_S128x128_S500000x128_1_0_0_1_n_n none l r) : (⟨S500000x128, .f32⟩ : BufTy).Contents (Elt F) → (⟨S128x128, .f32⟩ : BufTy).Contents (Elt F) → (⟨S500000x128, .f32⟩ : BufTy).Contents (Elt F)),
    unary main_arg2 main_v1 (broadcastInDim S1x128 ![1] bcast_S128_S1x128_1 : (⟨S128, .f32⟩ : BufTy).Contents (Elt F) → (⟨S1x128, .f32⟩ : BufTy).Contents (Elt F)),
    unary main_v1 main_v2 (broadcastInDim S500000x128 ![0, 1] bcast_S1x128_S500000x128_0_1 : (⟨S1x128, .f32⟩ : BufTy).Contents (Elt F) → (⟨S500000x128, .f32⟩ : BufTy).Contents (Elt F)),
    binary main_v0 main_v2 main_v3 (addf : (⟨S500000x128, .f32⟩ : BufTy).Contents (Elt F) → (⟨S500000x128, .f32⟩ : BufTy).Contents (Elt F) → (⟨S500000x128, .f32⟩ : BufTy).Contents (Elt F)),
    TRef.nullary main_call0.cst (constant S_ .f32 0x00000000#32),
    TRef.unary main_call0.cst main_call0.v0 (broadcastInDim S500000x128 ![] bcast_S_S500000x128),
    TRef.binary (.of main_v3 : TRef sig ⟨S500000x128, .f32⟩) main_call0.v0 main_call0.v1 maximumf,
    binary main_v4 main_arg3 main_v5 ((fun l r => Host.dotGeneral dot_S500000x128_S128x8_S500000x8_1_0_0_1_n_n none l r) : (⟨S500000x128, .f32⟩ : BufTy).Contents (Elt F) → (⟨S128x8, .f32⟩ : BufTy).Contents (Elt F) → (⟨S500000x8, .f32⟩ : BufTy).Contents (Elt F)),
    unary main_arg4 main_v6 (broadcastInDim S1x8 ![1] bcast_S8_S1x8_1 : (⟨S8, .f32⟩ : BufTy).Contents (Elt F) → (⟨S1x8, .f32⟩ : BufTy).Contents (Elt F)),
    unary main_v6 main_v7 (broadcastInDim S500000x8 ![0, 1] bcast_S1x8_S500000x8_0_1 : (⟨S1x8, .f32⟩ : BufTy).Contents (Elt F) → (⟨S500000x8, .f32⟩ : BufTy).Contents (Elt F)),
    binary main_v5 main_v7 main_v8 (addf : (⟨S500000x8, .f32⟩ : BufTy).Contents (Elt F) → (⟨S500000x8, .f32⟩ : BufTy).Contents (Elt F) → (⟨S500000x8, .f32⟩ : BufTy).Contents (Elt F)),
    unary main_arg15 main_v9 ((extractStridedSlice S1x8000000 ![0, 0] · slices_S2x8000000_S1x8000000_0_0) : (⟨S2x8000000, .i32⟩ : BufTy).Contents (Elt F) → (⟨S1x8000000, .i32⟩ : BufTy).Contents (Elt F)),
    reshape main_v9 main_v10 rfl shapeCasts_S1x8000000_S8000000,
    nullary main_c (constantI S_ 32 0#32),
    unary main_c main_v11 (broadcastInDim S8000000 ![] bcast_S_S8000000 : (⟨S_, .i32⟩ : BufTy).Contents (Elt F) → (⟨S8000000, .i32⟩ : BufTy).Contents (Elt F)),
    binary main_v10 main_v11 main_v12 (cmpi .slt : (⟨S8000000, .i32⟩ : BufTy).Contents (Elt F) → (⟨S8000000, .i32⟩ : BufTy).Contents (Elt F) → (⟨S8000000, .i1⟩ : BufTy).Contents (Elt F)),
    nullary main_c_0 (constantI S_ 32 500000#32),
    unary main_c_0 main_v13 (broadcastInDim S8000000 ![] bcast_S_S8000000 : (⟨S_, .i32⟩ : BufTy).Contents (Elt F) → (⟨S8000000, .i32⟩ : BufTy).Contents (Elt F)),
    binary main_v10 main_v13 main_v14 (addi : (⟨S8000000, .i32⟩ : BufTy).Contents (Elt F) → (⟨S8000000, .i32⟩ : BufTy).Contents (Elt F) → (⟨S8000000, .i32⟩ : BufTy).Contents (Elt F)),
    ternary main_v12 main_v14 main_v10 main_v15 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v15 main_v16 (broadcastInDim S8000000x1 ![0] bcast_S8000000_S8000000x1_0 : (⟨S8000000, .i32⟩ : BufTy).Contents (Elt F) → (⟨S8000000x1, .i32⟩ : BufTy).Contents (Elt F)),
    binary main_v8 main_v16 main_v17 ((fun x i => Host.gather gather_S500000x8_S8000000x1_S8000000x8_1_0_n_n_0_1_18 x i) : (⟨S500000x8, .f32⟩ : BufTy).Contents (Elt F) → (⟨S8000000x1, .i32⟩ : BufTy).Contents (Elt F) → (⟨S8000000x8, .f32⟩ : BufTy).Contents (Elt F)),
    unary main_arg15 main_v18 ((extractStridedSlice S1x8000000 ![1, 0] · slices_S2x8000000_S1x8000000_1_0) : (⟨S2x8000000, .i32⟩ : BufTy).Contents (Elt F) → (⟨S1x8000000, .i32⟩ : BufTy).Contents (Elt F)),
    reshape main_v18 main_v19 rfl shapeCasts_S1x8000000_S8000000,
    nullary main_c_1 (constantI S_ 32 0#32),
    unary main_c_1 main_v20 (broadcastInDim S8000000 ![] bcast_S_S8000000 : (⟨S_, .i32⟩ : BufTy).Contents (Elt F) → (⟨S8000000, .i32⟩ : BufTy).Contents (Elt F)),
    binary main_v19 main_v20 main_v21 (cmpi .slt : (⟨S8000000, .i32⟩ : BufTy).Contents (Elt F) → (⟨S8000000, .i32⟩ : BufTy).Contents (Elt F) → (⟨S8000000, .i1⟩ : BufTy).Contents (Elt F)),
    nullary main_c_2 (constantI S_ 32 500000#32),
    unary main_c_2 main_v22 (broadcastInDim S8000000 ![] bcast_S_S8000000 : (⟨S_, .i32⟩ : BufTy).Contents (Elt F) → (⟨S8000000, .i32⟩ : BufTy).Contents (Elt F)),
    binary main_v19 main_v22 main_v23 (addi : (⟨S8000000, .i32⟩ : BufTy).Contents (Elt F) → (⟨S8000000, .i32⟩ : BufTy).Contents (Elt F) → (⟨S8000000, .i32⟩ : BufTy).Contents (Elt F)),
    ternary main_v21 main_v23 main_v19 main_v24 (select : (⟨S8000000, .i1⟩ : BufTy).Contents (Elt F) → (⟨S8000000, .i32⟩ : BufTy).Contents (Elt F) → (⟨S8000000, .i32⟩ : BufTy).Contents (Elt F) → (⟨S8000000, .i32⟩ : BufTy).Contents (Elt F)),
    unary main_v24 main_v25 (broadcastInDim S8000000x1 ![0] bcast_S8000000_S8000000x1_0 : (⟨S8000000, .i32⟩ : BufTy).Contents (Elt F) → (⟨S8000000x1, .i32⟩ : BufTy).Contents (Elt F)),
    binary main_v8 main_v25 main_v26 ((fun x i => Host.gather gather_S500000x8_S8000000x1_S8000000x8_1_0_n_n_0_1_18 x i) : (⟨S500000x8, .f32⟩ : BufTy).Contents (Elt F) → (⟨S8000000x1, .i32⟩ : BufTy).Contents (Elt F) → (⟨S8000000x8, .f32⟩ : BufTy).Contents (Elt F)),
    binary main_v17 main_v26 main_v27 (maximumf : (⟨S8000000x8, .f32⟩ : BufTy).Contents (Elt F) → (⟨S8000000x8, .f32⟩ : BufTy).Contents (Elt F) → (⟨S8000000x8, .f32⟩ : BufTy).Contents (Elt F)),
    nullary main_c_3 (constantI S_ 32 0#32),
    unary main_c_3 main_v28 (broadcastInDim S500000 ![] bcast_S_S500000 : (⟨S_, .i32⟩ : BufTy).Contents (Elt F) → (⟨S500000, .i32⟩ : BufTy).Contents (Elt F)),
    binary main_arg17 main_v28 main_v29 (cmpi .slt : (⟨S500000, .i32⟩ : BufTy).Contents (Elt F) → (⟨S500000, .i32⟩ : BufTy).Contents (Elt F) → (⟨S500000, .i1⟩ : BufTy).Contents (Elt F)),
    nullary main_c_4 (constantI S_ 32 8000000#32),
    unary main_c_4 main_v30 (broadcastInDim S500000 ![] bcast_S_S500000 : (⟨S_, .i32⟩ : BufTy).Contents (Elt F) → (⟨S500000, .i32⟩ : BufTy).Contents (Elt F)),
    binary main_arg17 main_v30 main_v31 (addi : (⟨S500000, .i32⟩ : BufTy).Contents (Elt F) → (⟨S500000, .i32⟩ : BufTy).Contents (Elt F) → (⟨S500000, .i32⟩ : BufTy).Contents (Elt F)),
    ternary main_v29 main_v31 main_arg17 main_v32 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v32 main_v33 (broadcastInDim S500000x1 ![0] bcast_S500000_S500000x1_0 : (⟨S500000, .i32⟩ : BufTy).Contents (Elt F) → (⟨S500000x1, .i32⟩ : BufTy).Contents (Elt F)),
    binary main_v27 main_v33 main_v34 ((fun x i => Host.gather gather_S8000000x8_S500000x1_S500000x8_1_0_n_n_0_1_18 x i) : (⟨S8000000x8, .f32⟩ : BufTy).Contents (Elt F) → (⟨S500000x1, .i32⟩ : BufTy).Contents (Elt F) → (⟨S500000x8, .f32⟩ : BufTy).Contents (Elt F)),
    unary main_v8 main_v35 (broadcastInDim S500000x8x1 ![0, 1] bcast_S500000x8_S500000x8x1_0_1 : (⟨S500000x8, .f32⟩ : BufTy).Contents (Elt F) → (⟨S500000x8x1, .f32⟩ : BufTy).Contents (Elt F)),
    unary main_v34 main_v36 (broadcastInDim S500000x8x1 ![0, 1] bcast_S500000x8_S500000x8x1_0_1 : (⟨S500000x8, .f32⟩ : BufTy).Contents (Elt F) → (⟨S500000x8x1, .f32⟩ : BufTy).Contents (Elt F)),
    binary main_v35 main_v36 main_v37 ((fun a b => concatenate S500000x8x2 2 [⟨S500000x8x1, a⟩, ⟨S500000x8x1, b⟩] concatenates_S500000x8x1_S500000x8x1_S500000x8x2_d2) : (⟨S500000x8x1, .f32⟩ : BufTy).Contents (Elt F) → (⟨S500000x8x1, .f32⟩ : BufTy).Contents (Elt F) → (⟨S500000x8x2, .f32⟩ : BufTy).Contents (Elt F)),
    reshape main_v37 main_v38 rfl shapeCasts_S500000x8x2_S500000x16,
    binary main_v38 main_arg5 main_v39 ((fun l r => Host.dotGeneral dot_S500000x16_S16x64_S500000x64_1_0_0_1_n_n none l r) : (⟨S500000x16, .f32⟩ : BufTy).Contents (Elt F) → (⟨S16x64, .f32⟩ : BufTy).Contents (Elt F) → (⟨S500000x64, .f32⟩ : BufTy).Contents (Elt F)),
    unary main_arg6 main_v40 (broadcastInDim S1x64 ![1] bcast_S64_S1x64_1 : (⟨S64, .f32⟩ : BufTy).Contents (Elt F) → (⟨S1x64, .f32⟩ : BufTy).Contents (Elt F)),
    unary main_v40 main_v41 (broadcastInDim S500000x64 ![0, 1] bcast_S1x64_S500000x64_0_1 : (⟨S1x64, .f32⟩ : BufTy).Contents (Elt F) → (⟨S500000x64, .f32⟩ : BufTy).Contents (Elt F)),
    binary main_v39 main_v41 main_v42 (addf : (⟨S500000x64, .f32⟩ : BufTy).Contents (Elt F) → (⟨S500000x64, .f32⟩ : BufTy).Contents (Elt F) → (⟨S500000x64, .f32⟩ : BufTy).Contents (Elt F)),
    TRef.nullary main_call1.cst (constant S_ .f32 0x00000000#32),
    TRef.unary main_call1.cst main_call1.v0 (broadcastInDim S500000x64 ![] bcast_S_S500000x64),
    TRef.binary (.of main_v42 : TRef sig ⟨S500000x64, .f32⟩) main_call1.v0 main_call1.v1 maximumf,
    nullary main_cst (constant S_ .f32 0x00000000#32),
    unary main_cst main_v44 (broadcastInDim S512x64 ![] bcast_S_S512x64 : (⟨S_, .f32⟩ : BufTy).Contents (Elt F) → (⟨S512x64, .f32⟩ : BufTy).Contents (Elt F)),
    unary main_arg16 main_v45 (broadcastInDim S500000x1 ![0] bcast_S500000_S500000x1_0 : (⟨S500000, .i32⟩ : BufTy).Contents (Elt F) → (⟨S500000x1, .i32⟩ : BufTy).Contents (Elt F)),
    ternary main_v44 main_v45 main_v43 main_v46 ((fun x i u => Host.scatterAdd scatter_S512x64_S500000x1_S500000x64_1_0_0_1 x i u) : (⟨S512x64, .f32⟩ : BufTy).Contents (Elt F) → (⟨S500000x1, .i32⟩ : BufTy).Contents (Elt F) → (⟨S500000x64, .f32⟩ : BufTy).Contents (Elt F) → (⟨S512x64, .f32⟩ : BufTy).Contents (Elt F)),
    nullary main_cst_5 (constant S_ .f32 0x3F800000#32),
    unary main_cst_5 main_v47 (broadcastInDim S500000x1 ![] bcast_S_S500000x1 : (⟨S_, .f32⟩ : BufTy).Contents (Elt F) → (⟨S500000x1, .f32⟩ : BufTy).Contents (Elt F)),
    nullary main_cst_6 (constant S_ .f32 0x00000000#32),
    unary main_cst_6 main_v48 (broadcastInDim S512x1 ![] bcast_S_S512x1 : (⟨S_, .f32⟩ : BufTy).Contents (Elt F) → (⟨S512x1, .f32⟩ : BufTy).Contents (Elt F)),
    unary main_arg16 main_v49 (broadcastInDim S500000x1 ![0] bcast_S500000_S500000x1_0 : (⟨S500000, .i32⟩ : BufTy).Contents (Elt F) → (⟨S500000x1, .i32⟩ : BufTy).Contents (Elt F)),
    ternary main_v48 main_v49 main_v47 main_v50 ((fun x i u => Host.scatterAdd scatter_S512x1_S500000x1_S500000x1_1_0_0_1 x i u) : (⟨S512x1, .f32⟩ : BufTy).Contents (Elt F) → (⟨S500000x1, .i32⟩ : BufTy).Contents (Elt F) → (⟨S500000x1, .f32⟩ : BufTy).Contents (Elt F) → (⟨S512x1, .f32⟩ : BufTy).Contents (Elt F)) ]

abbrev ops_part1 : List (HloOp τ sig (Elt F)) :=
  [ nullary main_cst_7 (constant S_ .f32 0x3F800000#32),
    unary main_cst_7 main_v51 (broadcastInDim S512x1 ![] bcast_S_S512x1 : (⟨S_, .f32⟩ : BufTy).Contents (Elt F) → (⟨S512x1, .f32⟩ : BufTy).Contents (Elt F)),
    binary main_v50 main_v51 main_v52 (maximumf : (⟨S512x1, .f32⟩ : BufTy).Contents (Elt F) → (⟨S512x1, .f32⟩ : BufTy).Contents (Elt F) → (⟨S512x1, .f32⟩ : BufTy).Contents (Elt F)),
    unary main_v52 main_v53 (broadcastInDim S512x64 ![0, 1] bcast_S512x1_S512x64_0_1 : (⟨S512x1, .f32⟩ : BufTy).Contents (Elt F) → (⟨S512x64, .f32⟩ : BufTy).Contents (Elt F)),
    binary main_v46 main_v53 main_v54 (Host.divf : (⟨S512x64, .f32⟩ : BufTy).Contents (Elt F) → (⟨S512x64, .f32⟩ : BufTy).Contents (Elt F) → (⟨S512x64, .f32⟩ : BufTy).Contents (Elt F)),
    binary main_v54 main_arg9 main_v55 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    binary main_v43 main_arg7 main_v56 ((fun l r => Host.dotGeneral dot_S500000x64_S64x64_S500000x64_1_0_0_1_n_n none l r) : (⟨S500000x64, .f32⟩ : BufTy).Contents (Elt F) → (⟨S64x64, .f32⟩ : BufTy).Contents (Elt F) → (⟨S500000x64, .f32⟩ : BufTy).Contents (Elt F)),
    unary main_arg8 main_v57 (broadcastInDim S1x64 ![1] bcast_S64_S1x64_1 : (⟨S64, .f32⟩ : BufTy).Contents (Elt F) → (⟨S1x64, .f32⟩ : BufTy).Contents (Elt F)),
    unary main_v57 main_v58 (broadcastInDim S500000x64 ![0, 1] bcast_S1x64_S500000x64_0_1 : (⟨S1x64, .f32⟩ : BufTy).Contents (Elt F) → (⟨S500000x64, .f32⟩ : BufTy).Contents (Elt F)),
    binary main_v56 main_v58 main_v59 (addf : (⟨S500000x64, .f32⟩ : BufTy).Contents (Elt F) → (⟨S500000x64, .f32⟩ : BufTy).Contents (Elt F) → (⟨S500000x64, .f32⟩ : BufTy).Contents (Elt F)),
    nullary main_c_8 (constantI S_ 32 0#32),
    unary main_c_8 main_v60 (broadcastInDim S500000 ![] bcast_S_S500000 : (⟨S_, .i32⟩ : BufTy).Contents (Elt F) → (⟨S500000, .i32⟩ : BufTy).Contents (Elt F)),
    binary main_arg16 main_v60 main_v61 (cmpi .slt : (⟨S500000, .i32⟩ : BufTy).Contents (Elt F) → (⟨S500000, .i32⟩ : BufTy).Contents (Elt F) → (⟨S500000, .i1⟩ : BufTy).Contents (Elt F)),
    nullary main_c_9 (constantI S_ 32 512#32),
    unary main_c_9 main_v62 (broadcastInDim S500000 ![] bcast_S_S500000 : (⟨S_, .i32⟩ : BufTy).Contents (Elt F) → (⟨S500000, .i32⟩ : BufTy).Contents (Elt F)),
    binary main_arg16 main_v62 main_v63 (addi : (⟨S500000, .i32⟩ : BufTy).Contents (Elt F) → (⟨S500000, .i32⟩ : BufTy).Contents (Elt F) → (⟨S500000, .i32⟩ : BufTy).Contents (Elt F)),
    ternary main_v61 main_v63 main_arg16 main_v64 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v64 main_v65 (broadcastInDim S500000x1 ![0] bcast_S500000_S500000x1_0 : (⟨S500000, .i32⟩ : BufTy).Contents (Elt F) → (⟨S500000x1, .i32⟩ : BufTy).Contents (Elt F)),
    binary main_v55 main_v65 main_v66 ((fun x i => Host.gather gather_S512x64_S500000x1_S500000x64_1_0_n_n_0_1_164 x i) : (⟨S512x64, .f32⟩ : BufTy).Contents (Elt F) → (⟨S500000x1, .i32⟩ : BufTy).Contents (Elt F) → (⟨S500000x64, .f32⟩ : BufTy).Contents (Elt F)),
    binary main_v59 main_v66 main_v67 (subf : (⟨S500000x64, .f32⟩ : BufTy).Contents (Elt F) → (⟨S500000x64, .f32⟩ : BufTy).Contents (Elt F) → (⟨S500000x64, .f32⟩ : BufTy).Contents (Elt F)),
    TRef.nullary main_call2.cst (constant S_ .f32 0x00000000#32),
    TRef.unary main_call2.cst main_call2.v0 (broadcastInDim S500000x64 ![] bcast_S_S500000x64),
    TRef.binary (.of main_v67 : TRef sig ⟨S500000x64, .f32⟩) main_call2.v0 main_call2.v1 maximumf,
    nullary main_cst_10 (constant S_ .f32 0x00000000#32),
    unary main_cst_10 main_v69 (broadcastInDim S512x64 ![] bcast_S_S512x64 : (⟨S_, .f32⟩ : BufTy).Contents (Elt F) → (⟨S512x64, .f32⟩ : BufTy).Contents (Elt F)),
    unary main_arg16 main_v70 (broadcastInDim S500000x1 ![0] bcast_S500000_S500000x1_0 : (⟨S500000, .i32⟩ : BufTy).Contents (Elt F) → (⟨S500000x1, .i32⟩ : BufTy).Contents (Elt F)),
    ternary main_v69 main_v70 main_v68 main_v71 ((fun x i u => Host.scatterAdd scatter_S512x64_S500000x1_S500000x64_1_0_0_1 x i u) : (⟨S512x64, .f32⟩ : BufTy).Contents (Elt F) → (⟨S500000x1, .i32⟩ : BufTy).Contents (Elt F) → (⟨S500000x64, .f32⟩ : BufTy).Contents (Elt F) → (⟨S512x64, .f32⟩ : BufTy).Contents (Elt F)),
    nullary main_cst_11 (constant S_ .f32 0x3F800000#32),
    unary main_cst_11 main_v72 (broadcastInDim S500000x1 ![] bcast_S_S500000x1 : (⟨S_, .f32⟩ : BufTy).Contents (Elt F) → (⟨S500000x1, .f32⟩ : BufTy).Contents (Elt F)),
    nullary main_cst_12 (constant S_ .f32 0x00000000#32),
    unary main_cst_12 main_v73 (broadcastInDim S512x1 ![] bcast_S_S512x1 : (⟨S_, .f32⟩ : BufTy).Contents (Elt F) → (⟨S512x1, .f32⟩ : BufTy).Contents (Elt F)),
    unary main_arg16 main_v74 (broadcastInDim S500000x1 ![0] bcast_S500000_S500000x1_0 : (⟨S500000, .i32⟩ : BufTy).Contents (Elt F) → (⟨S500000x1, .i32⟩ : BufTy).Contents (Elt F)),
    ternary main_v73 main_v74 main_v72 main_v75 ((fun x i u => Host.scatterAdd scatter_S512x1_S500000x1_S500000x1_1_0_0_1 x i u) : (⟨S512x1, .f32⟩ : BufTy).Contents (Elt F) → (⟨S500000x1, .i32⟩ : BufTy).Contents (Elt F) → (⟨S500000x1, .f32⟩ : BufTy).Contents (Elt F) → (⟨S512x1, .f32⟩ : BufTy).Contents (Elt F)),
    nullary main_cst_13 (constant S_ .f32 0x3F800000#32),
    unary main_cst_13 main_v76 (broadcastInDim S512x1 ![] bcast_S_S512x1 : (⟨S_, .f32⟩ : BufTy).Contents (Elt F) → (⟨S512x1, .f32⟩ : BufTy).Contents (Elt F)),
    binary main_v75 main_v76 main_v77 (maximumf : (⟨S512x1, .f32⟩ : BufTy).Contents (Elt F) → (⟨S512x1, .f32⟩ : BufTy).Contents (Elt F) → (⟨S512x1, .f32⟩ : BufTy).Contents (Elt F)),
    unary main_v77 main_v78 (broadcastInDim S512x64 ![0, 1] bcast_S512x1_S512x64_0_1 : (⟨S512x1, .f32⟩ : BufTy).Contents (Elt F) → (⟨S512x64, .f32⟩ : BufTy).Contents (Elt F)),
    binary main_v71 main_v78 main_v79 (Host.divf : (⟨S512x64, .f32⟩ : BufTy).Contents (Elt F) → (⟨S512x64, .f32⟩ : BufTy).Contents (Elt F) → (⟨S512x64, .f32⟩ : BufTy).Contents (Elt F)),
    binary main_v79 main_arg12 main_v80 ((fun l r => Host.dotGeneral dot_S512x64_S64x128_S512x128_1_0_0_1_n_n none l r) : (⟨S512x64, .f32⟩ : BufTy).Contents (Elt F) → (⟨S64x128, .f32⟩ : BufTy).Contents (Elt F) → (⟨S512x128, .f32⟩ : BufTy).Contents (Elt F)),
    binary main_v68 main_arg10 main_v81 ((fun l r => Host.dotGeneral dot_S500000x64_S64x128_S500000x128_1_0_0_1_n_n none l r) : (⟨S500000x64, .f32⟩ : BufTy).Contents (Elt F) → (⟨S64x128, .f32⟩ : BufTy).Contents (Elt F) → (⟨S500000x128, .f32⟩ : BufTy).Contents (Elt F)),
    unary main_arg11 main_v82 (broadcastInDim S1x128 ![1] bcast_S128_S1x128_1 : (⟨S128, .f32⟩ : BufTy).Contents (Elt F) → (⟨S1x128, .f32⟩ : BufTy).Contents (Elt F)),
    unary main_v82 main_v83 (broadcastInDim S500000x128 ![0, 1] bcast_S1x128_S500000x128_0_1 : (⟨S1x128, .f32⟩ : BufTy).Contents (Elt F) → (⟨S500000x128, .f32⟩ : BufTy).Contents (Elt F)),
    binary main_v81 main_v83 main_v84 (addf : (⟨S500000x128, .f32⟩ : BufTy).Contents (Elt F) → (⟨S500000x128, .f32⟩ : BufTy).Contents (Elt F) → (⟨S500000x128, .f32⟩ : BufTy).Contents (Elt F)),
    nullary main_c_14 (constantI S_ 32 0#32),
    unary main_c_14 main_v85 (broadcastInDim S500000 ![] bcast_S_S500000 : (⟨S_, .i32⟩ : BufTy).Contents (Elt F) → (⟨S500000, .i32⟩ : BufTy).Contents (Elt F)),
    binary main_arg16 main_v85 main_v86 (cmpi .slt : (⟨S500000, .i32⟩ : BufTy).Contents (Elt F) → (⟨S500000, .i32⟩ : BufTy).Contents (Elt F) → (⟨S500000, .i1⟩ : BufTy).Contents (Elt F)),
    nullary main_c_15 (constantI S_ 32 512#32),
    unary main_c_15 main_v87 (broadcastInDim S500000 ![] bcast_S_S500000 : (⟨S_, .i32⟩ : BufTy).Contents (Elt F) → (⟨S500000, .i32⟩ : BufTy).Contents (Elt F)),
    binary main_arg16 main_v87 main_v88 (addi : (⟨S500000, .i32⟩ : BufTy).Contents (Elt F) → (⟨S500000, .i32⟩ : BufTy).Contents (Elt F) → (⟨S500000, .i32⟩ : BufTy).Contents (Elt F)),
    ternary main_v86 main_v88 main_arg16 main_v89 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v89 main_v90 (broadcastInDim S500000x1 ![0] bcast_S500000_S500000x1_0 : (⟨S500000, .i32⟩ : BufTy).Contents (Elt F) → (⟨S500000x1, .i32⟩ : BufTy).Contents (Elt F)),
    binary main_v80 main_v90 main_v91 ((fun x i => Host.gather gather_S512x128_S500000x1_S500000x128_1_0_n_n_0_1_1128 x i) : (⟨S512x128, .f32⟩ : BufTy).Contents (Elt F) → (⟨S500000x1, .i32⟩ : BufTy).Contents (Elt F) → (⟨S500000x128, .f32⟩ : BufTy).Contents (Elt F)),
    binary main_v84 main_v91 main_v92 (subf : (⟨S500000x128, .f32⟩ : BufTy).Contents (Elt F) → (⟨S500000x128, .f32⟩ : BufTy).Contents (Elt F) → (⟨S500000x128, .f32⟩ : BufTy).Contents (Elt F)),
    TRef.nullary main_call3.cst (constant S_ .f32 0x00000000#32),
    TRef.unary main_call3.cst main_call3.v0 (broadcastInDim S500000x128 ![] bcast_S_S500000x128),
    TRef.binary (.of main_v92 : TRef sig ⟨S500000x128, .f32⟩) main_call3.v0 main_call3.v1 maximumf,
    nullary main_cst_16 (constant S_ .f32 0x00000000#32),
    binary main_v93 main_cst_16 main_v94 ((fun x v => Host.reduceAdd x v reducesTo_S500000x128_S128_d0 h_S_) : (⟨S500000x128, .f32⟩ : BufTy).Contents (Elt F) → (⟨S_, .f32⟩ : BufTy).Contents (Elt F) → (⟨S128, .f32⟩ : BufTy).Contents (Elt F)),
    nullary main_cst_17 (constant S_ .f32 0x48F42400#32),
    unary main_cst_17 main_v95 (broadcastInDim S128 ![] bcast_S_S128 : (⟨S_, .f32⟩ : BufTy).Contents (Elt F) → (⟨S128, .f32⟩ : BufTy).Contents (Elt F)),
    binary main_v94 main_v95 main_v96 (Host.divf : (⟨S128, .f32⟩ : BufTy).Contents (Elt F) → (⟨S128, .f32⟩ : BufTy).Contents (Elt F) → (⟨S128, .f32⟩ : BufTy).Contents (Elt F)),
    nullary main_c_18 (constantI S_ 32 0#32),
    TRef.nullary main_call4.cst (constant S_ .f32 0x00000000#32),
    TRef.binary (.of main_v93 : TRef sig ⟨S500000x128, .f32⟩) main_call4.cst main_call4.v0 (fun x v => Host.reduceAdd x v reducesTo_S500000x128_S128_d0 h_S_),
    TRef.unary main_call4.v0 main_call4.v1 (broadcastInDim S1x128 ![1] bcast_S128_S1x128_1),
    TRef.nullary main_call4.cst_0 (constant S_ .f32 0x48F42400#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S500000x128 ![0, 1] bcast_S1x128_S500000x128_0_1),
    TRef.binary (.of main_v93 : TRef sig ⟨S500000x128, .f32⟩) main_call4.v4 main_call4.v5 subf,
    TRef.binary main_call4.v5 main_call4.v5 main_call4.v6 mulf,
    TRef.unary (.of main_c_18 : TRef sig ⟨S_, .i32⟩) main_call4.v7 (sitofp .f32),
    TRef.nullary main_call4.cst_1 (constant S_ .f32 0x48F42400#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S500000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v96 main_v98 (broadcastInDim S1x128 ![1] bcast_S128_S1x128_1 : (⟨S128, .f32⟩ : BufTy).Contents (Elt F) → (⟨S1x128, .f32⟩ : BufTy).Contents (Elt F)) ]

abbrev ops_part2 : List (HloOp τ sig (Elt F)) :=
  [ unary main_v98 main_v99 (broadcastInDim S500000x128 ![0, 1] bcast_S1x128_S500000x128_0_1 : (⟨S1x128, .f32⟩ : BufTy).Contents (Elt F) → (⟨S500000x128, .f32⟩ : BufTy).Contents (Elt F)),
    binary main_v93 main_v99 main_v100 (subf : (⟨S500000x128, .f32⟩ : BufTy).Contents (Elt F) → (⟨S500000x128, .f32⟩ : BufTy).Contents (Elt F) → (⟨S500000x128, .f32⟩ : BufTy).Contents (Elt F)),
    nullary main_cst_19 (constant S_ .f32 0x3727C5AC#32),
    unary main_cst_19 main_v101 (broadcastInDim S128 ![] bcast_S_S128 : (⟨S_, .f32⟩ : BufTy).Contents (Elt F) → (⟨S128, .f32⟩ : BufTy).Contents (Elt F)),
    binary main_v97 main_v101 main_v102 (addf : (⟨S128, .f32⟩ : BufTy).Contents (Elt F) → (⟨S128, .f32⟩ : BufTy).Contents (Elt F) → (⟨S128, .f32⟩ : BufTy).Contents (Elt F)),
    unary main_v102 main_v103 (Host.rsqrt : (⟨S128, .f32⟩ : BufTy).Contents (Elt F) → (⟨S128, .f32⟩ : BufTy).Contents (Elt F)),
    unary main_v103 main_v104 (broadcastInDim S1x128 ![1] bcast_S128_S1x128_1 : (⟨S128, .f32⟩ : BufTy).Contents (Elt F) → (⟨S1x128, .f32⟩ : BufTy).Contents (Elt F)),
    unary main_v104 main_v105 (broadcastInDim S500000x128 ![0, 1] bcast_S1x128_S500000x128_0_1 : (⟨S1x128, .f32⟩ : BufTy).Contents (Elt F) → (⟨S500000x128, .f32⟩ : BufTy).Contents (Elt F)),
    binary main_v100 main_v105 main_v106 (mulf : (⟨S500000x128, .f32⟩ : BufTy).Contents (Elt F) → (⟨S500000x128, .f32⟩ : BufTy).Contents (Elt F) → (⟨S500000x128, .f32⟩ : BufTy).Contents (Elt F)),
    unary main_arg13 main_v107 (broadcastInDim S1x128 ![1] bcast_S128_S1x128_1 : (⟨S128, .f32⟩ : BufTy).Contents (Elt F) → (⟨S1x128, .f32⟩ : BufTy).Contents (Elt F)),
    unary main_v107 main_v108 (broadcastInDim S500000x128 ![0, 1] bcast_S1x128_S500000x128_0_1 : (⟨S1x128, .f32⟩ : BufTy).Contents (Elt F) → (⟨S500000x128, .f32⟩ : BufTy).Contents (Elt F)),
    binary main_v106 main_v108 main_v109 (mulf : (⟨S500000x128, .f32⟩ : BufTy).Contents (Elt F) → (⟨S500000x128, .f32⟩ : BufTy).Contents (Elt F) → (⟨S500000x128, .f32⟩ : BufTy).Contents (Elt F)),
    binary main_arg0 main_v109 main_v110 (addf : (⟨S500000x128, .f32⟩ : BufTy).Contents (Elt F) → (⟨S500000x128, .f32⟩ : BufTy).Contents (Elt F) → (⟨S500000x128, .f32⟩ : BufTy).Contents (Elt F)),
    unary main_arg14 main_v111 (broadcastInDim S1x128 ![1] bcast_S128_S1x128_1 : (⟨S128, .f32⟩ : BufTy).Contents (Elt F) → (⟨S1x128, .f32⟩ : BufTy).Contents (Elt F)),
    unary main_v111 main_v112 (broadcastInDim S500000x128 ![0, 1] bcast_S1x128_S500000x128_0_1 : (⟨S1x128, .f32⟩ : BufTy).Contents (Elt F) → (⟨S500000x128, .f32⟩ : BufTy).Contents (Elt F)),
    binary main_v110 main_v112 main_v113 (addf : (⟨S500000x128, .f32⟩ : BufTy).Contents (Elt F) → (⟨S500000x128, .f32⟩ : BufTy).Contents (Elt F) → (⟨S500000x128, .f32⟩ : BufTy).Contents (Elt F)) ]

abbrev ops : List (HloOp τ sig (Elt F)) :=
  ops_part0 ++ (ops_part1 ++ ops_part2)

theorem main_part0_eq (c : Dev nD) : main_part0 (F := F) c = seq ops_part0 := by
  simp only [main_part0, fn_relu.body, fn_relu_0.body, ops_part0, seq, bind_assoc, pure_bind]
  rfl
theorem main_part1_eq (c : Dev nD) : main_part1 (F := F) c = seq ops_part1 := by
  simp only [main_part1, fn_relu.body, fn_relu_0.body, fn_var.body, fn_where.body, ops_part1, seq, bind_assoc, pure_bind]
  rfl
theorem main_part2_eq (c : Dev nD) : main_part2 (F := F) c = seq ops_part2 := rfl
theorem main_eq (c : Dev nD) : main (F := F) c = seq ops := by
  simp only [ops, seq_append, ← main_part0_eq c, ← main_part1_eq c, ← main_part2_eq c]
  rfl

theorem ops_sub : (ops : List (HloOp τ sig (Elt F))).Forall fun op => op.bufs ⊆ tcRefs τ sig := by
  simp only [ops, ops_part0, ops_part1, ops_part2, List.forall_append, List.Forall, nullary_bufs_sub, unary_bufs_sub,
    binary_bufs_sub, ternary_bufs_sub, reshape_bufs_sub, and_self]

abbrev ops_part0_W : List (Ref sig .tc) :=
  [main_v0, main_v1, main_v2, main_v3, main_call0_cst, main_call0_v0, main_v4, main_v5,
    main_v6, main_v7, main_v8, main_v9, main_v10, main_c, main_v11, main_v12,
    main_c_0, main_v13, main_v14, main_v15, main_v16, main_v17, main_v18, main_v19,
    main_c_1, main_v20, main_v21, main_c_2, main_v22, main_v23, main_v24, main_v25,
    main_v26, main_v27, main_c_3, main_v28, main_v29, main_c_4, main_v30, main_v31,
    main_v32, main_v33, main_v34, main_v35, main_v36, main_v37, main_v38, main_v39,
    main_v40, main_v41, main_v42, main_call1_cst, main_call1_v0, main_v43, main_cst, main_v44,
    main_v45, main_v46, main_cst_5, main_v47, main_cst_6, main_v48, main_v49, main_v50]
theorem ops_part0_writes : (ops_part0 : List (HloOp τ sig (Elt F))).Forall fun op => op.writes ⊆ (ops_part0_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

abbrev ops_part1_W : List (Ref sig .tc) :=
  [main_cst_7, main_v51, main_v52, main_v53, main_v54, main_v55, main_v56, main_v57,
    main_v58, main_v59, main_c_8, main_v60, main_v61, main_c_9, main_v62, main_v63,
    main_v64, main_v65, main_v66, main_v67, main_call2_cst, main_call2_v0, main_v68, main_cst_10,
    main_v69, main_v70, main_v71, main_cst_11, main_v72, main_cst_12, main_v73, main_v74,
    main_v75, main_cst_13, main_v76, main_v77, main_v78, main_v79, main_v80, main_v81,
    main_v82, main_v83, main_v84, main_c_14, main_v85, main_v86, main_c_15, main_v87,
    main_v88, main_v89, main_v90, main_v91, main_v92, main_call3_cst, main_call3_v0, main_v93,
    main_cst_16, main_v94, main_cst_17, main_v95, main_v96, main_c_18, main_call4_cst, main_call4_v0,
    main_call4_v1, main_call4_cst_0, main_call4_v2, main_call4_v3, main_call4_v4, main_call4_v5, main_call4_v6, main_call4_v7,
    main_call4_cst_1, main_call4_v8, main_call4_cst_2, main_call4_v9, main_call4_v10, main_call4_v11, main_call4_cst_3, main_call4_v12,
    main_call4_cst_4, main_call4_call0_v0, main_call4_call0_v1, main_v97, main_v98]
theorem ops_part1_writes : (ops_part1 : List (HloOp τ sig (Elt F))).Forall fun op => op.writes ⊆ (ops_part1_W.map (Proc.devRef (τ := τ) .tc)).toFinset := by
  simp only [List.Forall, nullary_writes, unary_writes, binary_writes, ternary_writes, Finset.singleton_subset_iff,
    List.mem_toFinset, List.mem_map_of_injective (Proc.devRef_injective _)]
  repeat' apply And.intro
  all_goals decide

abbrev ops_part2_W : List (Ref sig .tc) :=
  [main_v99, main_v100, main_cst_19, main_v101, main_v102, main_v103, main_v104, main_v105,
    main_v106, main_v107, main_v108, main_v109, main_v110, main_v111, main_v112, main_v113]
theorem ops_part2_writes : (ops_part2 : List (HloOp τ sig (Elt F))).Forall fun op => op.writes ⊆ (ops_part2_W.map (Proc.devRef (τ := τ) .tc)).toFinset := by
  simp only [List.Forall, nullary_writes, unary_writes, binary_writes, Finset.singleton_subset_iff, List.mem_toFinset,
    List.mem_map_of_injective (Proc.devRef_injective _)]
  repeat' apply And.intro
  all_goals decide

theorem after_ops_keep (V : Valuation τ sig (Elt F)) (r : Ref sig .tc)
    (h0 : r ∉ ops_part0_W) (h1 : r ∉ ops_part1_W) (h2 : r ∉ ops_part2_W) :
    after (ops (F := F)) V (Proc.devRef .tc r) = V (Proc.devRef .tc r) := by
  show after (ops_part0 ++ (ops_part1 ++ ops_part2)) V (Proc.devRef .tc r) = V (Proc.devRef .tc r)
  rw [after_append, after_append, after_of_writes_sub ops_part2 _ ops_part2_writes h2,
    after_of_writes_sub ops_part1 _ ops_part1_writes h1, after_of_writes_sub ops_part0 _ ops_part0_writes h0]

theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v113) = StableHlo.after ops (fun b => m (c, b)) (Proc.devRef .tc main_v113)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => by
      refine ⟨h c main_v113, ?_⟩
      repeat' apply And.intro
      all_goals exact (h c _).trans (after_ops_keep (launchContents m c) _ (by decide) (by decide) (by decide)))
    (run_seq (by decide) (by decide) defs main (fun _ => ops) main_eq (fun _ => ops_sub) m ρ)

end Cert.ReferenceIdeal.RefRun

end
-- ==== Proof.KI.Value0.lean ====
import proofs.«420090_j3152505996138_1_alg».proof.Proof.KI.Region0
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.KernelIdeal.Gen

open Idealize.ShloMosaic Idealize.ShloMosaic.TcCoe Idealize.ShloMosaic.ValueIdx
open Idealize.SL Idealize.SL.Sem
open Idealize.ShloMosaic.Pipeline (Dat)
open scoped BigOperators

variable {F : FTy → Type} [FloatOps F]

def rowBlock0 (x : Vec F S500000x128 .f32) (n : Fin 100) : Vec F S5000x128 .f32 :=
  fun j => x (ix2 (⟨n.val * 5000 + (j 0).val, by have := idx2_lt0 j; have := n.isLt; omega⟩ : Fin 500000) (j 1 : Fin 128))

/-- Entry (p, q) is the value on rows 5000 (p / 5000) .. 5000 (p / 5000) + 4999 of x, read at row p % 5000. -/
def G0 (x : Vec F S500000x128 .f32) (W1 : Vec F S128x128 .f32) (b1 : Vec F S1x128 .f32) (W2 : Vec F S128x8 .f32)
    (b2 : Vec F S1x8 .f32) : Vec F S500000x8 .f32 := fun i =>
  k0_pay1 (rowBlock0 x ⟨(i 0).val / 5000, by have := idx2_lt0 i; omega⟩) W1 b1 W2 b2
    (ix2 (⟨(i 0).val % 5000, Nat.mod_lt _ (by omega)⟩ : Fin 5000) (i 1 : Fin 8))

/-- On the rows of block n the array is the block's value: row 5000 n + s lies in block n at row s. -/
theorem G0_at (x : Vec F S500000x128 .f32) (W1 : Vec F S128x128 .f32) (b1 : Vec F S1x128 .f32)
    (W2 : Vec F S128x8 .f32) (b2 : Vec F S1x8 .f32) (n : Fin 100) (j : S5000x8.Idx) (i : S500000x8.Idx)
    (h0 : (i 0).val = n.val * 5000 + (j 0).val) (h1 : (i 1).val = (j 1).val) :
    G0 x W1 b1 W2 b2 i = k0_pay1 (rowBlock0 x n) W1 b1 W2 b2 j := by
  have hj0 := idx2_lt0 j
  have hn : (⟨(i 0).val / 5000, by have := idx2_lt0 i; omega⟩ : Fin 100) = n := Fin.ext (by show (i 0).val / 5000 = n.val; omega)
  have hj : ix2 (⟨(i 0).val % 5000, Nat.mod_lt _ (by omega)⟩ : Fin 5000) (i 1 : Fin 8) = j :=
    Shape.idx_ext₂ (by show (i 0).val % 5000 = (j 0).val; omega) h1
  exact congr (congrArg (fun n => k0_pay1 (rowBlock0 x n) W1 b1 W2 b2) hn) hj

theorem prod1_apply0 (A : FVec Ideal S5000x128 .bf16) (B : FVec Ideal S128x128 .bf16) (r : Fin 5000) (h : Fin 128) :
    matmul dot_S5000x128_S128x128_S5000x128_1_0_0_1_n_n none A B (constant S5000x128 .f32 0x00000000#32) (ix2 r h)
      = ∑ k : Fin 128, A (ix2 r k) * B (ix2 k h) := by
  rw [matmul_zero_eq_dotGeneral]
  exact StackMember.dotGeneral_plain_apply (m := 5000) (k := 128) (n := 128) none A B r h

theorem prod2_apply0 (A : FVec Ideal S5000x128 .bf16) (B : FVec Ideal S128x8 .bf16) (r : Fin 5000) (q : Fin 8) :
    matmul dot_S5000x128_S128x8_S5000x8_1_0_0_1_n_n none A B (constant S5000x8 .f32 0x00000000#32) (ix2 r q)
      = ∑ h : Fin 128, A (ix2 r h) * B (ix2 h q) := by
  rw [matmul_zero_eq_dotGeneral]
  exact StackMember.dotGeneral_plain_apply (m := 5000) (k := 128) (n := 8) none A B r q

/-- At the ideal values the changes of format are the identity and a product into zero is the plain sum of products. -/
theorem mlp_apply0 (x : Vec Ideal S5000x128 .f32) (W1 : Vec Ideal S128x128 .f32) (b1 : Vec Ideal S1x128 .f32)
    (W2 : Vec Ideal S128x8 .f32) (b2 : Vec Ideal S1x8 .f32) (r : Fin 5000) (q : Fin 8) :
    k0_pay1 x W1 b1 W2 b2 (ix2 r q)
      = (∑ h : Fin 128, max ((∑ k : Fin 128, x (ix2 r k) * W1 (ix2 k h)) + b1 (ix2 0 h)) 0 * W2 (ix2 h q)) + b2 (ix2 0 q) := by
  unfold k0_pay1
  simp only [shapeCast_self]
  rw [addf_apply, prod2_apply0, broadcastTo_1b_ab_apply]
  congr 1
  refine Finset.sum_congr rfl fun h _ => ?_
  rw [truncf_apply, truncf_apply, maximumf_apply, addf_apply, prod1_apply0, broadcastTo_1b_ab_apply, broadcast_apply,
    show (FloatOps.ofBits .f32 0x00000000#32 : Ideal .f32) = 0 from Ideal.ofBits_zero_f32]
  simp only [truncf_apply]

theorem G0_apply (x : Vec Ideal S500000x128 .f32) (W1 : Vec Ideal S128x128 .f32) (b1 : Vec Ideal S1x128 .f32)
    (W2 : Vec Ideal S128x8 .f32) (b2 : Vec Ideal S1x8 .f32) (p : Fin 500000) (q : Fin 8) :
    G0 x W1 b1 W2 b2 (ix2 p q)
      = (∑ h : Fin 128, max ((∑ k : Fin 128, x (ix2 p k) * W1 (ix2 k h)) + b1 (ix2 0 h)) 0 * W2 (ix2 h q)) + b2 (ix2 0 q) := by
  have hrow : ∀ k : Fin 128, rowBlock0 x ⟨p.val / 5000, by omega⟩
      (ix2 (⟨p.val % 5000, Nat.mod_lt _ (by omega)⟩ : Fin 5000) k) = x (ix2 p k) :=
    fun k => congrArg (fun a : Fin 500000 => x (ix2 a k)) (Fin.ext (Nat.div_add_mod' p.val 5000))
  show k0_pay1 (rowBlock0 x ⟨p.val / 5000, _⟩) W1 b1 W2 b2 (ix2 (⟨p.val % 5000, _⟩ : Fin 5000) q) = _
  rw [mlp_apply0]
  simp only [hrow]

variable (V : (c : Dev nD) → (b : Ref sig .tc) → Buf (Elt F) ((c : Thread nD τ).loc b))

theorem rowIdx0 : ∀ t : Fin cfg0.N, win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

theorem wholeIdx0 : ∀ (t : Fin cfg0.N) (a : Fin 2),
    win0_1.index t a = 0 ∧ win0_2.index t a = 0 ∧ win0_3.index t a = 0 ∧ win0_4.index t a = 0 :=
  (by decide +kernel : ∀ t : Fin grid0.N, _)

theorem zeros0 : (![0, 0] : Fin 2 → Nat) = fun _ => 0 := funext (Fin.forall_fin_two.2 ⟨rfl, rfl⟩)

/-- What is left at point t is the block value on rows 5000 t .. 5000 t + 4999 of the input and on the four whole arrays. -/
theorem after0_eq (c : Dev nD) (t : Fin cfg0.N) : (dat0 V c).after 5 t =
    k0_pay1 (rowBlock0 (V c (Pipeline.arrRef spec0 0)) (Fin.cast N_0 t)) (V c (Pipeline.arrRef spec0 1))
      (V c (Pipeline.arrRef spec0 2)) (V c (Pipeline.arrRef spec0 3)) (V c (Pipeline.arrRef spec0 4)) := by
  rw [after0_5]
  unfold mlpOut0
  rw [View.canon_unit_zero zeros0]
  simp only [View.ld_unit_zero (S := S5000x128) zeros0, View.ld_unit_zero (S := S128x128) zeros0,
    View.ld_unit_zero (S := S1x128) zeros0, View.ld_unit_zero (S := S128x8) zeros0, View.ld_unit_zero (S := S1x8) zeros0]
  congr 1
  · exact funext fun y => congrArg _ (Shape.idx_ext₂ ((win0_0.rect_emb_val t y 0).trans (by rw [(rowIdx0 t).1]; rfl))
      (win0_0.rect_emb_val_of_index_zero t 1 (rowIdx0 t).2.1 y))
  · exact funext fun y => congrArg _ (funext fun a => Fin.ext (win0_1.rect_emb_val_of_index_zero t a (wholeIdx0 t a).1 y))
  · exact funext fun y => congrArg _ (funext fun a => Fin.ext (win0_2.rect_emb_val_of_index_zero t a (wholeIdx0 t a).2.1 y))
  · exact funext fun y => congrArg _ (funext fun a => Fin.ext (win0_3.rect_emb_val_of_index_zero t a (wholeIdx0 t a).2.2.1 y))
  · exact funext fun y => congrArg _ (funext fun a => Fin.ext (win0_4.rect_emb_val_of_index_zero t a (wholeIdx0 t a).2.2.2 y))

/-- Entry y of the output's block at point t sits in the array at row 5000 t + (row of y), in y's column. -/
theorem emb0 (t : Fin cfg0.N) (y : S5000x8.Idx) :
    ((win0_5.rect t).emb y (0 : Fin 2) : ℕ) = t.val * 5000 + (y 0).val ∧ ((win0_5.rect t).emb y (1 : Fin 2) : ℕ) = (y 1).val :=
  ⟨(win0_5.rect_emb_val t y 0).trans (by rw [(rowIdx0 t).2.2.1]; rfl),
    win0_5.rect_emb_val_of_index_zero t 1 (rowIdx0 t).2.2.2 y⟩

/-- Point t's block of the output is block t of G0, and the 100 blocks cover the rows: row r lies in block r / 5000. -/
theorem final0 (c : Dev nD) : (dat0 V c).arrAt 5 cfg0.N =
    G0 (V c (Pipeline.arrRef spec0 0) : Vec F S500000x128 .f32) (V c (Pipeline.arrRef spec0 1) : Vec F S128x128 .f32)
      (V c (Pipeline.arrRef spec0 2) : Vec F S1x128 .f32) (V c (Pipeline.arrRef spec0 3) : Vec F S128x8 .f32)
      (V c (Pipeline.arrRef spec0 4) : Vec F S1x8 .f32) := by
  refine (dat0 V c).arrAt_eq_of_cover 5 _ (fun t _ => ?_) fun (i : S500000x8.Idx) => ?_
  · show (cfg0.win 5).cut (grid0.coords t) ((dat0 V c).after 5 t) = _
    rw [after0_eq]
    exact funext fun j => (G0_at _ _ _ _ _ (Fin.cast N_0 t) j _ (emb0 t j).1 (emb0 t j).2).symm
  · have hi := idx2_lt0 i
    let t : Fin cfg0.N := Fin.cast N_0.symm ⟨(i 0).val / 5000, by omega⟩
    let y : S5000x8.Idx := ix2 (⟨(i 0).val % 5000, Nat.mod_lt _ (by omega)⟩ : Fin 5000) (i 1 : Fin 8)
    have h := ((cfg0.win 5).blk t).view.emb_mem_set y
    rw [show ((cfg0.win 5).blk t).view.emb y = i from
      Shape.idx_ext₂ ((emb0 t y).1.trans (Nat.div_add_mod' _ _)) (emb0 t y).2] at h
    exact ⟨t, flush0_5 t, h⟩

end Cert.KernelIdeal.Gen
-- ==== Proof.KI.Value1.lean ====
import proofs.«420090_j3152505996138_1_alg».proof.Proof.KI.Region1
import Idealize.ShloMosaic.Lib.Pipeline.Value
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx
open scoped BigOperators

variable {F : FTy → Type} [FloatOps F]

variable (V : (c : Dev nD) → (b : Ref sig .tc) → Buf (Elt F) ((c : Thread nD τ).loc b))

def rows1 (xr : Vec F S500000x16 .f32) (b : Fin 100) : Vec F S5000x16 .f32 :=
  fun y => xr (ix2 ⟨b.val * 5000 + (y 0).val, by have := idx2_lt0 y; have := b.isLt; omega⟩ (y 1))

/-- Entry (p, j) is the value on rows 5000 (p / 5000) .. 5000 (p / 5000) + 4999 of the input, read at row p % 5000. -/
def G1 (xr : Vec F S500000x16 .f32) (W0 : Vec F S16x64 .f32) (b0 : Vec F S1x64 .f32) : Vec F S500000x64 .f32 :=
  fun i => k1_pay1 (rows1 xr ⟨(i 0).val / 5000, by have := idx2_lt0 i; omega⟩) W0 b0
    (ix2 ⟨(i 0).val % 5000, Nat.mod_lt _ (by decide)⟩ (i 1))

/-- On the rows of block b the array is the block's value: row 5000 b + s lies in block b at row s. -/
theorem G1_at (xr : Vec F S500000x16 .f32) (W0 : Vec F S16x64 .f32) (b0 : Vec F S1x64 .f32) (b : Fin 100)
    (y : S5000x64.Idx) (i : S500000x64.Idx) (h0 : (i 0).val = b.val * 5000 + (y 0).val) (h1 : (i 1).val = (y 1).val) :
    G1 xr W0 b0 i = k1_pay1 (rows1 xr b) W0 b0 y := by
  have hy0 := idx2_lt0 y
  have hb : (⟨(i 0).val / 5000, by have := idx2_lt0 i; omega⟩ : Fin 100) = b := Fin.ext (by show (i 0).val / 5000 = b.val; omega)
  have hy : (ix2 ⟨(i 0).val % 5000, Nat.mod_lt _ (by decide)⟩ (i 1) : S5000x64.Idx) = y :=
    Shape.idx_ext₂ (by show (i 0).val % 5000 = (y 0).val; omega) h1
  unfold G1
  rw [hb, hy]

theorem hz1 : (![0, 0] : Fin 2 → Nat) = fun _ => 0 := funext (Fin.forall_fin_two.2 ⟨rfl, rfl⟩)

theorem rowIdx1 : ∀ t : Fin cfg1.N, win1_0.index t (0 : Fin 2) = t.val ∧ win1_0.index t (1 : Fin 2) = 0
    ∧ win1_3.index t (0 : Fin 2) = t.val ∧ win1_3.index t (1 : Fin 2) = 0 :=
  (by decide +kernel : ∀ t : Fin grid1.N, _)

theorem wholeIdx1 : ∀ (t : Fin cfg1.N) (a : Fin 2), win1_1.index t a = 0 ∧ win1_2.index t a = 0 :=
  (by decide +kernel : ∀ t : Fin grid1.N, _)

/-- What is left at point t is the block value on rows 5000 t .. 5000 t + 4999 of the input and on the two whole arrays. -/
theorem after1_eq (c : Dev nD) (t : Fin cfg1.N) : (dat1 V c).after 3 t =
    k1_pay1 (rows1 (V c (Pipeline.arrRef spec1 0)) (Fin.cast N_1 t)) (V c (Pipeline.arrRef spec1 1))
      (V c (Pipeline.arrRef spec1 2)) := by
  rw [after1_3]
  unfold out1_3
  rw [View.canon_unit_zero hz1]
  simp only [View.ld_unit_zero (S := S5000x16) hz1, View.ld_unit_zero (S := S16x64) hz1,
    View.ld_unit_zero (S := S1x64) hz1]
  congr 1
  · exact funext fun y => congrArg _ (Shape.idx_ext₂ ((win1_0.rect_emb_val t y 0).trans (by rw [(rowIdx1 t).1]; rfl))
      (win1_0.rect_emb_val_of_index_zero t 1 (rowIdx1 t).2.1 y))
  · exact funext fun y => congrArg _ (funext fun a => Fin.ext (win1_1.rect_emb_val_of_index_zero t a (wholeIdx1 t a).1 y))
  · exact funext fun y => congrArg _ (funext fun a => Fin.ext (win1_2.rect_emb_val_of_index_zero t a (wholeIdx1 t a).2 y))

/-- Entry y of the output's block at point t sits in the array at row 5000 t + (row of y), in y's column. -/
theorem emb1 (t : Fin cfg1.N) (y : S5000x64.Idx) :
    ((win1_3.rect t).emb y (0 : Fin 2) : ℕ) = t.val * 5000 + (y 0).val ∧ ((win1_3.rect t).emb y (1 : Fin 2) : ℕ) = (y 1).val :=
  ⟨(win1_3.rect_emb_val t y 0).trans (by rw [(rowIdx1 t).2.2.1]; rfl),
    win1_3.rect_emb_val_of_index_zero t 1 (rowIdx1 t).2.2.2 y⟩

/-- Point t's block of the output is block t of G1, and the 100 blocks cover the rows: row r lies in block r / 5000. -/
theorem final1 (c : Dev nD) :
    (dat1 V c).arrAt 3 cfg1.N
      = G1 (V c (Pipeline.arrRef spec1 0) : Vec F S500000x16 .f32) (V c (Pipeline.arrRef spec1 1) : Vec F S16x64 .f32)
          (V c (Pipeline.arrRef spec1 2) : Vec F S1x64 .f32) := by
  refine (dat1 V c).arrAt_eq_of_cover 3 _ (fun t _ => ?_) fun (i : S500000x64.Idx) => ?_
  · show (cfg1.win 3).cut (grid1.coords t) ((dat1 V c).after 3 t) = _
    rw [after1_eq]
    exact funext fun j => (G1_at _ _ _ (Fin.cast N_1 t) j _ (emb1 t j).1 (emb1 t j).2).symm
  · have hi := idx2_lt0 i
    obtain ⟨t, ht⟩ : ∃ t : Fin cfg1.N, t.val = (i 0).val / 5000 := ⟨Fin.cast N_1.symm ⟨_, by omega⟩, rfl⟩
    let y : S5000x64.Idx := ix2 ⟨(i 0).val % 5000, Nat.mod_lt _ (by decide)⟩ (i 1)
    have e : (((cfg1.win 3).blk t).view.emb y : S500000x64.Idx) = i :=
      Shape.idx_ext₂ ((emb1 t y).1.trans (by rw [ht]; exact Nat.div_add_mod' _ _)) (emb1 t y).2
    exact ⟨t, flush1_3 t, e ▸ ((cfg1.win 3).blk t).view.emb_mem_set y⟩

theorem prod_apply1 (A : FVec Ideal S5000x16 .bf16) (B : FVec Ideal S16x64 .bf16) (r : Fin 5000) (j : Fin 64) :
    matmul dot_S5000x16_S16x64_S5000x64_1_0_0_1_n_n none A B (constant S5000x64 .f32 0x00000000#32) (ix2 r j)
      = ∑ k : Fin 16, A (ix2 r k) * B (ix2 k j) := by
  rw [matmul_zero_eq_dotGeneral]
  exact StackMember.dotGeneral_plain_apply (m := 5000) (k := 16) (n := 64) none A B r j

/-- At the exact arithmetic the changes of format are the identity and the product into zero is the plain sum of products. -/
theorem k1_pay1_apply (x : Vec Ideal S5000x16 .f32) (W : Vec Ideal S16x64 .f32) (b : Vec Ideal S1x64 .f32)
    (r : Fin 5000) (j : Fin 64) :
    k1_pay1 x W b (ix2 r j) = max ((∑ k : Fin 16, x (ix2 r k) * W (ix2 k j)) + b (ix2 (0 : Fin 1) j)) 0 := by
  unfold k1_pay1
  simp only [shapeCast_self]
  rw [maximumf_apply, broadcast_apply, addf_apply, prod_apply1, broadcastTo_1b_ab_apply,
    show (FloatOps.ofBits .f32 0x00000000#32 : Ideal .f32) = 0 from Ideal.ofBits_zero_f32]
  simp only [truncf_apply]

theorem G1_apply (xr : Vec Ideal S500000x16 .f32) (W0 : Vec Ideal S16x64 .f32) (b0 : Vec Ideal S1x64 .f32)
    (p : Fin 500000) (j : Fin 64) :
    G1 xr W0 b0 (ix2 p j) = max ((∑ k : Fin 16, xr (ix2 p k) * W0 (ix2 k j)) + b0 (ix2 (0 : Fin 1) j)) 0 := by
  have hrow : ∀ k : Fin 16, rows1 xr ⟨p.val / 5000, by omega⟩ (ix2 ⟨p.val % 5000, Nat.mod_lt _ (by decide)⟩ k) = xr (ix2 p k) :=
    fun k => congrArg (fun a : Fin 500000 => xr (ix2 a k)) (Fin.ext (Nat.div_add_mod' p.val 5000))
  show k1_pay1 (rows1 xr ⟨p.val / 5000, _⟩) W0 b0 (ix2 ⟨p.val % 5000, _⟩ j) = _
  rw [k1_pay1_apply]
  simp only [hrow]

end Cert.KernelIdeal.Gen

end
-- ==== Proof.KI.Host0.lean ====
import proofs.«420090_j3152505996138_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 4000

noncomputable section

namespace Cert.KernelIdeal.Gen

open Idealize.ShloMosaic Idealize.ShloMosaic.TcCoe Idealize.SL.Sem
open Idealize.ShloMosaic.ValueIdx
open Idealize.ShloMosaic.StableHlo

theorem host0_v0 (U : Valuation τ sig (Elt Ideal)) (n : Fin 500000) :
    (StableHlo.after (hostOps0 (F := Ideal)) U main_v0 : Vec Ideal S500000x1 .i32) (ix2 n (0 : Fin 1))
      = (U main_arg16 : Vec Ideal S500000 .i32) (ix1 n) := by
  dsimp only [hostOps0]
  after_results
  show shapeCast S500000x1 (U main_arg16 : Vec Ideal S500000 .i32) _ (ix2 n (0 : Fin 1)) = _
  refine shapeCast_apply (s := S500000) (t := S500000x1) _ _ (ix2 n (0 : Fin 1)) (ix1 n) ?_
  show ((⟨1, ![500000]⟩ : Shape).rowMajor (ix1 n)).val = ((⟨2, ![500000, 1]⟩ : Shape).rowMajor (ix2 n (0 : Fin 1))).val
  rw [Shape.rowMajor_val_one, Shape.rowMajor_val_two]
  show n.val = n.val * 1 + 0
  omega

theorem host0_v1 (U : Valuation τ sig (Elt Ideal)) (h : Fin 128) :
    (StableHlo.after (hostOps0 (F := Ideal)) U main_v1 : Vec Ideal S1x128 .f32) (ix2 (0 : Fin 1) h)
      = (U main_arg2 : Vec Ideal S128 .f32) (ix1 h) := by
  dsimp only [hostOps0]
  after_results
  show shapeCast S1x128 (U main_arg2 : Vec Ideal S128 .f32) _ (ix2 (0 : Fin 1) h) = _
  exact shapeCast_a_1a_apply _ _ _ _

theorem host0_v2 (U : Valuation τ sig (Elt Ideal)) (h : Fin 8) :
    (StableHlo.after (hostOps0 (F := Ideal)) U main_v2 : Vec Ideal S1x8 .f32) (ix2 (0 : Fin 1) h)
      = (U main_arg4 : Vec Ideal S8 .f32) (ix1 h) := by
  dsimp only [hostOps0]
  after_results
  show shapeCast S1x8 (U main_arg4 : Vec Ideal S8 .f32) _ (ix2 (0 : Fin 1) h) = _
  exact shapeCast_a_1a_apply _ _ _ _

end Cert.KernelIdeal.Gen

end
-- ==== Proof.Spec.lean ====
import Idealize.ShloMosaic.PureOps.Ideal
import Mathlib.Algebra.BigOperators.Group.Finset.Basic

noncomputable section

namespace Cert.Spec

open Idealize.ShloMosaic
open scoped BigOperators

abbrev M (a b : ℕ) := Fin a → Fin b → EReal

def lin {n k j : ℕ} (x : M n k) (W : M k j) (b : Fin j → EReal) : M n j := fun p q => (∑ i, x p i * W i q) + b q

def relu {n j : ℕ} (a : M n j) : M n j := fun p q => max (a p q) 0

def fv (x : M 500000 128) (W1 : M 128 128) (b1 : Fin 128 → EReal) (W2 : M 128 8) (b2 : Fin 8 → EReal) : M 500000 8 :=
  lin (relu (lin x W1 b1)) W2 b2

def fe (v : M 500000 8) (e0 e1 : Fin 8000000 → Fin 500000) : M 8000000 8 := fun i f => max (v (e0 i) f) (v (e1 i) f)

def pairs (v : M 500000 8) (e0 e1 : Fin 8000000 → Fin 500000) (d : Fin 500000 → Fin 8000000) : M 500000 16 := fun p k =>
  if k.val % 2 = 0 then v p ⟨k.val / 2, by omega⟩ else fe v e0 e1 (d p) ⟨k.val / 2, by omega⟩

def segsum {w : ℕ} (x : M 500000 w) (bt : Fin 500000 → Fin 512) : M 512 w := fun g j => ∑ n, if bt n = g then x n j else 0

def cnt (bt : Fin 500000 → Fin 512) : Fin 512 → EReal := fun g => ∑ n : Fin 500000, if bt n = g then (1 : EReal) else 0

def gmean {w e : ℕ} (x : M 500000 w) (bt : Fin 500000 → Fin 512) (LW : M w e) : M 512 e := fun g j =>
  ∑ k, Ideal.div (segsum x bt g k) (max (cnt bt g) 1) * LW k j

def round {w e : ℕ} (x : M 500000 w) (bt : Fin 500000 → Fin 512) (GW : M w e) (gb : Fin e → EReal) (LW : M w e) : M 500000 e :=
  fun p j => lin x GW gb p j - gmean x bt LW (bt p) j

def nNodes : EReal := ((500000 : ℝ) : EReal)

def mean (h : M 500000 128) : Fin 128 → EReal := fun j => Ideal.div (∑ p, h p j) nNodes

def varC (h : M 500000 128) : Fin 128 → EReal := fun j => Ideal.div (∑ p, (h p j - mean h j) * (h p j - mean h j)) nNodes

def varK (h : M 500000 128) : Fin 128 → EReal := fun j => Ideal.div (∑ p, h p j * h p j) nNodes - mean h j * mean h j

def eps : EReal := Ideal.ofBits .f32 0x3727C5AC#32

def normAdd (x h : M 500000 128) (var : Fin 128 → EReal) (gam bet : Fin 128 → EReal) : M 500000 128 := fun p j =>
  (x p j + ((h p j - mean h j) * Ideal.rsqrt (var j + eps)) * gam j) + bet j

def rowOf (N : ℕ) [NeZero N] (w : BitVec 32) : Fin N :=
  Fin.ofNat N (if w.toInt < 0 then w.toInt + N else w.toInt).toNat

def hidden (x : M 500000 128) (W1 : M 128 128) (b1 : Fin 128 → EReal) (W2 : M 128 8) (b2 : Fin 8 → EReal) (W0 : M 16 64) (b0 : Fin 64 → EReal)
    (g1W : M 64 64) (g1b : Fin 64 → EReal) (l1W : M 64 64) (g2W : M 64 128) (g2b : Fin 128 → EReal) (l2W : M 64 128)
    (e0 e1 : Fin 8000000 → Fin 500000) (bt : Fin 500000 → Fin 512) (d : Fin 500000 → Fin 8000000) : M 500000 128 :=
  let x0 := relu (lin (pairs (fv x W1 b1 W2 b2) e0 e1 d) W0 b0)
  let o1 := relu (round x0 bt g1W g1b l1W)
  relu (round o1 bt g2W g2b l2W)

end Cert.Spec

end
-- ==== Proof.LibRowGather.lean ====
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Idealize.ShloMosaic.PureOps.Reduce
import Idealize.ShloMosaic.Lib.Affine
import proofs.«420090_j3152505996138_1_alg».proof.Proof.Spec

noncomputable section

namespace RowGather

open Idealize.ShloMosaic Idealize.ShloMosaic.ValueIdx
open scoped BigOperators

section Rows
variable {α : Type}

abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem rowDims_coord0 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims N C R wf).start (ix2 r c) idx 0 + (rowDims N C R wf).batchCoord (ix2 r c) 0 + (rowDims N C R wf).offCoord (ix2 r c) 0
      = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem rowDims_coord1 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims N C R wf).start (ix2 r c) idx 1 + (rowDims N C R wf).batchCoord (ix2 r c) 1 + (rowDims N C R wf).offCoord (ix2 r c) 1
      = c.val := by
  rw [GatherDims.batchCoord_eq_zero _ _ _ List.not_mem_nil]
  have hs : (rowDims N C R wf).start (ix2 r c) idx 1 = 0 := by
    unfold GatherDims.start
    rw [dif_neg (show ¬ (1 : Fin 2) ∈ ([0] : List (Fin 2)) by decide)]
  have ho : (rowDims N C R wf).offCoord (ix2 r c) 1 = c.val := by
    unfold GatherDims.offCoord
    rw [dif_pos ((GatherDims.mem_sKept _ _).mpr ⟨(show ¬ (1 : Fin 2) ∈ ([0] : List (Fin 2)) by decide), List.not_mem_nil⟩)]
    rfl
  rw [hs, ho]; omega

theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 (⟨min (idx (ix2 r (0 : Fin 1))).toInt.toNat (N - 1), by omega⟩ : Fin N) c) := by
  unfold Host.gather
  congr 1
  funext a
  refine Fin.ext ?_
  match a with
  | ⟨0, _⟩ => exact rowDims_coord0 wf idx r c
  | ⟨1, _⟩ => exact rowDims_coord1 wf idx r c

end Rows

section RowScatter

abbrev rowScatterDims (G W R : Nat) (wf : ScatterDims.WF ⟨2, ![G, W]⟩ ⟨2, ![R, 1]⟩ ⟨2, ![R, W]⟩ [1] [0] [0] 1) :
    ScatterDims ⟨2, ![G, W]⟩ ⟨2, ![R, 1]⟩ ⟨2, ![R, W]⟩ where
  updateWindowDims := [1]
  insertedWindowDims := [0]
  scatterDimsToOperandDims := [0]
  indexVectorDim := 1
  wf := wf

variable {G W R w : Nat} (wf : ScatterDims.WF ⟨2, ![G, W]⟩ ⟨2, ![R, 1]⟩ ⟨2, ![R, W]⟩ [1] [0] [0] 1)

theorem rowScatter_start0 (idx : IVec ⟨2, ![R, 1]⟩ w) (n : Fin R) (k' : Fin W) :
    (rowScatterDims G W R wf).start (ix2 n k') idx 0 = (idx (ix2 n (0 : Fin 1))).toInt := by
  unfold ScatterDims.start
  rw [dif_pos (show (0 : Fin 2) ∈ (rowScatterDims G W R wf).scatterDimsToOperandDims from List.mem_singleton.mpr rfl)]
  have hsi : (rowScatterDims G W R wf).siIdx (ix2 n k') ⟨List.idxOf (0 : Fin 2) (rowScatterDims G W R wf).scatterDimsToOperandDims,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]

theorem rowScatter_start1 (idx : IVec ⟨2, ![R, 1]⟩ w) (n : Fin R) (k' : Fin W) :
    (rowScatterDims G W R wf).start (ix2 n k') idx 1 = 0 := by
  unfold ScatterDims.start
  rw [dif_neg (show ¬ (1 : Fin 2) ∈ ([0] : List (Fin 2)) by decide)]

theorem rowScatter_window0 (n : Fin R) (k' : Fin W) : (rowScatterDims G W R wf).window (ix2 n k') 0 = 0 := by
  unfold ScatterDims.window
  rw [dif_neg (show ¬ (0 : Fin 2) ∈ (rowScatterDims G W R wf).sKept by simp [ScatterDims.sKept, Shape.kept, List.mem_filter, List.mem_finRange])]

theorem rowScatter_window1 (n : Fin R) (k' : Fin W) : (rowScatterDims G W R wf).window (ix2 n k') 1 = k'.val := by
  unfold ScatterDims.window
  rw [dif_pos (show (1 : Fin 2) ∈ (rowScatterDims G W R wf).sKept by simp [ScatterDims.sKept, Shape.kept, List.mem_filter, List.mem_finRange])]
  rfl

theorem rowScatter_resultIdx (idx : IVec ⟨2, ![R, 1]⟩ w) (n : Fin R) (k' : Fin W) (g : Fin G) (k : Fin W) :
    (rowScatterDims G W R wf).resultIdx? (ix2 n k') idx = some (ix2 g k)
      ↔ (idx (ix2 n (0 : Fin 1))).toInt = (g.val : Int) ∧ k' = k := by
  have s0 := rowScatter_start0 wf idx n k'
  have s1 := rowScatter_start1 wf idx n k'
  have w0 := rowScatter_window0 wf n k'
  have w1 := rowScatter_window1 wf n k'
  unfold ScatterDims.resultIdx?
  split
  · next h =>
    have h0 := h 0
    rw [s0, w0] at h0
    constructor
    · intro e
      have e' := Option.some.inj e
      have c0 := congrArg (fun f => (f 0).val) e'
      have c1 := congrArg (fun f => (f 1).val) e'
      simp only [s0, w0, s1, w1] at c0 c1
      have hg : (g.val : Int) = (idx (ix2 n (0 : Fin 1))).toInt := by
        have : ((ix2 g k : (⟨2, ![G, W]⟩ : Shape).Idx) 0).val = g.val := rfl
        rw [this] at c0
        omega
      have hk : k'.val = k.val := by
        have : ((ix2 g k : (⟨2, ![G, W]⟩ : Shape).Idx) 1).val = k.val := rfl
        rw [this] at c1
        omega
      exact ⟨hg.symm, Fin.ext hk⟩
    · rintro ⟨ht, rfl⟩
      congr 1
      funext a
      refine Fin.ext ?_
      match a with
      | ⟨0, _⟩ =>
        show ((rowScatterDims G W R wf).start (ix2 n k') idx 0 + ((rowScatterDims G W R wf).window (ix2 n k') 0 : Int)).toNat = g.val
        rw [s0, w0, ht]; omega
      | ⟨1, _⟩ =>
        show ((rowScatterDims G W R wf).start (ix2 n k') idx 1 + ((rowScatterDims G W R wf).window (ix2 n k') 1 : Int)).toNat = k'.val
        rw [s1, w1]; omega
  · next h =>
    constructor
    · intro e; exact absurd e (by simp)
    · rintro ⟨ht, rfl⟩
      exfalso; apply h
      intro a
      match a with
      | ⟨0, _⟩ =>
        show 0 ≤ (rowScatterDims G W R wf).start (ix2 n k') idx 0 + ((rowScatterDims G W R wf).window (ix2 n k') 0 : Int)
          ∧ (rowScatterDims G W R wf).start (ix2 n k') idx 0 + ((rowScatterDims G W R wf).window (ix2 n k') 0 : Int) < (G : Int)
        rw [s0, w0, ht]; have := g.isLt; omega
      | ⟨1, _⟩ =>
        show 0 ≤ (rowScatterDims G W R wf).start (ix2 n k') idx 1 + ((rowScatterDims G W R wf).window (ix2 n k') 1 : Int)
          ∧ (rowScatterDims G W R wf).start (ix2 n k') idx 1 + ((rowScatterDims G W R wf).window (ix2 n k') 1 : Int) < (W : Int)
        rw [s1, w1]; have := k'.isLt; omega

theorem scatterAdd_rows_apply (x : FVec Ideal ⟨2, ![G, W]⟩ .f32) (idx : IVec ⟨2, ![R, 1]⟩ w) (upd : FVec Ideal ⟨2, ![R, W]⟩ .f32)
    (g : Fin G) (k : Fin W) :
    Host.scatterAdd (rowScatterDims G W R wf) x idx upd (ix2 g k)
      = x (ix2 g k) + ∑ n : Fin R, if (idx (ix2 n (0 : Fin 1))).toInt = (g.val : Int) then upd (ix2 n k) else 0 := by
  show Ideal.hostScatterAdd (rowScatterDims G W R wf) x idx upd (ix2 g k) = _
  unfold Ideal.hostScatterAdd
  congr 1
  rw [Finset.sum_filter, sum_idx2]
  refine Finset.sum_congr rfl fun n _ => ?_
  simp only [rowScatter_resultIdx wf]
  by_cases ht : (idx (ix2 n (0 : Fin 1))).toInt = (g.val : Int)
  · simp only [ht, true_and, if_true]
    rw [Finset.sum_ite_eq' Finset.univ k (fun k' => upd (ix2 n k'))]
    simp
  · simp [ht]

end RowScatter

/-- For a word of [-N, N), adding N when it is negative gives, read signed, the number of the row `Cert.Spec.rowOf` assigns. -/
theorem wrap_toInt (N : ℕ) [NeZero N] (hN : N < 2 ^ 31) (x : BitVec 32) (h : -(N : Int) ≤ x.toInt ∧ x.toInt < (N : Int)) :
    (Scalar.select (IntOp.cmpi .slt x 0#32) (IntOp.addi x (BitVec.ofNat 32 N)) x).toInt = ((Cert.Spec.rowOf N x).val : Int) := by
  have hNpos : 0 < N := Nat.pos_of_ne_zero (NeZero.ne N)
  unfold Cert.Spec.rowOf
  by_cases hneg : x.toInt < 0
  · have hc : IntOp.cmpi .slt x 0#32 = 1#1 := IntOp.cmpi_slt.mpr hneg
    rw [hc, ValueIdx.select_one, if_pos hneg]
    have ha : (IntOp.addi x (BitVec.ofNat 32 N)).toInt = x.toInt + N := by
      unfold IntOp.addi
      rw [BitVec.toInt_add, BitVec.toInt_ofNat']
      have h1 : ((N : Int)).bmod (2 ^ 32) = N := by
        apply Int.bmod_eq_of_le <;> omega
      rw [h1]
      apply Int.bmod_eq_of_le <;> omega
    rw [ha]
    simp only [Fin.ofNat]
    have : (x.toInt + N).toNat < N := by omega
    rw [Nat.mod_eq_of_lt this]
    omega
  · have hc : IntOp.cmpi .slt x 0#32 = 0#1 := eq_zero_of_ne_one fun e => hneg (IntOp.cmpi_slt.mp e)
    rw [hc, ValueIdx.select_zero, if_neg hneg]
    simp only [Fin.ofNat]
    have : x.toInt.toNat < N := by omega
    rw [Nat.mod_eq_of_lt this]
    omega

theorem wrap_row (N : ℕ) [NeZero N] (hN : N < 2 ^ 31) (x : BitVec 32) (h : -(N : Int) ≤ x.toInt ∧ x.toInt < (N : Int)) :
    min (Scalar.select (IntOp.cmpi .slt x 0#32) (IntOp.addi x (BitVec.ofNat 32 N)) x).toInt.toNat (N - 1)
      = (Cert.Spec.rowOf N x).val := by
  have e := wrap_toInt N hN x h
  have := (Cert.Spec.rowOf N x).isLt
  omega

section Layout
variable {α : Type}

theorem bcast_rows_apply {R C : ℕ} (h1 : (⟨1, ![C]⟩ : Shape).BroadcastsInDim ⟨2, ![1, C]⟩ ![1])
    (h2 : (⟨2, ![1, C]⟩ : Shape).BroadcastsInDim ⟨2, ![R, C]⟩ ![0, 1]) (v : (⟨1, ![C]⟩ : Shape).Idx → α) (p : Fin R) (q : Fin C) :
    broadcastInDim ⟨2, ![R, C]⟩ ![0, 1] h2 (broadcastInDim ⟨2, ![1, C]⟩ ![1] h1 v) (ix2 p q) = v (ix1 q) := by
  have hq := q.isLt
  rw [broadcastInDim_apply ![0, 1] h2 _ (ix2 p q) (ix2 (0 : Fin 1) q) (fun a => by
    match a with
    | ⟨0, _⟩ => rfl
    | ⟨1, _⟩ => show q.val = if C = 1 then 0 else q.val; split <;> omega)]
  exact broadcastInDim_apply ![1] h1 v (ix2 (0 : Fin 1) q) (ix1 q) (fun a => by
    match a with
    | ⟨0, _⟩ => show q.val = if C = 1 then 0 else q.val; split <;> omega)

theorem bcast_scalar_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 (fun a => a.elim0)

/-- Repeating a vector along a new second axis makes every column the vector. -/
theorem bcast_rep_apply {N C : ℕ} (h : (⟨1, ![N]⟩ : Shape).BroadcastsInDim ⟨2, ![N, C]⟩ ![0]) (v : (⟨1, ![N]⟩ : Shape).Idx → α)
    (n : Fin N) (c : Fin C) : broadcastInDim ⟨2, ![N, C]⟩ ![0] h v (ix2 n c) = v (ix1 n) := by
  have hn := n.isLt
  exact broadcastInDim_apply ![0] h v (ix2 n c) (ix1 n) (fun a => by
    match a with
    | ⟨0, _⟩ => show n.val = if N = 1 then 0 else n.val; split <;> omega)

theorem bcast_col_apply {N : ℕ} (h : (⟨1, ![N]⟩ : Shape).BroadcastsInDim ⟨2, ![N, 1]⟩ ![0]) (v : (⟨1, ![N]⟩ : Shape).Idx → α)
    (n : Fin N) (z : Fin 1) : broadcastInDim ⟨2, ![N, 1]⟩ ![0] h v (ix2 n z) = v (ix1 n) :=
  bcast_rep_apply h v n z

theorem bcast_across_apply {G W : ℕ} (h : (⟨2, ![G, 1]⟩ : Shape).BroadcastsInDim ⟨2, ![G, W]⟩ ![0, 1])
    (v : (⟨2, ![G, 1]⟩ : Shape).Idx → α) (g : Fin G) (k : Fin W) :
    broadcastInDim ⟨2, ![G, W]⟩ ![0, 1] h v (ix2 g k) = v (ix2 g (0 : Fin 1)) := by
  have hg := g.isLt
  exact broadcastInDim_apply ![0, 1] h v (ix2 g k) (ix2 g (0 : Fin 1)) (fun a => by
    match a with
    | ⟨0, _⟩ => show g.val = if G = 1 then 0 else g.val; split <;> omega
    | ⟨1, _⟩ => rfl)

end Layout

theorem dot_apply {m k n : ℕ} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact StackMember.dotGeneral_plain_apply none A B a b

section Take
variable {α : Type}

/-- Anding ones onto one leaves one. -/
theorem foldl_andi_one {ι : Type} (g : ι → BitVec 1) :
    ∀ l : List ι, (∀ n ∈ l, g n = 1#1) → l.foldl (fun r n => IntOp.andi r (g n)) 1#1 = 1#1
  | [], _ => rfl
  | a :: l, h => by
    rw [List.foldl_cons, h a List.mem_cons_self]
    exact foldl_andi_one g l fun n hn => h n (List.mem_cons_of_mem _ hn)

/-- So an and-reduction started at one over an array of ones gives one everywhere. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ fun i _ => hx i

/-- The index words stood up as a column, N added to the negative ones. -/
abbrev wrapCol (N : ℕ) {R : ℕ} (b0 : (⟨0, ![]⟩ : Shape).BroadcastsInDim ⟨1, ![R]⟩ ![])
    (bc : (⟨1, ![R]⟩ : Shape).BroadcastsInDim ⟨2, ![R, 1]⟩ ![0]) (idx : IVec ⟨1, ![R]⟩ 32) : IVec ⟨2, ![R, 1]⟩ 32 :=
  broadcastInDim ⟨2, ![R, 1]⟩ ![0] bc
    (select (cmpi .slt idx (broadcastInDim ⟨1, ![R]⟩ ![] b0 (constantI ⟨0, ![]⟩ 32 0#32)))
      (addi idx (broadcastInDim ⟨1, ![R]⟩ ![] b0 (constantI ⟨0, ![]⟩ 32 (BitVec.ofNat 32 N)))) idx)

/-- Whether each word of a column lies in [0, top], as one bit a row. -/
abbrev rangeMask {R : ℕ} (top : BitVec 32) (b01 : (⟨0, ![]⟩ : Shape).BroadcastsInDim ⟨2, ![R, 1]⟩ ![])
    (b1 : (⟨1, ![1]⟩ : Shape).BroadcastsInDim ⟨2, ![1, 1]⟩ ![1]) (b11 : (⟨2, ![1, 1]⟩ : Shape).BroadcastsInDim ⟨2, ![R, 1]⟩ ![0, 1])
    {axes : List (Fin 2)} (red : (⟨2, ![R, 1]⟩ : Shape).ReducesTo axes ⟨1, ![R]⟩) (hu : 0 < (⟨0, ![]⟩ : Shape).numel)
    (col : IVec ⟨2, ![R, 1]⟩ 32) : IVec ⟨1, ![R]⟩ 1 :=
  Host.reduce IntOp.andi
    (andi (cmpi .sge col (broadcastInDim ⟨2, ![R, 1]⟩ ![] b01 (constantI ⟨0, ![]⟩ 32 0#32)))
      (cmpi .sle col (broadcastInDim ⟨2, ![R, 1]⟩ ![0, 1] b11 (broadcastInDim ⟨2, ![1, 1]⟩ ![1] b1 (constantI ⟨1, ![1]⟩ 32 top)))))
    (constantI ⟨0, ![]⟩ 1 1#1) red hu

/-- All the bits are one when all the words do. -/
theorem rangeMask_one {R : ℕ} {top : BitVec 32} {b01 : (⟨0, ![]⟩ : Shape).BroadcastsInDim ⟨2, ![R, 1]⟩ ![]}
    {b1 : (⟨1, ![1]⟩ : Shape).BroadcastsInDim ⟨2, ![1, 1]⟩ ![1]} {b11 : (⟨2, ![1, 1]⟩ : Shape).BroadcastsInDim ⟨2, ![R, 1]⟩ ![0, 1]}
    {axes : List (Fin 2)} {red : (⟨2, ![R, 1]⟩ : Shape).ReducesTo axes ⟨1, ![R]⟩} {hu : 0 < (⟨0, ![]⟩ : Shape).numel}
    (col : IVec ⟨2, ![R, 1]⟩ 32) (hc : ∀ k, (0#32 : BitVec 32).toInt ≤ (col k).toInt ∧ (col k).toInt ≤ top.toInt) (j : (⟨1, ![R]⟩ : Shape).Idx) :
    rangeMask top b01 b1 b11 red hu col j = 1#1 :=
  reduce_andi_one _ _ _ _ rfl (fun k => IntOp.andi_eq_one.mpr ⟨IntOp.cmpi_sge.mpr (hc k).1, IntOp.cmpi_sle.mpr (hc k).2⟩) j

/-- THE TAKE IN RANGE: with every index word in [-N, N) no test fails, so entry (i, f) is column f of the table's row `rowOf N` of word i. -/
theorem take_rows_apply {N C R : ℕ} [NeZero N] (hN : N < 2 ^ 31) {top : BitVec 32} (htop : top.toInt = (N : Int) - 1)
    (wf : GatherDims.WF ⟨2, ![N, C]⟩ ⟨2, ![R, 1]⟩ ⟨2, ![R, C]⟩ [1] [0] [] [0] [] 1 ![1, C])
    {b0 : (⟨0, ![]⟩ : Shape).BroadcastsInDim ⟨1, ![R]⟩ ![]} {bc : (⟨1, ![R]⟩ : Shape).BroadcastsInDim ⟨2, ![R, 1]⟩ ![0]}
    {b01 : (⟨0, ![]⟩ : Shape).BroadcastsInDim ⟨2, ![R, 1]⟩ ![]} {b1 : (⟨1, ![1]⟩ : Shape).BroadcastsInDim ⟨2, ![1, 1]⟩ ![1]}
    {b11 : (⟨2, ![1, 1]⟩ : Shape).BroadcastsInDim ⟨2, ![R, 1]⟩ ![0, 1]}
    {axes : List (Fin 2)} {red : (⟨2, ![R, 1]⟩ : Shape).ReducesTo axes ⟨1, ![R]⟩} {hu : 0 < (⟨0, ![]⟩ : Shape).numel}
    {bm : (⟨1, ![R]⟩ : Shape).BroadcastsInDim ⟨2, ![R, C]⟩ ![0]}
    (tbl : (⟨2, ![N, C]⟩ : Shape).Idx → α) (idx : IVec ⟨1, ![R]⟩ 32) (fill : (⟨2, ![R, C]⟩ : Shape).Idx → α)
    (hI : ∀ i, -(N : Int) ≤ (idx i).toInt ∧ (idx i).toInt < N) (i : Fin R) (f : Fin C) :
    select (broadcastInDim ⟨2, ![R, C]⟩ ![0] bm (rangeMask top b01 b1 b11 red hu (wrapCol N b0 bc idx)))
        (Host.gather (rowDims N C R wf) tbl (wrapCol N b0 bc idx)) fill (ix2 i f)
      = tbl (ix2 (Cert.Spec.rowOf N (idx (ix1 i))) f) := by
  have hcol : ∀ (n : Fin R) (z : Fin 1), wrapCol N b0 bc idx (ix2 n z)
      = Scalar.select (IntOp.cmpi .slt (idx (ix1 n)) 0#32) (IntOp.addi (idx (ix1 n)) (BitVec.ofNat 32 N)) (idx (ix1 n)) :=
    fun n z => bcast_col_apply bc _ n z
  have hr : ∀ k, (0#32 : BitVec 32).toInt ≤ (wrapCol N b0 bc idx k).toInt ∧ (wrapCol N b0 bc idx k).toInt ≤ top.toInt := fun k => by
    obtain ⟨n, z, rfl⟩ : ∃ (n : Fin R) (z : Fin 1), k = ix2 n z := ⟨k 0, k 1, eq_ix2 k⟩
    have := (Cert.Spec.rowOf N (idx (ix1 n))).isLt
    rw [hcol, wrap_toInt N hN _ (hI _), htop, BitVec.toInt_zero]
    omega
  rw [select_apply, bcast_rep_apply, rangeMask_one _ hr, select_one, gather_rows_apply (Nat.pos_of_ne_zero (NeZero.ne N))]
  exact congrArg (fun r => tbl (ix2 r f)) (Fin.ext ((congrArg (fun w : BitVec 32 => min w.toInt.toNat (N - 1)) (hcol i 0)).trans
    (wrap_row N hN _ (hI _))))

end Take

end RowGather

end
-- ==== Proof.KI.Take1.lean ====
import proofs.«420090_j3152505996138_1_alg».proof.Proof.Gen.KernelIdeal.Launch
import proofs.«420090_j3152505996138_1_alg».proof.Proof.Spec
import proofs.«420090_j3152505996138_1_alg».proof.Proof.LibRowGather
import Idealize.ShloMosaic.Lib.StableHlo.Run
import Idealize.ShloMosaic.Lib.ValueIdx
import Idealize.ShloMosaic.Lib.Pipeline.Value
import Idealize.ShloMosaic.Lib.Pipeline.Frame
import Idealize.ShloMosaic.PureOps.Ideal

noncomputable section

namespace Cert.KernelIdeal.Gen

open Idealize.ShloMosaic Idealize.ShloMosaic.TcCoe Idealize.ShloMosaic.ValueIdx

/-- Stretch one: the wrapped index words, as a column. -/
theorem take1_A (U : Valuation τ sig (Elt Ideal)) :
    StableHlo.after ((hostOps1_1 (F := Ideal)).take 8) U (main_call0_v5 : DevRef τ sig) = RowGather.wrapCol 500000 bcast_S_S8000000 bcast_S8000000_S8000000x1_0 (U (main_v5 : DevRef τ sig)) := by
  dsimp only [hostOps1_1, List.take]
  open StableHlo in after_results
  rfl

/-- Stretch two: the range test of that column, one bit a row. -/
theorem take1_B (U : Valuation τ sig (Elt Ideal)) :
    StableHlo.after (((hostOps1_1 (F := Ideal)).drop 8).take 10) U (main_call0_v12 : DevRef τ sig)
      = RowGather.rangeMask 499999#32 bcast_S_S8000000x1 bcast_S1_S1x1_1 bcast_S1x1_S8000000x1_0_1 reducesTo_S8000000x1_S8000000_d1 h_S_ (U (main_call0_v5 : DevRef τ sig)) := by
  dsimp only [hostOps1_1, List.take, List.drop]
  open StableHlo in after_results
  simp only [StableHlo.TRef.toBuf, StableHlo.TRef.ofBuf, cast_eq]

/-- Stretch three: the gathered rows, each kept where its bit is one. -/
theorem take1_C (U : Valuation τ sig (Elt Ideal)) :
    StableHlo.after ((hostOps1_1 (F := Ideal)).drop 18) U (main_v8 : DevRef τ sig)
      = select (broadcastInDim S8000000x8 ![0] bcast_S8000000_S8000000x8_0 (U (main_call0_v12 : DevRef τ sig))) (Host.gather gather_S500000x8_S8000000x1_S8000000x8_1_0_n_n_0_1_18 (U (main_v3 : DevRef τ sig)) (U (main_call0_v5 : DevRef τ sig)))
          (broadcastInDim S8000000x8 ![] bcast_S_S8000000x8 (constant (F := Ideal) S_ .f32 0x7FC00000#32)) := by
  dsimp only [hostOps1_1, List.drop]
  open StableHlo in after_results
  rfl

/-- The table outlasts stretches one and two, the column stretch two. -/
theorem take1_keep (U : Valuation τ sig (Elt Ideal)) :
    StableHlo.after ((hostOps1_1 (F := Ideal)).take 8) U (main_v3 : DevRef τ sig) = U (main_v3 : DevRef τ sig) ∧ StableHlo.after (((hostOps1_1 (F := Ideal)).drop 8).take 10) U (main_v3 : DevRef τ sig) = U (main_v3 : DevRef τ sig)
      ∧ StableHlo.after (((hostOps1_1 (F := Ideal)).drop 8).take 10) U (main_call0_v5 : DevRef τ sig) = U (main_call0_v5 : DevRef τ sig) := by
  refine ⟨?_, ?_, ?_⟩ <;> dsimp only [hostOps1_1, List.take, List.drop] <;> open StableHlo in after_results

/-- The three stretches in a row make the take in range. -/
theorem take1 (U : Valuation τ sig (Elt Ideal))
    (hI : ∀ i, -500000 ≤ ((U (main_v5 : DevRef τ sig) : Vec Ideal S8000000 .i32) i).toInt ∧ ((U (main_v5 : DevRef τ sig) : Vec Ideal S8000000 .i32) i).toInt < 500000)
    (i : Fin 8000000) (f : Fin 8) :
    (StableHlo.after hostOps1_1 U (main_v8 : DevRef τ sig) : Vec Ideal S8000000x8 .f32) (ix2 i f)
      = (U (main_v3 : DevRef τ sig) : Vec Ideal S500000x8 .f32) (ix2 (Cert.Spec.rowOf 500000 ((U (main_v5 : DevRef τ sig) : Vec Ideal S8000000 .i32) (ix1 i))) f) := by
  rw [show (hostOps1_1 (F := Ideal)) = (hostOps1_1 (F := Ideal)).take 8 ++ (((hostOps1_1 (F := Ideal)).drop 8).take 10 ++ (hostOps1_1 (F := Ideal)).drop 18) from rfl, StableHlo.after_append, StableHlo.after_append,
    take1_C, take1_B, (take1_keep _).2.1, (take1_keep _).2.2, take1_A, (take1_keep _).1]
  exact RowGather.take_rows_apply (by norm_num) (by decide) gather_S500000x8_S8000000x1_S8000000x8_1_0_n_n_0_1_18_wf _ _ _ hI i f

end Cert.KernelIdeal.Gen

end
-- ==== Proof.KI.Take2.lean ====
import proofs.«420090_j3152505996138_1_alg».proof.Proof.Gen.KernelIdeal.Launch
import proofs.«420090_j3152505996138_1_alg».proof.Proof.Spec
import proofs.«420090_j3152505996138_1_alg».proof.Proof.LibRowGather
import Idealize.ShloMosaic.Lib.StableHlo.Run
import Idealize.ShloMosaic.Lib.ValueIdx
import Idealize.ShloMosaic.Lib.Pipeline.Value
import Idealize.ShloMosaic.Lib.Pipeline.Frame
import Idealize.ShloMosaic.PureOps.Ideal

noncomputable section

namespace Cert.KernelIdeal.Gen

open Idealize.ShloMosaic Idealize.ShloMosaic.TcCoe Idealize.ShloMosaic.ValueIdx

/-- Stretch one: the wrapped index words, as a column. -/
theorem take2_A (U : Valuation τ sig (Elt Ideal)) :
    StableHlo.after ((hostOps1_2 (F := Ideal)).take 8) U (main_call1_v5 : DevRef τ sig) = RowGather.wrapCol 500000 bcast_S_S8000000 bcast_S8000000_S8000000x1_0 (U (main_v7 : DevRef τ sig)) := by
  dsimp only [hostOps1_2, List.take]
  open StableHlo in after_results
  rfl

/-- Stretch two: the range test of that column, one bit a row. -/
theorem take2_B (U : Valuation τ sig (Elt Ideal)) :
    StableHlo.after (((hostOps1_2 (F := Ideal)).drop 8).take 10) U (main_call1_v12 : DevRef τ sig)
      = RowGather.rangeMask 499999#32 bcast_S_S8000000x1 bcast_S1_S1x1_1 bcast_S1x1_S8000000x1_0_1 reducesTo_S8000000x1_S8000000_d1 h_S_ (U (main_call1_v5 : DevRef τ sig)) := by
  dsimp only [hostOps1_2, List.take, List.drop]
  open StableHlo in after_results
  simp only [StableHlo.TRef.toBuf, StableHlo.TRef.ofBuf, cast_eq]

/-- Stretch three: the gathered rows, each kept where its bit is one. -/
theorem take2_C (U : Valuation τ sig (Elt Ideal)) :
    StableHlo.after ((hostOps1_2 (F := Ideal)).drop 18) U (main_v9 : DevRef τ sig)
      = select (broadcastInDim S8000000x8 ![0] bcast_S8000000_S8000000x8_0 (U (main_call1_v12 : DevRef τ sig))) (Host.gather gather_S500000x8_S8000000x1_S8000000x8_1_0_n_n_0_1_18 (U (main_v3 : DevRef τ sig)) (U (main_call1_v5 : DevRef τ sig)))
          (broadcastInDim S8000000x8 ![] bcast_S_S8000000x8 (constant (F := Ideal) S_ .f32 0x7FC00000#32)) := by
  dsimp only [hostOps1_2, List.drop]
  open StableHlo in after_results
  rfl

/-- The table outlasts stretches one and two, the column stretch two. -/
theorem take2_keep (U : Valuation τ sig (Elt Ideal)) :
    StableHlo.after ((hostOps1_2 (F := Ideal)).take 8) U (main_v3 : DevRef τ sig) = U (main_v3 : DevRef τ sig) ∧ StableHlo.after (((hostOps1_2 (F := Ideal)).drop 8).take 10) U (main_v3 : DevRef τ sig) = U (main_v3 : DevRef τ sig)
      ∧ StableHlo.after (((hostOps1_2 (F := Ideal)).drop 8).take 10) U (main_call1_v5 : DevRef τ sig) = U (main_call1_v5 : DevRef τ sig) := by
  refine ⟨?_, ?_, ?_⟩ <;> dsimp only [hostOps1_2, List.take, List.drop] <;> open StableHlo in after_results

/-- The three stretches in a row make the take in range. -/
theorem take2 (U : Valuation τ sig (Elt Ideal))
    (hI : ∀ i, -500000 ≤ ((U (main_v7 : DevRef τ sig) : Vec Ideal S8000000 .i32) i).toInt ∧ ((U (main_v7 : DevRef τ sig) : Vec Ideal S8000000 .i32) i).toInt < 500000)
    (i : Fin 8000000) (f : Fin 8) :
    (StableHlo.after hostOps1_2 U (main_v9 : DevRef τ sig) : Vec Ideal S8000000x8 .f32) (ix2 i f)
      = (U (main_v3 : DevRef τ sig) : Vec Ideal S500000x8 .f32) (ix2 (Cert.Spec.rowOf 500000 ((U (main_v7 : DevRef τ sig) : Vec Ideal S8000000 .i32) (ix1 i))) f) := by
  rw [show (hostOps1_2 (F := Ideal)) = (hostOps1_2 (F := Ideal)).take 8 ++ (((hostOps1_2 (F := Ideal)).drop 8).take 10 ++ (hostOps1_2 (F := Ideal)).drop 18) from rfl, StableHlo.after_append, StableHlo.after_append,
    take2_C, take2_B, (take2_keep _).2.1, (take2_keep _).2.2, take2_A, (take2_keep _).1]
  exact RowGather.take_rows_apply (by norm_num) (by decide) gather_S500000x8_S8000000x1_S8000000x8_1_0_n_n_0_1_18_wf _ _ _ hI i f

end Cert.KernelIdeal.Gen

end
-- ==== Proof.KI.Take3.lean ====
import proofs.«420090_j3152505996138_1_alg».proof.Proof.Gen.KernelIdeal.Launch
import proofs.«420090_j3152505996138_1_alg».proof.Proof.Spec
import proofs.«420090_j3152505996138_1_alg».proof.Proof.LibRowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.Pipeline.Frame
import Idealize.ShloMosaic.Lib.Affine
import Idealize.ShloMosaic.PureOps.Reduce

noncomputable section

namespace Cert.KernelIdeal.Gen

open Idealize.ShloMosaic Idealize.ShloMosaic.TcCoe Idealize.ShloMosaic.ValueIdx

/-- Stretch one: the wrapped index words, as a column. -/
theorem take3_A (U : Valuation τ sig (Elt Ideal)) :
    StableHlo.after ((hostOps1_4 (F := Ideal)).take 8) U (main_call2_v5 : DevRef τ sig) = RowGather.wrapCol 8000000 bcast_S_S500000 bcast_S500000_S500000x1_0 (U (main_arg17 : DevRef τ sig)) := by
  dsimp only [hostOps1_4, List.take]
  open StableHlo in after_results
  rfl

/-- Stretch two: the range test of that column, one bit a row. -/
theorem take3_B (U : Valuation τ sig (Elt Ideal)) :
    StableHlo.after (((hostOps1_4 (F := Ideal)).drop 8).take 10) U (main_call2_v12 : DevRef τ sig)
      = RowGather.rangeMask 7999999#32 bcast_S_S500000x1 bcast_S1_S1x1_1 bcast_S1x1_S500000x1_0_1 reducesTo_S500000x1_S500000_d1 h_S_ (U (main_call2_v5 : DevRef τ sig)) := by
  dsimp only [hostOps1_4, List.take, List.drop]
  open StableHlo in after_results
  simp only [StableHlo.TRef.toBuf, StableHlo.TRef.ofBuf, cast_eq]

/-- Stretch three: the gathered rows, each kept where its bit is one. -/
theorem take3_C (U : Valuation τ sig (Elt Ideal)) :
    StableHlo.after ((hostOps1_4 (F := Ideal)).drop 18) U (main_v11 : DevRef τ sig)
      = select (broadcastInDim S500000x8 ![0] bcast_S500000_S500000x8_0 (U (main_call2_v12 : DevRef τ sig))) (Host.gather gather_S8000000x8_S500000x1_S500000x8_1_0_n_n_0_1_18 (U (main_v10 : DevRef τ sig)) (U (main_call2_v5 : DevRef τ sig)))
          (broadcastInDim S500000x8 ![] bcast_S_S500000x8 (constant (F := Ideal) S_ .f32 0x7FC00000#32)) := by
  dsimp only [hostOps1_4, List.drop]
  open StableHlo in after_results
  rfl

/-- The table outlasts stretches one and two, the column stretch two. -/
theorem take3_keep (U : Valuation τ sig (Elt Ideal)) :
    StableHlo.after ((hostOps1_4 (F := Ideal)).take 8) U (main_v10 : DevRef τ sig) = U (main_v10 : DevRef τ sig) ∧ StableHlo.after (((hostOps1_4 (F := Ideal)).drop 8).take 10) U (main_v10 : DevRef τ sig) = U (main_v10 : DevRef τ sig)
      ∧ StableHlo.after (((hostOps1_4 (F := Ideal)).drop 8).take 10) U (main_call2_v5 : DevRef τ sig) = U (main_call2_v5 : DevRef τ sig) := by
  refine ⟨?_, ?_, ?_⟩ <;> dsimp only [hostOps1_4, List.take, List.drop] <;> open StableHlo in after_results

/-- The three stretches in a row make the take in range. -/
theorem take3 (U : Valuation τ sig (Elt Ideal))
    (hI : ∀ i, -8000000 ≤ ((U (main_arg17 : DevRef τ sig) : Vec Ideal S500000 .i32) i).toInt
      ∧ ((U (main_arg17 : DevRef τ sig) : Vec Ideal S500000 .i32) i).toInt < 8000000)
    (i : Fin 500000) (f : Fin 8) :
    (StableHlo.after hostOps1_4 U (main_v11 : DevRef τ sig) : Vec Ideal S500000x8 .f32) (ix2 i f)
      = (U (main_v10 : DevRef τ sig) : Vec Ideal S8000000x8 .f32)
          (ix2 (Spec.rowOf 8000000 ((U (main_arg17 : DevRef τ sig) : Vec Ideal S500000 .i32) (ix1 i))) f) := by
  rw [show (hostOps1_4 (F := Ideal)) = (hostOps1_4 (F := Ideal)).take 8 ++ (((hostOps1_4 (F := Ideal)).drop 8).take 10 ++ (hostOps1_4 (F := Ideal)).drop 18) from rfl, StableHlo.after_append, StableHlo.after_append,
    take3_C, take3_B, (take3_keep _).2.1, (take3_keep _).2.2, take3_A, (take3_keep _).1]
  exact RowGather.take_rows_apply (by norm_num) (by decide) gather_S8000000x8_S500000x1_S500000x8_1_0_n_n_0_1_18_wf _ _ _ hI i f

end Cert.KernelIdeal.Gen

end
-- ==== Proof.KI.Host15.lean ====
import proofs.«420090_j3152505996138_1_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.ShloMosaic.ValueIdx

/-- Adding a last axis of size one does not move an entry. -/
theorem addUnit15 {α : Type} (x : S500000x8.Idx → α) (p : Fin 500000) (q : Fin 8) (u : Fin 1) :
    broadcastInDim S500000x8x1 ![0, 1] bcast_S500000x8_S500000x8x1_0_1 x (ix3 p q u) = x (ix2 p q) :=
  broadcastInDim_apply _ bcast_S500000x8_S500000x8x1_0_1 x (ix3 p q u) (ix2 p q) fun a => by
    match a with
    | ⟨0, _⟩ => rfl
    | ⟨1, _⟩ => rfl

/-- Joined along that axis and flattened row-major, column k is column k / 2 of the first array for even k, of the second for odd k. -/
theorem interleave15 {α : Type} (x y : S500000x8.Idx → α) (p : Fin 500000) (k : Fin 16) :
    shapeCast S500000x16
        (concatenate S500000x8x2 2
          [⟨S500000x8x1, broadcastInDim S500000x8x1 ![0, 1] bcast_S500000x8_S500000x8x1_0_1 x⟩,
           ⟨S500000x8x1, broadcastInDim S500000x8x1 ![0, 1] bcast_S500000x8_S500000x8x1_0_1 y⟩]
          concatenates_S500000x8x1_S500000x8x1_S500000x8x2_d2)
        shapeCasts_S500000x8x2_S500000x16 (ix2 p k)
      = if k.val % 2 = 0 then x (ix2 p ⟨k.val / 2, by omega⟩) else y (ix2 p ⟨k.val / 2, by omega⟩) := by
  have hk := k.isLt
  have hp := p.isLt
  refine (shapeCast_apply _ shapeCasts_S500000x8x2_S500000x16 (ix2 p k)
    (ix3 p (⟨k.val / 2, by omega⟩ : Fin 8) (⟨k.val % 2, Nat.mod_lt _ (by decide)⟩ : Fin 2)) ?_).trans ?_
  · rw [Shape.rowMajor_val_three, Shape.rowMajor_val_two]
    show (p.val * 8 + k.val / 2) * 2 + k.val % 2 = p.val * 16 + k.val
    omega
  · by_cases h : k.val % 2 = 0
    · rw [if_pos h]
      refine (concatenate_pair_apply_left 2 _ _ concatenates_S500000x8x1_S500000x8x1_S500000x8x2_d2 _ rfl
        (ix3 p (⟨k.val / 2, by omega⟩ : Fin 8) (0 : Fin 1)) fun b => ?_).trans (addUnit15 x p _ 0)
      match b with
      | ⟨0, _⟩ => rfl
      | ⟨1, _⟩ => rfl
      | ⟨2, _⟩ => show 0 = k.val % 2; omega
    · rw [if_neg h]
      refine (concatenate_pair_apply_right 2 _ _ concatenates_S500000x8x1_S500000x8x1_S500000x8x2_d2 _ rfl rfl
        (ix3 p (⟨k.val / 2, by omega⟩ : Fin 8) (0 : Fin 1)) (fun b hb => ?_) ?_).trans (addUnit15 y p _ 0)
      · match b with
        | ⟨0, _⟩ => rfl
        | ⟨1, _⟩ => rfl
        | ⟨2, _⟩ => exact absurd rfl hb
      · show 0 + 1 = k.val % 2
        omega

theorem host15_v15 (U : Valuation τ sig (Elt Ideal)) (p : Fin 500000) (k : Fin 16) :
    (StableHlo.after hostOps1_5 U (main_v15 : DevRef τ sig) : Vec Ideal S500000x16 .f32) (ix2 p k)
      = if k.val % 2 = 0 then (U (main_v3 : DevRef τ sig) : Vec Ideal S500000x8 .f32) (ix2 p ⟨k.val / 2, by omega⟩)
        else (U (main_v11 : DevRef τ sig) : Vec Ideal S500000x8 .f32) (ix2 p ⟨k.val / 2, by omega⟩) := by
  dsimp only [hostOps1_5]
  open StableHlo in after_results
  exact interleave15 _ _ p k

theorem host15_v16 (U : Valuation τ sig (Elt Ideal)) (j : Fin 64) :
    (StableHlo.after hostOps1_5 U (main_v16 : DevRef τ sig) : Vec Ideal S1x64 .f32) (ix2 (0 : Fin 1) j)
      = (U (main_arg6 : DevRef τ sig) : Vec Ideal S64 .f32) (ix1 j) := by
  dsimp only [hostOps1_5]
  open StableHlo in after_results
  exact shapeCast_a_1a_apply _ shapeCasts_S64_S1x64 0 j

end Cert.KernelIdeal.Gen

end
-- ==== Proof.KI.Host1.lean ====
import proofs.«420090_j3152505996138_1_alg».proof.Proof.Gen.KernelIdeal.Launch
import proofs.«420090_j3152505996138_1_alg».proof.Proof.Gen.KernelIdeal.Regions
import proofs.«420090_j3152505996138_1_alg».proof.Proof.Spec
import proofs.«420090_j3152505996138_1_alg».proof.Proof.KI.Take1
import proofs.«420090_j3152505996138_1_alg».proof.Proof.KI.Take2
import proofs.«420090_j3152505996138_1_alg».proof.Proof.KI.Take3
import proofs.«420090_j3152505996138_1_alg».proof.Proof.KI.Host15
import Idealize.ShloMosaic.Lib.StableHlo.Run
import Idealize.ShloMosaic.Lib.Pipeline.Value
import Idealize.ShloMosaic.Lib.ValueIdx
import Idealize.ShloMosaic.Lib.ValueLayout

set_option maxRecDepth 4000

noncomputable section

namespace Cert.KernelIdeal.Gen

open Idealize.ShloMosaic Idealize.ShloMosaic.TcCoe Idealize.SL.Sem
open Idealize.ShloMosaic.ValueIdx
open Idealize.ShloMosaic.StableHlo

/-- What no operation of a stretch writes is the same after the stretch as before it. -/
theorem st_keep {ops : List (HloOp τ sig (Elt Ideal))} {W : List (Ref sig .tc)}
    (hW : ops.Forall fun op => op.writes ⊆ (W.map (Proc.devRef (τ := τ) .tc)).toFinset) (X : Valuation τ sig (Elt Ideal))
    (r : Ref sig .tc) (hr : r ∉ W := by decide) : after ops X r = X r :=
  after_of_writes_sub ops X hW hr

/-- Cutting row 0 out of the two-row edge list and flattening it leaves its entries in order. -/
theorem st1_v5 (X : Valuation τ sig (Elt Ideal)) (i : Fin 8000000) :
    (StableHlo.after (hostOps1 (F := Ideal)) X main_v5 : Vec Ideal S8000000 .i32) (ix1 i)
      = (X main_arg15 : Vec Ideal S2x8000000 .i32) (ix2 (0 : Fin 2) i) := by
  dsimp only [hostOps1]
  after_results
  exact (shapeCast_1a_a_apply _ _ i).trans (slice2_axis0_apply 0 _ _ (0 : Fin 1) i (0 : Fin 2) rfl)

/-- The same for row 1. -/
theorem st1_v7 (X : Valuation τ sig (Elt Ideal)) (i : Fin 8000000) :
    (StableHlo.after (hostOps1 (F := Ideal)) X main_v7 : Vec Ideal S8000000 .i32) (ix1 i)
      = (X main_arg15 : Vec Ideal S2x8000000 .i32) (ix2 (1 : Fin 2) i) := by
  dsimp only [hostOps1]
  after_results
  exact (shapeCast_1a_a_apply _ _ i).trans (slice2_axis0_apply 1 _ _ (0 : Fin 1) i (1 : Fin 2) rfl)

/-- Between the second and the third lookup the two gathered arrays are combined entry by entry by max. -/
theorem st13_v10 (X : Valuation τ sig (Elt Ideal)) (y : S8000000x8.Idx) :
    (StableHlo.after (hostOps1_3 (F := Ideal)) X main_v10 : Vec Ideal S8000000x8 .f32) y
      = max (α := EReal) ((X main_v8 : Vec Ideal S8000000x8 .f32) y) ((X main_v9 : Vec Ideal S8000000x8 .f32) y) := by
  dsimp only [hostOps1_3]
  after_results
  rfl

/-- Each reading meets the edge list's or the chosen edges' own words, in range; the stretches between leave them alone. -/
theorem host1_pairs (U : Valuation τ sig (Elt Ideal))
    (hE : ∀ i, -500000 ≤ ((U main_arg15 : Vec Ideal S2x8000000 .i32) i).toInt ∧ ((U main_arg15 : Vec Ideal S2x8000000 .i32) i).toInt < 500000)
    (hD : ∀ i, -8000000 ≤ ((U main_arg17 : Vec Ideal S500000 .i32) i).toInt ∧ ((U main_arg17 : Vec Ideal S500000 .i32) i).toInt < 8000000)
    (p : Fin 500000) (k : Fin 16) :
    (StableHlo.after (hostOps1_5 (F := Ideal)) (StableHlo.after hostOps1_4 (StableHlo.after hostOps1_3 (StableHlo.after hostOps1_2
        (StableHlo.after hostOps1_1 (StableHlo.after hostOps1 U))))) main_v15 : Vec Ideal S500000x16 .f32) (ix2 p k)
      = Cert.Spec.pairs (fun a f => (U main_v3 : Vec Ideal S500000x8 .f32) (ix2 a f))
          (fun i => Cert.Spec.rowOf 500000 ((U main_arg15 : Vec Ideal S2x8000000 .i32) (ix2 (0 : Fin 2) i)))
          (fun i => Cert.Spec.rowOf 500000 ((U main_arg15 : Vec Ideal S2x8000000 .i32) (ix2 (1 : Fin 2) i)))
          (fun a => Cert.Spec.rowOf 8000000 ((U main_arg17 : Vec Ideal S500000 .i32) (ix1 a))) p k := by
  have f17 : after (hostOps1_3 (F := Ideal)) (after hostOps1_2 (after hostOps1_1 (after hostOps1 U))) main_arg17 = U main_arg17 := by
    rw [st_keep hostOps1_3_writes _ main_arg17, st_keep hostOps1_2_writes _ main_arg17, st_keep hostOps1_1_writes _ main_arg17,
      st_keep hostOps1_writes _ main_arg17]
  have hz : ∀ z : S8000000.Idx, ∃ i : Fin 8000000, z = ix1 i := fun z => ⟨z 0, eq_ix1 z⟩
  rw [host15_v15]
  unfold Cert.Spec.pairs
  by_cases he : k.val % 2 = 0
  · rw [if_pos he, if_pos he, st_keep hostOps1_4_writes _ main_v3, st_keep hostOps1_3_writes _ main_v3, st_keep hostOps1_2_writes _ main_v3,
      st_keep hostOps1_1_writes _ main_v3, st_keep hostOps1_writes _ main_v3]
  · rw [if_neg he, if_neg he, take3 (after hostOps1_3 (after hostOps1_2 (after hostOps1_1 (after hostOps1 U)))) (fun z => by rw [f17]; exact hD z),
      f17, st13_v10, st_keep hostOps1_2_writes _ main_v8,
      take1 (after hostOps1 U) (fun z => by obtain ⟨i, rfl⟩ := hz z; rw [st1_v5]; exact hE _),
      take2 (after hostOps1_1 (after hostOps1 U)) (fun z => by obtain ⟨i, rfl⟩ := hz z; rw [st_keep hostOps1_1_writes _ main_v7, st1_v7]; exact hE _),
      st_keep hostOps1_1_writes _ main_v3, st_keep hostOps1_writes _ main_v3, st_keep hostOps1_1_writes _ main_v7, st1_v5, st1_v7]
    rfl

theorem host1_v16 (U : Valuation τ sig (Elt Ideal)) (j : Fin 64) :
    (StableHlo.after (hostOps1_5 (F := Ideal)) (StableHlo.after hostOps1_4 (StableHlo.after hostOps1_3 (StableHlo.after hostOps1_2
        (StableHlo.after hostOps1_1 (StableHlo.after hostOps1 U))))) main_v16 : Vec Ideal S1x64 .f32) (ix2 (0 : Fin 1) j)
      = (U main_arg6 : Vec Ideal S64 .f32) (ix1 j) := by
  rw [host15_v16, st_keep hostOps1_4_writes _ main_arg6, st_keep hostOps1_3_writes _ main_arg6, st_keep hostOps1_2_writes _ main_arg6,
    st_keep hostOps1_1_writes _ main_arg6, st_keep hostOps1_writes _ main_arg6]

end Cert.KernelIdeal.Gen

end
-- ==== Proof.KI.Inputs.lean ====
import proofs.«420090_j3152505996138_1_alg».proof.Proof.Gen.KernelIdeal.Launch
import proofs.«420090_j3152505996138_1_alg».proof.Proof.Spec
import Idealize.ShloMosaic.Lib.ValueIdx

noncomputable section

namespace Cert.KernelIdeal.Gen

open Idealize.ShloMosaic Idealize.ShloMosaic.TcCoe Idealize.ShloMosaic.ValueIdx

variable (m : (ℓ : Loc nD τ sig) → Buf (Elt Ideal) ℓ)

abbrev X (c : Dev nD) : Spec.M 500000 128 := fun a k => (m ((c.tc : Thread nD τ).loc main_arg0) : Vec Ideal S500000x128 .f32) (ix2 a k)
abbrev vW1 (c : Dev nD) : Spec.M 128 128 := fun k h => (m ((c.tc : Thread nD τ).loc main_arg1) : Vec Ideal S128x128 .f32) (ix2 k h)
abbrev vb1 (c : Dev nD) : Fin 128 → EReal := fun h => (m ((c.tc : Thread nD τ).loc main_arg2) : Vec Ideal S128 .f32) (ix1 h)
abbrev vW2 (c : Dev nD) : Spec.M 128 8 := fun h q => (m ((c.tc : Thread nD τ).loc main_arg3) : Vec Ideal S128x8 .f32) (ix2 h q)
abbrev vb2 (c : Dev nD) : Fin 8 → EReal := fun q => (m ((c.tc : Thread nD τ).loc main_arg4) : Vec Ideal S8 .f32) (ix1 q)
abbrev vW0 (c : Dev nD) : Spec.M 16 64 := fun k j => (m ((c.tc : Thread nD τ).loc main_arg5) : Vec Ideal S16x64 .f32) (ix2 k j)
abbrev vb0 (c : Dev nD) : Fin 64 → EReal := fun j => (m ((c.tc : Thread nD τ).loc main_arg6) : Vec Ideal S64 .f32) (ix1 j)
abbrev vg1W (c : Dev nD) : Spec.M 64 64 := fun k j => (m ((c.tc : Thread nD τ).loc main_arg7) : Vec Ideal S64x64 .f32) (ix2 k j)
abbrev vg1b (c : Dev nD) : Fin 64 → EReal := fun j => (m ((c.tc : Thread nD τ).loc main_arg8) : Vec Ideal S64 .f32) (ix1 j)
abbrev vl1W (c : Dev nD) : Spec.M 64 64 := fun k j => (m ((c.tc : Thread nD τ).loc main_arg9) : Vec Ideal S64x64 .f32) (ix2 k j)
abbrev vg2W (c : Dev nD) : Spec.M 64 128 := fun k j => (m ((c.tc : Thread nD τ).loc main_arg10) : Vec Ideal S64x128 .f32) (ix2 k j)
abbrev vg2b (c : Dev nD) : Fin 128 → EReal := fun j => (m ((c.tc : Thread nD τ).loc main_arg11) : Vec Ideal S128 .f32) (ix1 j)
abbrev vl2W (c : Dev nD) : Spec.M 64 128 := fun k j => (m ((c.tc : Thread nD τ).loc main_arg12) : Vec Ideal S64x128 .f32) (ix2 k j)
abbrev vgam (c : Dev nD) : Fin 128 → EReal := fun j => (m ((c.tc : Thread nD τ).loc main_arg13) : Vec Ideal S128 .f32) (ix1 j)
abbrev vbet (c : Dev nD) : Fin 128 → EReal := fun j => (m ((c.tc : Thread nD τ).loc main_arg14) : Vec Ideal S128 .f32) (ix1 j)
abbrev e0 (c : Dev nD) : Fin 8000000 → Fin 500000 := fun i => Spec.rowOf 500000 ((m ((c.tc : Thread nD τ).loc main_arg15) : Vec Ideal S2x8000000 .i32) (ix2 (0 : Fin 2) i))
abbrev e1 (c : Dev nD) : Fin 8000000 → Fin 500000 := fun i => Spec.rowOf 500000 ((m ((c.tc : Thread nD τ).loc main_arg15) : Vec Ideal S2x8000000 .i32) (ix2 (1 : Fin 2) i))
abbrev bt (c : Dev nD) : Fin 500000 → Fin 512 := fun n => Spec.rowOf 512 ((m ((c.tc : Thread nD τ).loc main_arg16) : Vec Ideal S500000 .i32) (ix1 n))
abbrev dd (c : Dev nD) : Fin 500000 → Fin 8000000 := fun a => Spec.rowOf 8000000 ((m ((c.tc : Thread nD τ).loc main_arg17) : Vec Ideal S500000 .i32) (ix1 a))

structure InRange (c : Dev nD) : Prop where
  edge : ∀ i : S2x8000000.Idx, -500000 ≤ ((m ((c.tc : Thread nD τ).loc main_arg15) : Vec Ideal S2x8000000 .i32) i).toInt ∧ ((m ((c.tc : Thread nD τ).loc main_arg15) : Vec Ideal S2x8000000 .i32) i).toInt < 500000
  graph : ∀ n : S500000.Idx, 0 ≤ ((m ((c.tc : Thread nD τ).loc main_arg16) : Vec Ideal S500000 .i32) n).toInt ∧ ((m ((c.tc : Thread nD τ).loc main_arg16) : Vec Ideal S500000 .i32) n).toInt < 512
  death : ∀ a : S500000.Idx, -8000000 ≤ ((m ((c.tc : Thread nD τ).loc main_arg17) : Vec Ideal S500000 .i32) a).toInt ∧ ((m ((c.tc : Thread nD τ).loc main_arg17) : Vec Ideal S500000 .i32) a).toInt < 8000000

abbrev FV (c : Dev nD) : Spec.M 500000 8 := Spec.fv (X m c) (vW1 m c) (vb1 m c) (vW2 m c) (vb2 m c)
abbrev PR (c : Dev nD) : Spec.M 500000 16 := Spec.pairs (FV m c) (e0 m c) (e1 m c) (dd m c)
abbrev X0 (c : Dev nD) : Spec.M 500000 64 := Spec.relu (Spec.lin (PR m c) (vW0 m c) (vb0 m c))
abbrev O1 (c : Dev nD) : Spec.M 500000 64 := Spec.relu (Spec.round (X0 m c) (bt m c) (vg1W m c) (vg1b m c) (vl1W m c))
abbrev XF (c : Dev nD) : Spec.M 500000 128 := Spec.round (O1 m c) (bt m c) (vg2W m c) (vg2b m c) (vl2W m c)
abbrev HH (c : Dev nD) : Spec.M 500000 128 := Spec.relu (XF m c)

end Cert.KernelIdeal.Gen

end
-- ==== Proof.KI.KernelValueA.lean ====
import proofs.«420090_j3152505996138_1_alg».proof.Proof.KI.Assemble
import proofs.«420090_j3152505996138_1_alg».proof.Proof.KI.Value0
import proofs.«420090_j3152505996138_1_alg».proof.Proof.KI.Value1
import proofs.«420090_j3152505996138_1_alg».proof.Proof.KI.Host0
import proofs.«420090_j3152505996138_1_alg».proof.Proof.KI.Host1
import proofs.«420090_j3152505996138_1_alg».proof.Proof.KI.Inputs

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ)

-- An argument that nothing up to call 1 writes is, after call 0 and when call 1 starts, as launched.
theorem kva_arg (c : Dev nD) (r : Ref sig .tc)
    (h : r ∉ hostOps0_W ∧ r ∉ ([main_v3] : List (Ref sig .tc)) ∧ r ∉ hostOps1_W ∧ r ∉ hostOps1_1_W ∧ r ∉ hostOps1_2_W
      ∧ r ∉ hostOps1_3_W ∧ r ∉ hostOps1_4_W ∧ r ∉ hostOps1_5_W) :
    W2 m c r = m ((c.tc : Thread nD τ).loc r) ∧ W8 m c r = m ((c.tc : Thread nD τ).loc r) := by
  obtain ⟨h1, h2, h3, h4, h5, h6, h7, h8⟩ := h
  rw [← V2_eq m c, ← V8_eq m c, V8_of m (outs m) c r h8, V7_of m (outs m) c r h7, V6_of m (outs m) c r h6,
    V5_of m (outs m) c r h5, V4_of m (outs m) c r h4, V3_of m (outs m) c r h3, V2_of m (outs m) c r h2, V1_of m c r h1]
  exact ⟨rfl, rfl⟩

theorem kv_fv (c : Dev nD) (p : Fin 500000) (q : Fin 8) :
    (W2 m c main_v3 : Vec Ideal S500000x8 .f32) (ix2 p q) = FV m c p q := by
  unfold W2
  rw [Function.update_self]
  unfold o3
  rw [final0 (tcv (V1 m)) c, G0_apply]
  have a0 : ∀ k : Fin 128, (tcv (V1 m) c (Pipeline.arrRef spec0 0) : Vec Ideal S500000x128 .f32) (ix2 p k) = X m c p k :=
    fun k => congrFun (V1_of m c main_arg0 (by decide)) _
  have a1 : ∀ k h : Fin 128, (tcv (V1 m) c (Pipeline.arrRef spec0 1) : Vec Ideal S128x128 .f32) (ix2 k h) = vW1 m c k h :=
    fun k h => congrFun (V1_of m c main_arg1 (by decide)) _
  have a2 : ∀ h : Fin 128, (tcv (V1 m) c (Pipeline.arrRef spec0 2) : Vec Ideal S1x128 .f32) (ix2 (0 : Fin 1) h) = vb1 m c h :=
    fun h => host0_v1 (V0 m c) h
  have a3 : ∀ (h : Fin 128) (q : Fin 8), (tcv (V1 m) c (Pipeline.arrRef spec0 3) : Vec Ideal S128x8 .f32) (ix2 h q) = vW2 m c h q :=
    fun h q => congrFun (V1_of m c main_arg3 (by decide)) _
  have a4 : ∀ q : Fin 8, (tcv (V1 m) c (Pipeline.arrRef spec0 4) : Vec Ideal S1x8 .f32) (ix2 (0 : Fin 1) q) = vb2 m c q :=
    fun q => host0_v2 (V0 m c) q
  simp only [a0, a1, a2, a3, a4]
  rfl

theorem kv_pairs (c : Dev nD) (hR : InRange m c) (p : Fin 500000) (k : Fin 16) :
    (W8 m c main_v15 : Vec Ideal S500000x16 .f32) (ix2 p k) = PR m c p k := by
  have u15 := (kva_arg m c main_arg15 (by decide)).1
  have u17 := (kva_arg m c main_arg17 (by decide)).1
  have f3 : (fun (a : Fin 500000) (f : Fin 8) => (W2 m c main_v3 : Vec Ideal S500000x8 .f32) (ix2 a f)) = FV m c :=
    funext fun a => funext fun f => kv_fv m c a f
  refine (host1_pairs (W2 m c) (fun i => by rw [u15]; exact hR.edge i) (fun i => by rw [u17]; exact hR.death i) p k).trans ?_
  rw [f3, u15, u17]

theorem kv_x0 (c : Dev nD) (hR : InRange m c) (p : Fin 500000) (j : Fin 64) :
    (W9 m c main_v17 : Vec Ideal S500000x64 .f32) (ix2 p j) = X0 m c p j := by
  unfold W9
  rw [Function.update_self]
  unfold o17
  rw [final1 (tcv (W8 m)) c, G1_apply]
  have b0 : ∀ k : Fin 16, (tcv (W8 m) c (Pipeline.arrRef spec1 0) : Vec Ideal S500000x16 .f32) (ix2 p k) = PR m c p k :=
    fun k => kv_pairs m c hR p k
  have b1 : ∀ (k : Fin 16) (j : Fin 64), (tcv (W8 m) c (Pipeline.arrRef spec1 1) : Vec Ideal S16x64 .f32) (ix2 k j) = vW0 m c k j :=
    fun k j => congrFun (kva_arg m c main_arg5 (by decide)).2 _
  have b2 : ∀ j : Fin 64, (tcv (W8 m) c (Pipeline.arrRef spec1 2) : Vec Ideal S1x64 .f32) (ix2 (0 : Fin 1) j) = vb0 m c j :=
    fun j => (host1_v16 (W2 m c) j).trans (congrFun (kva_arg m c main_arg6 (by decide)).1 _)
  simp only [b0, b1, b2]
  rfl

end Cert.KernelIdeal.Gen
-- ==== Proof.KI.OneHot.lean ====
import Idealize.ShloMosaic.Lib.ValueIdx
import Idealize.ShloMosaic.PureOps.Ideal

noncomputable section

namespace Cert.KernelIdeal.Gen

open Idealize.ShloMosaic Idealize.ShloMosaic.ValueIdx

def onehot (b : Vec Ideal ⟨2, ![500000, 1]⟩ .i32) (p : Fin 500000) (g : Fin 512) : EReal :=
  if b (ix2 p (0 : Fin 1)) = BitVec.ofNat 32 g.val then 1 else 0

theorem sitofp_cmpi_eq (φ : FTy) (x y : BitVec 32) :
    FloatOps.sitofp (F := Ideal) φ ((IntOp.cmpi .eq x y).setWidth 32) = if x = y then 1 else 0 := by
  show ((((BitVec.ofBool (x == y)).setWidth 32).toInt : ℝ) : EReal) = _
  have h1 : ((BitVec.ofBool true).setWidth 32).toInt = 1 := by decide
  have h0 : ((BitVec.ofBool false).setWidth 32).toInt = 0 := by decide
  by_cases h : x = y
  · rw [if_pos h, beq_iff_eq.mpr h, h1, Int.cast_one, EReal.coe_one]
  · rw [if_neg h, beq_eq_false_iff_ne.mpr h, h0, Int.cast_zero, EReal.coe_zero]

theorem onehot_eq (b : Vec Ideal ⟨2, ![500000, 1]⟩ .i32) (p : Fin 500000) (g : Fin 512) :
    FloatOps.sitofp (F := Ideal) .f32 ((IntOp.cmpi .eq (b (ix2 p (0 : Fin 1))) (BitVec.ofNat 32 g.val)).setWidth 32) = onehot b p g :=
  sitofp_cmpi_eq .f32 _ _

end Cert.KernelIdeal.Gen

end
-- ==== Proof.KI.Value2.lean ====
import proofs.«420090_j3152505996138_1_alg».proof.Proof.KI.Region2
import proofs.«420090_j3152505996138_1_alg».proof.Proof.KI.OneHot
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem

variable {F : FTy → Type} [FloatOps F]

variable (V : (c : Dev nD) → (b : Ref sig .tc) → Buf (Elt F) ((c : Thread nD τ).loc b))

-- The r-th row of the t-th block of 5000 rows.
abbrev row2 (t : Fin 100) (r : Fin 5000) : Fin 500000 :=
  ⟨t.val * 5000 + r.val, by have := t.isLt; have := r.isLt; omega⟩

-- The t-th block of 5000 rows of an array with 500000 rows.
def rows2 {e : EltTy} {n : ℕ} (x : Vec F ⟨2, ![500000, n]⟩ e) (t : Fin 100) : Vec F ⟨2, ![5000, n]⟩ e :=
  fun j => x (ix2 (row2 t (j 0)) (j 1))

-- Running sums: from the zero array, add block by block the transposed one-hot matrix of the block's segment numbers times the block's rows.
def S2acc (x : Vec F S500000x64 .f32) (b : Vec F S500000x1 .i32) : (n : ℕ) → n < 100 → Vec F S512x64 .f32
  | 0, h => k2_pay4 (rows2 b ⟨0, h⟩) (rows2 x ⟨0, h⟩) k2_pay1
  | n + 1, h => k2_pay4 (rows2 b ⟨n + 1, h⟩) (rows2 x ⟨n + 1, h⟩) (S2acc x b n (Nat.lt_of_succ_lt h))

-- Running counts: the same with every row replaced by 1.
def C2acc (b : Vec F S500000x1 .i32) : (n : ℕ) → n < 100 → Vec F S512x1 .f32
  | 0, h => k2_pay5 (rows2 b ⟨0, h⟩) k2_pay2
  | n + 1, h => k2_pay5 (rows2 b ⟨n + 1, h⟩) (C2acc b n (Nat.lt_of_succ_lt h))

def S2 (x : Vec F S500000x64 .f32) (b : Vec F S500000x1 .i32) : Vec F S512x64 .f32 := S2acc x b 99 (by decide)
def C2 (b : Vec F S500000x1 .i32) : Vec F S512x1 .f32 := C2acc b 99 (by decide)

abbrev last2 : Fin cfg2.N := ⟨99, by rw [show cfg2.N = 100 from N_2]; decide⟩

theorem win2_idx : ∀ t : Fin cfg2.N,
    win2_0.index t 0 = t.val ∧ win2_0.index t 1 = 0 ∧ win2_1.index t 0 = t.val ∧ win2_1.index t 1 = 0 :=
  (by decide +kernel : ∀ t : Fin grid2.N, _)

theorem xblk2_eq (c : Dev nD) (t : Fin cfg2.N) :
    xblk2 V c t = rows2 (V c main_v17) ⟨t.val, lt_of_lt_of_eq t.isLt N_2⟩ := by
  obtain ⟨e0, e1, -⟩ := win2_idx t
  exact funext fun j => congrArg (V c main_v17) (Shape.idx_ext₂
    ((win2_0.rect_emb_val t j 0).trans (by rw [e0]; rfl)) (win2_0.rect_emb_val_of_index_zero t 1 e1 j))

theorem bblk2_eq (c : Dev nD) (t : Fin cfg2.N) :
    bblk2 V c t = rows2 (V c main_v0) ⟨t.val, lt_of_lt_of_eq t.isLt N_2⟩ := by
  obtain ⟨-, -, e0, e1⟩ := win2_idx t
  exact funext fun j => congrArg (V c main_v0) (Shape.idx_ext₂
    ((win2_1.rect_emb_val t j 0).trans (by rw [e0]; rfl)) (win2_1.rect_emb_val_of_index_zero t 1 e1 j))

-- The region's two accumulators are these running sums of the operands' blocks: induction on the point.
theorem acc2_0_eq (c : Dev nD) : ∀ (n : ℕ) (h : n < cfg2.N),
    acc2_0 V c n h = S2acc (V c main_v17) (V c main_v0) n (lt_of_lt_of_eq h N_2)
  | 0, h => by rw [acc2_0, S2acc, xblk2_eq, bblk2_eq]
  | n + 1, h => by rw [acc2_0, S2acc, xblk2_eq, bblk2_eq, acc2_0_eq c n]

theorem acc2_1_eq (c : Dev nD) : ∀ (n : ℕ) (h : n < cfg2.N),
    acc2_1 V c n h = C2acc (V c main_v0) n (lt_of_lt_of_eq h N_2)
  | 0, h => by rw [acc2_1, C2acc, bblk2_eq]
  | n + 1, h => by rw [acc2_1, C2acc, bblk2_eq, acc2_1_eq c n]

-- A rectangle with zero offsets and the array's own sizes contains every index.
theorem whole2_mem {κ : Kind} (b : Ref sig κ) {off : Fin b.ty.shape.rank → ℕ} (h : off = fun _ => 0)
    (inb : ∀ a, off a + b.ty.shape.size a ≤ b.ty.shape.size a) (i : b.ty.shape.Idx) :
    i ∈ ((Memref.whole b).access (Rect.unit off b.ty.shape.size inb) : View sig κ _ _ _).set := by
  subst h
  show i ∈ ((Memref.whole b).access (Rect.whole _) : View sig κ _ _ _).set
  rw [Memref.set_access_whole]; exact Finset.mem_univ i

theorem whole2_2 : (fun a => win2_2.index last2 a * main_v18_0.ty.shape.size a) = fun _ => 0 :=
  funext fun a => by fin_cases a <;> decide +kernel
theorem whole2_3 : (fun a => win2_3.index last2 a * main_v18_1.ty.shape.size a) = fun _ => 0 :=
  funext fun a => by fin_cases a <;> decide +kernel

-- An output's final value is the last point's, whose rectangle covers every index: the running sum over all 100 blocks.
theorem final2_sums (c : Dev nD) : (dat2 V c).arrAt 2 cfg2.N = S2 (V c main_v17) (V c main_v0) :=
  (dat2 V c).arrAt_eq_of_cover 2 _ (fun t hf => by
    have hN : cfg2.N = 100 := N_2
    obtain rfl : t = last2 := Fin.ext (show t.val = 99 by have := (flush2_2 t).mp hf; have := t.isLt; omega)
    show (cfg2.win 2).cut (grid2.coords last2) ((dat2 V c).after 2 last2) = _
    rw [after2_2, acc2_0_eq]
    exact (Memref.read_access_unit_zero (Elt F) main_v18_0 whole2_2 (fun a => by rw [congrFun whole2_2 a]; simp) _).symm)
    fun i => ⟨last2, (flush2_2 last2).mpr rfl,
      whole2_mem main_v18_0 whole2_2 (fun a => by rw [congrFun whole2_2 a]; simp) i⟩

theorem final2_cnt (c : Dev nD) : (dat2 V c).arrAt 3 cfg2.N = C2 (V c main_v0) :=
  (dat2 V c).arrAt_eq_of_cover 3 _ (fun t hf => by
    have hN : cfg2.N = 100 := N_2
    obtain rfl : t = last2 := Fin.ext (show t.val = 99 by have := (flush2_3 t).mp hf; have := t.isLt; omega)
    show (cfg2.win 3).cut (grid2.coords last2) ((dat2 V c).after 3 last2) = _
    rw [after2_3, acc2_1_eq]
    exact (Memref.read_access_unit_zero (Elt F) main_v18_1 whole2_3 (fun a => by rw [congrFun whole2_3 a]; simp) _).symm)
    fun i => ⟨last2, (flush2_3 last2).mpr rfl,
      whole2_mem main_v18_1 whole2_3 (fun a => by rw [congrFun whole2_3 a]; simp) i⟩

-- Entry (r, g) of the one-hot matrix: 1 when row r's segment number is the 32-bit word of g, else 0.
theorem k2_pay3_apply (bb : Vec Ideal S5000x1 .i32) (r : Fin 5000) (g : Fin 512) :
    k2_pay3 (F := Ideal) bb (ix2 r g) = if bb (ix2 r (0 : Fin 1)) = BitVec.ofNat 32 g.val then 1 else 0 := by
  show FloatOps.sitofp (F := Ideal) .f32 ((IntOp.cmpi .eq
      (broadcastTo S5000x512 (shapeCast S5000x1 bb shapeCasts_S5000x1_S5000x1) broadcasts_S5000x1_S5000x512 (ix2 r g))
      (iota .tc S5000x512 32 [1] iota_S5000x512_d1_w32 (ix2 r g))).setWidth 32) = _
  rw [shapeCast_self, broadcastTo_apply bb _ (ix2 r g) (ix2 r (0 : Fin 1)) (fun a => by fin_cases a <;> simp),
    iota_single_apply .tc S5000x512 32 1]
  exact sitofp_cmpi_eq .f32 _ _

theorem k2_pay1_apply (j : S512x64.Idx) : k2_pay1 (F := Ideal) j = 0 := Ideal.ofBits_zero_f32
theorem k2_pay2_apply (j : S512x1.Idx) : k2_pay2 (F := Ideal) j = 0 := Ideal.ofBits_zero_f32

-- Contracting the first axis of both operands into a zero accumulator gives, at (a, b), the sum over that axis of the products.
theorem dotT2_apply {k m n : ℕ} {φ₁ φ₂ : FTy}
    (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (a : Fin m) (b : Fin n) :
    matmul (⟨[0], [0], [1], [1], [], [], w⟩ : DotDims _ _ _) none A B (constant (F := Ideal) ⟨2, ![m, n]⟩ .f32 0x00000000#32) (ix2 a b)
      = ∑ c : Fin k, A (ix2 c a) * B (ix2 c b) := by
  show FloatOps.matmul _ none A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  congr 2
  · exact Shape.idx_ext₂ (by simp [DotDims.lhsIdx]; exact c2) (by simp [DotDims.lhsIdx]; rfl)
  · exact Shape.idx_ext₂ (by simp [DotDims.rhsIdx]; exact c2) (by simp [DotDims.rhsIdx]; rfl)

-- One step of the running sum at (g, d): column d of the block's rows whose segment is g, added up.
theorem k2_pay4_apply (bb : Vec Ideal S5000x1 .i32) (xb : Vec Ideal S5000x64 .f32) (a : Vec Ideal S512x64 .f32)
    (g : Fin 512) (d : Fin 64) :
    k2_pay4 (F := Ideal) bb xb a (ix2 g d)
      = a (ix2 g d) + ∑ r : Fin 5000, (if bb (ix2 r (0 : Fin 1)) = BitVec.ofNat 32 g.val then (1 : EReal) else 0) * xb (ix2 r d) := by
  unfold k2_pay4
  simp only [shapeCast_self, addf_apply]
  refine congrArg (a (ix2 g d) + ·) ((dotT2_apply _ _ _ g d).trans (Finset.sum_congr rfl fun r _ => ?_))
  rw [k2_pay3_apply]; rfl

-- One step of the running count at g: how many of the block's rows have segment g (the other factor is a column of ones).
theorem k2_pay5_apply (bb : Vec Ideal S5000x1 .i32) (a : Vec Ideal S512x1 .f32) (g : Fin 512) :
    k2_pay5 (F := Ideal) bb a (ix2 g (0 : Fin 1))
      = a (ix2 g (0 : Fin 1)) + ∑ r : Fin 5000, (if bb (ix2 r (0 : Fin 1)) = BitVec.ofNat 32 g.val then (1 : EReal) else 0) := by
  unfold k2_pay5
  simp only [shapeCast_self, addf_apply]
  refine congrArg (a (ix2 g (0 : Fin 1)) + ·) ((dotT2_apply _ _ _ g 0).trans (Finset.sum_congr rfl fun r _ => ?_))
  rw [k2_pay3_apply]
  exact (congrArg _ (IdealRules.sign_bit.ideal_onePat .bf16)).trans (mul_one _)

-- If A starts as block 0's sum of T and each step adds the next block's sum, after block 99 it is the sum of T over all rows: every row lies in exactly one block.
theorem sum_rows2 (T : Fin 500000 → EReal) (A : (n : ℕ) → n < 100 → EReal)
    (h0 : ∀ h, A 0 h = 0 + ∑ r : Fin 5000, T (row2 ⟨0, h⟩ r))
    (hs : ∀ n h, A (n + 1) h = A n (Nat.lt_of_succ_lt h) + ∑ r : Fin 5000, T (row2 ⟨n + 1, h⟩ r)) :
    A 99 (by decide) = ∑ p : Fin 500000, T p := by
  have key : ∀ n h, A n h = ∑ t : Fin (n + 1), ∑ r : Fin 5000, T (row2 ⟨t.val, by have := t.isLt; omega⟩ r) := by
    intro n
    induction n with
    | zero => intro h; rw [h0, zero_add, Fin.sum_univ_one]; rfl
    | succ n ih => intro h; rw [hs, ih, Fin.sum_univ_castSucc (n := n + 1)]; rfl
  rw [key, ← Fintype.sum_prod_type' (f := fun (t : Fin (99 + 1)) (r : Fin 5000) => T (row2 ⟨t.val, by have := t.isLt; omega⟩ r))]
  refine Fintype.sum_equiv (finProdFinEquiv.trans (finCongr (by norm_num))) _ _ fun p => ?_
  congr 1
  apply Fin.ext
  simp [finProdFinEquiv]
  omega

theorem S2_apply (x : Vec Ideal S500000x64 .f32) (b : Vec Ideal S500000x1 .i32) (g : Fin 512) (d : Fin 64) :
    S2 (F := Ideal) x b (ix2 g d) = ∑ n : Fin 500000, onehot b n g * x (ix2 n d) :=
  sum_rows2 (fun n => onehot b n g * x (ix2 n d)) (fun n h => S2acc x b n h (ix2 g d))
    (fun h => by rw [S2acc, k2_pay4_apply, k2_pay1_apply]; rfl) (fun n h => by rw [S2acc, k2_pay4_apply]; rfl)

theorem C2_apply (b : Vec Ideal S500000x1 .i32) (g : Fin 512) :
    C2 (F := Ideal) b (ix2 g (0 : Fin 1)) = ∑ n : Fin 500000, onehot b n g :=
  sum_rows2 (fun n => onehot b n g) (fun n h => C2acc b n h (ix2 g (0 : Fin 1)))
    (fun h => by rw [C2acc, k2_pay5_apply, k2_pay2_apply]; rfl) (fun n h => by rw [C2acc, k2_pay5_apply]; rfl)

end Cert.KernelIdeal.Gen

end
-- ==== Proof.KI.Value3.lean ====
import proofs.«420090_j3152505996138_1_alg».proof.Proof.KI.Region3
import proofs.«420090_j3152505996138_1_alg».proof.Proof.KI.OneHot
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

set_option maxRecDepth 16384

noncomputable section

namespace Cert.KernelIdeal.Gen

open Idealize.ShloMosaic Idealize.ShloMosaic.TcCoe
open Idealize.ShloMosaic.ValueIdx Idealize.ShloMosaic.StackMember
open Idealize.SL Idealize.SL.Sem
open Idealize.ShloMosaic.Pipeline (Dat Cfg Window)
open scoped BigOperators

variable {F : FTy → Type} [FloatOps F]

-- Block q of 5000 rows of an array with 500000 rows.
def rows3 {e : EltTy} {n : Nat} (X : Vec F ⟨2, ![500000, n]⟩ e) (q : Fin 100) : Vec F ⟨2, ![5000, n]⟩ e :=
  fun y => X (ix2 (⟨q.val * 5000 + (y 0).val, by have := idx2_lt0 y; have := q.isLt; omega⟩ : Fin 500000)
    (⟨(y 1).val, idx2_lt1 y⟩ : Fin n))

theorem rows3_apply {e : EltTy} {n : Nat} (X : Vec F ⟨2, ![500000, n]⟩ e) (q : Fin 100) (r : Fin 5000) (k : Fin n) :
    rows3 X q (ix2 r k) = X (ix2 (⟨q.val * 5000 + r.val, by have := q.isLt; have := r.isLt; omega⟩ : Fin 500000) k) := rfl

-- The region's output as one function of its five inputs: entry i is the payload of the block holding row i 0, read at that row's place in the block.
def G3 (xin : Vec F S500000x64 .f32) (b : Vec F S500000x1 .i32) (GW : Vec F S64x64 .f32) (gb : Vec F S1x64 .f32)
    (xm : Vec F S512x64 .f32) : Vec F S500000x64 .f32 :=
  fun i => k3_pay1 (rows3 b ⟨(i 0).val / 5000, by have := idx2_lt0 i; omega⟩) xm
    (rows3 xin ⟨(i 0).val / 5000, by have := idx2_lt0 i; omega⟩) GW gb
    (ix2 (⟨(i 0).val % 5000, Nat.mod_lt _ (by decide)⟩ : Fin 5000) (⟨(i 1).val, idx2_lt1 i⟩ : Fin 64))

-- At an index that sits in block q at place y, G3 is the payload of block q at y.
theorem G3_block (xin : Vec F S500000x64 .f32) (b : Vec F S500000x1 .i32) (GW : Vec F S64x64 .f32) (gb : Vec F S1x64 .f32)
    (xm : Vec F S512x64 .f32) (q : Fin 100) (y : S5000x64.Idx) (i : S500000x64.Idx)
    (h0 : (i 0).val = q.val * 5000 + (y 0).val) (h1 : (i 1).val = (y 1).val) :
    G3 xin b GW gb xm i = k3_pay1 (rows3 b q) xm (rows3 xin q) GW gb y := by
  have hy0 := idx2_lt0 y
  have hq : (⟨(i 0).val / 5000, by have := idx2_lt0 i; omega⟩ : Fin 100) = q := Fin.ext (by show (i 0).val / 5000 = q.val; omega)
  have hy : ix2 (⟨(i 0).val % 5000, Nat.mod_lt _ (by decide)⟩ : Fin 5000) (⟨(i 1).val, idx2_lt1 i⟩ : Fin 64) = y :=
    Shape.idx_ext₂ (by show (i 0).val % 5000 = (y 0).val; omega) h1
  unfold G3
  rw [hq, hy]

variable (V : (c : Dev nD) → (b : Ref sig .tc) → Buf (Elt F) ((c : Thread nD τ).loc b))

theorem rowIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0 :=
  (by decide +kernel : ∀ t : Fin grid3.N, _)

theorem wholeIdx3 : ∀ (t : Fin cfg3.N) (a : Fin 2), win3_2.index t a = 0 ∧ win3_3.index t a = 0 ∧ win3_4.index t a = 0 :=
  (by decide +kernel : ∀ t : Fin grid3.N, _)

-- What is left at point t is the payload on rows 5000 t .. 5000 t + 4999 of the two row arrays and on the three whole arrays.
theorem after3_eq (c : Dev nD) (t : Fin cfg3.N) :
    (dat3 V c).after 5 t = k3_pay1 (rows3 (V c (Pipeline.arrRef spec3 1)) (Fin.cast N_3 t)) (V c (Pipeline.arrRef spec3 4))
      (rows3 (V c (Pipeline.arrRef spec3 0)) (Fin.cast N_3 t)) (V c (Pipeline.arrRef spec3 2)) (V c (Pipeline.arrRef spec3 3)) := by
  rw [after3_5]
  unfold out3
  rw [View.canon_unit_zero hz3]
  simp only [View.ld_unit_zero (S := S5000x64) hz3, View.ld_unit_zero (S := S5000x1) hz3, View.ld_unit_zero (S := S64x64) hz3,
    View.ld_unit_zero (S := S1x64) hz3, View.ld_unit_zero (S := S512x64) hz3]
  congr 1
  · exact funext fun y => congrArg (V c (Pipeline.arrRef spec3 1)) (Shape.idx_ext₂ ((win3_1.rect_emb_val t y 0).trans (by rw [(rowIdx3 t).2.2.1]; rfl))
      (win3_1.rect_emb_val_of_index_zero t 1 (rowIdx3 t).2.2.2.1 y))
  · exact funext fun y => congrArg (V c (Pipeline.arrRef spec3 4)) (funext fun a => Fin.ext (win3_4.rect_emb_val_of_index_zero t a (wholeIdx3 t a).2.2 y))
  · exact funext fun y => congrArg (V c (Pipeline.arrRef spec3 0)) (Shape.idx_ext₂ ((win3_0.rect_emb_val t y 0).trans (by rw [(rowIdx3 t).1]; rfl))
      (win3_0.rect_emb_val_of_index_zero t 1 (rowIdx3 t).2.1 y))
  · exact funext fun y => congrArg (V c (Pipeline.arrRef spec3 2)) (funext fun a => Fin.ext (win3_2.rect_emb_val_of_index_zero t a (wholeIdx3 t a).1 y))
  · exact funext fun y => congrArg (V c (Pipeline.arrRef spec3 3)) (funext fun a => Fin.ext (win3_3.rect_emb_val_of_index_zero t a (wholeIdx3 t a).2.1 y))

-- Entry y of the output's block at point t sits in the array at row 5000 t + (row of y), in y's column.
theorem emb3 (t : Fin cfg3.N) (y : S5000x64.Idx) :
    ((win3_5.rect t).emb y (0 : Fin 2) : ℕ) = t.val * 5000 + (y 0).val ∧ ((win3_5.rect t).emb y (1 : Fin 2) : ℕ) = (y 1).val :=
  ⟨(win3_5.rect_emb_val t y 0).trans (by rw [(rowIdx3 t).2.2.2.2.1]; rfl),
    win3_5.rect_emb_val_of_index_zero t 1 (rowIdx3 t).2.2.2.2.2 y⟩

-- Point t's block of the output is block t of G3, and the 100 blocks cover the rows: row r lies in block r / 5000.
theorem final3 (c : Dev nD) : (dat3 V c).arrAt 5 cfg3.N
    = G3 (V c (Pipeline.arrRef spec3 0)) (V c (Pipeline.arrRef spec3 1)) (V c (Pipeline.arrRef spec3 2))
        (V c (Pipeline.arrRef spec3 3)) (V c (Pipeline.arrRef spec3 4)) := by
  refine (dat3 V c).arrAt_eq_of_cover 5 _ (fun t _ => ?_) fun (i : S500000x64.Idx) => ?_
  · show (cfg3.win 5).cut (grid3.coords t) ((dat3 V c).after 5 t) = _
    rw [after3_eq]
    exact funext fun y => (G3_block _ _ _ _ _ (Fin.cast N_3 t) y _ (emb3 t y).1 (emb3 t y).2).symm
  · have hi := idx2_lt0 i
    let t : Fin cfg3.N := Fin.cast N_3.symm ⟨(i 0).val / 5000, by omega⟩
    let y : S5000x64.Idx := ix2 (⟨(i 0).val % 5000, Nat.mod_lt _ (by omega)⟩ : Fin 5000) (i 1 : Fin 64)
    have h := ((cfg3.win 5).blk t).view.emb_mem_set y
    rw [show ((cfg3.win 5).blk t).view.emb y = i from
      Shape.idx_ext₂ ((emb3 t y).1.trans (Nat.div_add_mod' _ _)) (emb3 t y).2] at h
    exact ⟨t, flush3_5 t, h⟩

theorem cmpi_apply3 {s : Shape} {w : Nat} (p : CmpIPredicate) (x y : IVec s w) (i : s.Idx) :
    cmpi p x y i = IntOp.cmpi p (x i) (y i) := rfl

theorem bcast3_apply {α : Type} (v : S5000x1.Idx → α) (h : S5000x1.Broadcasts S5000x512) (p : Fin 5000) (c : Fin 512) :
    broadcastTo S5000x512 v h (ix2 p c) = v (ix2 p (0 : Fin 1)) :=
  broadcastTo_apply v h (ix2 p c) (ix2 p (0 : Fin 1)) fun a => by fin_cases a <;> simp

theorem dotX3_apply {φ₁ φ₂ : FTy} (A : FVec Ideal S5000x64 φ₁) (B : FVec Ideal S64x64 φ₂) (r : Fin 5000) (j : Fin 64) :
    matmul dot_S5000x64_S64x64_S5000x64_1_0_0_1_n_n none A B (constant (F := Ideal) S5000x64 .f32 0x00000000#32) (ix2 r j)
      = ∑ k : Fin 64, A (ix2 r k) * B (ix2 k j) := by
  rw [matmul_zero_eq_dotGeneral]
  exact dotGeneral_plain_apply (m := 5000) (n := 64) (k := 64) none A B r j

theorem dotM3_apply {φ₁ φ₂ : FTy} (A : FVec Ideal S5000x512 φ₁) (B : FVec Ideal S512x64 φ₂) (r : Fin 5000) (j : Fin 64) :
    matmul dot_S5000x512_S512x64_S5000x64_1_0_0_1_n_n none A B (constant (F := Ideal) S5000x64 .f32 0x00000000#32) (ix2 r j)
      = ∑ q : Fin 512, A (ix2 r q) * B (ix2 q j) := by
  rw [matmul_zero_eq_dotGeneral]
  exact dotGeneral_plain_apply (m := 5000) (n := 64) (k := 512) none A B r j

-- The payload at (r, j): rows times weights plus bias, minus the one-hot row of the segment numbers times the table, clamped at 0 from below.
theorem k3_pay1_apply (B : Vec Ideal S5000x1 .i32) (M : Vec Ideal S512x64 .f32) (X : Vec Ideal S5000x64 .f32)
    (W : Vec Ideal S64x64 .f32) (g : Vec Ideal S1x64 .f32) (r : Fin 5000) (j : Fin 64) :
    k3_pay1 B M X W g (ix2 r j)
      = max (((∑ k : Fin 64, X (ix2 r k) * W (ix2 k j)) + g (ix2 (0 : Fin 1) j))
          - (∑ q : Fin 512, (if B (ix2 r (0 : Fin 1)) = BitVec.ofNat 32 q.val then (1 : EReal) else 0) * M (ix2 q j))) 0 := by
  unfold k3_pay1
  simp only [maximumf_apply, subf_apply, addf_apply, broadcast_apply, dotX3_apply, dotM3_apply, truncf_apply,
    shapeCast_self, broadcastTo_1b_ab_apply, sitofp_apply, extui_apply, cmpi_apply3, bcast3_apply,
    sitofp_cmpi_eq]
  have hi : ∀ q : Fin 512, iota .tc S5000x512 32 [1] iota_S5000x512_d1_w32 (ix2 r q) = BitVec.ofNat 32 q.val :=
    fun q => iota_single_apply .tc S5000x512 32 (1 : Fin 2) _ (ix2 r q)
  simp only [hi]
  rw [show FloatOps.ofBits (F := Ideal) .f32 0#32 = 0 from Ideal.ofBits_zero_f32]

-- The same at a row p of the whole array: p's block and its place in the block recombine to p.
theorem G3_apply (xin : Vec Ideal S500000x64 .f32) (b : Vec Ideal S500000x1 .i32) (GW : Vec Ideal S64x64 .f32)
    (gb : Vec Ideal S1x64 .f32) (xm : Vec Ideal S512x64 .f32) (p : Fin 500000) (j : Fin 64) :
    G3 xin b GW gb xm (ix2 p j)
      = max (((∑ k : Fin 64, xin (ix2 p k) * GW (ix2 k j)) + gb (ix2 (0 : Fin 1) j))
          - (∑ g : Fin 512, onehot b p g * xm (ix2 g j))) 0 := by
  have hp := p.isLt
  have hrow : (⟨p.val / 5000 * 5000 + p.val % 5000, by omega⟩ : Fin 500000) = p := Fin.ext (by show p.val / 5000 * 5000 + p.val % 5000 = p.val; omega)
  rw [G3_block xin b GW gb xm ⟨p.val / 5000, by omega⟩ (ix2 (⟨p.val % 5000, Nat.mod_lt _ (by decide)⟩ : Fin 5000) j) (ix2 p j)
    (by show p.val = p.val / 5000 * 5000 + p.val % 5000; omega) rfl]
  rw [k3_pay1_apply]
  simp only [rows3_apply, hrow]
  rfl

end Cert.KernelIdeal.Gen

end
-- ==== Proof.LibBridgeAlgebra.lean ====
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Algebra.BigOperators.Group.Finset.Basic
import Mathlib.Algebra.BigOperators.Group.Finset.Piecewise
import Mathlib.Algebra.BigOperators.Ring.Finset
import Mathlib.Tactic.FieldSimp
import Mathlib.Tactic.Ring
import Mathlib.Tactic.NormNum.Basic
import Mathlib.Tactic.Positivity

open scoped BigOperators

namespace BridgeAlgebra

open Idealize.ShloMosaic

-- A sum whose terms are coercions of reals is the coercion of the real sum.
theorem sum_eq_coe {ι : Type*} {s : Finset ι} {f : ι → EReal} {g : ι → ℝ} (h : ∀ i ∈ s, f i = (g i : EReal)) :
    ∑ i ∈ s, f i = ((∑ i ∈ s, g i : ℝ) : EReal) := by
  classical
  induction s using Finset.induction_on with
  | empty => simp
  | insert a s ha ih =>
    rw [Finset.sum_insert ha, Finset.sum_insert ha, EReal.coe_add, h a (Finset.mem_insert_self a s),
      ih fun i hi => h i (Finset.mem_insert_of_mem hi)]

theorem div_coe_coe (a : ℝ) {b : ℝ} (hb : b ≠ 0) : Ideal.div (a : EReal) (b : EReal) = ((a / b : ℝ) : EReal) := by
  rw [Ideal.div_coe hb, ← EReal.coe_mul, mul_one_div]

-- Over N real entries with sum S, the mean squared deviation from S/N is the mean square minus (S/N)².
theorem var_centred_real {ι : Type*} (s : Finset ι) (h : ι → ℝ) (N : ℝ) (hN : N ≠ 0) (hcard : (s.card : ℝ) = N) :
    (∑ i ∈ s, (h i - (∑ i ∈ s, h i) / N) * (h i - (∑ i ∈ s, h i) / N)) / N
      = (∑ i ∈ s, h i * h i) / N - (∑ i ∈ s, h i) / N * ((∑ i ∈ s, h i) / N) := by
  have e : ∀ m : ℝ, ∑ i ∈ s, (h i - m) * (h i - m) = ∑ i ∈ s, h i * h i - 2 * m * ∑ i ∈ s, h i + N * (m * m) := fun m => by
    rw [← hcard, ← nsmul_eq_mul s.card, ← Finset.sum_const, Finset.mul_sum, ← Finset.sum_sub_distrib, ← Finset.sum_add_distrib]
    exact Finset.sum_congr rfl fun i _ => by ring
  rw [e]
  field_simp
  ring

-- The same for an extended-real family that is real on s: every sum and quotient is the coercion of the real one.
theorem var_centred_of_real {ι : Type*} (s : Finset ι) (x : ι → EReal) (hx : ∀ i ∈ s, ∃ r : ℝ, x i = (r : EReal))
    (N : ℝ) (hN : N ≠ 0) (hcard : (s.card : ℝ) = N) :
    Ideal.div (∑ i ∈ s, (x i - Ideal.div (∑ i ∈ s, x i) (N : EReal)) * (x i - Ideal.div (∑ i ∈ s, x i) (N : EReal))) (N : EReal)
      = Ideal.div (∑ i ∈ s, x i * x i) (N : EReal)
        - Ideal.div (∑ i ∈ s, x i) (N : EReal) * Ideal.div (∑ i ∈ s, x i) (N : EReal) := by
  choose! h hh using hx
  have e1 : ∑ i ∈ s, x i = ((∑ i ∈ s, h i : ℝ) : EReal) := sum_eq_coe hh
  have e2 : ∑ i ∈ s, x i * x i = ((∑ i ∈ s, h i * h i : ℝ) : EReal) :=
    sum_eq_coe fun i hi => by rw [hh i hi, EReal.coe_mul]
  rw [e1, e2, div_coe_coe _ hN]
  have e3 : ∑ i ∈ s, (x i - (((∑ i ∈ s, h i) / N : ℝ) : EReal)) * (x i - (((∑ i ∈ s, h i) / N : ℝ) : EReal))
      = ((∑ i ∈ s, (h i - (∑ i ∈ s, h i) / N) * (h i - (∑ i ∈ s, h i) / N) : ℝ) : EReal) :=
    sum_eq_coe fun i hi => by rw [hh i hi, EReal.coe_mul, EReal.coe_sub]
  rw [e3, div_coe_coe _ hN, div_coe_coe _ hN, ← EReal.coe_mul, ← EReal.coe_sub, var_centred_real s h N hN hcard]

theorem cmp_ogt_coe_pos {N : ℝ} (hN : 0 < N) : Ideal.cmp .ogt ((N : ℝ) : EReal) 0 = 1#1 := by
  have h : (0 : EReal) < ((N : ℝ) : EReal) := EReal.coe_pos.2 hN
  simp [Ideal.cmp, h]

-- Against a family that is 1 at g₀ and 0 elsewhere a sum keeps its term at g₀, infinite entries included: 0 · f g = 0.
theorem sum_onehot_mul_of {ι : Type*} [Fintype ι] [DecidableEq ι] (g₀ : ι) (oh f : ι → EReal)
    (hoh : ∀ g, oh g = if g = g₀ then 1 else 0) : ∑ g, oh g * f g = f g₀ := by
  rw [Finset.sum_eq_single_of_mem g₀ (Finset.mem_univ _) fun g _ hne => by rw [hoh, if_neg hne, zero_mul],
    hoh, if_pos rfl, one_mul]

theorem sum_indicator_mul {ι κ : Type*} [DecidableEq κ] (s : Finset ι) (k : ι → κ) (g : κ) (x : ι → EReal) :
    ∑ n ∈ s, (if k n = g then (1 : EReal) else 0) * x n = ∑ n ∈ s, if k n = g then x n else 0 :=
  Finset.sum_congr rfl fun n _ => by rw [ite_mul, one_mul, zero_mul]

theorem ofBits_5e5_f32 : Ideal.ofBits .f32 0x48F42400#32 = ((500000 : ℝ) : EReal) := by
  simp [Ideal.ofBits, Ideal.ieee, -EReal.coe_mul]; norm_num
theorem ofBits_one_f32 : Ideal.ofBits .f32 0x3F800000#32 = ((1 : ℝ) : EReal) := by
  simp [Ideal.ofBits, Ideal.ieee, -EReal.coe_mul, -EReal.coe_one]; norm_num
theorem ofBits_zero_f32 : Ideal.ofBits .f32 0x00000000#32 = 0 := Ideal.ofBits_zero_f32

theorem sitofp_zero_i32 : FloatOps.sitofp (F := Ideal) .f32 (0#32 : BitVec 32) = (0 : EReal) := by
  show (((0#32 : BitVec 32).toInt : ℝ) : EReal) = 0
  simp

end BridgeAlgebra
-- ==== Proof.KI.Host356.lean ====
import proofs.«420090_j3152505996138_1_alg».proof.Proof.Gen.KernelIdeal.Launch
import proofs.«420090_j3152505996138_1_alg».proof.Proof.Spec
import proofs.«420090_j3152505996138_1_alg».proof.Proof.LibBridgeAlgebra
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Idealize.ShloMosaic.Lib.StackMember

noncomputable section

namespace Cert.KernelIdeal.Gen

open Idealize.ShloMosaic Idealize.ShloMosaic.TcCoe Idealize.ShloMosaic.ValueIdx
open scoped BigOperators

theorem bcast_col_apply {α : Type} {A B : ℕ}
    (h : (⟨2, ![A, 1]⟩ : Shape).BroadcastsInDim ⟨2, ![A, B]⟩ (![0, 1] : Fin 2 → Fin 2))
    (v : (⟨2, ![A, 1]⟩ : Shape).Idx → α) (g : Fin A) (k : Fin B) :
    broadcastInDim ⟨2, ![A, B]⟩ ![0, 1] h v (ix2 g k) = v (ix2 g (0 : Fin 1)) :=
  broadcastInDim_apply _ h v _ _ fun a => by
    match a with
    | ⟨0, _⟩ =>
      show g.val = if A = 1 then 0 else g.val
      split_ifs with h1
      · have := g.isLt; omega
      · rfl
    | ⟨1, _⟩ => rfl

-- Sums divided row by row by max(count, 1), then multiplied into W: a plain matrix product read at an entry.
theorem segmean_dot_apply {A K E : ℕ}
    (hb1 : (⟨0, ![]⟩ : Shape).BroadcastsInDim ⟨2, ![A, 1]⟩ (![] : Fin 0 → Fin 2))
    (hb2 : (⟨2, ![A, 1]⟩ : Shape).BroadcastsInDim ⟨2, ![A, K]⟩ (![0, 1] : Fin 2 → Fin 2))
    (Sm : FVec Ideal ⟨2, ![A, K]⟩ .f32) (Cn : FVec Ideal ⟨2, ![A, 1]⟩ .f32) (W : FVec Ideal ⟨2, ![K, E]⟩ .f32)
    (g : Fin A) (j : Fin E) :
    Host.dotGeneral (F := Ideal) (DotDims.plain A K E) none
        (Host.divf Sm (broadcastInDim ⟨2, ![A, K]⟩ ![0, 1] hb2
          (maximumf Cn (broadcastInDim ⟨2, ![A, 1]⟩ ![] hb1 (constant (F := Ideal) ⟨0, ![]⟩ .f32 0x3F800000#32))))) W (ix2 g j)
      = ∑ k : Fin K, Ideal.div (Sm (ix2 g k)) (max (Cn (ix2 g (0 : Fin 1))) 1) * W (ix2 k j) := by
  rw [StackMember.dotGeneral_plain_apply]
  refine Finset.sum_congr rfl fun k _ => ?_
  congr 1
  refine congrArg (Ideal.div (Sm (ix2 g k))) ?_
  rw [bcast_col_apply]
  show max (Cn (ix2 g (0 : Fin 1))) (Ideal.ofBits .f32 0x3F800000#32) = _
  rw [BridgeAlgebra.ofBits_one_f32, EReal.coe_one]

theorem host3_v23 (U : Valuation τ sig (Elt Ideal)) (S : Spec.M 512 64) (C : Fin 512 → EReal)
    (hS : ∀ g k, (U (main_v18_0 : DevRef τ sig) : Vec Ideal S512x64 .f32) (ix2 g k) = S g k)
    (hC : ∀ g, (U (main_v18_1 : DevRef τ sig) : Vec Ideal S512x1 .f32) (ix2 g (0 : Fin 1)) = C g)
    (g : Fin 512) (j : Fin 64) :
    (StableHlo.after hostOps3 U (main_v23 : DevRef τ sig) : Vec Ideal S512x64 .f32) (ix2 g j)
      = ∑ k : Fin 64, Ideal.div (S g k) (max (C g) 1) * (U (main_arg9 : DevRef τ sig) : Vec Ideal S64x64 .f32) (ix2 k j) := by
  dsimp only [hostOps3]
  open StableHlo in after_results
  refine (segmean_dot_apply (A := 512) (K := 64) (E := 64) bcast_S_S512x1 bcast_S512x1_S512x64_0_1 (U (main_v18_0 : DevRef τ sig)) (U (main_v18_1 : DevRef τ sig))
    (U (main_arg9 : DevRef τ sig)) g j).trans ?_
  exact Finset.sum_congr rfl fun k _ => by rw [hS, hC]

theorem host3_v24 (U : Valuation τ sig (Elt Ideal)) (j : Fin 64) :
    (StableHlo.after hostOps3 U (main_v24 : DevRef τ sig) : Vec Ideal S1x64 .f32) (ix2 (0 : Fin 1) j)
      = (U (main_arg8 : DevRef τ sig) : Vec Ideal S64 .f32) (ix1 j) := by
  dsimp only [hostOps3]
  open StableHlo in after_results
  exact shapeCast_a_1a_apply (a := 64) (U (main_arg8 : DevRef τ sig)) shapeCasts_S64_S1x64 0 j

theorem host5_v31 (U : Valuation τ sig (Elt Ideal)) (S : Spec.M 512 64) (C : Fin 512 → EReal)
    (hS : ∀ g k, (U (main_v26_0 : DevRef τ sig) : Vec Ideal S512x64 .f32) (ix2 g k) = S g k)
    (hC : ∀ g, (U (main_v26_1 : DevRef τ sig) : Vec Ideal S512x1 .f32) (ix2 g (0 : Fin 1)) = C g)
    (g : Fin 512) (j : Fin 128) :
    (StableHlo.after hostOps5 U (main_v31 : DevRef τ sig) : Vec Ideal S512x128 .f32) (ix2 g j)
      = ∑ k : Fin 64, Ideal.div (S g k) (max (C g) 1) * (U (main_arg12 : DevRef τ sig) : Vec Ideal S64x128 .f32) (ix2 k j) := by
  dsimp only [hostOps5]
  open StableHlo in after_results
  refine (segmean_dot_apply (A := 512) (K := 64) (E := 128) bcast_S_S512x1 bcast_S512x1_S512x64_0_1 (U (main_v26_0 : DevRef τ sig)) (U (main_v26_1 : DevRef τ sig))
    (U (main_arg12 : DevRef τ sig)) g j).trans ?_
  exact Finset.sum_congr rfl fun k _ => by rw [hS, hC]

theorem host5_v32 (U : Valuation τ sig (Elt Ideal)) (j : Fin 128) :
    (StableHlo.after hostOps5 U (main_v32 : DevRef τ sig) : Vec Ideal S1x128 .f32) (ix2 (0 : Fin 1) j)
      = (U (main_arg11 : DevRef τ sig) : Vec Ideal S128 .f32) (ix1 j) := by
  dsimp only [hostOps5]
  open StableHlo in after_results
  exact shapeCast_a_1a_apply (a := 128) (U (main_arg11 : DevRef τ sig)) shapeCasts_S128_S1x128 0 j

theorem host6_v35 (U : Valuation τ sig (Elt Ideal)) (s1 : Fin 128 → EReal)
    (h1 : ∀ j, (U (main_v33_1 : DevRef τ sig) : Vec Ideal S1x128 .f32) (ix2 (0 : Fin 1) j) = s1 j) (j : Fin 128) :
    (StableHlo.after hostOps6 U (main_v35 : DevRef τ sig) : Vec Ideal S1x128 .f32) (ix2 (0 : Fin 1) j)
      = Ideal.div (s1 j) Spec.nNodes := by
  dsimp only [hostOps6]
  open StableHlo in after_results
  show Ideal.div ((U (main_v33_1 : DevRef τ sig) : Vec Ideal S1x128 .f32) (ix2 (0 : Fin 1) j))
    (Ideal.ofBits .f32 0x48F42400#32) = _
  rw [BridgeAlgebra.ofBits_5e5_f32, h1]
  rfl

theorem host6_v39 (U : Valuation τ sig (Elt Ideal)) (s1 s2 : Fin 128 → EReal)
    (h1 : ∀ j, (U (main_v33_1 : DevRef τ sig) : Vec Ideal S1x128 .f32) (ix2 (0 : Fin 1) j) = s1 j)
    (h2 : ∀ j, (U (main_v33_2 : DevRef τ sig) : Vec Ideal S1x128 .f32) (ix2 (0 : Fin 1) j) = s2 j) (j : Fin 128) :
    (StableHlo.after hostOps6 U (main_v39 : DevRef τ sig) : Vec Ideal S1x128 .f32) (ix2 (0 : Fin 1) j)
      = Ideal.div (s2 j) Spec.nNodes - Ideal.div (s1 j) Spec.nNodes * Ideal.div (s1 j) Spec.nNodes := by
  dsimp only [hostOps6]
  open StableHlo in after_results
  show Ideal.div ((U (main_v33_2 : DevRef τ sig) : Vec Ideal S1x128 .f32) (ix2 (0 : Fin 1) j)) (Ideal.ofBits .f32 0x48F42400#32)
      - Ideal.div ((U (main_v33_1 : DevRef τ sig) : Vec Ideal S1x128 .f32) (ix2 (0 : Fin 1) j)) (Ideal.ofBits .f32 0x48F42400#32)
        * Ideal.div ((U (main_v33_1 : DevRef τ sig) : Vec Ideal S1x128 .f32) (ix2 (0 : Fin 1) j)) (Ideal.ofBits .f32 0x48F42400#32) = _
  rw [BridgeAlgebra.ofBits_5e5_f32, h1, h2]
  rfl

theorem host6_v40 (U : Valuation τ sig (Elt Ideal)) (j : Fin 128) :
    (StableHlo.after hostOps6 U (main_v40 : DevRef τ sig) : Vec Ideal S1x128 .f32) (ix2 (0 : Fin 1) j)
      = (U (main_arg13 : DevRef τ sig) : Vec Ideal S128 .f32) (ix1 j) := by
  dsimp only [hostOps6]
  open StableHlo in after_results
  exact shapeCast_a_1a_apply (a := 128) (U (main_arg13 : DevRef τ sig)) shapeCasts_S128_S1x128 0 j

theorem host6_v41 (U : Valuation τ sig (Elt Ideal)) (j : Fin 128) :
    (StableHlo.after hostOps6 U (main_v41 : DevRef τ sig) : Vec Ideal S1x128 .f32) (ix2 (0 : Fin 1) j)
      = (U (main_arg14 : DevRef τ sig) : Vec Ideal S128 .f32) (ix1 j) := by
  dsimp only [hostOps6]
  open StableHlo in after_results
  exact shapeCast_a_1a_apply (a := 128) (U (main_arg14 : DevRef τ sig)) shapeCasts_S128_S1x128 0 j

end Cert.KernelIdeal.Gen

end
-- ==== Proof.KI.KernelValueB.lean ====
import proofs.«420090_j3152505996138_1_alg».proof.Proof.KI.Assemble
import proofs.«420090_j3152505996138_1_alg».proof.Proof.KI.Inputs
import proofs.«420090_j3152505996138_1_alg».proof.Proof.KI.Value2
import proofs.«420090_j3152505996138_1_alg».proof.Proof.KI.Value3
import proofs.«420090_j3152505996138_1_alg».proof.Proof.KI.Host356
import proofs.«420090_j3152505996138_1_alg».proof.Proof.KI.Host0
import proofs.«420090_j3152505996138_1_alg».proof.Proof.KI.OneHot
import proofs.«420090_j3152505996138_1_alg».proof.Proof.Spec
import proofs.«420090_j3152505996138_1_alg».proof.Proof.LibBridgeAlgebra
import Mathlib.Tactic.SplitIfs

set_option maxRecDepth 16384

noncomputable section

namespace Cert.KernelIdeal.Gen

open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

theorem rowOf_eq_iff (w : BitVec 32) (h0 : 0 ≤ w.toInt) (h1 : w.toInt < 512) (g : Fin 512) :
    Spec.rowOf 512 w = g ↔ w = BitVec.ofNat 32 g.val := by
  have hlt : w.toNat < 2 ^ 32 := w.isLt
  have hN : w.toInt = (w.toNat : ℤ) := by
    rw [BitVec.toInt_eq_toNat_cond] at h0 ⊢
    split_ifs at h0 ⊢ with h
    · rfl
    · omega
  have hw : w.toNat < 512 := by omega
  have hg := g.isLt
  have hrow : (Spec.rowOf 512 w).val = w.toNat := by
    unfold Spec.rowOf
    rw [if_neg (by omega), hN, Int.toNat_natCast, Fin.val_ofNat]
    exact Nat.mod_eq_of_lt hw
  rw [Fin.ext_iff, hrow, ← BitVec.toNat_inj, BitVec.toNat_ofNat, Nat.mod_eq_of_lt (by omega)]

-- A buffer that nothing from call 0 to the host operations before call 3 writes holds, at each stage from call 1 on, what the first host operations left.
theorem kvb_early (c : Dev nD) (r : Ref sig .tc) {z : (Proc.devRef .tc r : DevRef τ sig).ty.Contents (Elt Ideal)} (hz : V1 m c r = z)
    (h : r ∉ ([main_v3] : List (Ref sig .tc)) ∧ r ∉ hostOps1_W ∧ r ∉ hostOps1_1_W ∧ r ∉ hostOps1_2_W ∧ r ∉ hostOps1_3_W
      ∧ r ∉ hostOps1_4_W ∧ r ∉ hostOps1_5_W ∧ r ∉ ([main_v17] : List (Ref sig .tc))
      ∧ r ∉ ([main_v18_0, main_v18_1] : List (Ref sig .tc)) ∧ r ∉ hostOps3_W) :
    W9 m c r = z ∧ W10 m c r = z ∧ W11 m c r = z := by
  obtain ⟨h2, h3, h4, h5, h6, h7, h8, h9, h10, h11⟩ := h
  subst hz
  rw [← V9_eq m c, ← V10_eq m c, ← V11_eq m c, V11_of m (outs m) c r h11, V10_of m (outs m) c r h10, V9_of m (outs m) c r h9,
    V8_of m (outs m) c r h8, V7_of m (outs m) c r h7, V6_of m (outs m) c r h6, V5_of m (outs m) c r h5, V4_of m (outs m) c r h4,
    V3_of m (outs m) c r h3, V2_of m (outs m) c r h2]
  exact ⟨rfl, rfl, rfl⟩

theorem W9_label (c : Dev nD) (n : Fin 500000) :
    (W9 m c main_v0 : Vec Ideal S500000x1 .i32) (ix2 n (0 : Fin 1))
      = (m ((c.tc : Thread nD τ).loc main_arg16) : Vec Ideal S500000 .i32) (ix1 n) :=
  (congrFun (kvb_early m c main_v0 rfl (by decide)).1 (ix2 n (0 : Fin 1))).trans (host0_v0 (V0 m c) n)

theorem onehot_bt (c : Dev nD) (hR : InRange m c) (n : Fin 500000) (g : Fin 512) :
    onehot (W9 m c main_v0 : Vec Ideal S500000x1 .i32) n g = if bt m c n = g then 1 else 0 := by
  have hr := hR.graph (ix1 n)
  unfold onehot
  rw [W9_label m c n]
  exact if_congr (rowOf_eq_iff _ hr.1 hr.2 g).symm rfl rfl

section
variable (c : Dev nD) (x0 : Spec.M 500000 64)
  (hx0 : ∀ p j, (W9 m c main_v17 : Vec Ideal S500000x64 .f32) (ix2 p j) = x0 p j) (hR : InRange m c)
include hx0 hR

theorem kv_seg1 (g : Fin 512) (k : Fin 64) :
    (W10 m c main_v18_0 : Vec Ideal S512x64 .f32) (ix2 g k) = Spec.segsum x0 (bt m c) g k := by
  unfold W10
  rw [Function.update_of_ne (dne (by decide)), Function.update_self]
  refine (congrFun (final2_sums (tcv (W9 m)) c) (ix2 g k)).trans ((S2_apply (W9 m c main_v17) (W9 m c main_v0) g k).trans ?_)
  unfold Spec.segsum
  refine (Finset.sum_congr rfl fun n _ => ?_).trans (BridgeAlgebra.sum_indicator_mul Finset.univ (bt m c) g (fun n => x0 n k))
  rw [onehot_bt m c hR n g, hx0 n k]

theorem kv_cnt1 (g : Fin 512) :
    (W10 m c main_v18_1 : Vec Ideal S512x1 .f32) (ix2 g (0 : Fin 1)) = Spec.cnt (bt m c) g := by
  unfold W10
  rw [Function.update_self]
  unfold o18_1
  rw [final2_cnt (tcv (W9 m)) c, C2_apply]
  show (_ : EReal) = _
  unfold Spec.cnt
  exact Finset.sum_congr rfl fun n _ => onehot_bt m c hR n g

theorem kv_gmean1 (g : Fin 512) (j : Fin 64) :
    (W11 m c main_v23 : Vec Ideal S512x64 .f32) (ix2 g j) = Spec.gmean x0 (bt m c) (vl1W m c) g j := by
  refine (host3_v23 (W10 m c) (Spec.segsum x0 (bt m c)) (Spec.cnt (bt m c)) (fun g k => kv_seg1 m c x0 hx0 hR g k)
    (fun g => kv_cnt1 m c x0 hx0 hR g) g j).trans ?_
  have eL : ∀ k : Fin 64, (W10 m c main_arg9 : Vec Ideal S64x64 .f32) (ix2 k j) = vl1W m c k j := fun k =>
    congrFun (kvb_early m c main_arg9 (V1_of m c main_arg9 (by decide)) (by decide)).2.1 (ix2 k j)
  show (_ : EReal) = _
  unfold Spec.gmean
  exact Finset.sum_congr rfl fun k _ => by rw [eL k]

end

theorem kv_out1 (c : Dev nD) (x0 : Spec.M 500000 64)
    (hx0 : ∀ p j, (W9 m c main_v17 : Vec Ideal S500000x64 .f32) (ix2 p j) = x0 p j) (hR : InRange m c) (p : Fin 500000) (j : Fin 64) :
    (W12 m c main_v25 : Vec Ideal S500000x64 .f32) (ix2 p j)
      = Spec.relu (Spec.round x0 (bt m c) (vg1W m c) (vg1b m c) (vl1W m c)) p j := by
  have h12 : W12 m c main_v25 = o25 m c := by
    unfold W12
    rw [Function.update_self]
  have hfin : o25 m c = G3 (W11 m c main_v17) (W11 m c main_v0) (W11 m c main_arg7) (W11 m c main_v24) (W11 m c main_v23) :=
    final3 (tcv (W11 m)) c
  refine (congrFun (h12.trans hfin) (ix2 p j)).trans ?_
  refine (G3_apply (W11 m c main_v17) (W11 m c main_v0) (W11 m c main_arg7) (W11 m c main_v24) (W11 m c main_v23) p j).trans ?_
  have e17 : W11 m c main_v17 = W9 m c main_v17 := by
    rw [← V11_eq m c, ← V9_eq m c, V11_of m (outs m) c main_v17 (by decide), V10_of m (outs m) c main_v17 (by decide)]
  have ex : ∀ k : Fin 64, (W11 m c main_v17 : Vec Ideal S500000x64 .f32) (ix2 p k) = x0 p k := fun k =>
    (congrFun e17 (ix2 p k)).trans (hx0 p k)
  have eW : ∀ k : Fin 64, (W11 m c main_arg7 : Vec Ideal S64x64 .f32) (ix2 k j) = vg1W m c k j := fun k =>
    congrFun (kvb_early m c main_arg7 (V1_of m c main_arg7 (by decide)) (by decide)).2.2 (ix2 k j)
  have hb : (W11 m c main_v24 : Vec Ideal S1x64 .f32) (ix2 (0 : Fin 1) j) = vg1b m c j :=
    (host3_v24 (W10 m c) j).trans (congrFun (kvb_early m c main_arg8 (V1_of m c main_arg8 (by decide)) (by decide)).2.1 (ix1 j))
  have hm : (∑ g : Fin 512, onehot (W11 m c main_v0 : Vec Ideal S500000x1 .i32) p g * (W11 m c main_v23 : Vec Ideal S512x64 .f32) (ix2 g j))
      = Spec.gmean x0 (bt m c) (vl1W m c) (bt m c p) j :=
    (BridgeAlgebra.sum_onehot_mul_of (bt m c p) (fun g => onehot (W11 m c main_v0 : Vec Ideal S500000x1 .i32) p g)
      (fun g => (W11 m c main_v23 : Vec Ideal S512x64 .f32) (ix2 g j)) fun g => by
      show onehot (W11 m c main_v0 : Vec Ideal S500000x1 .i32) p g = _
      rw [(kvb_early m c main_v0 rfl (by decide)).2.2, ← (kvb_early m c main_v0 rfl (by decide)).1, onehot_bt m c hR p g]
      exact if_congr eq_comm rfl rfl).trans (kv_gmean1 m c x0 hx0 hR (bt m c p) j)
  rw [hm, hb, Finset.sum_congr rfl fun k _ => by rw [ex k, eW k]]
  rfl

end Cert.KernelIdeal.Gen

end
-- ==== Proof.KI.Value4.lean ====
import proofs.«420090_j3152505996138_1_alg».proof.Proof.KI.Region4
import proofs.«420090_j3152505996138_1_alg».proof.Proof.KI.OneHot
import Idealize.ShloMosaic.Lib.ValueIdx
import Idealize.ShloMosaic.Lib.Pipeline.Value
import Idealize.ShloMosaic.PureOps.Ideal
import Idealize.ShloMosaic.PureOps.Ideal.Laws

set_option maxRecDepth 16384

noncomputable section

namespace Cert.KernelIdeal.Gen

open Idealize.ShloMosaic Idealize.ShloMosaic.TcCoe Idealize.ShloMosaic.ValueIdx
open Idealize.SL Idealize.SL.Sem

variable {F : FTy → Type} [FloatOps F]

variable (V : (c : Dev nD) → (b : Ref sig .tc) → Buf (Elt F) ((c : Thread nD τ).loc b))

-- The r-th row of the t-th block of 5000 rows.
abbrev row4 (t : Fin 100) (r : Fin 5000) : Fin 500000 :=
  ⟨t.val * 5000 + r.val, by have := t.isLt; have := r.isLt; omega⟩

-- The t-th block of 5000 rows of an array with 500000 rows.
def rows4 {e : EltTy} {n : ℕ} (x : Vec F ⟨2, ![500000, n]⟩ e) (t : Fin 100) : Vec F ⟨2, ![5000, n]⟩ e :=
  fun j => x (ix2 (row4 t (j 0)) (j 1))

-- Running sums: from the zero array, add block by block the transposed one-hot matrix of the block's segment numbers times the block's rows.
def S4acc (x : Vec F S500000x64 .f32) (b : Vec F S500000x1 .i32) : (n : ℕ) → n < 100 → Vec F S512x64 .f32
  | 0, h => k4_pay4 (rows4 b ⟨0, h⟩) (rows4 x ⟨0, h⟩) k4_pay1
  | n + 1, h => k4_pay4 (rows4 b ⟨n + 1, h⟩) (rows4 x ⟨n + 1, h⟩) (S4acc x b n (Nat.lt_of_succ_lt h))

-- Running counts: the same with every row replaced by 1.
def C4acc (b : Vec F S500000x1 .i32) : (n : ℕ) → n < 100 → Vec F S512x1 .f32
  | 0, h => k4_pay5 (rows4 b ⟨0, h⟩) k4_pay2
  | n + 1, h => k4_pay5 (rows4 b ⟨n + 1, h⟩) (C4acc b n (Nat.lt_of_succ_lt h))

def S4 (x : Vec F S500000x64 .f32) (b : Vec F S500000x1 .i32) : Vec F S512x64 .f32 := S4acc x b 99 (by decide)
def C4 (b : Vec F S500000x1 .i32) : Vec F S512x1 .f32 := C4acc b 99 (by decide)

abbrev last4 : Fin cfg4.N := ⟨99, by rw [show cfg4.N = 100 from N_4]; decide⟩

theorem win4_idx : ∀ t : Fin cfg4.N,
    win4_0.index t 0 = t.val ∧ win4_0.index t 1 = 0 ∧ win4_1.index t 0 = t.val ∧ win4_1.index t 1 = 0 :=
  (by decide +kernel : ∀ t : Fin grid4.N, _)

theorem xblk4_eq (c : Dev nD) (t : Fin cfg4.N) :
    xblk4 V c t = rows4 (V c main_v25) ⟨t.val, lt_of_lt_of_eq t.isLt N_4⟩ := by
  obtain ⟨e0, e1, -⟩ := win4_idx t
  exact funext fun j => congrArg (V c main_v25) (Shape.idx_ext₂
    ((win4_0.rect_emb_val t j 0).trans (by rw [e0]; rfl)) (win4_0.rect_emb_val_of_index_zero t 1 e1 j))

theorem bblk4_eq (c : Dev nD) (t : Fin cfg4.N) :
    bblk4 V c t = rows4 (V c main_v0) ⟨t.val, lt_of_lt_of_eq t.isLt N_4⟩ := by
  obtain ⟨-, -, e0, e1⟩ := win4_idx t
  exact funext fun j => congrArg (V c main_v0) (Shape.idx_ext₂
    ((win4_1.rect_emb_val t j 0).trans (by rw [e0]; rfl)) (win4_1.rect_emb_val_of_index_zero t 1 e1 j))

-- The region's two accumulators are these running sums of the operands' blocks: induction on the point.
theorem acc4_0_eq (c : Dev nD) : ∀ (n : ℕ) (h : n < cfg4.N),
    acc4_0 V c n h = S4acc (V c main_v25) (V c main_v0) n (lt_of_lt_of_eq h N_4)
  | 0, h => by rw [acc4_0, S4acc, xblk4_eq, bblk4_eq]
  | n + 1, h => by rw [acc4_0, S4acc, xblk4_eq, bblk4_eq, acc4_0_eq c n]

theorem acc4_1_eq (c : Dev nD) : ∀ (n : ℕ) (h : n < cfg4.N),
    acc4_1 V c n h = C4acc (V c main_v0) n (lt_of_lt_of_eq h N_4)
  | 0, h => by rw [acc4_1, C4acc, bblk4_eq]
  | n + 1, h => by rw [acc4_1, C4acc, bblk4_eq, acc4_1_eq c n]

-- A rectangle with zero offsets and the array's own sizes contains every index.
theorem whole4_mem {κ : Kind} (b : Ref sig κ) {off : Fin b.ty.shape.rank → ℕ} (h : off = fun _ => 0)
    (inb : ∀ a, off a + b.ty.shape.size a ≤ b.ty.shape.size a) (i : b.ty.shape.Idx) :
    i ∈ ((Memref.whole b).access (Rect.unit off b.ty.shape.size inb) : View sig κ _ _ _).set := by
  subst h
  show i ∈ ((Memref.whole b).access (Rect.whole _) : View sig κ _ _ _).set
  rw [Memref.set_access_whole]; exact Finset.mem_univ i

theorem whole4_2 : (fun a => win4_2.index last4 a * main_v26_0.ty.shape.size a) = fun _ => 0 :=
  funext fun a => by fin_cases a <;> decide +kernel
theorem whole4_3 : (fun a => win4_3.index last4 a * main_v26_1.ty.shape.size a) = fun _ => 0 :=
  funext fun a => by fin_cases a <;> decide +kernel

-- An output's final value is the last point's, whose rectangle covers every index: the running sum over all 100 blocks.
theorem final4_sums (c : Dev nD) : (dat4 V c).arrAt 2 cfg4.N = S4 (V c main_v25) (V c main_v0) :=
  (dat4 V c).arrAt_eq_of_cover 2 _ (fun t hf => by
    have hN : cfg4.N = 100 := N_4
    obtain rfl : t = last4 := Fin.ext (show t.val = 99 by have := (flush4_2 t).mp hf; have := t.isLt; omega)
    show (cfg4.win 2).cut (grid4.coords last4) ((dat4 V c).after 2 last4) = _
    rw [after4_2, acc4_0_eq]
    exact (Memref.read_access_unit_zero (Elt F) main_v26_0 whole4_2 (fun a => by rw [congrFun whole4_2 a]; simp) _).symm)
    fun i => ⟨last4, (flush4_2 last4).mpr rfl,
      whole4_mem main_v26_0 whole4_2 (fun a => by rw [congrFun whole4_2 a]; simp) i⟩

theorem final4_cnt (c : Dev nD) : (dat4 V c).arrAt 3 cfg4.N = C4 (V c main_v0) :=
  (dat4 V c).arrAt_eq_of_cover 3 _ (fun t hf => by
    have hN : cfg4.N = 100 := N_4
    obtain rfl : t = last4 := Fin.ext (show t.val = 99 by have := (flush4_3 t).mp hf; have := t.isLt; omega)
    show (cfg4.win 3).cut (grid4.coords last4) ((dat4 V c).after 3 last4) = _
    rw [after4_3, acc4_1_eq]
    exact (Memref.read_access_unit_zero (Elt F) main_v26_1 whole4_3 (fun a => by rw [congrFun whole4_3 a]; simp) _).symm)
    fun i => ⟨last4, (flush4_3 last4).mpr rfl,
      whole4_mem main_v26_1 whole4_3 (fun a => by rw [congrFun whole4_3 a]; simp) i⟩

-- Entry (r, g) of the one-hot matrix: 1 when row r's segment number is the 32-bit word of g, else 0.
theorem k4_pay3_apply (bb : Vec Ideal S5000x1 .i32) (r : Fin 5000) (g : Fin 512) :
    k4_pay3 (F := Ideal) bb (ix2 r g) = if bb (ix2 r (0 : Fin 1)) = BitVec.ofNat 32 g.val then 1 else 0 := by
  show FloatOps.sitofp (F := Ideal) .f32 ((IntOp.cmpi .eq
      (broadcastTo S5000x512 (shapeCast S5000x1 bb shapeCasts_S5000x1_S5000x1) broadcasts_S5000x1_S5000x512 (ix2 r g))
      (iota .tc S5000x512 32 [1] iota_S5000x512_d1_w32 (ix2 r g))).setWidth 32) = _
  rw [shapeCast_self, broadcastTo_apply bb _ (ix2 r g) (ix2 r (0 : Fin 1)) (fun a => by fin_cases a <;> simp),
    iota_single_apply .tc S5000x512 32 1]
  exact sitofp_cmpi_eq .f32 _ _

theorem k4_pay1_apply (j : S512x64.Idx) : k4_pay1 (F := Ideal) j = 0 := Ideal.ofBits_zero_f32
theorem k4_pay2_apply (j : S512x1.Idx) : k4_pay2 (F := Ideal) j = 0 := Ideal.ofBits_zero_f32

-- Contracting the first axis of both operands into a zero accumulator gives, at (a, b), the sum over that axis of the products.
theorem dotT4_apply {k m n : ℕ} {φ₁ φ₂ : FTy}
    (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (a : Fin m) (b : Fin n) :
    matmul (⟨[0], [0], [1], [1], [], [], w⟩ : DotDims _ _ _) none A B (constant (F := Ideal) ⟨2, ![m, n]⟩ .f32 0x00000000#32) (ix2 a b)
      = ∑ c : Fin k, A (ix2 c a) * B (ix2 c b) := by
  show FloatOps.matmul _ none A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  congr 2
  · exact Shape.idx_ext₂ (by simp [DotDims.lhsIdx]; exact c2) (by simp [DotDims.lhsIdx]; rfl)
  · exact Shape.idx_ext₂ (by simp [DotDims.rhsIdx]; exact c2) (by simp [DotDims.rhsIdx]; rfl)

-- One step of the running sum at (g, d): column d of the block's rows whose segment is g, added up.
theorem k4_pay4_apply (bb : Vec Ideal S5000x1 .i32) (xb : Vec Ideal S5000x64 .f32) (a : Vec Ideal S512x64 .f32)
    (g : Fin 512) (d : Fin 64) :
    k4_pay4 (F := Ideal) bb xb a (ix2 g d)
      = a (ix2 g d) + ∑ r : Fin 5000, (if bb (ix2 r (0 : Fin 1)) = BitVec.ofNat 32 g.val then (1 : EReal) else 0) * xb (ix2 r d) := by
  unfold k4_pay4
  simp only [shapeCast_self, addf_apply]
  refine congrArg (a (ix2 g d) + ·) ((dotT4_apply _ _ _ g d).trans (Finset.sum_congr rfl fun r _ => ?_))
  rw [k4_pay3_apply]; rfl

-- One step of the running count at g: how many of the block's rows have segment g (the other factor is a column of ones).
theorem k4_pay5_apply (bb : Vec Ideal S5000x1 .i32) (a : Vec Ideal S512x1 .f32) (g : Fin 512) :
    k4_pay5 (F := Ideal) bb a (ix2 g (0 : Fin 1))
      = a (ix2 g (0 : Fin 1)) + ∑ r : Fin 5000, (if bb (ix2 r (0 : Fin 1)) = BitVec.ofNat 32 g.val then (1 : EReal) else 0) := by
  unfold k4_pay5
  simp only [shapeCast_self, addf_apply]
  refine congrArg (a (ix2 g (0 : Fin 1)) + ·) ((dotT4_apply _ _ _ g 0).trans (Finset.sum_congr rfl fun r _ => ?_))
  rw [k4_pay3_apply]
  exact (congrArg _ (IdealRules.sign_bit.ideal_onePat .bf16)).trans (mul_one _)

-- If A starts as block 0's sum of T and each step adds the next block's sum, after block 99 it is the sum of T over all rows: every row lies in exactly one block.
theorem sum_rows4 (T : Fin 500000 → EReal) (A : (n : ℕ) → n < 100 → EReal)
    (h0 : ∀ h, A 0 h = 0 + ∑ r : Fin 5000, T (row4 ⟨0, h⟩ r))
    (hs : ∀ n h, A (n + 1) h = A n (Nat.lt_of_succ_lt h) + ∑ r : Fin 5000, T (row4 ⟨n + 1, h⟩ r)) :
    A 99 (by decide) = ∑ p : Fin 500000, T p := by
  have key : ∀ n h, A n h = ∑ t : Fin (n + 1), ∑ r : Fin 5000, T (row4 ⟨t.val, by have := t.isLt; omega⟩ r) := by
    intro n
    induction n with
    | zero => intro h; rw [h0, zero_add, Fin.sum_univ_one]; rfl
    | succ n ih => intro h; rw [hs, ih, Fin.sum_univ_castSucc (n := n + 1)]; rfl
  rw [key, ← Fintype.sum_prod_type' (f := fun (t : Fin (99 + 1)) (r : Fin 5000) => T (row4 ⟨t.val, by have := t.isLt; omega⟩ r))]
  refine Fintype.sum_equiv (finProdFinEquiv.trans (finCongr (by norm_num))) _ _ fun p => ?_
  congr 1
  apply Fin.ext
  simp [finProdFinEquiv]
  omega

theorem S4_apply (x : Vec Ideal S500000x64 .f32) (b : Vec Ideal S500000x1 .i32) (g : Fin 512) (d : Fin 64) :
    S4 (F := Ideal) x b (ix2 g d) = ∑ n : Fin 500000, onehot b n g * x (ix2 n d) :=
  sum_rows4 (fun n => onehot b n g * x (ix2 n d)) (fun n h => S4acc x b n h (ix2 g d))
    (fun h => by rw [S4acc, k4_pay4_apply, k4_pay1_apply]; rfl) (fun n h => by rw [S4acc, k4_pay4_apply]; rfl)

theorem C4_apply (b : Vec Ideal S500000x1 .i32) (g : Fin 512) :
    C4 (F := Ideal) b (ix2 g (0 : Fin 1)) = ∑ n : Fin 500000, onehot b n g :=
  sum_rows4 (fun n => onehot b n g) (fun n h => C4acc b n h (ix2 g (0 : Fin 1)))
    (fun h => by rw [C4acc, k4_pay5_apply, k4_pay2_apply]; rfl) (fun n h => by rw [C4acc, k4_pay5_apply]; rfl)

end Cert.KernelIdeal.Gen

end
-- ==== Proof.KI.Value5.lean ====
import proofs.«420090_j3152505996138_1_alg».proof.Proof.KI.Region5
import proofs.«420090_j3152505996138_1_alg».proof.Proof.KI.OneHot
import Idealize.ShloMosaic.Lib.ValueIdx
import Idealize.ShloMosaic.Lib.ValueLayout
import Idealize.ShloMosaic.Lib.Pipeline.Value
import Idealize.ShloMosaic.Lib.StackMember
import Idealize.ShloMosaic.PureOps.Ideal
import Idealize.ShloMosaic.PureOps.Ideal.Laws
import Mathlib.Algebra.BigOperators.Fin
import Mathlib.Logic.Equiv.Fin.Basic

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)
open scoped BigOperators

/-- Entry (r, j) of a plain m x k by k x n product accumulated from zero is the sum over the contracted coordinate. -/
theorem mm_apply5 {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (r : Fin m) (j : Fin n) :
    matmul D none A B (constant (F := Ideal) ⟨2, ![m, n]⟩ .f32 0x00000000#32) (ix2 r j) = ∑ c : Fin k, A (ix2 r c) * B (ix2 c j) := by
  subst hD
  rw [matmul_zero_eq_dotGeneral]
  exact StackMember.dotGeneral_plain_apply none A B r j

/-- A column repeated along the second axis reads, at (r, g), its entry in row r. -/
theorem bcast_col5 (v : IVec S5000x1 32) (r : Fin 5000) (g : Fin 512) :
    broadcastTo S5000x512 v broadcasts_S5000x1_S5000x512 (ix2 r g) = v (ix2 r (0 : Fin 1)) :=
  broadcastTo_apply v _ (ix2 r g) (ix2 r (0 : Fin 1)) fun a => by fin_cases a <;> simp

/-- Reducing a 5000 x 128 array along its rows gives, at column j, that column's sum. -/
theorem colsum5 (x : FVec Ideal S5000x128 .f32) (u : Fin 1) (j : Fin 128) :
    shapeCast S1x128 (multiReduction (F := Ideal) .add [0] S128 x 0x00000000#32 reduces_S5000x128_S128 (.inl rfl) rfl) shapeCasts_S128_S1x128 (ix2 u j)
      = ∑ r : Fin 5000, x (ix2 r j) := by
  refine (shapeCast_a_1a_apply _ shapeCasts_S128_S1x128 u j).trans ?_
  refine (Ideal.multiReduction_add_single x 0x00000000#32 reduces_S5000x128_S128 (.inl rfl) rfl (ix1 j)).trans ?_
  exact Finset.sum_congr rfl fun k _ => congrArg x (Shape.idx_ext₂ rfl rfl)

section Pay

variable (v3 : Vec Ideal S5000x1 .i32) (v11 : Vec Ideal S512x128 .f32) (v15 : Vec Ideal S5000x64 .f32) (v18 : Vec Ideal S64x128 .f32)
  (v21 : Vec Ideal S1x128 .f32) (r : Fin 5000) (j : Fin 128)

/-- Entry (r, j) of the value array: rows times weight, plus bias, minus one-hot times table. -/
theorem pay5_apply5 :
    k5_pay5 v3 v11 v15 v18 v21 (ix2 r j)
      = ((∑ k : Fin 64, v15 (ix2 r k) * v18 (ix2 k j)) + v21 (ix2 (0 : Fin 1) j))
        - ∑ g : Fin 512, FloatOps.sitofp (F := Ideal) .f32 ((IntOp.cmpi .eq (v3 (ix2 r (0 : Fin 1))) (BitVec.ofNat 32 g.val)).setWidth 32) * v11 (ix2 g j) := by
  unfold k5_pay5
  dsimp only
  refine congrArg₂ (· - ·) (congrArg₂ (· + ·) ?_ ?_) ?_
  · refine (mm_apply5 _ (by rfl) _ _ r j).trans ?_
    simp only [shapeCast_self]
    rfl
  · refine (broadcastTo_1b_ab_apply _ broadcasts_S1x128_S5000x128 r j).trans ?_
    rw [shapeCast_self]
  · refine (mm_apply5 _ (by rfl) _ _ r j).trans ?_
    refine Finset.sum_congr rfl fun g _ => ?_
    simp only [shapeCast_self]
    show FloatOps.sitofp (F := Ideal) .f32 ((IntOp.cmpi .eq (broadcastTo S5000x512 v3 broadcasts_S5000x1_S5000x512 (ix2 r g)) (iota .tc S5000x512 32 [1] iota_S5000x512_d1_w32 (ix2 r g))).setWidth 32) * v11 (ix2 g j) = _
    rw [bcast_col5, iota_single_apply]

/-- Its positive part. -/
theorem pay6_apply5 :
    k5_pay6 v3 v11 v15 v18 v21 (ix2 r j) = max (k5_pay5 v3 v11 v15 v18 v21 (ix2 r j)) 0 := by
  unfold k5_pay6
  exact congrArg (max _) Ideal.ofBits_zero_f32

/-- A cast between equal shapes changes nothing. -/
theorem pay1_eq5 {F : FTy → Type} [FloatOps F] (s : FVec F S1x128 .f32) : k5_pay1 s = s := by
  unfold k5_pay1; exact shapeCast_self s _

/-- The running sum's step adds column j's sum of the positive part. -/
theorem pay7_apply5 (s : Vec Ideal S1x128 .f32) (u : Fin 1) :
    k5_pay7 v3 v11 v15 v18 v21 s (ix2 u j) = s (ix2 u j) + ∑ r : Fin 5000, k5_pay6 v3 v11 v15 v18 v21 (ix2 r j) := by
  unfold k5_pay7
  dsimp only
  exact congrArg (s (ix2 u j) + ·) (colsum5 _ u j)

end Pay

/-- The running sum of squares' step adds column j's sum of squares. -/
theorem pay2_apply5 (x : FVec Ideal S5000x128 .f32) (s : Vec Ideal S1x128 .f32) (u : Fin 1) (j : Fin 128) :
    k5_pay2 x s (ix2 u j) = s (ix2 u j) + ∑ r : Fin 5000, x (ix2 r j) * x (ix2 r j) := by
  unfold k5_pay2
  dsimp only
  rw [shapeCast_self]
  exact congrArg (s (ix2 u j) + ·) (colsum5 _ u j)

/-- Both running rows start at zero. -/
theorem pay34_apply5 (i : S1x128.Idx) : (k5_pay3 (F := Ideal)) i = 0 ∧ (k5_pay4 (F := Ideal)) i = 0 := by
  unfold k5_pay3 k5_pay4
  exact ⟨Ideal.ofBits_zero_f32, Ideal.ofBits_zero_f32⟩

section Whole

variable {F : FTy → Type} [FloatOps F]

/-- Row 5000·q + r, reduced modulo 500000 so that every q is allowed. -/
def row5 (q : ℕ) (r : Fin 5000) : Fin 500000 := ⟨(q * 5000 + r.val) % 500000, Nat.mod_lt _ (by decide)⟩

theorem row5_val (q : ℕ) (hq : q < 100) (r : Fin 5000) : (row5 q r).val = q * 5000 + r.val := by
  show (q * 5000 + r.val) % 500000 = _
  have := r.isLt
  omega

def rows64_5 (x : Vec F S500000x64 .f32) (q : ℕ) : Vec F S5000x64 .f32 := fun i => x (ix2 (row5 q (i 0)) (i 1))
def rows1_5 (b : Vec F S500000x1 .i32) (q : ℕ) : Vec F S5000x1 .i32 := fun i => b (ix2 (row5 q (i 0)) (i 1))

theorem rows64_5_apply (x : Vec F S500000x64 .f32) (q : ℕ) (r : Fin 5000) (k : Fin 64) : rows64_5 x q (ix2 r k) = x (ix2 (row5 q r) k) := rfl
theorem rows1_5_apply (b : Vec F S500000x1 .i32) (q : ℕ) (r : Fin 5000) (k : Fin 1) : rows1_5 b q (ix2 r k) = b (ix2 (row5 q r) k) := rfl

def G5 (xin : Vec F S500000x64 .f32) (b : Vec F S500000x1 .i32) (GW : Vec F S64x128 .f32) (gb : Vec F S1x128 .f32)
    (xm : Vec F S512x128 .f32) : Vec F S500000x128 .f32 :=
  fun i => k5_pay5 (rows1_5 b ((i 0).val / 5000)) xm (rows64_5 xin ((i 0).val / 5000)) GW gb
    (ix2 (⟨(i 0).val % 5000, Nat.mod_lt _ (by decide)⟩ : Fin 5000) (i 1))

section Fold

variable (xin : Vec F S500000x64 .f32) (b : Vec F S500000x1 .i32) (GW : Vec F S64x128 .f32) (gb : Vec F S1x128 .f32)
  (xm : Vec F S512x128 .f32)

/-- One step of the two running rows, over the q-th group of 5000 rows. -/
def stepG5 (q : ℕ) (s : Vec F S1x128 .f32 × Vec F S1x128 .f32) : Vec F S1x128 .f32 × Vec F S1x128 .f32 :=
  (k5_pay1 (k5_pay7 (rows1_5 b q) xm (rows64_5 xin q) GW gb s.1), k5_pay2 (k5_pay6 (rows1_5 b q) xm (rows64_5 xin q) GW gb) s.2)

/-- The two running rows after steps 0 … n, from zero rows. -/
def accG5 : ℕ → Vec F S1x128 .f32 × Vec F S1x128 .f32
  | 0 => stepG5 xin b GW gb xm 0 (k5_pay3, k5_pay4)
  | n + 1 => stepG5 xin b GW gb xm (n + 1) (accG5 n)

/-- Row 5000·q + r of G5 is row r of the q-th group of 5000 rows. -/
theorem G5_block5 (q : ℕ) (hq : q < 100) (r : Fin 5000) (j : Fin 128) :
    G5 xin b GW gb xm (ix2 (row5 q r) j) = k5_pay5 (rows1_5 b q) xm (rows64_5 xin q) GW gb (ix2 r j) := by
  have hr := r.isLt
  have hv := row5_val q hq r
  have e1 : (row5 q r).val / 5000 = q := by omega
  have e2 : (⟨(row5 q r).val % 5000, Nat.mod_lt _ (by decide)⟩ : Fin 5000) = r := Fin.ext (by show (row5 q r).val % 5000 = r.val; omega)
  show k5_pay5 (rows1_5 b ((row5 q r).val / 5000)) xm (rows64_5 xin ((row5 q r).val / 5000)) GW gb
    (ix2 (⟨(row5 q r).val % 5000, Nat.mod_lt _ (by decide)⟩ : Fin 5000) j) = _
  rw [e1, e2]

end Fold

def SUM5 (xin : Vec F S500000x64 .f32) (b : Vec F S500000x1 .i32) (GW : Vec F S64x128 .f32) (gb : Vec F S1x128 .f32)
    (xm : Vec F S512x128 .f32) : Vec F S1x128 .f32 := (accG5 xin b GW gb xm 99).1
def SQ5 (xin : Vec F S500000x64 .f32) (b : Vec F S500000x1 .i32) (GW : Vec F S64x128 .f32) (gb : Vec F S1x128 .f32)
    (xm : Vec F S512x128 .f32) : Vec F S1x128 .f32 := (accG5 xin b GW gb xm 99).2

/-- Division with remainder by 5000 recovers the row. -/
theorem row5_onto (p : Fin 500000) : row5 (p.val / 5000) ⟨p.val % 5000, Nat.mod_lt _ (by decide)⟩ = p := by
  apply Fin.ext
  have hp := p.isLt
  rw [row5_val _ (by omega)]
  show p.val / 5000 * 5000 + p.val % 5000 = p.val
  omega

end Whole

theorem G5_apply (xin : Vec Ideal S500000x64 .f32) (b : Vec Ideal S500000x1 .i32) (GW : Vec Ideal S64x128 .f32)
    (gb : Vec Ideal S1x128 .f32) (xm : Vec Ideal S512x128 .f32) (p : Fin 500000) (j : Fin 128) :
    G5 xin b GW gb xm (ix2 p j)
      = ((∑ k : Fin 64, xin (ix2 p k) * GW (ix2 k j)) + gb (ix2 0 j)) - (∑ g : Fin 512, onehot b p g * xm (ix2 g j)) := by
  refine (pay5_apply5 (rows1_5 b (p.val / 5000)) xm (rows64_5 xin (p.val / 5000)) GW gb ⟨p.val % 5000, Nat.mod_lt _ (by decide)⟩ j).trans ?_
  simp only [rows64_5_apply, rows1_5_apply, row5_onto p, onehot_eq]

/-- A sum over 500000 rows is the sum over 100 groups of 5000 rows. -/
theorem sum_blocks5 {M : Type*} [AddCommMonoid M] (f : Fin 500000 → M) :
    ∑ q ∈ Finset.range 100, ∑ r : Fin 5000, f (row5 q r) = ∑ p : Fin 500000, f p := by
  rw [Finset.sum_range (fun q => ∑ r : Fin 5000, f (row5 q r)), ← Fintype.sum_prod_type']
  refine Fintype.sum_equiv (finProdFinEquiv (m := 100) (n := 5000)) _ _ fun x => congrArg f (Fin.ext ?_)
  show (row5 x.1.val x.2).val = x.2.val + 5000 * x.1.val
  rw [row5_val _ x.1.isLt]; omega

section Sums

variable (xin : Vec Ideal S500000x64 .f32) (b : Vec Ideal S500000x1 .i32) (GW : Vec Ideal S64x128 .f32) (gb : Vec Ideal S1x128 .f32)
  (xm : Vec Ideal S512x128 .f32) (j : Fin 128)

/-- One step over group q adds, at column j, the group's sums of the positive part of G5 and of its square. -/
theorem step5 (q : ℕ) (hq : q < 100) (s : Vec Ideal S1x128 .f32 × Vec Ideal S1x128 .f32) :
    (stepG5 xin b GW gb xm q s).1 (ix2 0 j) = s.1 (ix2 0 j) + ∑ r : Fin 5000, max (G5 xin b GW gb xm (ix2 (row5 q r) j)) 0
    ∧ (stepG5 xin b GW gb xm q s).2 (ix2 0 j)
        = s.2 (ix2 0 j) + ∑ r : Fin 5000, max (G5 xin b GW gb xm (ix2 (row5 q r) j)) 0 * max (G5 xin b GW gb xm (ix2 (row5 q r) j)) 0 := by
  unfold stepG5
  dsimp only
  simp only [pay1_eq5, pay7_apply5, pay2_apply5, pay6_apply5, G5_block5 xin b GW gb xm q hq, and_self]

/-- After n + 1 steps the two rows hold those sums over groups 0 … n. -/
theorem accG5_apply (n : ℕ) (hn : n < 100) :
    (accG5 xin b GW gb xm n).1 (ix2 0 j)
        = ∑ q ∈ Finset.range (n + 1), ∑ r : Fin 5000, max (G5 xin b GW gb xm (ix2 (row5 q r) j)) 0
    ∧ (accG5 xin b GW gb xm n).2 (ix2 0 j)
        = ∑ q ∈ Finset.range (n + 1), ∑ r : Fin 5000,
            max (G5 xin b GW gb xm (ix2 (row5 q r) j)) 0 * max (G5 xin b GW gb xm (ix2 (row5 q r) j)) 0 := by
  induction n with
  | zero =>
    have h := step5 xin b GW gb xm j 0 hn (k5_pay3 (F := Ideal), k5_pay4 (F := Ideal))
    dsimp only at h
    rw [(pay34_apply5 _).1, (pay34_apply5 _).2, zero_add, zero_add] at h
    rw [Finset.sum_range_one, Finset.sum_range_one]
    exact h
  | succ n ih =>
    have h := step5 xin b GW gb xm j (n + 1) hn (accG5 xin b GW gb xm n)
    rw [(ih (by omega)).1, (ih (by omega)).2] at h
    rw [Finset.sum_range_succ _ (n + 1), Finset.sum_range_succ _ (n + 1)]
    exact h

end Sums

theorem SUM5_apply (xin : Vec Ideal S500000x64 .f32) (b : Vec Ideal S500000x1 .i32) (GW : Vec Ideal S64x128 .f32)
    (gb : Vec Ideal S1x128 .f32) (xm : Vec Ideal S512x128 .f32) (j : Fin 128) :
    SUM5 xin b GW gb xm (ix2 0 j) = ∑ p : Fin 500000, max (G5 xin b GW gb xm (ix2 p j)) 0 :=
  ((accG5_apply xin b GW gb xm j 99 (by decide)).1).trans (sum_blocks5 fun p => max (G5 xin b GW gb xm (ix2 p j)) 0)

theorem SQ5_apply (xin : Vec Ideal S500000x64 .f32) (b : Vec Ideal S500000x1 .i32) (GW : Vec Ideal S64x128 .f32)
    (gb : Vec Ideal S1x128 .f32) (xm : Vec Ideal S512x128 .f32) (j : Fin 128) :
    SQ5 xin b GW gb xm (ix2 0 j)
      = ∑ p : Fin 500000, max (G5 xin b GW gb xm (ix2 p j)) 0 * max (G5 xin b GW gb xm (ix2 p j)) 0 :=
  ((accG5_apply xin b GW gb xm j 99 (by decide)).2).trans
    (sum_blocks5 fun p => max (G5 xin b GW gb xm (ix2 p j)) 0 * max (G5 xin b GW gb xm (ix2 p j)) 0)

section Final

variable {F : FTy → Type} [FloatOps F]
variable (V : (c : Dev nD) → (b : Ref sig .tc) → Buf (Elt F) ((c : Thread nD τ).loc b))

/-- For every t the three row-grouped parts start at group t and the other five at 0. -/
theorem idx_facts5 : ∀ t : Fin cfg5.N,
    ((win5_0.index t (0 : Fin 2) = t.val ∧ win5_0.index t (1 : Fin 2) = 0)
      ∧ (win5_1.index t (0 : Fin 2) = t.val ∧ win5_1.index t (1 : Fin 2) = 0)
      ∧ (win5_5.index t (0 : Fin 2) = t.val ∧ win5_5.index t (1 : Fin 2) = 0))
    ∧ (win5_2.index t (0 : Fin 2) = 0 ∧ win5_2.index t (1 : Fin 2) = 0)
    ∧ (win5_3.index t (0 : Fin 2) = 0 ∧ win5_3.index t (1 : Fin 2) = 0)
    ∧ (win5_4.index t (0 : Fin 2) = 0 ∧ win5_4.index t (1 : Fin 2) = 0)
    ∧ (win5_6.index t (0 : Fin 2) = 0 ∧ win5_6.index t (1 : Fin 2) = 0)
    ∧ (win5_7.index t (0 : Fin 2) = 0 ∧ win5_7.index t (1 : Fin 2) = 0) :=
  (by decide +kernel : ∀ t : Fin grid5.N, _)

theorem lt5 (t : Fin cfg5.N) : t.val < 100 := lt_of_lt_of_eq t.isLt (show cfg5.N = 100 from N_5)

/-- An index with coordinates (5000·t + r, c) is row r of group t at column c. -/
theorem emb_rows5 {n t a b : ℕ} (ht : t < 100) (h : a = t ∧ b = 0) {x : (⟨2, ![500000, n]⟩ : Shape).Idx} {r : Fin 5000} {c : Fin n}
    (h0 : (x 0).val = a * 5000 + 1 * r.val) (h1 : (x 1).val = b * n + 1 * c.val) : x = ix2 (row5 t r) c :=
  Shape.idx_ext₂ (by rw [h0, h.1]; exact (row5_val t ht r).symm ▸ by omega) (by rw [h1, h.2]; show _ = c.val; omega)

/-- An index with coordinates (0·n0 + i0, 0·n1 + i1) is (i0, i1). -/
theorem emb_whole5 {n0 n1 a b : ℕ} (h : a = 0 ∧ b = 0) {x i : (⟨2, ![n0, n1]⟩ : Shape).Idx}
    (h0 : (x 0).val = a * n0 + 1 * (i 0).val) (h1 : (x 1).val = b * n1 + 1 * (i 1).val) : x = i :=
  Shape.idx_ext₂ (by rw [h0, h.1]; omega) (by rw [h1, h.2]; omega)

theorem xin5_eq (c : Dev nD) (t : Fin cfg5.N) : xin5 V c t = rows64_5 (V c main_v25) t.val :=
  funext fun i => congrArg (V c main_v25) (emb_rows5 (lt5 t) (idx_facts5 t).1.1 rfl rfl)

theorem bat5_eq (c : Dev nD) (t : Fin cfg5.N) : bat5 V c t = rows1_5 (V c main_v0) t.val :=
  funext fun i => congrArg (V c main_v0) (emb_rows5 (lt5 t) (idx_facts5 t).1.2.1 rfl rfl)

theorem gw5_eq (c : Dev nD) (t : Fin cfg5.N) : gw5 V c t = V c main_arg10 :=
  funext fun i => congrArg (V c main_arg10) (emb_whole5 (idx_facts5 t).2.1 rfl rfl)

theorem gb5_eq (c : Dev nD) (t : Fin cfg5.N) : gb5 V c t = V c main_v32 :=
  funext fun i => congrArg (V c main_v32) (emb_whole5 (idx_facts5 t).2.2.1 rfl rfl)

theorem xm5_eq (c : Dev nD) (t : Fin cfg5.N) : xm5 V c t = V c main_v31 :=
  funext fun i => congrArg (V c main_v31) (emb_whole5 (idx_facts5 t).2.2.2.1 rfl rfl)

/-- The carried pair of rows is the fold accG5 of the whole arrays. -/
theorem acc5_eq (c : Dev nD) : ∀ (n : ℕ) (h : n < cfg5.N), acc5 V c n h = accG5 (V c main_v25) (V c main_v0) (V c main_arg10) (V c main_v32) (V c main_v31) n
  | 0, h => by
    rw [acc5]
    unfold sumStep5 sqStep5 pos5
    rw [xin5_eq, bat5_eq, gw5_eq, gb5_eq, xm5_eq]
    rfl
  | n + 1, h => by
    rw [acc5, acc5_eq c n]
    unfold sumStep5 sqStep5 pos5
    rw [xin5_eq, bat5_eq, gw5_eq, gb5_eq, xm5_eq]
    rfl

theorem emb5_5 (t : Fin cfg5.N) (y : S5000x128.Idx) : ((cfg5.win 5).blk t).view.emb y = ix2 (row5 t.val (y 0)) (y 1) :=
  emb_rows5 (lt5 t) (idx_facts5 t).1.2.2 rfl rfl

theorem mem5_5 (t : Fin cfg5.N) (r : Fin 5000) (c : Fin 128) : ix2 (row5 t.val r) c ∈ ((cfg5.win 5).blk t).view.set := by
  have h := ((cfg5.win 5).blk t).view.emb_mem_set (ix2 r c)
  rwa [emb5_5] at h

/-- The part produced at t is group t of G5, and row i 0 lies in group (i 0) / 5000. -/
theorem final5_val (c : Dev nD) : (dat5 V c).arrAt 5 cfg5.N = G5 (V c main_v25) (V c main_v0) (V c main_arg10) (V c main_v32) (V c main_v31) := by
  refine (dat5 V c).arrAt_eq_of_cover 5 _ (fun t _ => ?_) fun (i : S500000x128.Idx) => ?_
  · show (cfg5.win 5).cut (grid5.coords t) ((dat5 V c).after 5 t) = _
    rw [after5_5]
    unfold val5
    rw [xin5_eq, bat5_eq, gw5_eq, gb5_eq, xm5_eq]
    refine funext fun (i : S5000x128.Idx) => ?_
    show k5_pay5 _ _ _ _ _ i = G5 _ _ _ _ _ (((cfg5.win 5).blk t).view.emb i)
    rw [emb5_5]
    exact ((G5_block5 _ _ _ _ _ t.val (lt5 t) (i 0) (i 1)).trans (congrArg _ (eq_ix2 i).symm)).symm
  · have hi : (i 0).val < 500000 := (i 0).isLt
    have h := mem5_5 ⟨(i 0).val / 5000, lt_of_lt_of_eq (by omega) (show cfg5.N = 100 from N_5).symm⟩ ⟨(i 0).val % 5000, Nat.mod_lt _ (by decide)⟩ (i 1)
    rw [row5_onto (i 0)] at h
    exact ⟨_, flush5_5 _, (congrArg (· ∈ _) (eq_ix2 i)).mpr h⟩

/-- The last of the 100 steps. -/
def last5pt : Fin cfg5.N := ⟨99, lt_of_lt_of_eq (by decide) (show cfg5.N = 100 from N_5).symm⟩

theorem emb5_6 (t : Fin cfg5.N) (i : S1x128.Idx) : ((cfg5.win 6).blk t).view.emb i = i := emb_whole5 (idx_facts5 t).2.2.2.2.1 rfl rfl
theorem emb5_7 (t : Fin cfg5.N) (i : S1x128.Idx) : ((cfg5.win 7).blk t).view.emb i = i := emb_whole5 (idx_facts5 t).2.2.2.2.2 rfl rfl

/-- Output 6 is produced at the last step only, where it is SUM5. -/
theorem final5_sum (c : Dev nD) : (dat5 V c).arrAt 6 cfg5.N = SUM5 (V c main_v25) (V c main_v0) (V c main_arg10) (V c main_v32) (V c main_v31) := by
  refine (dat5 V c).arrAt_eq_of_cover 6 _ (fun t hf => ?_) fun (i : S1x128.Idx) => ?_
  · have h99 : t.val = 99 := by have := (flush5_6 t).mp hf; have := lt5 t; omega
    show (cfg5.win 6).cut (grid5.coords t) ((dat5 V c).after 6 t) = _
    rw [after5_6, acc5_eq, h99]
    exact funext fun i => congrArg (SUM5 _ _ _ _ _) (emb5_6 t i).symm
  · have h := ((cfg5.win 6).blk last5pt).view.emb_mem_set i
    rw [emb5_6] at h
    exact ⟨last5pt, (flush5_6 _).mpr rfl, h⟩

/-- Output 7 is produced at the last step only, where it is SQ5. -/
theorem final5_sq (c : Dev nD) : (dat5 V c).arrAt 7 cfg5.N = SQ5 (V c main_v25) (V c main_v0) (V c main_arg10) (V c main_v32) (V c main_v31) := by
  refine (dat5 V c).arrAt_eq_of_cover 7 _ (fun t hf => ?_) fun (i : S1x128.Idx) => ?_
  · have h99 : t.val = 99 := by have := (flush5_7 t).mp hf; have := lt5 t; omega
    show (cfg5.win 7).cut (grid5.coords t) ((dat5 V c).after 7 t) = _
    rw [after5_7, acc5_eq, h99]
    exact funext fun i => congrArg (SQ5 _ _ _ _ _) (emb5_7 t i).symm
  · have h := ((cfg5.win 7).blk last5pt).view.emb_mem_set i
    rw [emb5_7] at h
    exact ⟨last5pt, (flush5_7 _).mpr rfl, h⟩

end Final

end Cert.KernelIdeal.Gen

end
-- ==== Proof.KI.Value6.lean ====
import proofs.«420090_j3152505996138_1_alg».proof.Proof.KI.Region6
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.Gen

open Idealize.ShloMosaic Idealize.ShloMosaic.TcCoe Idealize.SL.Sem
open Idealize.ShloMosaic.Pipeline (Dat)
open Idealize.ShloMosaic.ValueIdx

variable {F : FTy → Type} [FloatOps F]

def rows6 (X : Vec F S500000x128 .f32) (q : Fin 100) : Vec F S5000x128 .f32 :=
  fun y => X (ix2 (n0 := 500000) (n1 := 128)
    ⟨q.val * 5000 + (y 0).val, by have h := idx2_lt0 y; have hq := q.isLt; omega⟩ ⟨(y 1).val, idx2_lt1 y⟩)

def blockNo6 (i : S500000x128.Idx) : Fin 100 :=
  ⟨(i 0).val / 5000, by have h := idx2_lt0 i; omega⟩

def inBlock6 (i : S500000x128.Idx) : S5000x128.Idx :=
  ix2 (n0 := 5000) (n1 := 128) ⟨(i 0).val % 5000, Nat.mod_lt _ (by decide)⟩ ⟨(i 1).val, idx2_lt1 i⟩

def G6 (x x0 : Vec F S500000x128 .f32) (mu var gam bet : Vec F S1x128 .f32) : Vec F S500000x128 .f32 :=
  fun i => out6 (rows6 x (blockNo6 i)) (rows6 x0 (blockNo6 i)) mu var gam bet (inBlock6 i)

/-- On the rows of block q the array is the block's value: row 5000 q + s lies in block q at row s. -/
theorem G6_at (x x0 : Vec F S500000x128 .f32) (mu var gam bet : Vec F S1x128 .f32) (q : Fin 100) (j : S5000x128.Idx)
    (i : S500000x128.Idx) (h0 : (i 0).val = q.val * 5000 + (j 0).val) (h1 : (i 1).val = (j 1).val) :
    G6 x x0 mu var gam bet i = out6 (rows6 x q) (rows6 x0 q) mu var gam bet j := by
  have hj := idx2_lt0 j
  have eq : blockNo6 i = q := Fin.ext (by show (i 0).val / 5000 = q.val; omega)
  have er : inBlock6 i = j := Shape.idx_ext₂ (by show (i 0).val % 5000 = (j 0).val; omega) h1
  unfold G6
  rw [eq, er]

theorem rowIdx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_6.index t (0 : Fin 2) = t.val ∧ win6_6.index t (1 : Fin 2) = 0 :=
  (by decide +kernel : ∀ t : Fin grid6.N, _)

theorem wholeIdx6 : ∀ (t : Fin cfg6.N) (a : Fin 2),
    win6_2.index t a = 0 ∧ win6_3.index t a = 0 ∧ win6_4.index t a = 0 ∧ win6_5.index t a = 0 :=
  (by decide +kernel : ∀ t : Fin grid6.N, _)

variable (V : (c : Dev nD) → (b : Ref sig .tc) → Buf (Elt F) ((c : Thread nD τ).loc b))

/-- What is left at point t is the block value on rows 5000 t .. 5000 t + 4999 of the two row-blocked arrays and on the four whole ones. -/
theorem after6_eq (c : Dev nD) (t : Fin cfg6.N) : (dat6 V c).after 6 t =
    out6 (rows6 (V c (Pipeline.arrRef spec6 0)) (Fin.cast N_6 t)) (rows6 (V c (Pipeline.arrRef spec6 1)) (Fin.cast N_6 t))
      (V c (Pipeline.arrRef spec6 2)) (V c (Pipeline.arrRef spec6 3)) (V c (Pipeline.arrRef spec6 4))
      (V c (Pipeline.arrRef spec6 5)) := by
  rw [after6_6]
  congr 1
  · exact funext fun y => congrArg _ (Shape.idx_ext₂ ((win6_0.rect_emb_val t y 0).trans (by rw [(rowIdx6 t).1]; rfl))
      (win6_0.rect_emb_val_of_index_zero t 1 (rowIdx6 t).2.1 y))
  · exact funext fun y => congrArg _ (Shape.idx_ext₂ ((win6_1.rect_emb_val t y 0).trans (by rw [(rowIdx6 t).2.2.1]; rfl))
      (win6_1.rect_emb_val_of_index_zero t 1 (rowIdx6 t).2.2.2.1 y))
  · exact funext fun y => congrArg _ (funext fun a => Fin.ext (win6_2.rect_emb_val_of_index_zero t a (wholeIdx6 t a).1 y))
  · exact funext fun y => congrArg _ (funext fun a => Fin.ext (win6_3.rect_emb_val_of_index_zero t a (wholeIdx6 t a).2.1 y))
  · exact funext fun y => congrArg _ (funext fun a => Fin.ext (win6_4.rect_emb_val_of_index_zero t a (wholeIdx6 t a).2.2.1 y))
  · exact funext fun y => congrArg _ (funext fun a => Fin.ext (win6_5.rect_emb_val_of_index_zero t a (wholeIdx6 t a).2.2.2 y))

/-- Entry y of the output's block at point t sits in the array at row 5000 t + (row of y), in y's column. -/
theorem emb6 (t : Fin cfg6.N) (y : S5000x128.Idx) :
    ((win6_6.rect t).emb y (0 : Fin 2) : ℕ) = t.val * 5000 + (y 0).val ∧ ((win6_6.rect t).emb y (1 : Fin 2) : ℕ) = (y 1).val :=
  ⟨(win6_6.rect_emb_val t y 0).trans (by rw [(rowIdx6 t).2.2.2.2.1]; rfl),
    win6_6.rect_emb_val_of_index_zero t 1 (rowIdx6 t).2.2.2.2.2 y⟩

/-- Point t's block of the output is block t of G6, and the 100 blocks cover the rows: row r lies in block r / 5000. -/
theorem final6 (c : Dev nD) : (dat6 V c).arrAt 6 cfg6.N =
    G6 (V c (Pipeline.arrRef spec6 0) : Vec F S500000x128 .f32) (V c (Pipeline.arrRef spec6 1) : Vec F S500000x128 .f32)
      (V c (Pipeline.arrRef spec6 2) : Vec F S1x128 .f32) (V c (Pipeline.arrRef spec6 3) : Vec F S1x128 .f32)
      (V c (Pipeline.arrRef spec6 4) : Vec F S1x128 .f32) (V c (Pipeline.arrRef spec6 5) : Vec F S1x128 .f32) := by
  refine (dat6 V c).arrAt_eq_of_cover 6 _ (fun t _ => ?_) fun (i : S500000x128.Idx) => ?_
  · show (cfg6.win 6).cut (grid6.coords t) ((dat6 V c).after 6 t) = _
    rw [after6_eq]
    exact funext fun j => (G6_at _ _ _ _ _ _ (Fin.cast N_6 t) j _ (emb6 t j).1 (emb6 t j).2).symm
  · have h := ((cfg6.win 6).blk (Fin.cast N_6.symm (blockNo6 i))).view.emb_mem_set (inBlock6 i)
    rw [show ((cfg6.win 6).blk (Fin.cast N_6.symm (blockNo6 i))).view.emb (inBlock6 i) = i from
      Shape.idx_ext₂ ((emb6 _ _).1.trans (Nat.div_add_mod' _ _)) (emb6 _ _).2] at h
    exact ⟨_, flush6_6 _, h⟩

/-- The value at entry (s, j) of a block, at the ideal numbers: the operations in their own order. -/
theorem out6_apply (x x0 : Vec Ideal S5000x128 .f32) (mu var gam bet : Vec Ideal S1x128 .f32) (s : Fin 5000) (j : Fin 128) :
    out6 x x0 mu var gam bet (ix2 s j)
      = (x (ix2 s j) + ((max (x0 (ix2 s j)) 0 - mu (ix2 0 j)) * Ideal.rsqrt (var (ix2 0 j) + Ideal.ofBits .f32 0x3727C5AC#32))
          * gam (ix2 0 j)) + bet (ix2 0 j) := by
  unfold out6 k6_pay1
  simp only [shapeCast_self]
  rw [addf_apply, addf_apply, mulf_apply, mulf_apply, subf_apply, maximumf_apply, broadcast_apply,
    broadcastTo_1b_ab_apply, broadcastTo_1b_ab_apply, broadcastTo_1b_ab_apply, broadcastTo_1b_ab_apply]
  show _ + (max _ (Ideal.ofBits .f32 0x00000000#32) - _) * Ideal.rsqrt (var (ix2 0 j) + Ideal.ofBits .f32 0x3727C5AC#32) * _ + _ = _
  rw [Ideal.ofBits_zero_f32]

/-- Row p % 5000 of block p / 5000 is row p. -/
theorem rows6_apply (X : Vec F S500000x128 .f32) (p : Fin 500000) (j : Fin 128) (h) :
    rows6 X (blockNo6 (ix2 p j)) (ix2 ⟨p.val % 5000, h⟩ j) = X (ix2 p j) :=
  congrArg X (Shape.idx_ext₂ (Nat.div_add_mod' p.val 5000) rfl)

theorem G6_apply (x x0 : Vec Ideal S500000x128 .f32) (mu var gam bet : Vec Ideal S1x128 .f32) (p : Fin 500000) (j : Fin 128) :
    G6 x x0 mu var gam bet (ix2 p j)
      = (x (ix2 p j) + ((max (x0 (ix2 p j)) 0 - mu (ix2 0 j)) * Ideal.rsqrt (var (ix2 0 j) + Ideal.ofBits .f32 0x3727C5AC#32))
          * gam (ix2 0 j)) + bet (ix2 0 j) := by
  show out6 _ _ mu var gam bet (ix2 ⟨p.val % 5000, Nat.mod_lt _ (by decide)⟩ j) = _
  rw [out6_apply, rows6_apply, rows6_apply]

end Cert.KernelIdeal.Gen

end
-- ==== Proof.KI.KernelValueC.lean ====
import proofs.«420090_j3152505996138_1_alg».proof.Proof.KI.Assemble
import proofs.«420090_j3152505996138_1_alg».proof.Proof.KI.Inputs
import proofs.«420090_j3152505996138_1_alg».proof.Proof.KI.OneHot
import proofs.«420090_j3152505996138_1_alg».proof.Proof.KI.Host0
import proofs.«420090_j3152505996138_1_alg».proof.Proof.KI.Value4
import proofs.«420090_j3152505996138_1_alg».proof.Proof.KI.Host356
import proofs.«420090_j3152505996138_1_alg».proof.Proof.KI.Value5
import proofs.«420090_j3152505996138_1_alg».proof.Proof.KI.Value6
import proofs.«420090_j3152505996138_1_alg».proof.Proof.KI.KernelValueB
import proofs.«420090_j3152505996138_1_alg».proof.Proof.Spec
import proofs.«420090_j3152505996138_1_alg».proof.Proof.LibBridgeAlgebra
import Idealize.ShloMosaic.Lib.ValueIdx

set_option maxRecDepth 16384

noncomputable section

namespace Cert.KernelIdeal.Gen

open Idealize.ShloMosaic Idealize.ShloMosaic.TcCoe Idealize.ShloMosaic.ValueIdx
open scoped BigOperators

variable (m : (ℓ : Loc nD τ sig) → Buf (Elt Ideal) ℓ)

-- A buffer that nothing from the host operations before call 5 onwards writes holds, at each stage from call 4 on, what the run ends with.
theorem kvc_late (c : Dev nD) (r : Ref sig .tc) {z : (Proc.devRef .tc r : DevRef τ sig).ty.Contents (Elt Ideal)} (hz : V17 m (outs m) c r = z)
    (h : r ∉ hostOps5_W ∧ r ∉ ([main_v33_0, main_v33_1, main_v33_2] : List (Ref sig .tc)) ∧ r ∉ hostOps6_W
      ∧ r ∉ ([main_v42] : List (Ref sig .tc))) :
    W13 m c r = z ∧ W14 m c r = z ∧ W15 m c r = z ∧ W16 m c r = z := by
  subst hz
  rw [← V13_eq m c, ← V14_eq m c, ← V15_eq m c, ← V16_eq m c, V17_of m (outs m) c r h.2.2.2, V16_of m (outs m) c r h.2.2.1,
    V15_of m (outs m) c r h.2.1, V14_of m (outs m) c r h.1]
  exact ⟨rfl, rfl, rfl, rfl⟩

-- A buffer that call 4 and the host operations after it do not write is unchanged since call 3.
theorem kvc_W14_of (c : Dev nD) (r : Ref sig .tc)
    (h : r ∉ ([main_v26_0, main_v26_1] : List (Ref sig .tc)) ∧ r ∉ hostOps5_W) : W14 m c r = W12 m c r := by
  rw [← V14_eq m c, ← V12_eq m c, V14_of m (outs m) c r h.2, V13_of m (outs m) c r h.1]

-- The label column is unchanged since call 1, so its one-hot entry (n, g) is 1 exactly when node n's graph is g.
theorem kvc_onehot (c : Dev nD) (hR : InRange m c) (n : Fin 500000) (g : Fin 512) :
    onehot (W12 m c main_v0) n g = if bt m c n = g then 1 else 0 := by
  rw [← V12_eq m c, V12_of m (outs m) c main_v0 (by decide), V11_of m (outs m) c main_v0 (by decide),
    V10_of m (outs m) c main_v0 (by decide), V9_eq m c]
  exact onehot_bt m c hR n g

abbrev kvc_round (c : Dev nD) (o1 : Spec.M 500000 64) : Spec.M 500000 128 :=
  Spec.round o1 (bt m c) (vg2W m c) (vg2b m c) (vl2W m c)

section
variable (c : Dev nD) (o1 : Spec.M 500000 64)
  (ho1 : ∀ p j, (W12 m c main_v25 : Vec Ideal S500000x64 .f32) (ix2 p j) = o1 p j) (hR : InRange m c)
include ho1 hR

theorem kv_seg2 (g : Fin 512) (k : Fin 64) :
    (W13 m c main_v26_0 : Vec Ideal S512x64 .f32) (ix2 g k) = Spec.segsum o1 (bt m c) g k := by
  unfold W13
  rw [Function.update_of_ne (dne (show (main_v26_0 : Ref sig .tc) ≠ main_v26_1 by decide)), Function.update_self]
  refine (congrFun (final4_sums (tcv (W12 m)) c) (ix2 g k)).trans ((S4_apply (W12 m c main_v25) (W12 m c main_v0) g k).trans ?_)
  show (_ : EReal) = _
  unfold Spec.segsum
  refine (Finset.sum_congr rfl fun n _ => ?_).trans
    (BridgeAlgebra.sum_indicator_mul Finset.univ (bt m c) g (fun n => o1 n k))
  rw [kvc_onehot m c hR n g, ho1]

theorem kv_cnt2 (g : Fin 512) :
    (W13 m c main_v26_1 : Vec Ideal S512x1 .f32) (ix2 g (0 : Fin 1)) = Spec.cnt (bt m c) g := by
  unfold W13
  rw [Function.update_self]
  unfold o26_1
  rw [final4_cnt (tcv (W12 m)) c, C4_apply]
  show (_ : EReal) = _
  unfold Spec.cnt
  exact Finset.sum_congr rfl fun n _ => kvc_onehot m c hR n g

theorem kv_gmean2 (g : Fin 512) (j : Fin 128) :
    (W14 m c main_v31 : Vec Ideal S512x128 .f32) (ix2 g j) = Spec.gmean o1 (bt m c) (vl2W m c) g j := by
  refine (host5_v31 (W13 m c) (Spec.segsum o1 (bt m c)) (Spec.cnt (bt m c)) (fun g k => kv_seg2 m c o1 ho1 hR g k)
    (fun g => kv_cnt2 m c o1 ho1 hR g) g j).trans ?_
  show (_ : EReal) = _
  unfold Spec.gmean
  refine Finset.sum_congr rfl fun k _ => ?_
  rw [(kvc_late m c main_arg12 (V17_main_arg12 m (outs m) c) (by decide)).1]

-- Entry (p, j) of the second round over the contents call 5 finds: the one-hot row of p selects the mean row of p's graph.
theorem kvc_G5 (p : Fin 500000) (j : Fin 128) :
    G5 (W14 m c main_v25) (W14 m c main_v0) (W14 m c main_arg10) (W14 m c main_v32) (W14 m c main_v31) (ix2 p j)
      = kvc_round m c o1 p j := by
  have h1 : ∀ k : Fin 64, (W14 m c main_v25 : Vec Ideal S500000x64 .f32) (ix2 p k) = o1 p k := fun k => by
    rw [kvc_W14_of m c main_v25 (by decide)]
    exact ho1 p k
  have h2 : ∀ k : Fin 64, (W14 m c main_arg10 : Vec Ideal S64x128 .f32) (ix2 k j) = vg2W m c k j := fun k =>
    congrFun (kvc_late m c main_arg10 (V17_main_arg10 m (outs m) c) (by decide)).2.1 (ix2 k j)
  have h3 : (W14 m c main_v32 : Vec Ideal S1x128 .f32) (ix2 (0 : Fin 1) j) = vg2b m c j :=
    (host5_v32 (W13 m c) j).trans (congrFun (kvc_late m c main_arg11 (V17_main_arg11 m (outs m) c) (by decide)).1 (ix1 j))
  have h5 : ∀ g : Fin 512, onehot (W14 m c main_v0) p g = if g = bt m c p then 1 else 0 := fun g => by
    rw [kvc_W14_of m c main_v0 (by decide), kvc_onehot m c hR p g]
    exact if_congr eq_comm rfl rfl
  have hm : (∑ g : Fin 512, onehot (W14 m c main_v0) p g * (W14 m c main_v31 : Vec Ideal S512x128 .f32) (ix2 g j))
      = Spec.gmean o1 (bt m c) (vl2W m c) (bt m c p) j :=
    (BridgeAlgebra.sum_onehot_mul_of (bt m c p) _ _ h5).trans (kv_gmean2 m c o1 ho1 hR (bt m c p) j)
  rw [G5_apply, hm, h3, Finset.sum_congr rfl fun k _ => by rw [h1 k, h2 k]]
  rfl

theorem kv_xf (p : Fin 500000) (j : Fin 128) :
    (W15 m c main_v33_0 : Vec Ideal S500000x128 .f32) (ix2 p j) = kvc_round m c o1 p j := by
  unfold W15
  rw [Function.update_of_ne (dne (show (main_v33_0 : Ref sig .tc) ≠ main_v33_2 by decide)),
    Function.update_of_ne (dne (show (main_v33_0 : Ref sig .tc) ≠ main_v33_1 by decide)), Function.update_self]
  exact (congrFun (final5_val (tcv (W14 m)) c) (ix2 p j)).trans (kvc_G5 m c o1 ho1 hR p j)

theorem kv_sum (j : Fin 128) :
    (W15 m c main_v33_1 : Vec Ideal S1x128 .f32) (ix2 (0 : Fin 1) j) = ∑ p : Fin 500000, Spec.relu (kvc_round m c o1) p j := by
  unfold W15
  rw [Function.update_of_ne (dne (show (main_v33_1 : Ref sig .tc) ≠ main_v33_2 by decide)), Function.update_self]
  unfold o33_1
  rw [final5_sum (tcv (W14 m)) c, SUM5_apply]
  show (_ : EReal) = _
  refine Finset.sum_congr rfl fun p _ => ?_
  rw [kvc_G5 m c o1 ho1 hR p j]
  rfl

theorem kv_sq (j : Fin 128) :
    (W15 m c main_v33_2 : Vec Ideal S1x128 .f32) (ix2 (0 : Fin 1) j)
      = ∑ p : Fin 500000, Spec.relu (kvc_round m c o1) p j * Spec.relu (kvc_round m c o1) p j := by
  unfold W15
  rw [Function.update_self]
  unfold o33_2
  rw [final5_sq (tcv (W14 m)) c, SQ5_apply]
  show (_ : EReal) = _
  refine Finset.sum_congr rfl fun p _ => ?_
  rw [kvc_G5 m c o1 ho1 hR p j]
  rfl

theorem kv_mean (j : Fin 128) :
    (W16 m c main_v35 : Vec Ideal S1x128 .f32) (ix2 (0 : Fin 1) j) = Spec.mean (Spec.relu (kvc_round m c o1)) j :=
  host6_v35 (W15 m c) _ (fun j => kv_sum m c o1 ho1 hR j) j

theorem kv_var (j : Fin 128) :
    (W16 m c main_v39 : Vec Ideal S1x128 .f32) (ix2 (0 : Fin 1) j) = Spec.varK (Spec.relu (kvc_round m c o1)) j :=
  host6_v39 (W15 m c) _ _ (fun j => kv_sum m c o1 ho1 hR j) (fun j => kv_sq m c o1 ho1 hR j) j

end

theorem kv_out (c : Dev nD) (o1 : Spec.M 500000 64)
    (ho1 : ∀ p j, (W12 m c main_v25 : Vec Ideal S500000x64 .f32) (ix2 p j) = o1 p j) (hR : InRange m c)
    (p : Fin 500000) (j : Fin 128) :
    (W17 m c main_v42 : Vec Ideal S500000x128 .f32) (ix2 p j)
      = Spec.normAdd (X m c) (Spec.relu (Spec.round o1 (bt m c) (vg2W m c) (vg2b m c) (vl2W m c))) (Spec.varK (Spec.relu (Spec.round o1 (bt m c) (vg2W m c) (vg2b m c) (vl2W m c)))) (vgam m c) (vbet m c) p j := by
  have e : W17 m c main_v42 = G6 (W16 m c main_arg0) (W16 m c main_v33_0) (W16 m c main_v35) (W16 m c main_v39)
      (W16 m c main_v40) (W16 m c main_v41) := by
    unfold W17
    rw [Function.update_self]
    exact final6 (tcv (W16 m)) c
  have hx0 : W16 m c main_v33_0 = W15 m c main_v33_0 := by
    rw [← V16_eq m c, ← V15_eq m c, V16_of m (outs m) c main_v33_0 (by decide)]
  have hgam : (W16 m c main_v40 : Vec Ideal S1x128 .f32) (ix2 (0 : Fin 1) j) = vgam m c j :=
    (host6_v40 (W15 m c) j).trans (congrFun (kvc_late m c main_arg13 (V17_main_arg13 m (outs m) c) (by decide)).2.2.1 (ix1 j))
  have hbet : (W16 m c main_v41 : Vec Ideal S1x128 .f32) (ix2 (0 : Fin 1) j) = vbet m c j :=
    (host6_v41 (W15 m c) j).trans (congrFun (kvc_late m c main_arg14 (V17_main_arg14 m (outs m) c) (by decide)).2.2.1 (ix1 j))
  rw [e, G6_apply, (kvc_late m c main_arg0 (V17_main_arg0 m (outs m) c) (by decide)).2.2.2, hx0, kv_xf m c o1 ho1 hR p j,
    kv_mean m c o1 ho1 hR j, kv_var m c o1 ho1 hR j, hgam, hbet]
  rfl

end Cert.KernelIdeal.Gen

end
-- ==== Proof.PreFacts.lean ====
import proofs.«420090_j3152505996138_1_alg».proof.Pre_finite_inputs
import Idealize.ShloMosaic.Lib.ReduceAll
import Idealize.ShloMosaic.Lib.ValueIdx
import Idealize.ShloMosaic.PureOps.Ideal

noncomputable section

namespace Cert.PreFacts

open Idealize.ShloMosaic Cert.Pre_finite_inputs

instance : Subsingleton S_.Idx := ⟨fun a b => funext fun d => d.elim0⟩

-- An extended real x with max x (-x) < +∞ is a real number: at ⊤ the maximum is ⊤, at ⊥ it is -⊥ = ⊤.
theorem real_of_abs_lt_inf (x : EReal)
    (h : FloatOps.cmpf (F := Ideal) .olt (FloatOps.hostAbsf (F := Ideal) (φ := .f32) x)
      (FloatOps.ofBits (F := Ideal) .f32 0x7F800000#32) = 1#1) :
    ∃ r : ℝ, x = (r : EReal) := by
  have h' : Ideal.cmp .olt (max x (-x)) (Ideal.ofBits .f32 0x7F800000#32) = 1#1 := h
  rw [show Ideal.ofBits .f32 0x7F800000#32 = (⊤ : EReal) by simp [Ideal.ofBits, Ideal.ieee]] at h'
  induction x using EReal.rec with
  | coe r => exact ⟨r, rfl⟩
  | bot => simp [Ideal.cmp] at h'
  | top => simp [Ideal.cmp] at h'

-- The conjunction of two one-word arrays is 1 exactly when both words are.
theorem andi_ix0 (a b : IVec S_ 1) : andi a b ValueIdx.ix0 = 1#1 ↔ a ValueIdx.ix0 = 1#1 ∧ b ValueIdx.ix0 = 1#1 :=
  IntOp.andi_eq_one

-- Every entry of a float array is a real number.
def AllReal {s : Shape} (x : FVec Ideal s .f32) : Prop := ∀ i, ∃ r : ℝ, x i = (r : EReal)

-- all(|x| < +∞) being 1 makes every entry of x a real.
theorem real_all {s : Shape} {axes : List (Fin s.rank)} {x : FVec Ideal s .f32}
    {hb : S_.BroadcastsInDim s (![] : Fin 0 → Fin s.rank)} {hr : s.ReducesTo axes S_} {h0 : 0 < S_.numel}
    {init : IVec S_ 1}
    (h : Host.reduce IntOp.andi
        (cmpf .olt (Host.absf x) (broadcastInDim s ![] hb (constant (F := Ideal) S_ .f32 0x7F800000#32)))
        init hr h0 ValueIdx.ix0 = 1#1) : AllReal x := fun i =>
  real_of_abs_lt_inf (x i) (Host.reduce_andi_all _ init hr h0 ValueIdx.ix0 h i)

-- all((lo ≤ x) and (x < hi)), signed, being 1 bounds every word of x by the integers the two words denote.
theorem range_all {s : Shape} {axes : List (Fin s.rank)} {x : IVec s 32} {lo hi : BitVec 32} {l u : ℤ}
    {hb : S_.BroadcastsInDim s (![] : Fin 0 → Fin s.rank)} {hr : s.ReducesTo axes S_} {h0 : 0 < S_.numel}
    {init : IVec S_ 1} (hl : lo.toInt = l) (hu : hi.toInt = u)
    (h : Host.reduce IntOp.andi
        (andi (cmpi .sge x (broadcastInDim s ![] hb (constantI S_ 32 lo)))
          (cmpi .slt x (broadcastInDim s ![] hb (constantI S_ 32 hi))))
        init hr h0 ValueIdx.ix0 = 1#1) :
    ∀ i, l ≤ (x i).toInt ∧ (x i).toInt < u := fun i => by
  subst hl hu
  obtain ⟨a, b⟩ := IntOp.andi_eq_one.1 (Host.reduce_andi_all _ init hr h0 ValueIdx.ix0 h i)
  exact ⟨IntOp.cmpi_sge.1 a, IntOp.cmpi_slt.1 b⟩

variable [Cert.Pre_finite_inputs.Facts]

variable {x : Vec Ideal S500000x128 .f32} {W1 : Vec Ideal S128x128 .f32} {b1 : Vec Ideal S128 .f32}
    {W2 : Vec Ideal S128x8 .f32} {b2 : Vec Ideal S8 .f32} {W0 : Vec Ideal S16x64 .f32} {b0 : Vec Ideal S64 .f32}
    {g1W : Vec Ideal S64x64 .f32} {g1b : Vec Ideal S64 .f32} {l1W : Vec Ideal S64x64 .f32}
    {g2W : Vec Ideal S64x128 .f32} {g2b : Vec Ideal S128 .f32} {l2W : Vec Ideal S64x128 .f32}
    {gam : Vec Ideal S128 .f32} {bet : Vec Ideal S128 .f32}
    {ei : Vec Ideal S2x8000000 .i32} {bt : Vec Ideal S500000 .i32} {die : Vec Ideal S500000 .i32}
  (h : Cert.Pre_finite_inputs.fn (F := Ideal) x W1 b1 W2 b2 W0 b0 g1W g1b l1W g2W g2b l2W gam bet ei bt die
      = (fun _ => 1#1))
include h

-- The precondition's one word is a left-nested conjunction of eighteen all-reductions, one per argument in order.
theorem decode :
    AllReal x ∧ AllReal W1 ∧ AllReal b1 ∧ AllReal W2 ∧ AllReal b2 ∧ AllReal W0 ∧ AllReal b0 ∧ AllReal g1W ∧ AllReal g1b
      ∧ AllReal l1W ∧ AllReal g2W ∧ AllReal g2b ∧ AllReal l2W
      ∧ (∀ i, -500000 ≤ (ei i).toInt ∧ (ei i).toInt < 500000)
      ∧ (∀ i, 0 ≤ (bt i).toInt ∧ (bt i).toInt < 512)
      ∧ (∀ i, -8000000 ≤ (die i).toInt ∧ (die i).toInt < 8000000) := by
  have h0 := congrFun h ValueIdx.ix0
  dsimp only [fn, fn_part1, fn_part2, fn_part3, fn_part4, fn_part5] at h0
  simp only [andi_ix0] at h0
  obtain ⟨⟨⟨⟨⟨⟨⟨⟨⟨⟨⟨⟨⟨⟨⟨⟨⟨hx, hW1⟩, hb1⟩, hW2⟩, hb2⟩, hW0⟩, hb0⟩, hg1W⟩, hg1b⟩, hl1W⟩, hg2W⟩, hg2b⟩, hl2W⟩, -⟩, -⟩, hei⟩, hbt⟩,
    hdie⟩ := h0
  exact ⟨real_all hx, real_all hW1, real_all hb1, real_all hW2, real_all hb2, real_all hW0, real_all hb0,
    real_all hg1W, real_all hg1b, real_all hl1W, real_all hg2W, real_all hg2b, real_all hl2W,
    range_all (by decide) (by decide) hei, range_all (by decide) (by decide) hbt,
    range_all (by decide) (by decide) hdie⟩

variable (x W1 b1 W2 b2 W0 b0 g1W g1b l1W g2W g2b l2W gam bet ei bt die)

theorem real_x : ∀ i, ∃ r : ℝ, x i = (r : EReal) := (decode h).1
theorem real_W1 : ∀ i, ∃ r : ℝ, W1 i = (r : EReal) := (decode h).2.1
theorem real_b1 : ∀ i, ∃ r : ℝ, b1 i = (r : EReal) := (decode h).2.2.1
theorem real_W2 : ∀ i, ∃ r : ℝ, W2 i = (r : EReal) := (decode h).2.2.2.1
theorem real_b2 : ∀ i, ∃ r : ℝ, b2 i = (r : EReal) := (decode h).2.2.2.2.1
theorem real_W0 : ∀ i, ∃ r : ℝ, W0 i = (r : EReal) := (decode h).2.2.2.2.2.1
theorem real_b0 : ∀ i, ∃ r : ℝ, b0 i = (r : EReal) := (decode h).2.2.2.2.2.2.1
theorem real_g1W : ∀ i, ∃ r : ℝ, g1W i = (r : EReal) := (decode h).2.2.2.2.2.2.2.1
theorem real_g1b : ∀ i, ∃ r : ℝ, g1b i = (r : EReal) := (decode h).2.2.2.2.2.2.2.2.1
theorem real_l1W : ∀ i, ∃ r : ℝ, l1W i = (r : EReal) := (decode h).2.2.2.2.2.2.2.2.2.1
theorem real_g2W : ∀ i, ∃ r : ℝ, g2W i = (r : EReal) := (decode h).2.2.2.2.2.2.2.2.2.2.1
theorem real_g2b : ∀ i, ∃ r : ℝ, g2b i = (r : EReal) := (decode h).2.2.2.2.2.2.2.2.2.2.2.1
theorem real_l2W : ∀ i, ∃ r : ℝ, l2W i = (r : EReal) := (decode h).2.2.2.2.2.2.2.2.2.2.2.2.1
theorem range_ei : ∀ i, -500000 ≤ (ei i).toInt ∧ (ei i).toInt < 500000 := (decode h).2.2.2.2.2.2.2.2.2.2.2.2.2.1
theorem range_bt : ∀ i, 0 ≤ (bt i).toInt ∧ (bt i).toInt < 512 := (decode h).2.2.2.2.2.2.2.2.2.2.2.2.2.2.1
theorem range_die : ∀ i, -8000000 ≤ (die i).toInt ∧ (die i).toInt < 8000000 := (decode h).2.2.2.2.2.2.2.2.2.2.2.2.2.2.2

end Cert.PreFacts

end
-- ==== Proof.LibRealClosure.lean ====
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

@[reducible] def IsReal (x : EReal) : Prop := ∃ r : ℝ, x = (r : EReal)

theorem isReal_zero : IsReal 0 := ⟨0, rfl⟩
theorem isReal_one : IsReal 1 := ⟨1, rfl⟩

-- An operation that on reals is the coercion of a real operation keeps real values real.
theorem IsReal.map₂ {f : ℝ → ℝ → ℝ} {g : EReal → EReal → EReal} (hfg : ∀ a b : ℝ, ((f a b : ℝ) : EReal) = g a b)
    {x y : EReal} (hx : IsReal x) (hy : IsReal y) : IsReal (g x y) := by
  obtain ⟨a, rfl⟩ := hx; obtain ⟨b, rfl⟩ := hy; exact ⟨f a b, (hfg a b).symm⟩
-- A value equal to one of two real values is real.
theorem IsReal.of_or {x y z : EReal} (h : z = x ∨ z = y) (hx : IsReal x) (hy : IsReal y) : IsReal z := by
  rcases h with rfl | rfl <;> assumption

theorem IsReal.add {x y : EReal} (hx : IsReal x) (hy : IsReal y) : IsReal (x + y) := hx.map₂ EReal.coe_add hy
theorem IsReal.sub {x y : EReal} (hx : IsReal x) (hy : IsReal y) : IsReal (x - y) := hx.map₂ EReal.coe_sub hy
theorem IsReal.mul {x y : EReal} (hx : IsReal x) (hy : IsReal y) : IsReal (x * y) := hx.map₂ EReal.coe_mul hy
theorem IsReal.max {x y : EReal} (hx : IsReal x) (hy : IsReal y) : IsReal (max x y) := .of_or (max_choice x y) hx hy
theorem IsReal.min {x y : EReal} (hx : IsReal x) (hy : IsReal y) : IsReal (min x y) := .of_or (min_choice x y) hx hy
theorem IsReal.ite {p : Prop} [Decidable p] {x y : EReal} (hx : IsReal x) (hy : IsReal y) :
    IsReal (if p then x else y) := .of_or (ite_eq_or_eq p x y) hx hy
theorem isReal_sum_univ {ι : Type*} [Fintype ι] (f : ι → EReal) (h : ∀ i, IsReal (f i)) :
    IsReal (∑ i, f i) := Finset.sum_induction f IsReal (fun _ _ => IsReal.add) isReal_zero fun i _ => h i

theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩

theorem ofBits_one_f32 : Ideal.ofBits .f32 0x3F800000#32 = ((1 : ℝ) : EReal) := by
  simp [Ideal.ofBits, Ideal.ieee, -EReal.coe_mul, -EReal.coe_one]; norm_num
theorem ofBits_zero_f32 : Ideal.ofBits .f32 0x00000000#32 = 0 := Ideal.ofBits_zero_f32

variable {R C : Nat}

-- Reducing axis 0 of an R × C array sends an index to its column.
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

end RealClosure
-- ==== Proof.Bridge.lean ====
import proofs.«420090_j3152505996138_1_alg».proof.Proof.Spec
import proofs.«420090_j3152505996138_1_alg».proof.Proof.LibBridgeAlgebra
import proofs.«420090_j3152505996138_1_alg».proof.Proof.LibRealClosure

noncomputable section

namespace Cert.Bridge

open Idealize.ShloMosaic RealClosure
open scoped BigOperators

-- A linear layer of real arrays is real: a finite sum of products of reals plus a real.
theorem lin_real {n k j : ℕ} {x : Spec.M n k} {W : Spec.M k j} {b : Fin j → EReal}
    (hx : ∀ p q, IsReal (x p q)) (hW : ∀ p q, IsReal (W p q)) (hb : ∀ q, IsReal (b q)) (p : Fin n) (q : Fin j) :
    IsReal (Spec.lin x W b p q) :=
  (isReal_sum_univ _ fun i => (hx p i).mul (hW i q)).add (hb q)

theorem relu_real {n j : ℕ} {a : Spec.M n j} (ha : ∀ p q, IsReal (a p q)) (p : Fin n) (q : Fin j) :
    IsReal (Spec.relu a p q) :=
  (ha p q).max isReal_zero

-- An interleaved entry is a node value or the larger of two node values; the index maps are arbitrary.
theorem pairs_real {v : Spec.M 500000 8} (e0 e1 : Fin 8000000 → Fin 500000) (d : Fin 500000 → Fin 8000000)
    (hv : ∀ p q, IsReal (v p q)) (p : Fin 500000) (k : Fin 16) : IsReal (Spec.pairs v e0 e1 d p k) :=
  IsReal.ite (hv p _) ((hv _ _).max (hv _ _))

-- One round is real: a graph's sums and its count (a sum of ones and zeros) are real, and the mean divides by max(count, 1) ≥ 1.
theorem round_real {w e : ℕ} {x : Spec.M 500000 w} (bt : Fin 500000 → Fin 512) {GW : Spec.M w e} {gb : Fin e → EReal}
    {LW : Spec.M w e} (hx : ∀ p q, IsReal (x p q)) (hGW : ∀ p q, IsReal (GW p q)) (hgb : ∀ q, IsReal (gb q))
    (hLW : ∀ p q, IsReal (LW p q)) (p : Fin 500000) (j : Fin e) : IsReal (Spec.round x bt GW gb LW p j) :=
  (lin_real hx hGW hgb p j).sub <| isReal_sum_univ _ fun k =>
    (isReal_div (isReal_sum_univ _ fun n => IsReal.ite (hx n k) isReal_zero)
      ((isReal_sum_univ _ fun _ => IsReal.ite isReal_one isReal_zero).max isReal_one)
      (lt_of_lt_of_le zero_lt_one (le_max_right _ _)).ne').mul (hLW k j)

theorem hidden_real (x : Spec.M 500000 128) (W1 : Spec.M 128 128) (b1 : Fin 128 → EReal) (W2 : Spec.M 128 8)
    (b2 : Fin 8 → EReal) (W0 : Spec.M 16 64) (b0 : Fin 64 → EReal) (g1W : Spec.M 64 64) (g1b : Fin 64 → EReal)
    (l1W : Spec.M 64 64) (g2W : Spec.M 64 128) (g2b : Fin 128 → EReal) (l2W : Spec.M 64 128)
    (e0 e1 : Fin 8000000 → Fin 500000) (bt : Fin 500000 → Fin 512) (d : Fin 500000 → Fin 8000000)
    (hx : ∀ p q, IsReal (x p q)) (hW1 : ∀ p q, IsReal (W1 p q)) (hb1 : ∀ q, IsReal (b1 q))
    (hW2 : ∀ p q, IsReal (W2 p q)) (hb2 : ∀ q, IsReal (b2 q)) (hW0 : ∀ p q, IsReal (W0 p q)) (hb0 : ∀ q, IsReal (b0 q))
    (hg1W : ∀ p q, IsReal (g1W p q)) (hg1b : ∀ q, IsReal (g1b q)) (hl1W : ∀ p q, IsReal (l1W p q))
    (hg2W : ∀ p q, IsReal (g2W p q)) (hg2b : ∀ q, IsReal (g2b q)) (hl2W : ∀ p q, IsReal (l2W p q)) :
    ∀ p j, IsReal (Spec.hidden x W1 b1 W2 b2 W0 b0 g1W g1b l1W g2W g2b l2W e0 e1 bt d p j) :=
  relu_real <| round_real bt (relu_real <| round_real bt (relu_real <| lin_real
    (pairs_real e0 e1 d <| lin_real (relu_real <| lin_real hx hW1 hb1) hW2 hb2) hW0 hb0) hg1W hg1b hl1W) hg2W hg2b hl2W

-- On a real array of 500000 rows the two forms of the column variance agree, so the normalised output does.
theorem normAdd_varK_eq_varC (x h : Spec.M 500000 128) (gam bet : Fin 128 → EReal) (hr : ∀ p j, IsReal (h p j)) :
    Spec.normAdd x h (Spec.varK h) gam bet = Spec.normAdd x h (Spec.varC h) gam bet :=
  congrArg (Spec.normAdd x h · gam bet) <| funext fun j =>
    (BridgeAlgebra.var_centred_of_real (Finset.univ : Finset (Fin 500000)) (fun p => h p j) (fun p _ => hr p j)
      (500000 : ℝ) (by norm_num) (by simp)).symm

end Cert.Bridge

end
-- ==== Proof.KI.PreInputs.lean ====
import proofs.«420090_j3152505996138_1_alg».proof.Proof.KI.Inputs
import proofs.«420090_j3152505996138_1_alg».proof.Proof.PreFacts
import proofs.«420090_j3152505996138_1_alg».proof.Proof.Bridge
import proofs.«420090_j3152505996138_1_alg».proof.Defs

noncomputable section

namespace Cert.KernelIdeal.Gen

open Idealize.ShloMosaic Idealize.ShloMosaic.TcCoe Idealize.ShloMosaic.ValueIdx Cert.PreFacts

variable [Cert.Pre_finite_inputs.Facts]

theorem inRange_of_pre (m : (ℓ : Loc nD τ sig) → Buf (Elt Ideal) ℓ) (hpre : Cert.Pre_KernelIdeal m) (c : Dev nD) :
    InRange m c :=
  ⟨range_ei (h := hpre c), range_bt (h := hpre c), range_die (h := hpre c)⟩

-- Every float input is real entry by entry, so the rectified second-round output is, and on it the two variances agree.
theorem normAdd_bridge_of_pre (m : (ℓ : Loc nD τ sig) → Buf (Elt Ideal) ℓ) (hpre : Cert.Pre_KernelIdeal m) (c : Dev nD) :
    Spec.normAdd (X m c) (HH m c) (Spec.varK (HH m c)) (vgam m c) (vbet m c)
      = Spec.normAdd (X m c) (HH m c) (Spec.varC (HH m c)) (vgam m c) (vbet m c) :=
  Cert.Bridge.normAdd_varK_eq_varC (X m c) (HH m c) (vgam m c) (vbet m c) <|
    Cert.Bridge.hidden_real (X m c) (vW1 m c) (vb1 m c) (vW2 m c) (vb2 m c) (vW0 m c) (vb0 m c) (vg1W m c) (vg1b m c)
      (vl1W m c) (vg2W m c) (vg2b m c) (vl2W m c) (e0 m c) (e1 m c) (bt m c) (dd m c)
      (fun p q => (real_x (h := hpre c)) (ix2 p q))
      (fun p q => (real_W1 (h := hpre c)) (ix2 p q))
      (fun q => (real_b1 (h := hpre c)) (ix1 q))
      (fun p q => (real_W2 (h := hpre c)) (ix2 p q))
      (fun q => (real_b2 (h := hpre c)) (ix1 q))
      (fun p q => (real_W0 (h := hpre c)) (ix2 p q))
      (fun q => (real_b0 (h := hpre c)) (ix1 q))
      (fun p q => (real_g1W (h := hpre c)) (ix2 p q))
      (fun q => (real_g1b (h := hpre c)) (ix1 q))
      (fun p q => (real_l1W (h := hpre c)) (ix2 p q))
      (fun p q => (real_g2W (h := hpre c)) (ix2 p q))
      (fun q => (real_g2b (h := hpre c)) (ix1 q))
      (fun p q => (real_l2W (h := hpre c)) (ix2 p q))

end Cert.KernelIdeal.Gen

end
-- ==== Proof.Ref.ReadA.lean ====
import proofs.«420090_j3152505996138_1_alg».proof.Proof.Ref.Run
import proofs.«420090_j3152505996138_1_alg».proof.Proof.Spec
import proofs.«420090_j3152505996138_1_alg».proof.Proof.LibRowGather
import Idealize.ShloMosaic.Lib.ValueIdx
import Idealize.ShloMosaic.Lib.ValueLayout
import Idealize.ShloMosaic.Lib.Pipeline.Value
import Idealize.ShloMosaic.PureOps.Ideal.Laws

set_option Elab.async false

noncomputable section

namespace Cert.ReferenceIdeal.RefRead

open Cert.ReferenceIdeal Cert.ReferenceIdeal.Gen Idealize.ShloMosaic Idealize.ShloMosaic.TcCoe Idealize.SL.Sem Idealize.ShloMosaic.StableHlo Idealize.ShloMosaic.ValueIdx RowGather
open scoped BigOperators

abbrev R (U : Valuation τ sig (Elt Ideal)) (b : Ref sig .tc) : (Proc.devRef .tc b : DevRef τ sig).ty.Contents (Elt Ideal) :=
  StableHlo.after (RefRun.ops (F := Ideal)) U (Proc.devRef .tc b)

abbrev X (U : Valuation τ sig (Elt Ideal)) : Spec.M 500000 128 := fun a k => U main_arg0 (ix2 a k)
abbrev vW1 (U : Valuation τ sig (Elt Ideal)) : Spec.M 128 128 := fun a k => U main_arg1 (ix2 a k)
abbrev vb1 (U : Valuation τ sig (Elt Ideal)) : Fin 128 → EReal := fun h => U main_arg2 (ix1 h)
abbrev vW2 (U : Valuation τ sig (Elt Ideal)) : Spec.M 128 8 := fun a k => U main_arg3 (ix2 a k)
abbrev vb2 (U : Valuation τ sig (Elt Ideal)) : Fin 8 → EReal := fun h => U main_arg4 (ix1 h)
abbrev vW0 (U : Valuation τ sig (Elt Ideal)) : Spec.M 16 64 := fun a k => U main_arg5 (ix2 a k)
abbrev vb0 (U : Valuation τ sig (Elt Ideal)) : Fin 64 → EReal := fun h => U main_arg6 (ix1 h)
abbrev vg1W (U : Valuation τ sig (Elt Ideal)) : Spec.M 64 64 := fun a k => U main_arg7 (ix2 a k)
abbrev vg1b (U : Valuation τ sig (Elt Ideal)) : Fin 64 → EReal := fun h => U main_arg8 (ix1 h)
abbrev vl1W (U : Valuation τ sig (Elt Ideal)) : Spec.M 64 64 := fun a k => U main_arg9 (ix2 a k)
abbrev e0 (U : Valuation τ sig (Elt Ideal)) : Fin 8000000 → Fin 500000 := fun i => Spec.rowOf 500000 (U main_arg15 (ix2 (0 : Fin 2) i))
abbrev e1 (U : Valuation τ sig (Elt Ideal)) : Fin 8000000 → Fin 500000 := fun i => Spec.rowOf 500000 (U main_arg15 (ix2 (1 : Fin 2) i))
abbrev dd (U : Valuation τ sig (Elt Ideal)) : Fin 500000 → Fin 8000000 := fun a => Spec.rowOf 8000000 (U main_arg17 (ix1 a))
abbrev bt (U : Valuation τ sig (Elt Ideal)) : Fin 500000 → Fin 512 := fun n => Spec.rowOf 512 (U main_arg16 (ix1 n))

theorem R_part1 (U : Valuation τ sig (Elt Ideal)) (r : Ref sig .tc) (h2 : r ∉ RefRun.ops_part2_W) :
    R U r = after (RefRun.ops_part1 (F := Ideal)) (after RefRun.ops_part0 U) (Proc.devRef .tc r) := by
  show after (RefRun.ops_part0 ++ (RefRun.ops_part1 ++ RefRun.ops_part2)) U (Proc.devRef .tc r) = _
  rw [after_append, after_append, after_of_writes_sub RefRun.ops_part2 _ RefRun.ops_part2_writes h2]

theorem R_part0 (U : Valuation τ sig (Elt Ideal)) (r : Ref sig .tc) (h1 : r ∉ RefRun.ops_part1_W) (h2 : r ∉ RefRun.ops_part2_W) :
    R U r = after (RefRun.ops_part0 (F := Ideal)) U (Proc.devRef .tc r) :=
  (R_part1 U r h2).trans (after_of_writes_sub RefRun.ops_part1 _ RefRun.ops_part1_writes h1)

abbrev edgeRow0 (U : Valuation τ sig (Elt Ideal)) : IVec S8000000 32 :=
  shapeCast S8000000 (extractStridedSlice S1x8000000 ![0, 0] (U main_arg15) slices_S2x8000000_S1x8000000_0_0) shapeCasts_S1x8000000_S8000000
abbrev edgeRow1 (U : Valuation τ sig (Elt Ideal)) : IVec S8000000 32 :=
  shapeCast S8000000 (extractStridedSlice S1x8000000 ![1, 0] (U main_arg15) slices_S2x8000000_S1x8000000_1_0) shapeCasts_S1x8000000_S8000000
abbrev wrapped {s : Shape} (N : BitVec 32) (x : IVec s 32) (h0 : S_.BroadcastsInDim s (![] : Fin 0 → Fin s.rank)) : IVec s 32 :=
  select (cmpi .slt x (broadcastInDim s ![] h0 (constantI S_ 32 0#32))) (addi x (broadcastInDim s ![] h0 (constantI S_ 32 N))) x

theorem v8_eq (U : Valuation τ sig (Elt Ideal)) :
    (R U main_v8 : FVec Ideal S500000x8 .f32) = (addf (Host.dotGeneral (φ₁ := .f32) (φ₂ := .f32) dot_S500000x128_S128x8_S500000x8_1_0_0_1_n_n none
      (maximumf (addf (Host.dotGeneral (φ₁ := .f32) (φ₂ := .f32) dot_S500000x128_S128x128_S500000x128_1_0_0_1_n_n none (U main_arg0) (U main_arg1))
          (broadcastInDim S500000x128 ![0, 1] bcast_S1x128_S500000x128_0_1 (broadcastInDim S1x128 ![1] bcast_S128_S1x128_1 (U main_arg2))))
        (broadcastInDim S500000x128 ![] bcast_S_S500000x128 (constant S_ .f32 0x00000000#32))) (U main_arg3))
      (broadcastInDim S500000x8 ![0, 1] bcast_S1x8_S500000x8_0_1 (broadcastInDim S1x8 ![1] bcast_S8_S1x8_1 (U main_arg4))) : FVec Ideal S500000x8 .f32) := by
  rw [R_part0 U main_v8 (by decide) (by decide)]
  simp only [RefRun.ops_part0]
  after_results_simp
  try rfl

theorem v43_eq (U : Valuation τ sig (Elt Ideal)) :
    (R U main_v43 : FVec Ideal S500000x64 .f32) = (maximumf (addf (Host.dotGeneral (φ₁ := .f32) (φ₂ := .f32) dot_S500000x16_S16x64_S500000x64_1_0_0_1_n_n none
        (shapeCast S500000x16 (concatenate S500000x8x2 2 [⟨S500000x8x1, broadcastInDim S500000x8x1 ![0, 1] bcast_S500000x8_S500000x8x1_0_1 (R U main_v8 : FVec Ideal S500000x8 .f32)⟩, ⟨S500000x8x1, broadcastInDim S500000x8x1 ![0, 1] bcast_S500000x8_S500000x8x1_0_1
          (Host.gather gather_S8000000x8_S500000x1_S500000x8_1_0_n_n_0_1_18
          (maximumf (Host.gather gather_S500000x8_S8000000x1_S8000000x8_1_0_n_n_0_1_18 (R U main_v8 : FVec Ideal S500000x8 .f32)
              (broadcastInDim S8000000x1 ![0] bcast_S8000000_S8000000x1_0 (wrapped 500000#32 (edgeRow0 U) bcast_S_S8000000) : IVec S8000000x1 32))
            (Host.gather gather_S500000x8_S8000000x1_S8000000x8_1_0_n_n_0_1_18 (R U main_v8 : FVec Ideal S500000x8 .f32)
              (broadcastInDim S8000000x1 ![0] bcast_S8000000_S8000000x1_0 (wrapped 500000#32 (edgeRow1 U) bcast_S_S8000000) : IVec S8000000x1 32)) : FVec Ideal S8000000x8 .f32)
          (broadcastInDim S500000x1 ![0] bcast_S500000_S500000x1_0 (wrapped 8000000#32 (U main_arg17) bcast_S_S500000) : IVec S500000x1 32) : FVec Ideal S500000x8 .f32)⟩] concatenates_S500000x8x1_S500000x8x1_S500000x8x2_d2) shapeCasts_S500000x8x2_S500000x16 : FVec Ideal S500000x16 .f32) (U main_arg5))
        (broadcastInDim S500000x64 ![0, 1] bcast_S1x64_S500000x64_0_1 (broadcastInDim S1x64 ![1] bcast_S64_S1x64_1 (U main_arg6))))
      (broadcastInDim S500000x64 ![] bcast_S_S500000x64 (constant S_ .f32 0x00000000#32)) : FVec Ideal S500000x64 .f32) := by
  rw [R_part0 U main_v43 (by decide) (by decide), R_part0 U main_v8 (by decide) (by decide)]
  simp only [RefRun.ops_part0]
  after_results_simp
  try rfl

/-- Entry (p, q) of a matrix product plus a row-broadcast bias. -/
theorem lin_apply {n k j : ℕ} (D : DotDims ⟨2, ![n, k]⟩ ⟨2, ![k, j]⟩ ⟨2, ![n, j]⟩) (hD : D = DotDims.plain n k j)
    (h1 : (⟨1, ![j]⟩ : Shape).BroadcastsInDim ⟨2, ![1, j]⟩ ![1]) (h2 : (⟨2, ![1, j]⟩ : Shape).BroadcastsInDim ⟨2, ![n, j]⟩ ![0, 1])
    (x : FVec Ideal ⟨2, ![n, k]⟩ .f32) (W : FVec Ideal ⟨2, ![k, j]⟩ .f32) (b : FVec Ideal ⟨1, ![j]⟩ .f32) (p : Fin n) (q : Fin j) :
    addf (Host.dotGeneral D none x W) (broadcastInDim ⟨2, ![n, j]⟩ ![0, 1] h2 (broadcastInDim ⟨2, ![1, j]⟩ ![1] h1 b)) (ix2 p q)
      = (∑ i, x (ix2 p i) * W (ix2 i q)) + b (ix1 q) := by
  rw [addf_apply, dot_apply D hD, bcast_rows_apply]

/-- The rectifier at an index: the larger of the entry and zero. -/
theorem relu_apply {s : Shape} (h : S_.BroadcastsInDim s (![] : Fin 0 → Fin s.rank)) (x : FVec Ideal s .f32) (i : s.Idx) :
    maximumf x (broadcastInDim s ![] h (constant S_ .f32 0x00000000#32)) i = max (x i) 0 := by
  rw [maximumf_apply, bcast_scalar_apply, constant_apply, Ideal.ofBits_zero_f32]

theorem wrapped_apply {s : Shape} (N : BitVec 32) (x : IVec s 32) (h0 : S_.BroadcastsInDim s (![] : Fin 0 → Fin s.rank)) (i : s.Idx) :
    wrapped N x h0 i = Scalar.select (IntOp.cmpi .slt (x i) 0#32) (IntOp.addi (x i) N) (x i) := rfl

/-- A row gather at wrapped words: where the word is in range, row r of the result is the row of the table the word names. -/
theorem gather_wrapped_apply {α : Type} {N C R : ℕ} [NeZero N] (hN : N < 2 ^ 31) (D : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C]) (hD : D = rowDims N C R wf)
    (x : (⟨2, ![N, C]⟩ : Shape).Idx → α) (w : IVec ⟨1, ![R]⟩ 32) (h0 : S_.BroadcastsInDim ⟨1, ![R]⟩ (![] : Fin 0 → Fin 1))
    (hc : (⟨1, ![R]⟩ : Shape).BroadcastsInDim ⟨2, ![R, 1]⟩ ![0]) (r : Fin R) (c : Fin C)
    (hw : -(N : Int) ≤ (w (ix1 r)).toInt ∧ (w (ix1 r)).toInt < (N : Int)) :
    Host.gather D x (broadcastInDim ⟨2, ![R, 1]⟩ ![0] hc (wrapped (BitVec.ofNat 32 N) w h0)) (ix2 r c) = x (ix2 (Spec.rowOf N (w (ix1 r))) c) := by
  subst hD
  rw [gather_rows_apply (Nat.pos_of_ne_zero (NeZero.ne N)) wf]
  exact congrArg (fun k : Fin N => x (ix2 k c)) (Fin.ext ((congrArg (fun b : BitVec 32 => min b.toInt.toNat (N - 1))
    ((bcast_col_apply hc _ r 0).trans (wrapped_apply _ w h0 (ix1 r)))).trans (wrap_row N hN _ hw)))

theorem edgeRow0_apply (U : Valuation τ sig (Elt Ideal)) (i : Fin 8000000) : edgeRow0 U (ix1 i) = U main_arg15 (ix2 (0 : Fin 2) i) := by
  rw [edgeRow0, shapeCast_1a_a_apply, slice2_axis0_apply 0 _ _ (0 : Fin 1) i (0 : Fin 2) rfl]

theorem edgeRow1_apply (U : Valuation τ sig (Elt Ideal)) (i : Fin 8000000) : edgeRow1 U (ix1 i) = U main_arg15 (ix2 (1 : Fin 2) i) := by
  rw [edgeRow1, shapeCast_1a_a_apply, slice2_axis0_apply 1 _ _ (0 : Fin 1) i (1 : Fin 2) rfl]

/-- Appending a unit axis moves no entry. -/
theorem bcast_unit3_apply {α : Type} {A B : ℕ} (h : (⟨2, ![A, B]⟩ : Shape).BroadcastsInDim ⟨3, ![A, B, 1]⟩ ![0, 1])
    (v : (⟨2, ![A, B]⟩ : Shape).Idx → α) (a : Fin A) (b : Fin B) (z : Fin 1) :
    broadcastInDim ⟨3, ![A, B, 1]⟩ ![0, 1] h v (ix3 a b z) = v (ix2 a b) :=
  broadcastInDim_apply ![0, 1] h v (ix3 a b z) (ix2 a b) (fun c => by
    match c with
    | ⟨0, _⟩ => show a.val = if A = 1 then 0 else a.val; split <;> omega
    | ⟨1, _⟩ => show b.val = if B = 1 then 0 else b.val; split <;> omega)

/-- Stacking two arrays on a new last axis and flattening it interleaves them: even columns from the first, odd from the second. -/
theorem pairs_cast_apply (x₁ x₂ : S500000x8x1.Idx → EReal) (p : Fin 500000) (k : Fin 16) :
    shapeCast S500000x16 (concatenate S500000x8x2 2 [⟨S500000x8x1, x₁⟩, ⟨S500000x8x1, x₂⟩]
        concatenates_S500000x8x1_S500000x8x1_S500000x8x2_d2) shapeCasts_S500000x8x2_S500000x16 (ix2 p k)
      = if k.val % 2 = 0 then x₁ (ix3 p (⟨k.val / 2, by omega⟩ : Fin 8) (0 : Fin 1))
        else x₂ (ix3 p (⟨k.val / 2, by omega⟩ : Fin 8) (0 : Fin 1)) := by
  rw [shapeCast_apply _ _ (ix2 p k) (ix3 p (⟨k.val / 2, by omega⟩ : Fin 8) (⟨k.val % 2, by omega⟩ : Fin 2)) (by
    rw [Shape.rowMajor_val_three, Shape.rowMajor_val_two]
    show (p.val * 8 + k.val / 2) * 2 + k.val % 2 = p.val * 16 + k.val
    omega)]
  by_cases h0 : k.val % 2 = 0
  · rw [if_pos h0]
    exact concatenate_pair_apply_left (t := S500000x8x2) 2 x₁ x₂ _ _ rfl _ (fun b => by
      match b with
      | ⟨0, _⟩ | ⟨1, _⟩ => rfl
      | ⟨2, _⟩ => exact h0.symm)
  · rw [if_neg h0]
    exact concatenate_pair_apply_right (t := S500000x8x2) 2 x₁ x₂ _ _ rfl rfl _ (fun b hb => by
      match b, hb with
      | ⟨0, _⟩, _ | ⟨1, _⟩, _ => rfl
      | ⟨2, _⟩, hb => exact absurd rfl hb) (by show 0 + 1 = k.val % 2; omega)

theorem ref_fv (U : Valuation τ sig (Elt Ideal)) (p : Fin 500000) (q : Fin 8) :
    R U main_v8 (ix2 p q) = Spec.fv (X U) (vW1 U) (vb1 U) (vW2 U) (vb2 U) p q := by
  rw [show R U main_v8 = _ from v8_eq U, lin_apply dot_S500000x128_S128x8_S500000x8_1_0_0_1_n_n rfl]
  refine congrArg (· + _) (Finset.sum_congr rfl fun c _ => congrArg (· * _) ?_)
  rw [relu_apply, lin_apply dot_S500000x128_S128x128_S500000x128_1_0_0_1_n_n rfl]
  rfl

theorem ref_x0 (U : Valuation τ sig (Elt Ideal)) (hE : ∀ i, -500000 ≤ (U main_arg15 i).toInt ∧ (U main_arg15 i).toInt < 500000)
    (hD : ∀ i, -8000000 ≤ (U main_arg17 i).toInt ∧ (U main_arg17 i).toInt < 8000000) (p : Fin 500000) (j : Fin 64) :
    R U main_v43 (ix2 p j) = Spec.relu (Spec.lin (Spec.pairs (Spec.fv (X U) (vW1 U) (vb1 U) (vW2 U) (vb2 U)) (e0 U) (e1 U) (dd U)) (vW0 U) (vb0 U)) p j := by
  rw [show R U main_v43 = _ from v43_eq U, relu_apply, lin_apply dot_S500000x16_S16x64_S500000x64_1_0_0_1_n_n rfl]
  refine congrArg (fun s : EReal => max (s + _) 0) (Finset.sum_congr rfl fun k _ => congrArg (· * _) ?_)
  rw [pairs_cast_apply]
  simp only [Spec.pairs]
  by_cases h0 : k.val % 2 = 0
  · rw [if_pos h0, if_pos h0, bcast_unit3_apply, ref_fv]
  · rw [if_neg h0, if_neg h0, bcast_unit3_apply,
      gather_wrapped_apply (by norm_num) gather_S8000000x8_S500000x1_S500000x8_1_0_n_n_0_1_18 gather_S8000000x8_S500000x1_S500000x8_1_0_n_n_0_1_18_wf rfl, maximumf_apply,
      gather_wrapped_apply (by norm_num) gather_S500000x8_S8000000x1_S8000000x8_1_0_n_n_0_1_18 gather_S500000x8_S8000000x1_S8000000x8_1_0_n_n_0_1_18_wf rfl _ (edgeRow0 U),
      gather_wrapped_apply (by norm_num) gather_S500000x8_S8000000x1_S8000000x8_1_0_n_n_0_1_18 gather_S500000x8_S8000000x1_S8000000x8_1_0_n_n_0_1_18_wf rfl _ (edgeRow1 U), ref_fv, ref_fv, edgeRow0_apply, edgeRow1_apply]
    · rfl
    · rw [edgeRow1_apply]; exact_mod_cast hE _
    · rw [edgeRow0_apply]; exact_mod_cast hE _
    · exact_mod_cast hD _

end Cert.ReferenceIdeal.RefRead

end
-- ==== Proof.Ref.ReadA2.lean ====
import proofs.«420090_j3152505996138_1_alg».proof.Proof.Ref.Run
import proofs.«420090_j3152505996138_1_alg».proof.Proof.LibRowGather
import proofs.«420090_j3152505996138_1_alg».proof.Proof.Spec
import proofs.«420090_j3152505996138_1_alg».proof.Proof.LibBridgeAlgebra
import Idealize.ShloMosaic.Lib.Pipeline.Frame
import Idealize.ShloMosaic.Lib.ValueIdx
import Idealize.ShloMosaic.PureOps.Ideal.Laws
import Mathlib.Tactic.NormNum.Basic
import Idealize.ShloMosaic.Lib.IdealHost

set_option maxRecDepth 16384

noncomputable section

namespace Cert.ReferenceIdeal.RefReadA2

open Cert.ReferenceIdeal Cert.ReferenceIdeal.Gen Idealize.ShloMosaic Idealize.ShloMosaic.TcCoe Idealize.SL.Sem
open Idealize.ShloMosaic.StableHlo Idealize.ShloMosaic.ValueIdx RowGather
open scoped BigOperators

section Term

variable {e : ℕ} (D1 : DotDims S512x64 ⟨2, ![64, e]⟩ ⟨2, ![512, e]⟩) (D2 : DotDims S500000x64 ⟨2, ![64, e]⟩ ⟨2, ![500000, e]⟩)
  (gd : GatherDims ⟨2, ![512, e]⟩ S500000x1 ⟨2, ![500000, e]⟩)
  (b1 : (⟨1, ![e]⟩ : Shape).BroadcastsInDim ⟨2, ![1, e]⟩ ![1])
  (b2 : (⟨2, ![1, e]⟩ : Shape).BroadcastsInDim ⟨2, ![500000, e]⟩ ![0, 1])
  (b0 : (⟨0, ![]⟩ : Shape).BroadcastsInDim ⟨2, ![500000, e]⟩ ![])
  (x : FVec Ideal S500000x64 .f32) (lab : IVec S500000 32) (GW : FVec Ideal ⟨2, ![64, e]⟩ .f32) (gb : FVec Ideal ⟨1, ![e]⟩ .f32)
  (LW : FVec Ideal ⟨2, ![64, e]⟩ .f32)

/-- The labels as a column, and wrapped by 512 where negative. -/
abbrev colT : IVec S500000x1 32 := broadcastInDim S500000x1 ![0] bcast_S500000_S500000x1_0 lab
abbrev wrapT : IVec S500000x1 32 :=
  colT (select (cmpi .slt lab (broadcastInDim S500000 ![] bcast_S_S500000 (constantI S_ 32 0#32)))
    (addi lab (broadcastInDim S500000 ![] bcast_S_S500000 (constantI S_ 32 512#32))) lab)

theorem colT_apply (n : Fin 500000) : colT lab (ix2 n (0 : Fin 1)) = lab (ix1 n) := bcast_col_apply _ lab n 0

/-- Each graph's summed rows and its number of rows: scatter-adds into zero tables at the label column. -/
abbrev segT : FVec Ideal S512x64 .f32 :=
  Host.scatterAdd scatter_S512x64_S500000x1_S500000x64_1_0_0_1
    (broadcastInDim S512x64 ![] bcast_S_S512x64 (constant (F := Ideal) S_ .f32 0x00000000#32)) (colT lab) x
abbrev cntT : FVec Ideal S512x1 .f32 :=
  Host.scatterAdd scatter_S512x1_S500000x1_S500000x1_1_0_0_1
    (broadcastInDim S512x1 ![] bcast_S_S512x1 (constant (F := Ideal) S_ .f32 0x00000000#32)) (colT lab)
    (broadcastInDim S500000x1 ![] bcast_S_S500000x1 (constant (F := Ideal) S_ .f32 0x3F800000#32))

/-- The mean rows (a count below one read as one) through a weight of e columns. -/
abbrev meanT : FVec Ideal ⟨2, ![512, e]⟩ .f32 :=
  Host.dotGeneral D1 none
    (Host.divf (segT x lab) (broadcastInDim S512x64 ![0, 1] bcast_S512x1_S512x64_0_1
      (maximumf (cntT lab) (broadcastInDim S512x1 ![] bcast_S_S512x1 (constant (F := Ideal) S_ .f32 0x3F800000#32))))) LW

/-- One round as the line computes it: rows through a weight plus bias, less the node's graph's mean row, rectified. -/
abbrev roundT : FVec Ideal ⟨2, ![500000, e]⟩ .f32 :=
  maximumf
    (subf (addf (Host.dotGeneral D2 none x GW) (broadcastInDim ⟨2, ![500000, e]⟩ ![0, 1] b2 (broadcastInDim ⟨2, ![1, e]⟩ ![1] b1 gb)))
      (Host.gather gd (meanT D1 x lab LW) (wrapT lab)))
    (broadcastInDim ⟨2, ![500000, e]⟩ ![] b0 (constant (F := Ideal) S_ .f32 0x00000000#32))

/-- A label word in [0, 512) names row g exactly when, read signed, it is g. -/
theorem rowOf_eq_iff (w : BitVec 32) (h : 0 ≤ w.toInt ∧ w.toInt < 512) (g : Fin 512) :
    Spec.rowOf 512 w = g ↔ w.toInt = (g.val : Int) := by
  unfold Spec.rowOf
  rw [if_neg (not_lt.2 h.1), Fin.ext_iff]
  show w.toInt.toNat % 512 = g.val ↔ _
  have := g.isLt
  omega

variable (x0 : Spec.M 500000 64) (hx : ∀ p j, x (ix2 p j) = x0 p j)
  (hB : ∀ i, 0 ≤ (lab i).toInt ∧ (lab i).toInt < 512)

include hx hB in
theorem seg_apply (g : Fin 512) (k : Fin 64) :
    segT x lab (ix2 g k) = Spec.segsum x0 (fun n => Spec.rowOf 512 (lab (ix1 n))) g k := by
  refine (scatterAdd_rows_apply scatter_S512x64_S500000x1_S500000x64_1_0_0_1_wf _ _ _ g k).trans ?_
  rw [bcast_scalar_apply, constant_apply, Ideal.ofBits_zero_f32, zero_add]
  refine Finset.sum_congr rfl fun n _ => ?_
  rw [colT_apply, hx n k]
  exact if_congr (rowOf_eq_iff _ (hB (ix1 n)) g).symm rfl rfl

include hB in
theorem cnt_apply (g : Fin 512) : cntT lab (ix2 g (0 : Fin 1)) = Spec.cnt (fun n => Spec.rowOf 512 (lab (ix1 n))) g := by
  refine (scatterAdd_rows_apply scatter_S512x1_S500000x1_S500000x1_1_0_0_1_wf _ _ _ g 0).trans ?_
  rw [bcast_scalar_apply, constant_apply, Ideal.ofBits_zero_f32, zero_add]
  refine Finset.sum_congr rfl fun n _ => ?_
  rw [colT_apply, bcast_scalar_apply, constant_apply, Ideal.ofBits_one_f32]
  exact if_congr (rowOf_eq_iff _ (hB (ix1 n)) g).symm rfl rfl

include hx hB in
theorem mean_apply (h1 : D1 = DotDims.plain 512 64 e) (g : Fin 512) (j : Fin e) :
    meanT D1 x lab LW (ix2 g j) = Spec.gmean x0 (fun n => Spec.rowOf 512 (lab (ix1 n))) (fun a k => LW (ix2 a k)) g j := by
  refine (dot_apply D1 h1 _ LW g j).trans (Finset.sum_congr rfl fun k _ => ?_)
  rw [hostDivf_apply, bcast_across_apply, maximumf_apply, bcast_scalar_apply, constant_apply, Ideal.ofBits_one_f32,
    seg_apply x lab x0 hx hB g k, cnt_apply lab hB g]

include hx hB in
/-- With labels in [0, 512) the row test, the wrap and the clamp all name the label's own row, and the term is the specification's round. -/
theorem round_apply (h1 : D1 = DotDims.plain 512 64 e) (h2 : D2 = DotDims.plain 500000 64 e)
    (wf : GatherDims.WF ⟨2, ![512, e]⟩ ⟨2, ![500000, 1]⟩ ⟨2, ![500000, e]⟩ [1] [0] [] [0] [] 1 ![1, e])
    (hg : gd = rowDims 512 e 500000 wf) (p : Fin 500000) (j : Fin e) :
    roundT D1 D2 gd b1 b2 b0 x lab GW gb LW (ix2 p j)
      = Spec.relu (Spec.round x0 (fun n => Spec.rowOf 512 (lab (ix1 n))) (fun a k => GW (ix2 a k)) (fun h => gb (ix1 h))
          (fun a k => LW (ix2 a k))) p j := by
  subst hg
  have hrow : (⟨min ((wrapT lab (ix2 p (0 : Fin 1))).toInt.toNat) (512 - 1), by omega⟩ : Fin 512) = Spec.rowOf 512 (lab (ix1 p)) :=
    Fin.ext ((congrArg (fun w : BitVec 32 => min w.toInt.toNat (512 - 1)) (colT_apply _ p)).trans
      (wrap_row 512 (by norm_num) (lab (ix1 p)) ⟨by have := (hB (ix1 p)).1; omega, (hB (ix1 p)).2⟩))
  unfold roundT
  rw [maximumf_apply, subf_apply, addf_apply, dot_apply D2 h2, bcast_rows_apply, gather_rows_apply (by norm_num), hrow,
    mean_apply D1 x lab LW x0 hx hB h1, bcast_scalar_apply, constant_apply, Ideal.ofBits_zero_f32]
  exact congrArg (fun s => max (s + gb (ix1 j) - _) 0) (Finset.sum_congr rfl fun k _ => by rw [hx p k])

end Term

variable (U : Valuation τ sig (Elt Ideal))

abbrev R (b : Ref sig .tc) := after (RefRun.ops (F := Ideal)) U (Proc.devRef .tc b)

abbrev vg1W : Spec.M 64 64 := fun a k => (U main_arg7 : Vec Ideal S64x64 .f32) (ix2 a k)
abbrev vg1b : Fin 64 → EReal := fun h => (U main_arg8 : Vec Ideal S64 .f32) (ix1 h)
abbrev vl1W : Spec.M 64 64 := fun a k => (U main_arg9 : Vec Ideal S64x64 .f32) (ix2 a k)
abbrev bt : Fin 500000 → Fin 512 := fun n => Spec.rowOf 512 ((U main_arg16 : Vec Ideal S500000 .i32) (ix1 n))

def P : Valuation τ sig (Elt Ideal) := after (RefRun.ops_part0.take 54) U
def Q : Valuation τ sig (Elt Ideal) := after RefRun.ops_part0 U

theorem R_part1 (b : Ref sig .tc) (h2 : b ∉ RefRun.ops_part2_W) :
    R U b = after RefRun.ops_part1 (Q U) (Proc.devRef .tc b) := by
  show after (RefRun.ops_part0 ++ (RefRun.ops_part1 ++ RefRun.ops_part2)) U (Proc.devRef .tc b) = _
  rw [after_append, after_append, after_of_writes_sub RefRun.ops_part2 _ RefRun.ops_part2_writes h2]
  rfl

theorem R_part0 (b : Ref sig .tc) (h1 : b ∉ RefRun.ops_part1_W) (h2 : b ∉ RefRun.ops_part2_W) :
    R U b = Q U (Proc.devRef .tc b) :=
  (R_part1 U b h2).trans (after_of_writes_sub RefRun.ops_part1 _ RefRun.ops_part1_writes h1)

/-- No operation of the line writes an argument. -/
theorem R_arg (b : Ref sig .tc) (h : b ∉ RefRun.ops_part0_W ++ (RefRun.ops_part1_W ++ RefRun.ops_part2_W) := by decide) :
    R U b = U (Proc.devRef .tc b) :=
  RefRun.after_ops_keep U b (fun m => h (List.mem_append_left _ m))
    (fun m => h (List.mem_append_right _ (List.mem_append_left _ m)))
    (fun m => h (List.mem_append_right _ (List.mem_append_right _ m)))

set_option maxHeartbeats 2000000 in
/-- The first round's result is the round's term, 64 wide, over the rectified layer and the arguments, read at the line's end. -/
theorem r68 : (R U main_v68 : FVec Ideal S500000x64 .f32)
    = roundT dot_S512x64_S64x64_S512x64_1_0_0_1_n_n dot_S500000x64_S64x64_S500000x64_1_0_0_1_n_n
        gather_S512x64_S500000x1_S500000x64_1_0_n_n_0_1_164 bcast_S64_S1x64_1 bcast_S1x64_S500000x64_0_1 bcast_S_S500000x64
        (R U main_v43) (R U main_arg16) (R U main_arg7) (R U main_arg8) (R U main_arg9) := by
  simp only [R, RefRun.ops, after_append]
  rw [← List.take_append_drop 54 RefRun.ops_part0, after_append]
  generalize after (List.take 54 RefRun.ops_part0) U = W
  simp only [RefRun.ops_part0, RefRun.ops_part1, RefRun.ops_part2, List.drop_succ_cons, List.drop_zero]
  after_results_simp
  rfl

section Round

variable (x0 : Spec.M 500000 64)
  (h43 : ∀ p j, (R U main_v43 : Vec Ideal S500000x64 .f32) (ix2 p j) = x0 p j)
  (hB : ∀ i, 0 ≤ ((U main_arg16 : Vec Ideal S500000 .i32) i).toInt ∧ ((U main_arg16 : Vec Ideal S500000 .i32) i).toInt < 512)

include h43 hB in
theorem ref_out1 (p : Fin 500000) (j : Fin 64) :
    (R U main_v68 : Vec Ideal S500000x64 .f32) (ix2 p j) = Spec.relu (Spec.round x0 (bt U) (vg1W U) (vg1b U) (vl1W U)) p j := by
  rw [r68 U, R_arg U main_arg16, R_arg U main_arg7, R_arg U main_arg8, R_arg U main_arg9]
  exact round_apply _ _ _ _ _ _ _ _ _ _ _ x0 h43 hB rfl rfl gather_S512x64_S500000x1_S500000x64_1_0_n_n_0_1_164_wf rfl p j

end Round

end Cert.ReferenceIdeal.RefReadA2

end
-- ==== Proof.Ref.ReadB.lean ====
import proofs.«420090_j3152505996138_1_alg».proof.Proof.Ref.Run
import proofs.«420090_j3152505996138_1_alg».proof.Proof.Spec
import proofs.«420090_j3152505996138_1_alg».proof.Proof.LibBridgeAlgebra
import proofs.«420090_j3152505996138_1_alg».proof.Proof.LibRowGather
import proofs.«420090_j3152505996138_1_alg».proof.Proof.Ref.ReadA2
import Idealize.ShloMosaic.Lib.ValueIdx
import Idealize.ShloMosaic.Lib.IdealHost
import Idealize.ShloMosaic.Lib.StableHlo.Run
import Idealize.ShloMosaic.Lib.Pipeline.Frame

set_option maxRecDepth 8192

noncomputable section

namespace Cert.ReferenceIdeal.RefReadB

open Cert.ReferenceIdeal Cert.ReferenceIdeal.Gen Idealize.ShloMosaic Idealize.ShloMosaic.TcCoe Idealize.SL.Sem Idealize.ShloMosaic.StableHlo
open Idealize.ShloMosaic.ValueIdx
open scoped BigOperators

abbrev R (U : Valuation τ sig (Elt Ideal)) (b : Ref sig .tc) := StableHlo.after (RefRun.ops (F := Ideal)) U (Proc.devRef .tc b)

abbrev X (U : Valuation τ sig (Elt Ideal)) : Spec.M 500000 128 := fun a k => U main_arg0 (ix2 a k)
abbrev vg2W (U : Valuation τ sig (Elt Ideal)) : Spec.M 64 128 := fun a k => U main_arg10 (ix2 a k)
abbrev vg2b (U : Valuation τ sig (Elt Ideal)) : Fin 128 → EReal := fun j => U main_arg11 (ix1 j)
abbrev vl2W (U : Valuation τ sig (Elt Ideal)) : Spec.M 64 128 := fun a k => U main_arg12 (ix2 a k)
abbrev vgam (U : Valuation τ sig (Elt Ideal)) : Fin 128 → EReal := fun j => U main_arg13 (ix1 j)
abbrev vbet (U : Valuation τ sig (Elt Ideal)) : Fin 128 → EReal := fun j => U main_arg14 (ix1 j)
abbrev bt (U : Valuation τ sig (Elt Ideal)) : Fin 500000 → Fin 512 := fun n => Spec.rowOf 512 (U main_arg16 (ix1 n))

variable (U : Valuation τ sig (Elt Ideal))

theorem rArg (b : Ref sig .tc) (h0 : b ∉ RefRun.ops_part0_W := by decide) (h1 : b ∉ RefRun.ops_part1_W := by decide)
    (h2 : b ∉ RefRun.ops_part2_W := by decide) : R U b = U (Proc.devRef .tc b) := RefRun.after_ops_keep U b h0 h1 h2

set_option maxHeartbeats 4000000 in
/-- The second round's result is the round's term, 128 wide, over the first round's result and the arguments, read at the line's end. -/
theorem r93 : (R U main_v93 : FVec Ideal S500000x128 .f32)
    = RefReadA2.roundT dot_S512x64_S64x128_S512x128_1_0_0_1_n_n dot_S500000x64_S64x128_S500000x128_1_0_0_1_n_n
        gather_S512x128_S500000x1_S500000x128_1_0_n_n_0_1_1128 bcast_S128_S1x128_1 bcast_S1x128_S500000x128_0_1 bcast_S_S500000x128
        (R U main_v68) (R U main_arg16) (R U main_arg10) (R U main_arg11) (R U main_arg12) := by
  simp only [R, RefRun.ops, StableHlo.after_append]
  generalize StableHlo.after (RefRun.ops_part0 (F := Ideal)) _ = W0
  simp only [RefRun.ops_part1, RefRun.ops_part2]
  after_results_simp
  rfl

theorem rowOf_eq_iff (w : BitVec 32) (h : 0 ≤ w.toInt ∧ w.toInt < 512) (g : Fin 512) :
    Spec.rowOf 512 w = g ↔ w.toInt = (g.val : Int) := RefReadA2.rowOf_eq_iff w h g

variable (hB : ∀ i, 0 ≤ (U main_arg16 i).toInt ∧ (U main_arg16 i).toInt < 512)
  (O1 : Spec.M 500000 64) (h68 : ∀ p j, R U main_v68 (ix2 p j) = O1 p j)

include hB h68

theorem ref_h (p : Fin 500000) (j : Fin 128) :
    R U main_v93 (ix2 p j) = Spec.relu (Spec.round O1 (bt U) (vg2W U) (vg2b U) (vl2W U)) p j := by
  rw [r93 U, rArg U main_arg16, rArg U main_arg10, rArg U main_arg11, rArg U main_arg12]
  exact RefReadA2.round_apply _ _ _ _ _ _ _ _ _ _ _ O1 h68 hB rfl rfl gather_S512x128_S500000x1_S500000x128_1_0_n_n_0_1_1128_wf rfl p j

end Cert.ReferenceIdeal.RefReadB

end
-- ==== Proof.Ref.ReadB2.lean ====
import proofs.«420090_j3152505996138_1_alg».proof.Proof.Ref.Run
import proofs.«420090_j3152505996138_1_alg».proof.Proof.Spec
import proofs.«420090_j3152505996138_1_alg».proof.Proof.LibBridgeAlgebra
import proofs.«420090_j3152505996138_1_alg».proof.Proof.LibRealClosure
import proofs.«420090_j3152505996138_1_alg».proof.Proof.LibRowGather
import Idealize.ShloMosaic.Lib.ValueIdx
import Idealize.ShloMosaic.Lib.Pipeline.Value
import Idealize.ShloMosaic.PureOps.Ideal.Laws

noncomputable section

namespace Cert.ReferenceIdeal.RefReadB2

open Cert.ReferenceIdeal Cert.ReferenceIdeal.Gen Idealize.ShloMosaic Idealize.ShloMosaic.TcCoe Idealize.ShloMosaic.StableHlo
open Idealize.ShloMosaic.ValueIdx
open scoped BigOperators

abbrev R (U : Valuation τ sig (Elt Ideal)) (b : Ref sig .tc) : (Proc.devRef (τ := τ) .tc b).ty.Contents (Elt Ideal) :=
  after (RefRun.ops (F := Ideal)) U (Proc.devRef .tc b)

abbrev X (U : Valuation τ sig (Elt Ideal)) : Spec.M 500000 128 :=
  fun a k => (U (main_arg0 : DevRef τ sig) : Vec Ideal S500000x128 .f32) (ix2 a k)
abbrev vgam (U : Valuation τ sig (Elt Ideal)) : Fin 128 → EReal :=
  fun j => (U (main_arg13 : DevRef τ sig) : Vec Ideal S128 .f32) (ix1 j)
abbrev vbet (U : Valuation τ sig (Elt Ideal)) : Fin 128 → EReal :=
  fun j => (U (main_arg14 : DevRef τ sig) : Vec Ideal S128 .f32) (ix1 j)

/-- No operation of the line writes an argument. -/
theorem rArg (U : Valuation τ sig (Elt Ideal)) (b : Ref sig .tc) (h0 : b ∉ RefRun.ops_part0_W := by decide)
    (h1 : b ∉ RefRun.ops_part1_W := by decide) (h2 : b ∉ RefRun.ops_part2_W := by decide) : R U b = U (Proc.devRef .tc b) :=
  RefRun.after_ops_keep U b h0 h1 h2

theorem bcast_vec_row {α : Type} {C : ℕ} (h : (⟨1, ![C]⟩ : Shape).BroadcastsInDim ⟨2, ![1, C]⟩ (![1] : Fin 1 → Fin 2))
    (v : (⟨1, ![C]⟩ : Shape).Idx → α) (u : Fin 1) (q : Fin C) :
    broadcastInDim ⟨2, ![1, C]⟩ ![1] h v (ix2 u q) = v (ix1 q) :=
  broadcastInDim_apply ![1] h v (ix2 u q) (ix1 q) fun a => by
    match a with
    | ⟨0, _⟩ =>
      show q.val = if C = 1 then 0 else q.val
      have := q.isLt
      split <;> omega

theorem bcast_row_down {α : Type} {Rn C : ℕ}
    (h : (⟨2, ![1, C]⟩ : Shape).BroadcastsInDim ⟨2, ![Rn, C]⟩ (![0, 1] : Fin 2 → Fin 2))
    (v : (⟨2, ![1, C]⟩ : Shape).Idx → α) (p : Fin Rn) (q : Fin C) :
    broadcastInDim ⟨2, ![Rn, C]⟩ ![0, 1] h v (ix2 p q) = v (ix2 (0 : Fin 1) q) :=
  broadcastInDim_apply ![0, 1] h v (ix2 p q) (ix2 (0 : Fin 1) q) fun a => by
    match a with
    | ⟨0, _⟩ => rfl
    | ⟨1, _⟩ =>
      show q.val = if C = 1 then 0 else q.val
      have := q.isLt
      split <;> omega

section Terms
variable (x : FVec Ideal S500000x128 .f32)

abbrev rows (v : FVec Ideal S128 .f32) : FVec Ideal S500000x128 .f32 :=
  broadcastInDim S500000x128 ![0, 1] bcast_S1x128_S500000x128_0_1 (broadcastInDim S1x128 ![1] bcast_S128_S1x128_1 v)

/-- The column sums, from the zero constant. -/
abbrev csumT : FVec Ideal S128 .f32 :=
  Host.reduceAdd x (constant (F := Ideal) S_ .f32 0x00000000#32) reducesTo_S500000x128_S128_d0 h_S_

/-- The column means. -/
abbrev meanT : FVec Ideal S128 .f32 :=
  Host.divf (csumT x) (broadcastInDim S128 ![] bcast_S_S128 (constant (F := Ideal) S_ .f32 0x48F42400#32))

/-- The deviations from the mean, the mean formed again as a 1 × 128 row. -/
abbrev devT : FVec Ideal S500000x128 .f32 :=
  subf x (broadcastInDim S500000x128 ![0, 1] bcast_S1x128_S500000x128_0_1
    (Host.divf (broadcastInDim S1x128 ![1] bcast_S128_S1x128_1 (csumT x))
      (broadcastInDim S1x128 ![] bcast_S_S1x128 (constant (F := Ideal) S_ .f32 0x48F42400#32))))

/-- The variance's divisor: 5.0e5 less the integer 0 made a float. -/
abbrev dofT : FVec Ideal S_ .f32 :=
  subf (constant (F := Ideal) S_ .f32 0x48F42400#32) (sitofp .f32 (constantI S_ 32 0#32))

/-- The column variances, in the guarded centred form. -/
abbrev varT : FVec Ideal S128 .f32 :=
  select (broadcastInDim S128 ![] bcast_S_S128 (cmpf .ogt dofT (constant (F := Ideal) S_ .f32 0x00000000#32)))
    (Host.divf (csumT (mulf (devT x) (devT x))) (broadcastInDim S128 ![] bcast_S_S128 dofT))
    (broadcastInDim S128 ![] bcast_S_S128 (id (constant (F := Ideal) S_ .f32 0x7FC00000#32)))

/-- The result: the input plus the normalised array, scaled and shifted. -/
abbrev outT (a0 : FVec Ideal S500000x128 .f32) (g b : FVec Ideal S128 .f32) : FVec Ideal S500000x128 .f32 :=
  addf (addf a0 (mulf (mulf (subf x (rows (meanT x)))
      (rows (Host.rsqrt (addf (varT x) (broadcastInDim S128 ![] bcast_S_S128 (constant (F := Ideal) S_ .f32 0x3727C5AC#32))))))
    (rows g))) (rows b)

theorem rows_apply (v : FVec Ideal S128 .f32) (p : Fin 500000) (j : Fin 128) : rows v (ix2 p j) = v (ix1 j) :=
  RowGather.bcast_rows_apply bcast_S128_S1x128_1 bcast_S1x128_S500000x128_0_1 v p j

end Terms

section Points
variable (x : FVec Ideal S500000x128 .f32) (H : Spec.M 500000 128) (hx : ∀ p j, x (ix2 p j) = H p j)

/-- A column sum from the zero constant is the plain sum of the column's entries. -/
theorem csum_apply (j : Fin 128) : csumT x (ix1 j) = ∑ p, x (ix2 p j) :=
  (Ideal.hostReduceAdd_single reducesTo_S500000x128_S128_d0 (by decide) x _ (ix1 j)).trans (by
    rw [constant_apply, Ideal.ofBits_zero_f32, zero_add]
    exact Finset.sum_congr rfl fun p _ => congrArg x ((eq_ix2 _).trans rfl))

include hx

theorem mean_point (j : Fin 128) : meanT x (ix1 j) = Spec.mean H j := by
  show Ideal.div (csumT x (ix1 j)) (Ideal.ofBits .f32 0x48F42400#32) = _
  rw [csum_apply, BridgeAlgebra.ofBits_5e5_f32, Finset.sum_congr rfl fun p _ => hx p j]
  rfl

theorem dev_point (p : Fin 500000) (j : Fin 128) : devT x (ix2 p j) = H p j - Spec.mean H j := by
  unfold devT
  rw [subf_apply, bcast_row_down, hx]
  show _ - Ideal.div (broadcastInDim S1x128 ![1] bcast_S128_S1x128_1 (csumT x) (ix2 (0 : Fin 1) j))
      (Ideal.ofBits .f32 0x48F42400#32) = _
  rw [bcast_vec_row, csum_apply, BridgeAlgebra.ofBits_5e5_f32, Finset.sum_congr rfl fun p _ => hx p j]
  rfl

omit hx in
theorem dof_point : dofT ix0 = ((500000 : ℝ) : EReal) := by
  show Ideal.ofBits .f32 0x48F42400#32 - FloatOps.sitofp (F := Ideal) .f32 (0#32 : BitVec 32) = _
  rw [BridgeAlgebra.ofBits_5e5_f32, BridgeAlgebra.sitofp_zero_i32, sub_zero]

/-- The guard holds, and the quotient is the centred form. -/
theorem var_point (j : Fin 128) : varT x (ix1 j) = Spec.varC H j := by
  show Scalar.select (Ideal.cmp .ogt (dofT ix0) (Ideal.ofBits .f32 0x00000000#32))
      (Ideal.div (csumT (mulf (devT x) (devT x)) (ix1 j)) (dofT ix0)) _ = _
  rw [dof_point, Ideal.ofBits_zero_f32, BridgeAlgebra.cmp_ogt_coe_pos (N := 500000) (by norm_num), select_one, csum_apply,
    Finset.sum_congr rfl fun p _ => by rw [mulf_apply, dev_point x H hx p j]]
  rfl

theorem out_point (a0 : FVec Ideal S500000x128 .f32) (g b : FVec Ideal S128 .f32) (p : Fin 500000) (j : Fin 128) :
    outT x a0 g b (ix2 p j)
      = (a0 (ix2 p j) + ((H p j - Spec.mean H j) * Ideal.rsqrt (Spec.varC H j + Spec.eps)) * g (ix1 j)) + b (ix1 j) := by
  show (_ + ((x (ix2 p j) - rows (meanT x) (ix2 p j)) * rows (Host.rsqrt (addf (varT x) _)) (ix2 p j)) * rows g (ix2 p j))
      + rows b (ix2 p j) = _
  rw [rows_apply, rows_apply, rows_apply, rows_apply, mean_point x H hx, hx]
  show (_ + (_ * Ideal.rsqrt (varT x (ix1 j) + Ideal.ofBits .f32 0x3727C5AC#32)) * _) + _ = _
  rw [var_point x H hx]
  rfl

end Points

set_option maxRecDepth 8192 in
/-- The result is the normalising term over the rectified second-round output and the arguments, read at the line's end. -/
theorem r113 (U : Valuation τ sig (Elt Ideal)) : (R U main_v113 : FVec Ideal S500000x128 .f32)
    = outT (R U main_v93) (R U main_arg0) (R U main_arg13) (R U main_arg14) := by
  simp only [R, RefRun.ops, after_append]
  rw [← List.take_append_drop 56 RefRun.ops_part1, after_append]
  generalize after (List.take 56 RefRun.ops_part1) (after RefRun.ops_part0 U) = W
  simp only [RefRun.ops_part1, RefRun.ops_part2, List.drop_succ_cons, List.drop_zero]
  after_results_simp
  rfl

section Reads
variable (U : Valuation τ sig (Elt Ideal)) (H : Spec.M 500000 128)
  (h93 : ∀ p j, (R U main_v93 : FVec Ideal S500000x128 .f32) (ix2 p j) = H p j)
include h93

theorem ref_out (p : Fin 500000) (j : Fin 128) :
    (R U main_v113 : FVec Ideal S500000x128 .f32) (ix2 p j)
      = Spec.normAdd (X U) H (Spec.varC H) (vgam U) (vbet U) p j := by
  rw [r113 U, rArg U main_arg0, rArg U main_arg13, rArg U main_arg14]
  exact out_point _ H h93 _ _ _ p j

end Reads

end Cert.ReferenceIdeal.RefReadB2

end
-- ==== Proof.Final.lean ====
import proofs.«420090_j3152505996138_1_alg».proof.Defs
import proofs.«420090_j3152505996138_1_alg».proof.Proof.KI.KernelValueA
import proofs.«420090_j3152505996138_1_alg».proof.Proof.KI.KernelValueB
import proofs.«420090_j3152505996138_1_alg».proof.Proof.KI.KernelValueC
import proofs.«420090_j3152505996138_1_alg».proof.Proof.KI.PreInputs
import proofs.«420090_j3152505996138_1_alg».proof.Proof.Ref.Run
import proofs.«420090_j3152505996138_1_alg».proof.Proof.Ref.ReadA
import proofs.«420090_j3152505996138_1_alg».proof.Proof.Ref.ReadA2
import proofs.«420090_j3152505996138_1_alg».proof.Proof.Ref.ReadB
import proofs.«420090_j3152505996138_1_alg».proof.Proof.Ref.ReadB2
import Idealize.ShloMosaic.Lib.ValueIdx

set_option maxRecDepth 16384

noncomputable section

namespace Cert.Final

open Idealize.ShloMosaic Idealize.ShloMosaic.TcCoe Idealize.ShloMosaic.ValueIdx
open Cert.KernelIdeal.Gen

section
variable [Cert.Pre_finite_inputs.Facts]
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

-- Both results are the specification's result of the same inputs; on real inputs the two arrangements of the variance agree.
theorem result_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (c : Dev Cert.KernelIdeal.nD) :
    StableHlo.after (Cert.ReferenceIdeal.RefRun.ops (F := Ideal)) (fun b => m' (c, b)) (Proc.devRef .tc Cert.ReferenceIdeal.main_v113)
      = W17 m c (Proc.devRef .tc Cert.KernelIdeal.main_v42) := by
  obtain ⟨a0, a1, a2, a3, a4, a5, a6, a7, a8, a9, a10, a11, a12, a13, a14, a15, a16, a17⟩ := hagree c
  have hR := inRange_of_pre m hpre c
  have hE := a15.symm ▸ hR.edge
  have hB := a16.symm ▸ hR.graph
  have hD := a17.symm ▸ hR.death
  refine funext fun (i : Cert.KernelIdeal.S500000x128.Idx) => ?_
  obtain ⟨p, j, rfl⟩ : ∃ (p : Fin 500000) (j : Fin 128), i = ix2 p j := ⟨i 0, i 1, eq_ix2 i⟩
  open Cert.ReferenceIdeal in
  refine (RefReadB2.ref_out (fun b => m' (c, b)) _ (fun p j => RefReadB.ref_h _ hB _ (fun p j =>
    RefReadA2.ref_out1 _ _ (fun p j => RefRead.ref_x0 _ hE hD p j) hB p j) p j) p j).trans ?_
  refine Eq.trans ?_ (kv_out m c _ (fun p j => kv_out1 m c _ (fun p j => kv_x0 m c hR p j) hR p j) hR p j).symm
  open Cert.ReferenceIdeal in
  unfold RefRead.X RefRead.vW1 RefRead.vb1 RefRead.vW2 RefRead.vb2 RefRead.vW0 RefRead.vb0 RefRead.e0 RefRead.e1 RefRead.dd
    RefReadA2.bt RefReadA2.vg1W RefReadA2.vg1b RefReadA2.vl1W RefReadB.bt RefReadB.vg2W RefReadB.vg2b RefReadB.vl2W
    RefReadB2.X RefReadB2.vgam RefReadB2.vbet
  simp only [a0, a1, a2, a3, a4, a5, a6, a7, a8, a9, a10, a11, a12, a13, a14, a15, a16, a17]
  exact (congrFun (congrFun (normAdd_bridge_of_pre m hpre c) p) j).symm

end

end Cert.Final
-- ==== Proof.lean ====
import proofs.«420090_j3152505996138_1_alg».proof.Defs
import proofs.«420090_j3152505996138_1_alg».proof.Proof.Gen.Kernel
import proofs.«420090_j3152505996138_1_alg».proof.Proof.Gen.KernelIdeal
import proofs.«420090_j3152505996138_1_alg».proof.Proof.Gen.ReferenceIdeal
import proofs.«420090_j3152505996138_1_alg».proof.Proof.Gen.Pre_finite_inputs
import proofs.«420090_j3152505996138_1_alg».proof.Proof.K.Assemble
import proofs.«420090_j3152505996138_1_alg».proof.Proof.KI.Assemble
import proofs.«420090_j3152505996138_1_alg».proof.Proof.Ref.Run
import proofs.«420090_j3152505996138_1_alg».proof.Proof.Final
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.RefRun.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Gen.W17 m c (Proc.devRef .tc Cert.KernelIdeal.main_v42), Cert.KernelIdeal.Gen.run m ρ, ?_⟩
  exact (θ_run (Cert.ReferenceIdeal.defs (F := Ideal)) _ _).mono
    (fun r h c => ⟨(h c).1.trans (Cert.Final.result_eq m m' hpre hagree c), (h c).2⟩)
    (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
